-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S64x2 .f32) (main_arg14 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x2 .f32 := Host.absf main_arg13
  let main_cst_20 : FVec F S_ .f32 := constant S_ .f32 0x7F800000#32
  let main_v55 : FVec F S64x2 .f32 := broadcastInDim S64x2 ![] bcast_S_S64x2 main_cst_20
  let main_v56 : IVec S64x2 1 := cmpf .olt main_v54 main_v55
  let main_c_21 : IVec S_ 1 := constantI S_ 1 1#1
  let main_v57 : IVec S_ 1 := (fun x v => Host.reduce IntOp.andi x v reducesTo_S64x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S128 .f32) (main_arg10 : FVec F S128 .f32) (main_arg11 : FVec F S128x64 .f32) (main_arg12 : FVec F S64 .f32) (main_arg13 : FVec F S64x2 .f32) (main_arg14 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x64 .f32) (main_arg12 : FVec F S64 .f32) (main_arg13 : FVec F S64x2 .f32) (main_arg14 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x64 .f32) (main_arg12 : FVec F S64 .f32) (main_arg13 : FVec F S64x2 .f32) (main_arg14 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1700000x128 : Shape := ⟨2, ![1700000, 128]⟩
abbrev S2x1x128 : Shape := ⟨3, ![2, 1, 128]⟩
abbrev S1x1x128 : Shape := ⟨3, ![1, 1, 128]⟩
abbrev S2x128x128 : Shape := ⟨3, ![2, 128, 128]⟩
abbrev S1x128x128 : Shape := ⟨3, ![1, 128, 128]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩
abbrev S1x2 : Shape := ⟨2, ![1, 2]⟩

abbrev nBuf : Space → Nat
  | .hbm => 146
  | .vmem => 67
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x64, .f32⟩
  | 12 => ⟨S64, .f32⟩
  | 13 => ⟨S64x2, .f32⟩
  | 14 => ⟨S2, .f32⟩
  | 15 => ⟨S1x1600000, .i32⟩
  | 16 => ⟨S1600000, .i32⟩
  | 17 => ⟨S1x1600000, .i32⟩
  | 18 => ⟨S1600000, .i32⟩
  | 19 => ⟨S100000, .i32⟩
  | 20 => ⟨S1700000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S100000x1, .f32⟩
  | 37 => ⟨S1x128, .f32⟩
  | 38 => ⟨S1x128, .f32⟩
  | 39 => ⟨S1x128, .f32⟩
  | 40 => ⟨S1x128, .f32⟩
  | 41 => ⟨S1x128, .f32⟩
  | 42 => ⟨S1x128, .f32⟩
  | 43 => ⟨S100000x128, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x128, .f32⟩
  | 53 => ⟨S_, .f32⟩
  | 54 => ⟨S100000x128, .f32⟩
  | 55 => ⟨S1700000x1, .i32⟩
  | 56 => ⟨S100000x128, .f32⟩
  | 57 => ⟨S2x1x128, .f32⟩
  | 58 => ⟨S_, .f32⟩
  | 59 => ⟨S1x128, .f32⟩
  | 60 => ⟨S_, .f32⟩
  | 61 => ⟨S1x128, .f32⟩
  | 62 => ⟨S1x128, .f32⟩
  | 63 => ⟨S2x1x128, .f32⟩
  | 64 => ⟨S_, .f32⟩
  | 65 => ⟨S1x128, .f32⟩
  | 66 => ⟨S_, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S100000x128, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x128, .f32⟩
  | 82 => ⟨S_, .f32⟩
  | 83 => ⟨S100000x128, .f32⟩
  | 84 => ⟨S1700000x1, .i32⟩
  | 85 => ⟨S100000x128, .f32⟩
  | 86 => ⟨S2x1x128, .f32⟩
  | 87 => ⟨S_, .f32⟩
  | 88 => ⟨S1x128, .f32⟩
  | 89 => ⟨S_, .f32⟩
  | 90 => ⟨S1x128, .f32⟩
  | 91 => ⟨S1x128, .f32⟩
  | 92 => ⟨S2x1x128, .f32⟩
  | 93 => ⟨S_, .f32⟩
  | 94 => ⟨S1x128, .f32⟩
  | 95 => ⟨S_, .f32⟩
  | 96 => ⟨S1x128, .f32⟩
  | 97 => ⟨S1x128, .f32⟩
  | 98 => ⟨S_, .f32⟩
  | 99 => ⟨S1x128, .f32⟩
  | 100 => ⟨S1x128, .f32⟩
  | 101 => ⟨S100000x1, .i32⟩
  | 102 => ⟨S2x128x128, .f32⟩
  | 103 => ⟨S_, .f32⟩
  | 104 => ⟨S128x128, .f32⟩
  | 105 => ⟨S64x128, .f32⟩
  | 106 => ⟨S_, .f32⟩
  | 107 => ⟨S100000, .f32⟩
  | 108 => ⟨S_, .f32⟩
  | 109 => ⟨S64, .f32⟩
  | 110 => ⟨S100000x1, .i32⟩
  | 111 => ⟨S64, .f32⟩
  | 112 => ⟨S_, .f32⟩
  | 113 => ⟨S64, .f32⟩
  | 114 => ⟨S64, .f32⟩
  | 115 => ⟨S64x1, .f32⟩
  | 116 => ⟨S64x128, .f32⟩
  | 117 => ⟨S64x128, .f32⟩
  | 118 => ⟨S64x64, .f32⟩
  | 119 => ⟨S1x64, .f32⟩
  | 120 => ⟨S64x64, .f32⟩
  | 121 => ⟨S64x64, .f32⟩
  | 122 => ⟨S_, .f32⟩
  | 123 => ⟨S64x64, .f32⟩
  | 124 => ⟨S64x64, .f32⟩
  | 125 => ⟨S64x2, .f32⟩
  | 126 => ⟨S1x2, .f32⟩
  | 127 => ⟨S64x2, .f32⟩
  | _ => ⟨S100000x128, .f32⟩

abbrev hbmTy0_1 (i : Nat) : BufTy := match i % 128 with
  | 0 => ⟨S64x2, .f32⟩
  | 1 => ⟨S_, .f32⟩
  | 2 => ⟨S64x2, .i1⟩
  | 3 => ⟨S_, .f32⟩
  | 4 => ⟨S64x2, .f32⟩
  | 5 => ⟨S64x2, .f32⟩
  | 6 => ⟨S_, .f32⟩
  | 7 => ⟨S64x2, .f32⟩
  | 8 => ⟨S64x2, .i1⟩
  | 9 => ⟨S_, .f32⟩
  | 10 => ⟨S64x2, .f32⟩
  | 11 => ⟨S64x2, .f32⟩
  | 12 => ⟨S_, .f32⟩
  | 13 => ⟨S64x2, .f32⟩
  | 14 => ⟨S64x2, .i1⟩
  | 15 => ⟨S_, .f32⟩
  | 16 => ⟨S64x2, .f32⟩
  | 17 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S128x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x1, .f32⟩
  | .local _ .vmem, ⟨39, _⟩ => ⟨S5000x1, .f32⟩
  | .local _ .vmem, ⟨40, _⟩ => ⟨S1x128, .f32⟩
  | .local _ .vmem, ⟨41, _⟩ => ⟨S1x1x128, .f32⟩
  | .local _ .vmem, ⟨42, _⟩ => ⟨S1x1x128, .f32⟩
  | .local _ .vmem, ⟨43, _⟩ => ⟨S1x1x128, .f32⟩
  | .local _ .vmem, ⟨44, _⟩ => ⟨S5000x128, .f32⟩
  | .local _ .vmem, ⟨45, _⟩ => ⟨S5000x128, .f32⟩
  | .local _ .vmem, ⟨46, _⟩ => ⟨S5000x1, .f32⟩
  | .local _ .vmem, ⟨47, _⟩ => ⟨S5000x1, .f32⟩
  | .local _ .vmem, ⟨48, _⟩ => ⟨S1x128, .f32⟩
  | .local _ .vmem, ⟨49, _⟩ => ⟨S1x128, .f32⟩
  | .local _ .vmem, ⟨50, _⟩ => ⟨S1x1x128, .f32⟩
  | .local _ .vmem, ⟨51, _⟩ => ⟨S1x1x128, .f32⟩
  | .local _ .vmem, ⟨52, _⟩ => ⟨S1x1x128, .f32⟩
  | .local _ .vmem, ⟨53, _⟩ => ⟨S5000x128, .f32⟩
  | .local _ .vmem, ⟨54, _⟩ => ⟨S5000x128, .f32⟩
  | .local _ .vmem, ⟨55, _⟩ => ⟨S5000x1, .f32⟩
  | .local _ .vmem, ⟨56, _⟩ => ⟨S5000x1, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S5000x1, .i32⟩
  | .local _ .vmem, ⟨63, _⟩ => ⟨S5000x1, .i32⟩
  | .local _ .vmem, ⟨64, _⟩ => ⟨S1x128x128, .f32⟩
  | .local _ .vmem, ⟨65, _⟩ => ⟨S1x128x128, .f32⟩
  | .local _ .vmem, ⟨66, _⟩ => ⟨S1x128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_cst_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_cst_8 : Ref sig .tc := ⟨.hbm, 66, rfl⟩
abbrev main_v39 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_10 : Ref sig .tc := ⟨.hbm, 73, rfl⟩
abbrev main_v44 : Ref sig .tc := ⟨.hbm, 74, rfl⟩
abbrev main_v45 : Ref sig .tc := ⟨.hbm, 75, rfl⟩
abbrev main_c_11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_12 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_13 : Ref sig .tc := ⟨.hbm, 87, rfl⟩
abbrev main_v55 : Ref sig .tc := ⟨.hbm, 88, rfl⟩
abbrev main_cst_14 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_15 : Ref sig .tc := ⟨.hbm, 93, rfl⟩
abbrev main_v59 : Ref sig .tc := ⟨.hbm, 94, rfl⟩
abbrev main_cst_16 : Ref sig .tc := ⟨.hbm, 95, rfl⟩
abbrev main_v60 : Ref sig .tc := ⟨.hbm, 96, rfl⟩
abbrev main_v61 : Ref sig .tc := ⟨.hbm, 97, rfl⟩
abbrev main_cst_17 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_18 : Ref sig .tc := ⟨.hbm, 103, rfl⟩
abbrev main_v66 : Ref sig .tc := ⟨.hbm, 104, rfl⟩
abbrev main_v67 : Ref sig .tc := ⟨.hbm, 105, rfl⟩
abbrev main_cst_19 : Ref sig .tc := ⟨.hbm, 106, rfl⟩
abbrev main_v68 : Ref sig .tc := ⟨.hbm, 107, rfl⟩
abbrev main_cst_20 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_21 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_call1_cst : Ref sig .tc := ⟨.hbm, 122, rfl⟩
abbrev main_call1_v0 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_22 : Ref sig .tc := ⟨.hbm, 129, rfl⟩
abbrev main_call2_v0 : Ref sig .tc := ⟨.hbm, 130, rfl⟩
abbrev main_call2_v1 : Ref sig .tc := ⟨.hbm, 131, rfl⟩
abbrev main_call2_call0_v0 : Ref sig .tc := ⟨.hbm, 132, rfl⟩
abbrev main_call2_v2 : Ref sig .tc := ⟨.hbm, 133, rfl⟩
abbrev main_call2_cst : Ref sig .tc := ⟨.hbm, 134, rfl⟩
abbrev main_call2_v3 : Ref sig .tc := ⟨.hbm, 135, rfl⟩
abbrev main_call2_v4 : Ref sig .tc := ⟨.hbm, 136, rfl⟩
abbrev main_call2_cst_0 : Ref sig .tc := ⟨.hbm, 137, rfl⟩
abbrev main_call2_call1_v0 : Ref sig .tc := ⟨.hbm, 138, rfl⟩
abbrev main_call2_v5 : Ref sig .tc := ⟨.hbm, 139, rfl⟩
abbrev main_call2_cst_1 : Ref sig .tc := ⟨.hbm, 140, rfl⟩
abbrev main_call2_v6 : Ref sig .tc := ⟨.hbm, 141, rfl⟩
abbrev main_call2_v7 : Ref sig .tc := ⟨.hbm, 142, rfl⟩
abbrev main_call2_cst_2 : Ref sig .tc := ⟨.hbm, 143, rfl⟩
abbrev main_call2_call2_v0 : Ref sig .tc := ⟨.hbm, 144, rfl⟩
abbrev main_v86 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg3_1 : Ref sig .tc := ⟨.vmem, 42, rfl⟩
abbrev cc4_scratch0 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg4_1 : Ref sig .tc := ⟨.vmem, 51, rfl⟩
abbrev cc5_scratch0 : Ref sig .tc := ⟨.vmem, 52, rfl⟩
abbrev cc6_stg0_0 : Ref sig .tc := ⟨.vmem, 53, rfl⟩
abbrev cc6_stg0_1 : Ref sig .tc := ⟨.vmem, 54, rfl⟩
abbrev cc6_stg1_0 : Ref sig .tc := ⟨.vmem, 55, rfl⟩
abbrev cc6_stg1_1 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg6_0 : Ref sig .tc := ⟨.vmem, 61, rfl⟩
abbrev cc6_stg7_0 : Ref sig .tc := ⟨.vmem, 62, rfl⟩
abbrev cc6_stg7_1 : Ref sig .tc := ⟨.vmem, 63, rfl⟩
abbrev cc6_stg8_0 : Ref sig .tc := ⟨.vmem, 64, rfl⟩
abbrev cc6_stg8_1 : Ref sig .tc := ⟨.vmem, 65, rfl⟩
abbrev cc6_scratch0 : Ref sig .tc := ⟨.vmem, 66, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem8_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem3_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem3_0 : DmaSem sig := 46
abbrev cc5_sem4_0 : DmaSem sig := 47
abbrev cc5_sem4_1 : DmaSem sig := 48
abbrev cc6_sem0_0 : DmaSem sig := 49
abbrev cc6_sem0_1 : DmaSem sig := 50
abbrev cc6_sem1_0 : DmaSem sig := 51
abbrev cc6_sem1_1 : DmaSem sig := 52
abbrev cc6_sem2_0 : DmaSem sig := 53
abbrev cc6_sem3_0 : DmaSem sig := 54
abbrev cc6_sem4_0 : DmaSem sig := 55
abbrev cc6_sem5_0 : DmaSem sig := 56
abbrev cc6_sem6_0 : DmaSem sig := 57
abbrev cc6_sem7_0 : DmaSem sig := 58
abbrev cc6_sem7_1 : DmaSem sig := 59
abbrev cc6_sem8_0 : DmaSem sig := 60
abbrev cc6_sem8_1 : DmaSem sig := 61

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 10], ![false, false]⟩

def k1_cond2 (i : grid1.Coords) : BitVec 1 :=
  let arg1 : BitVec 32 := BitVec.ofNat 32 (i 1).val
  let c9_i32 : BitVec 32 := 9#32
  let v21 : BitVec 1 := Scalar.cmpi .eq arg1 c9_i32
  let v22 : BitVec 32 := Scalar.extui v21
  let c0_i32_12 : BitVec 32 := 0#32
  let v23 : BitVec 1 := Scalar.cmpi .ne v22 c0_i32_12
  v23

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 10], ![false, false]⟩

def k2_cond2 (i : grid2.Coords) : BitVec 1 :=
  let arg1 : BitVec 32 := BitVec.ofNat 32 (i 1).val
  let c9_i32 : BitVec 32 := 9#32
  let v26 : BitVec 1 := Scalar.cmpi .eq arg1 c9_i32
  let v27 : BitVec 32 := Scalar.extui v26
  let c0_i32_14 : BitVec 32 := 0#32
  let v28 : BitVec 1 := Scalar.cmpi .ne v27 c0_i32_14
  v28

def cc2_transform_0 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨2, ![2, 10], ![false, false]⟩

def k4_cond2 (i : grid4.Coords) : BitVec 1 :=
  let arg1 : BitVec 32 := BitVec.ofNat 32 (i 1).val
  let c9_i32 : BitVec 32 := 9#32
  let v21 : BitVec 1 := Scalar.cmpi .eq arg1 c9_i32
  let v22 : BitVec 32 := Scalar.extui v21
  let c0_i32_12 : BitVec 32 := 0#32
  let v23 : BitVec 1 := Scalar.cmpi .ne v22 c0_i32_12
  v23

def cc4_transform_0 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1x1x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![2, 10], ![false, false]⟩

def k5_cond2 (i : grid5.Coords) : BitVec 1 :=
  let arg1 : BitVec 32 := BitVec.ofNat 32 (i 1).val
  let c9_i32 : BitVec 32 := 9#32
  let v26 : BitVec 1 := Scalar.cmpi .eq arg1 c9_i32
  let v27 : BitVec 32 := Scalar.extui v26
  let c0_i32_14 : BitVec 32 := 0#32
  let v28 : BitVec 1 := Scalar.cmpi .ne v27 c0_i32_14
  v28

def cc5_transform_0 (i : grid5.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc5_transform_1 (i : grid5.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 2 → Memref sig .tc .vmem S1x1x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev grid6 : Pipeline.Grid := ⟨2, ![2, 10], ![false, false]⟩

def k6_cond2 (i : grid6.Coords) : BitVec 1 :=
  let arg1 : BitVec 32 := BitVec.ofNat 32 (i 1).val
  let c9_i32 : BitVec 32 := 9#32
  let v49 : BitVec 1 := Scalar.cmpi .eq arg1 c9_i32
  let v50 : BitVec 32 := Scalar.extui v49
  let c0_i32_24 : BitVec 32 := 0#32
  let v51 : BitVec 1 := Scalar.cmpi .ne v50 c0_i32_24
  v51

def cc6_transform_0 (i : grid6.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc6_transform_1 (i : grid6.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc6_transform_8 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false, false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false, false]

abbrev stage6_7 : Fin 2 → Memref sig .tc .vmem S5000x1 .i32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, true]

abbrev stage6_8 : Fin 2 → Memref sig .tc .vmem S1x128x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S1x1x128 : S1x128.ShapeCasts S1x1x128
  reducesTo_S2x1x128_S1x128_d0 : S2x1x128.ReducesTo [0] S1x128
  h_S_ : 0 < S_.numel
  bcast_S_S1x128 : S_.BroadcastsInDim S1x128 (![] : Fin 0 → Fin S1x128.rank)
  inb_S1x128x128_S1x128x128_0_0_0 : ∀ a, (![0, 0, 0] : Fin 3 → Nat) a + S1x128x128.size a ≤ S1x128x128.size a
  h_S1x128x128 : 0 < S1x128x128.numel
  shapeCasts_S1x128x128_S1x128x128 : S1x128x128.ShapeCasts S1x128x128
  iota_S1x128_d1_w32 : S1x128.Iotas .tc 32 [1]
  natLt_1_32 : 1 < 32
  shapeCasts_S128x128_S1x128x128 : S128x128.ShapeCasts S1x128x128
  reducesTo_S2x128x128_S128x128_d0 : S2x128x128.ReducesTo [0] S128x128
  slices_S128x128_S64x128_0_0 : S128x128.Slices ![0, 0] S64x128
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  bcast_S_S64x2 : S_.BroadcastsInDim S64x2 (![] : Fin 0 → Fin S64x2.rank)
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S5000x128_S128x128_0_0_1_1_n_n_wf : DotDims.WF S5000x128 S5000x128 S128x128 [0] [0] [1] [1] [] []
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S2x1x128.size a
  hwx1_3 : ∀ i : grid1.Coords, EltTy.bits .f32 = 32 ∨ (Rect.block (s := S2x1x128) S1x1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x128.size a ≤ S2x1x128.size a
  hwx2_4 : ∀ i : grid2.Coords, EltTy.bits .f32 = 32 ∨ (Rect.block (s := S2x1x128) S1x1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S100000x128.size a
  hwx3_8 : ∀ i : grid3.Coords, EltTy.bits .f32 = 32 ∨ (Rect.block (s := S100000x128) S5000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1x128.size a ≤ S2x1x128.size a
  hwx4_3 : ∀ i : grid4.Coords, EltTy.bits .f32 = 32 ∨ (Rect.block (s := S2x1x128) S1x1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x1x128.size a ≤ S2x1x128.size a
  hwx5_4 : ∀ i : grid5.Coords, EltTy.bits .f32 = 32 ∨ (Rect.block (s := S2x1x128) S1x1x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .f32 = 32 ∨ (Rect.block (s := S100000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x1.size a ≤ S100000x1.size a
  hwx6_7 : ∀ i : grid6.Coords, EltTy.bits .i32 = 32 ∨ (Rect.block (s := S100000x1) S5000x1.size (cc6_transform_7 i) (hinb6_7 i)).WholeWords (EltTy.packing .i32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S1x128x128.size a ≤ S2x128x128.size a
  hwx6_8 : ∀ i : grid6.Coords, EltTy.bits .f32 = 32 ∨ (Rect.block (s := S2x128x128) S1x128x128.size (cc6_transform_8 i) (hinb6_8 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x1x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v32) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x1x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v32) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v17) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v18) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg7) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v43) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v53) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v19) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v54) S1x1x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v53) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v19) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v58) S1x1x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

abbrev win6_0 : Pipeline.Window sig grid6 :=
  Pipeline.Window.ofSpec (Memref.whole main_v53) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v15) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v19) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v57) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v63) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v20) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v21) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v64) S5000x1.size cc6_transform_7 reads6_7 false false 2 stage6_7 sem6_7
    hrank6 hreads6_7 hinb6_7 nbuf6_7 (Memref.isWhole_whole _) hwx6_7 hstage6_7

abbrev win6_8 : Pipeline.Window sig grid6 :=
  Pipeline.Window.ofSpec (Memref.whole main_v65) S1x128x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev idle6 : Fin 9 → grid6.Coords → Bool := fun | 0 => fun _ => false | 1 => fun _ => false | 2 => fun _ => false | 3 => fun _ => false | 4 => fun _ => false | 5 => fun _ => false | 6 => fun _ => false | 7 => fun _ => false | 8 => fun i => !(k6_cond2 i == 1#1) | ⟨_ + 9, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64x1 : Shape := ⟨2, ![64, 1]⟩
abbrev S64x64 : Shape := ⟨2, ![64, 64]⟩
abbrev S1x64 : Shape := ⟨2, ![1, 64]⟩
abbrev S1x2 : Shape := ⟨2, ![1, 2]⟩

abbrev nBuf : Space → Nat
  | .hbm => 258
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x64, .f32⟩
  | 12 => ⟨S64, .f32⟩
  | 13 => ⟨S64x2, .f32⟩
  | 14 => ⟨S2, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S100000x128, .i1⟩
  | 21 => ⟨S_, .f32⟩
  | 22 => ⟨S100000x128, .f32⟩
  | 23 => ⟨S100000x128, .f32⟩
  | 24 => ⟨S_, .f32⟩
  | 25 => ⟨S100000x128, .f32⟩
  | 26 => ⟨S100000x128, .i1⟩
  | 27 => ⟨S_, .f32⟩
  | 28 => ⟨S100000x128, .f32⟩
  | 29 => ⟨S100000x128, .f32⟩
  | 30 => ⟨S_, .f32⟩
  | 31 => ⟨S100000x128, .f32⟩
  | 32 => ⟨S100000x128, .i1⟩
  | 33 => ⟨S_, .f32⟩
  | 34 => ⟨S100000x128, .f32⟩
  | 35 => ⟨S100000x128, .f32⟩
  | 36 => ⟨S100000, .i32⟩
  | 37 => ⟨S1700000, .i32⟩
  | 38 => ⟨S1700000, .i32⟩
  | 39 => ⟨S_, .f32⟩
  | 40 => ⟨S1700000, .f32⟩
  | 41 => ⟨S_, .f32⟩
  | 42 => ⟨S100000, .f32⟩
  | 43 => ⟨S1700000x1, .i32⟩
  | 44 => ⟨S100000, .f32⟩
  | 45 => ⟨S_, .f32⟩
  | 46 => ⟨S100000, .f32⟩
  | 47 => ⟨S100000, .i1⟩
  | 48 => ⟨S100000, .f32⟩
  | 49 => ⟨S_, .f32⟩
  | 50 => ⟨S_, .f32⟩
  | 51 => ⟨S100000, .f32⟩
  | 52 => ⟨S100000, .f32⟩
  | 53 => ⟨S100000x128, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S1700000, .f32⟩
  | 82 => ⟨S1700000x1, .f32⟩
  | 83 => ⟨S1700000x128, .f32⟩
  | 84 => ⟨S1700000x128, .f32⟩
  | 85 => ⟨S_, .f32⟩
  | 86 => ⟨S100000x128, .f32⟩
  | 87 => ⟨S1700000x1, .i32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S128, .f32⟩
  | 94 => ⟨S_, .f32⟩
  | 95 => ⟨S128, .f32⟩
  | 96 => ⟨S128, .f32⟩
  | 97 => ⟨S1x128, .f32⟩
  | 98 => ⟨S100000x128, .f32⟩
  | 99 => ⟨S100000x128, .f32⟩
  | 100 => ⟨S100000x128, .f32⟩
  | 101 => ⟨S_, .f32⟩
  | 102 => ⟨S128, .f32⟩
  | 103 => ⟨S_, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S_, .f32⟩
  | 110 => ⟨S128, .f32⟩
  | 111 => ⟨S128, .f32⟩
  | 112 => ⟨S128, .f32⟩
  | 113 => ⟨S1x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S100000, .i32⟩
  | 126 => ⟨S1700000, .i32⟩
  | 127 => ⟨S1700000, .i32⟩
  | _ => ⟨S100000x128, .f32⟩

abbrev hbmTy0_1 (i : Nat) : BufTy := match i % 128 with
  | 0 => ⟨S_, .f32⟩
  | 1 => ⟨S1700000, .f32⟩
  | 2 => ⟨S_, .f32⟩
  | 3 => ⟨S100000, .f32⟩
  | 4 => ⟨S1700000x1, .i32⟩
  | 5 => ⟨S100000, .f32⟩
  | 6 => ⟨S_, .f32⟩
  | 7 => ⟨S100000, .f32⟩
  | 8 => ⟨S100000, .i1⟩
  | 9 => ⟨S100000, .f32⟩
  | 10 => ⟨S_, .f32⟩
  | 11 => ⟨S_, .f32⟩
  | 12 => ⟨S100000, .f32⟩
  | 13 => ⟨S100000, .f32⟩
  | 14 => ⟨S100000x128, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000x128, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S1700000x1, .f32⟩
  | 44 => ⟨S1700000x128, .f32⟩
  | 45 => ⟨S1700000x128, .f32⟩
  | 46 => ⟨S_, .f32⟩
  | 47 => ⟨S100000x128, .f32⟩
  | 48 => ⟨S1700000x1, .i32⟩
  | 49 => ⟨S100000x128, .f32⟩
  | 50 => ⟨S1x128, .f32⟩
  | 51 => ⟨S100000x128, .f32⟩
  | 52 => ⟨S100000x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S100000x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S_, .f32⟩
  | 71 => ⟨S128, .f32⟩
  | 72 => ⟨S128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S_, .f32⟩
  | 87 => ⟨S64x128, .f32⟩
  | 88 => ⟨S100000x1, .i32⟩
  | 89 => ⟨S64x128, .f32⟩
  | 90 => ⟨S_, .f32⟩
  | 91 => ⟨S100000, .f32⟩
  | 92 => ⟨S_, .f32⟩
  | 93 => ⟨S64, .f32⟩
  | 94 => ⟨S100000x1, .i32⟩
  | 95 => ⟨S64, .f32⟩
  | 96 => ⟨S_, .f32⟩
  | 97 => ⟨S64, .f32⟩
  | 98 => ⟨S64, .f32⟩
  | 99 => ⟨S64x1, .f32⟩
  | 100 => ⟨S64x128, .f32⟩
  | 101 => ⟨S64x128, .f32⟩
  | 102 => ⟨S64x64, .f32⟩
  | 103 => ⟨S1x64, .f32⟩
  | 104 => ⟨S64x64, .f32⟩
  | 105 => ⟨S64x64, .f32⟩
  | 106 => ⟨S_, .f32⟩
  | 107 => ⟨S64x64, .f32⟩
  | 108 => ⟨S64x64, .f32⟩
  | 109 => ⟨S64x2, .f32⟩
  | 110 => ⟨S1x2, .f32⟩
  | 111 => ⟨S64x2, .f32⟩
  | 112 => ⟨S64x2, .f32⟩
  | 113 => ⟨S_, .f32⟩
  | 114 => ⟨S64x2, .i1⟩
  | 115 => ⟨S_, .f32⟩
  | 116 => ⟨S64x2, .f32⟩
  | 117 => ⟨S64x2, .f32⟩
  | 118 => ⟨S_, .f32⟩
  | 119 => ⟨S64x2, .f32⟩
  | 120 => ⟨S64x2, .i1⟩
  | 121 => ⟨S_, .f32⟩
  | 122 => ⟨S64x2, .f32⟩
  | 123 => ⟨S64x2, .f32⟩
  | 124 => ⟨S_, .f32⟩
  | 125 => ⟨S64x2, .f32⟩
  | 126 => ⟨S64x2, .i1⟩
  | 127 => ⟨S_, .f32⟩
  | _ => ⟨S100000x128, .f32⟩

abbrev hbmTy0_2 (i : Nat) : BufTy := match i % 128 with
  | 0 => ⟨S64x2, .f32⟩
  | 1 => ⟨S64x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_call0_v0 : Ref sig .tc := ⟨.hbm, 22, rfl⟩
abbrev main_call0_v2 : Ref sig .tc := ⟨.hbm, 23, rfl⟩
abbrev main_call0_cst : Ref sig .tc := ⟨.hbm, 24, rfl⟩
abbrev main_call0_v3 : Ref sig .tc := ⟨.hbm, 25, rfl⟩
abbrev main_call0_v4 : Ref sig .tc := ⟨.hbm, 26, rfl⟩
abbrev main_call0_cst_0 : Ref sig .tc := ⟨.hbm, 27, rfl⟩
abbrev main_call0_call1_v0 : Ref sig .tc := ⟨.hbm, 28, rfl⟩
abbrev main_call0_v5 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_call0_cst_2 : Ref sig .tc := ⟨.hbm, 33, rfl⟩
abbrev main_call0_call2_v0 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_0 : Ref sig .tc := ⟨.hbm, 39, rfl⟩
abbrev main_v8 : Ref sig .tc := ⟨.hbm, 40, rfl⟩
abbrev main_cst_1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst_3 : Ref sig .tc := ⟨.hbm, 49, rfl⟩
abbrev main_call1_v0 : Ref sig .tc := ⟨.hbm, 50, rfl⟩
abbrev main_call1_v1 : Ref sig .tc := ⟨.hbm, 51, rfl⟩
abbrev main_v15 : Ref sig .tc := ⟨.hbm, 52, rfl⟩
abbrev main_v16 : Ref sig .tc := ⟨.hbm, 53, rfl⟩
abbrev main_c : Ref sig .tc := ⟨.hbm, 54, rfl⟩
abbrev main_v17 : Ref sig .tc := ⟨.hbm, 55, rfl⟩
abbrev main_v18 : Ref sig .tc := ⟨.hbm, 56, rfl⟩
abbrev main_c_4 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_c_5 : Ref sig .tc := ⟨.hbm, 63, rfl⟩
abbrev main_v24 : Ref sig .tc := ⟨.hbm, 64, rfl⟩
abbrev main_v25 : Ref sig .tc := ⟨.hbm, 65, rfl⟩
abbrev main_c_6 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_c_7 : Ref sig .tc := ⟨.hbm, 72, rfl⟩
abbrev main_v31 : Ref sig .tc := ⟨.hbm, 73, rfl⟩
abbrev main_v32 : Ref sig .tc := ⟨.hbm, 74, rfl⟩
abbrev main_c_8 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_9 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_10 : Ref sig .tc := ⟨.hbm, 92, rfl⟩
abbrev main_v48 : Ref sig .tc := ⟨.hbm, 93, rfl⟩
abbrev main_cst_11 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_12 : Ref sig .tc := ⟨.hbm, 101, rfl⟩
abbrev main_v55 : Ref sig .tc := ⟨.hbm, 102, rfl⟩
abbrev main_cst_13 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_14 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_call2_cst : Ref sig .tc := ⟨.hbm, 122, rfl⟩
abbrev main_call2_v0 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_15 : Ref sig .tc := ⟨.hbm, 128, rfl⟩
abbrev main_v77 : Ref sig .tc := ⟨.hbm, 129, rfl⟩
abbrev main_cst_16 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_17 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_18 : Ref sig .tc := ⟨.hbm, 138, rfl⟩
abbrev main_call3_v0 : Ref sig .tc := ⟨.hbm, 139, rfl⟩
abbrev main_call3_v1 : Ref sig .tc := ⟨.hbm, 140, rfl⟩
abbrev main_v84 : Ref sig .tc := ⟨.hbm, 141, rfl⟩
abbrev main_v85 : Ref sig .tc := ⟨.hbm, 142, rfl⟩
abbrev main_c_19 : Ref sig .tc := ⟨.hbm, 143, rfl⟩
abbrev main_v86 : Ref sig .tc := ⟨.hbm, 144, rfl⟩
abbrev main_v87 : Ref sig .tc := ⟨.hbm, 145, rfl⟩
abbrev main_c_20 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_c_21 : Ref sig .tc := ⟨.hbm, 152, rfl⟩
abbrev main_v93 : Ref sig .tc := ⟨.hbm, 153, rfl⟩
abbrev main_v94 : Ref sig .tc := ⟨.hbm, 154, rfl⟩
abbrev main_c_22 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_c_23 : Ref sig .tc := ⟨.hbm, 161, rfl⟩
abbrev main_v100 : Ref sig .tc := ⟨.hbm, 162, rfl⟩
abbrev main_v101 : Ref sig .tc := ⟨.hbm, 163, rfl⟩
abbrev main_c_24 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_cst_25 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_cst_26 : Ref sig .tc := ⟨.hbm, 181, rfl⟩
abbrev main_v117 : Ref sig .tc := ⟨.hbm, 182, rfl⟩
abbrev main_cst_27 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_cst_28 : Ref sig .tc := ⟨.hbm, 190, rfl⟩
abbrev main_v124 : Ref sig .tc := ⟨.hbm, 191, rfl⟩
abbrev main_cst_29 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_cst_30 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_call4_cst : Ref sig .tc := ⟨.hbm, 211, rfl⟩
abbrev main_call4_v0 : Ref sig .tc := ⟨.hbm, 212, rfl⟩
abbrev main_v142 : Ref sig .tc := ⟨.hbm, 213, rfl⟩
abbrev main_cst_31 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_cst_32 : Ref sig .tc := ⟨.hbm, 218, rfl⟩
abbrev main_v146 : Ref sig .tc := ⟨.hbm, 219, rfl⟩
abbrev main_cst_33 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_cst_34 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_call5_cst : Ref sig .tc := ⟨.hbm, 234, rfl⟩
abbrev main_call5_v0 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_cst_35 : Ref sig .tc := ⟨.hbm, 241, rfl⟩
abbrev main_call6_v0 : Ref sig .tc := ⟨.hbm, 242, rfl⟩
abbrev main_call6_v1 : Ref sig .tc := ⟨.hbm, 243, rfl⟩
abbrev main_call6_call0_v0 : Ref sig .tc := ⟨.hbm, 244, rfl⟩
abbrev main_call6_v2 : Ref sig .tc := ⟨.hbm, 245, rfl⟩
abbrev main_call6_cst : Ref sig .tc := ⟨.hbm, 246, rfl⟩
abbrev main_call6_v3 : Ref sig .tc := ⟨.hbm, 247, rfl⟩
abbrev main_call6_v4 : Ref sig .tc := ⟨.hbm, 248, rfl⟩
abbrev main_call6_cst_0 : Ref sig .tc := ⟨.hbm, 249, rfl⟩
abbrev main_call6_call1_v0 : Ref sig .tc := ⟨.hbm, 250, rfl⟩
abbrev main_call6_v5 : Ref sig .tc := ⟨.hbm, 251, rfl⟩
abbrev main_call6_cst_1 : Ref sig .tc := ⟨.hbm, 252, rfl⟩
abbrev main_call6_v6 : Ref sig .tc := ⟨.hbm, 253, rfl⟩
abbrev main_call6_v7 : Ref sig .tc := ⟨.hbm, 254, rfl⟩
abbrev main_call6_cst_2 : Ref sig .tc := ⟨.hbm, 255, rfl⟩
abbrev main_call6_call2_v0 : Ref sig .tc := ⟨.hbm, 256, rfl⟩
abbrev main_v164 : Ref sig .tc := ⟨.hbm, 257, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x128 : S_.BroadcastsInDim S100000x128 (![] : Fin 0 → Fin S100000x128.rank)
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  bcast_S_S64x2 : S_.BroadcastsInDim S64x2 (![] : Fin 0 → Fin S64x2.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  gather_S100000_S1700000x1_S1700000_n_0_n_n_0_1_1_wf : GatherDims.WF S100000 S1700000x1 S1700000 [] [0] [] [0] [] 1 ![1]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.KBase.lean ====
import proofs.«429421_j77326591197817_3_alg».proof.Proof.Gen.Kernel.Launch
import proofs.«429421_j77326591197817_3_alg».proof.Proof.Gen.Kernel.Skeleton
import proofs.«429421_j77326591197817_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

abbrev MM (F : FTy → Type) : Type := MT nD τ sig Unit (Elt F) ℕ (UR sig nD τ) ℕ

abbrev EntryVal (F : FTy → Type) : Type := (c : Dev nD) → (b : Ref sig .tc) → Buf (Elt F) ((c : Thread nD τ).loc b)

abbrev Ride {F : FTy → Type} (c : Dev nD) : sProp (MM F) :=
  iprop((∃ r, prngReg c r) ∗ ∃ W, owes (c : Thread nD τ) (0 : CellTallies nD τ sig Unit) W)

end Cert.Kernel.Hand

end
-- ==== Proof.KRegion0.lean ====
import proofs.«429421_j77326591197817_3_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (V : EntryVal F) (c : Dev nD)

local notation "𝕄" => MM F

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0

def out0_3 (x0 : Vec F S5000x128 .f32) (x1 : Vec F S128x128 .f32) (x2 : Vec F S5000x1 .f32) : Vec F S5000x128 .f32 :=
  View.canon [⟨r0_0, k0_pay1 (View.ld x0 r0_0) (View.ld x1 r0_1) (View.ld x2 r0_2)⟩]

set_option maxHeartbeats 1000000 in
/-- The one store covers the output, so what is read back there is `out0_3` of what the inputs read, whatever it held. -/
theorem sound_kernel0 (E : Set ℕ) (i : grid0.Coords) (arg0 : Memref sig .tc .vmem S5000x128 .f32) (harg0 : arg0.IsWhole) (arg1 : Memref sig .tc .vmem S128x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S128x128 .f32) (x2 : Vec F S5000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_scaled_kernel i arg0 harg0 arg1 harg1 arg2 harg2 arg3 harg3) K := by
  simp only [cc0__linear_scaled_kernel_eq_skeleton]; unfold cc0__linear_scaled_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x128.size (by rfl))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := rfl

theorem after0_3 (t : Fin cfg0.N) :
    (dat0 V c).after 3 t = out0_3 (iblk0 V c 0 t) (iblk0 V c 1 t) (iblk0 V c 2 t) := by dsimp only [dat0]

theorem hin0 : Pipeline.ΦA spec0 c ⊢ (dat0 V c).Φ 0 := .rfl
theorem hout0 : (dat0 V c).Φ (Fin.last cfg0.N) ⊢ Pipeline.ΦA spec0 c := .rfl

theorem before0 : ∀ w : Fin cfg0.W, w ≠ 3 → ∀ t d, (dat0 V c).before w t d = (dat0 V c).after w t
  | ⟨0, _⟩, _ | ⟨1, _⟩, _ | ⟨2, _⟩, _ => fun t d =>
    ((dat0 V c).before_in_eq_fetched _ rfl (fun _ => rfl) (fun _ _ _ => rfl) (fun _ => rfl) t d).trans rfl
  | ⟨3, _⟩, h => absurd rfl h

theorem body_obligation0 : BodyObligation (dat0 (F := F) V c) (defs₀ (F := F)) Variants.none () Set.univ := fun t => by
  rw [bigSep_W0, bigSep_W0]
  show _ ⊢ wp frame _ _ (bodyAt0 t) _
  unfold bodyAt0
  simp only [before0 V c 0 (by decide), before0 V c 1 (by decide), before0 V c 2 (by decide)]
  rw [show (dat0 V c).Φ t.succ = (dat0 V c).Φ t.castSucc from rfl,
    show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Kernel.Hand

end
-- ==== Proof.KRegion1.lean ====
import proofs.«429421_j77326591197817_3_alg».proof.Proof.KBase
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : EntryVal F)

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

theorem liveAt1 : ∀ w : Fin cfg1.W, w ≠ 3 → ∀ t : Fin cfg1.N, cfg1.idle w (grid1.coords t) = false := by decide +kernel
theorem idleAt1_3 : ∀ t : Fin cfg1.N, ¬cond1_1 (grid1.coords t) → cfg1.idle 3 (grid1.coords t) = true ∧ (cfg1.win 3).flush t = false := by decide +kernel
theorem liveAt1_3 : ∀ t : Fin cfg1.N, cond1_1 (grid1.coords t) → cfg1.idle 3 (grid1.coords t) = false := by decide +kernel

abbrev ms1_0 (t : Fin cfg1.N) : Memref sig .tc .vmem S5000x128 .f32 := win1_0.stage (cfg1.slots t 0)
abbrev ms1_1 (t : Fin cfg1.N) : Memref sig .tc .vmem S5000x1 .f32 := win1_1.stage (cfg1.slots t 1)
abbrev ms1_2 (t : Fin cfg1.N) : Memref sig .tc .vmem S1x128 .f32 := win1_2.stage (cfg1.slots t 2)
abbrev ms1_3 (t : Fin cfg1.N) : Memref sig .tc .vmem S1x1x128 .f32 := win1_3.stage (cfg1.slots t 3)
abbrev scM1_0 : Memref sig .tc .vmem S1x1x128 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns c scM1_0 fullShare d)) ∗ rest1 c) ∗ (∃ r, prngReg c r)) := by
  unfold Pipeline.ΦA; rw [scopedRest1_split]; simp only [scM1_0, owns_whole]; try rfl

section
variable (c : Dev nD) (i : grid1.Coords) {arg2 : Memref sig .tc .vmem S5000x128 .f32} (harg2 : arg2.IsWhole) {arg3 : Memref sig .tc .vmem S5000x1 .f32} (harg3 : arg3.IsWhole) {arg4 : Memref sig .tc .vmem S1x128 .f32} (harg4 : arg4.IsWhole) {arg5 arg6 : Memref sig .tc .vmem S1x1x128 .f32} (harg5 : arg5.IsWhole) (harg6 : arg6.IsWhole)
  (x0 : Vec F S5000x128 .f32) (x1 : Vec F S5000x1 .f32) (x2 : Vec F S1x128 .f32) (xs0 : Vec F S1x1x128 .f32)

set_option maxHeartbeats 1000000 in
noncomputable def kernelRun1_A (hc0 : cond1_0 i) (hc1 : ¬cond1_1 i) :
    { LS0 : List (View.Piece (Elt F) S1x1x128 .f32) //
      ∀ (xi3 : Vec F S1x1x128 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc1__sum_kernel i arg2 harg2 arg3 harg3 arg4 harg4 arg5 harg5 arg6 harg6) K } := by
  refine ⟨?_, fun xi3 E K => ?run⟩
  case run =>
    simp only [cc1__sum_kernel_eq_skeleton]; unfold cc1__sum_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
noncomputable def kernelRun1_B (hc0 : ¬cond1_0 i) (hc1 : ¬cond1_1 i) :
    { LS0 : List (View.Piece (Elt F) S1x1x128 .f32) //
      ∀ (xi3 : Vec F S1x1x128 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc1__sum_kernel i arg2 harg2 arg3 harg3 arg4 harg4 arg5 harg5 arg6 harg6) K } := by
  refine ⟨?_, fun xi3 E K => ?run⟩
  case run =>
    simp only [cc1__sum_kernel_eq_skeleton]; unfold cc1__sum_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
noncomputable def kernelRun1_C (hc0 : ¬cond1_0 i) (hc1 : cond1_1 i) :
    Σ' (L3 : List (View.Piece (Elt F) S1x1x128 .f32)), { LS0 : List (View.Piece (Elt F) S1x1x128 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc c ↦[arg5.view.set]{fullShare} arg5.view.writes (Elt F) f L3) ∗ (∃ f, arg6.view.loc c ↦[arg6.view.set]{fullShare} arg6.view.writes (Elt F) f LS0)) -∗ K ⟨⟩))
          ⊢ wp frame (wpE (defs₀ (F := F)) Variants.none c none) E (cc1__sum_kernel i arg2 harg2 arg3 harg3 arg4 harg4 arg5 harg5 arg6 harg6) K } := by
  refine ⟨?_, ?_, fun E K => ?run⟩
  case run =>
    simp only [cc1__sum_kernel_eq_skeleton]; unfold cc1__sum_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

theorem hz1_3 : (![0, 0, 0] : Fin 3 → Nat) = fun _ => 0 := funext fun a => by fin_cases a <;> rfl
theorem hz1_2 : (![0, 0] : Fin 2 → Nat) = fun _ => 0 := funext fun a => by fin_cases a <;> rfl

variable (v : View sig .tc .vmem S1x1x128 .f32) (f : v.ty.Contents (Elt F))

theorem sout1_A (hc0 : cond1_0 i) (hc1 : ¬cond1_1 i) :
    v.read (Elt F) (v.writes (Elt F) f (kernelRun1_A c i harg2 harg3 harg4 harg5 harg6 x0 x1 x2 hc0 hc1).1) = k1_pay2 x0 x1 x2 (k1_pay1 (F := F)) := by
  rw [View.read_writes_eq_canon _ _ _ (View.cover_of_tiledL (kernelRun1_A c i harg2 harg3 harg4 harg5 harg6 x0 x1 x2 hc0 hc1).1 S1x1x128.size (by sl_kernel_rfl))]
  unfold kernelRun1_A
  dsimp only
  sl_unfold_words
  rw [View.canon_cons_unit_zero (S := S1x1x128) hz1_3, View.readCov_unit_zero (S := S1x1x128) _ hz1_3]
  simp only [View.readAt_eq_ld, harg2.read_unread, harg3.read_unread, harg4.read_unread, harg6.read_unread, View.ld_unit_zero (S := S5000x128) hz1_2, View.ld_unit_zero (S := S5000x1) hz1_2, View.ld_unit_zero (S := S1x128) hz1_2, View.ld_unit_zero (S := S1x1x128) hz1_3]

theorem sout1_B (hc0 : ¬cond1_0 i) (hc1 : ¬cond1_1 i) :
    v.read (Elt F) (v.writes (Elt F) f (kernelRun1_B c i harg2 harg3 harg4 harg5 harg6 x0 x1 x2 xs0 hc0 hc1).1) = k1_pay2 x0 x1 x2 xs0 := by
  rw [View.read_writes_eq_canon _ _ _ (View.cover_of_tiledL (kernelRun1_B c i harg2 harg3 harg4 harg5 harg6 x0 x1 x2 xs0 hc0 hc1).1 S1x1x128.size (by sl_kernel_rfl))]
  unfold kernelRun1_B
  dsimp only
  rw [View.canon_unit_zero hz1_3]
  simp only [View.readAt_eq_ld, harg2.read_unread, harg3.read_unread, harg4.read_unread, harg6.read_unread, View.ld_unit_zero (S := S5000x128) hz1_2, View.ld_unit_zero (S := S5000x1) hz1_2, View.ld_unit_zero (S := S1x128) hz1_2, View.ld_unit_zero (S := S1x1x128) hz1_3]

theorem sout1_C (hc0 : ¬cond1_0 i) (hc1 : cond1_1 i) :
    v.read (Elt F) (v.writes (Elt F) f (kernelRun1_C c i harg2 harg3 harg4 harg5 harg6 x0 x1 x2 xs0 hc0 hc1).2.1) = k1_pay2 x0 x1 x2 xs0 := by
  rw [View.read_writes_eq_canon _ _ _ (View.cover_of_tiledL (kernelRun1_C c i harg2 harg3 harg4 harg5 harg6 x0 x1 x2 xs0 hc0 hc1).2.1 S1x1x128.size (by sl_kernel_rfl))]
  unfold kernelRun1_C
  dsimp only
  sl_unfold_words
  rw [View.canon_unit_zero hz1_3]
  simp only [View.readAt_eq_ld, harg2.read_unread, harg3.read_unread, harg4.read_unread, harg6.read_unread, View.ld_unit_zero (S := S5000x128) hz1_2, View.ld_unit_zero (S := S5000x1) hz1_2, View.ld_unit_zero (S := S1x128) hz1_2, View.ld_unit_zero (S := S1x1x128) hz1_3]

theorem out1_C_3 (hc0 : ¬cond1_0 i) (hc1 : cond1_1 i) :
    v.read (Elt F) (v.writes (Elt F) f (kernelRun1_C c i harg2 harg3 harg4 harg5 harg6 x0 x1 x2 xs0 hc0 hc1).1) = k1_pay2 x0 x1 x2 xs0 := by
  rw [View.read_writes_eq_canon _ _ _ (View.cover_of_tiledL (kernelRun1_C c i harg2 harg3 harg4 harg5 harg6 x0 x1 x2 xs0 hc0 hc1).1 S1x1x128.size (by sl_kernel_rfl))]
  unfold kernelRun1_C
  dsimp only
  sl_unfold_words
  rw [View.canon_unit_zero hz1_3, View.readCov_unit_zero (S := S1x1x128) _ hz1_3]
  simp only [View.readAt_eq_ld, harg2.read_unread, harg3.read_unread, harg4.read_unread, harg6.read_unread, View.ld_unit_zero (S := S5000x128) hz1_2, View.ld_unit_zero (S := S5000x1) hz1_2, View.ld_unit_zero (S := S1x128) hz1_2, View.ld_unit_zero (S := S1x1x128) hz1_3]

end

def acc1 (c : Dev nD) : (n : ℕ) → n < cfg1.N → Vec F S1x1x128 .f32
  | 0, hn => k1_pay2 (iblk1 V c 0 ⟨0, hn⟩) (iblk1 V c 1 ⟨0, hn⟩) (iblk1 V c 2 ⟨0, hn⟩) (k1_pay1 (F := F))
  | n + 1, hn =>
    if (n + 1) % 10 = 0 then k1_pay2 (iblk1 V c 0 ⟨n + 1, hn⟩) (iblk1 V c 1 ⟨n + 1, hn⟩) (iblk1 V c 2 ⟨n + 1, hn⟩) (k1_pay1 (F := F))
    else k1_pay2 (iblk1 V c 0 ⟨n + 1, hn⟩) (iblk1 V c 1 ⟨n + 1, hn⟩) (iblk1 V c 2 ⟨n + 1, hn⟩) (acc1 c n (Nat.lt_of_succ_lt hn))

theorem acc1_reset (c : Dev nD) (t : Fin cfg1.N) (h0 : t.val % 10 = 0) :
    acc1 V c t.val t.isLt = k1_pay2 (iblk1 V c 0 t) (iblk1 V c 1 t) (iblk1 V c 2 t) (k1_pay1 (F := F)) := by
  obtain ⟨n, hn⟩ := t
  cases n with
  | zero => rfl
  | succ n => exact (if_pos h0).trans rfl

theorem acc1_step (c : Dev nD) (t : Fin cfg1.N) (h0 : ¬t.val % 10 = 0) :
    acc1 V c t.val t.isLt = k1_pay2 (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact absurd (Nat.zero_mod _) h0
  | succ n => exact (if_neg h0).trans rfl

def PhiS1 (c : Dev nD) (n : ℕ) (hn : n ≤ cfg1.N) : sProp 𝕄 :=
  iprop(iprop(iprop(∃ d, ⌜∀ h : n ≠ 0, d = acc1 V c (n - 1) (by omega)⌝ ∗ owns c scM1_0 fullShare d) ∗ rest1 c) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns c (ms1_0 t) fullShare ((dat1 V c).before 0 t d))
    ∗ (∃ d, owns c (ms1_1 t) fullShare ((dat1 V c).before 1 t d))
    ∗ (∃ d, owns c (ms1_2 t) fullShare ((dat1 V c).before 2 t d))
    ∗ (∃ d, owns c (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl,
    show (dat1 V c).Φ t.castSucc = PhiS1 V c t.val (Nat.le_of_lt t.isLt) from rfl,
    show (dat1 V c).leavesExact 0 t = owns c (ms1_0 t) fullShare (iblk1 V c 0 t) from by
      unfold Dat.leavesExact; rw [liveAt1 0 (by decide) t]; rfl,
    show (dat1 V c).leavesExact 1 t = owns c (ms1_1 t) fullShare (iblk1 V c 1 t) from by
      unfold Dat.leavesExact; rw [liveAt1 1 (by decide) t]; rfl,
    show (dat1 V c).leavesExact 2 t = owns c (ms1_2 t) fullShare (iblk1 V c 2 t) from by
      unfold Dat.leavesExact; rw [liveAt1 2 (by decide) t]; rfl]
  unfold PhiS1
  have e0 := hcond1_0 t
  have e1 := hcond1_1 t
  by_cases h0 : t.val % 10 = 0
  · have hc0 : cond1_0 (grid1.coords t) := e0.mpr h0
    have hc1 : ¬cond1_1 (grid1.coords t) := fun h => by have := e1.mp h; omega
    rw [Dat.leavesExact_idle (dat1 V c) 3 t (idleAt1_3 t hc1).1 (idleAt1_3 t hc1).2]
    iintro ⟨⟨⟨⟨%ds, -, HS0⟩, Hr⟩, Hg⟩, Ho, ⟨%d0, H0⟩, ⟨%d1, H1⟩, ⟨%d2, H2⟩, ⟨%d3, H3⟩⟩
    iapply ((kernelRun1_A c (grid1.coords t) _ _ _ _ _ (iblk1 V c 0 t) (iblk1 V c 1 t) (iblk1 V c 2 t) hc0 hc1).2 _ Set.univ _)
    iframe H0 H1 H2
    isplitl [H3]; · iexact H3
    isplitl [HS0]; · iexists _; iexact HS0
    iintro ⟨H0, H1, H2, H3, ⟨%es0, HS0⟩⟩
    iframe Hr Hg Ho H0 H1 H2
    isplitl [HS0]
    · iexists _; isplitr; · ipureintro; exact fun _ => (acc1_reset V c t h0).symm
      unfold owns; iexists _; isplitr; swap; · iexact HS0
      ipureintro; exact sout1_A c _ _ _ _ _ _ _ _ _ _ _ hc0 hc1
    iexists _; iexact H3
  have hc0 : ¬cond1_0 (grid1.coords t) := fun h => h0 (e0.mp h)
  iintro ⟨⟨⟨⟨%ds, %hds, HS0⟩, Hr⟩, Hg⟩, Ho, ⟨%d0, H0⟩, ⟨%d1, H1⟩, ⟨%d2, H2⟩, ⟨%d3, H3⟩⟩
  obtain rfl := hds fun h => h0 (by rw [h])
  by_cases h1 : t.val % 10 = 9
  · have hc1 : cond1_1 (grid1.coords t) := e1.mpr h1
    rw [show (dat1 V c).leavesExact 3 t = owns c (ms1_3 t) fullShare (acc1 V c t.val t.isLt) from by
      unfold Dat.leavesExact; rw [liveAt1_3 t hc1]; rfl, acc1_step V c t h0]
    iapply ((kernelRun1_C c (grid1.coords t) _ _ _ _ _ (iblk1 V c 0 t) (iblk1 V c 1 t) (iblk1 V c 2 t) _ hc0 hc1).2.2 Set.univ _)
    iframe H0 H1 H2
    isplitl [H3]; · iexists _; iexact H3
    isplitl [HS0]; · iexact HS0
    iintro ⟨H0, H1, H2, ⟨%e3, H3⟩, ⟨%es0, HS0⟩⟩
    iframe Hr Hg Ho H0 H1 H2
    isplitl [HS0]
    · iexists _; isplitr; · ipureintro; exact fun _ => (acc1_step V c t h0).symm
      unfold owns; iexists _; isplitr; swap; · iexact HS0
      ipureintro; exact sout1_C c _ _ _ _ _ _ _ _ _ _ _ _ hc0 hc1
    unfold owns; iexists _; isplitr; swap; · iexact H3
    ipureintro; exact out1_C_3 c _ _ _ _ _ _ _ _ _ _ _ _ hc0 hc1
  · have hc1 : ¬cond1_1 (grid1.coords t) := fun h => h1 (e1.mp h)
    rw [Dat.leavesExact_idle (dat1 V c) 3 t (idleAt1_3 t hc1).1 (idleAt1_3 t hc1).2]
    iapply ((kernelRun1_B c (grid1.coords t) _ _ _ _ _ (iblk1 V c 0 t) (iblk1 V c 1 t) (iblk1 V c 2 t) _ hc0 hc1).2 _ Set.univ _)
    iframe H0 H1 H2
    isplitl [H3]; · iexact H3
    isplitl [HS0]; · iexact HS0
    iintro ⟨H0, H1, H2, H3, ⟨%es0, HS0⟩⟩
    iframe Hr Hg Ho H0 H1 H2
    isplitl [HS0]
    · iexists _; isplitr; · ipureintro; exact fun _ => (acc1_step V c t h0).symm
      unfold owns; iexists _; isplitr; swap; · iexact HS0
      ipureintro; exact sout1_B c _ _ _ _ _ _ _ _ _ _ _ _ hc0 hc1
    iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq, show (dat1 V c).Φ 0 = PhiS1 V c 0 (Nat.zero_le _) from rfl]
  unfold PhiS1
  iintro ⟨⟨⟨%d, HS0⟩, Hr⟩, Hg⟩
  isplitl [HS0 Hr]
  · isplitl [HS0]
    · iexists d; isplitr; · ipureintro; exact fun h => absurd rfl h
      iexact HS0
    iexact Hr
  iexact Hg

theorem hout1 (c : Dev nD) : (dat1 V c).Φ (Fin.last cfg1.N) ⊢ Pipeline.ΦA spec1 c := by
  rw [PhiA1_eq, show (dat1 V c).Φ (Fin.last cfg1.N) = PhiS1 V c cfg1.N (Nat.le_refl _) from rfl]
  unfold PhiS1
  iintro ⟨⟨⟨%d, -, HS0⟩, Hr⟩, Hg⟩
  isplitl [HS0 Hr]
  · isplitl [HS0]
    · iexists _; iexact HS0
    iexact Hr
  iexact Hg

end Cert.Kernel.Hand

end
-- ==== Proof.KRegion2.lean ====
import proofs.«429421_j77326591197817_3_alg».proof.Proof.KBase
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : EntryVal F)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

abbrev scM2 : Memref sig .tc .vmem S1x1x128 .f32 := Memref.whole cc2_scratch0

-- The region's invariant, with the accumulator held as P.
abbrev inv2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

theorem PhiA2_eq (c : Dev nD) : (Pipeline.ΦA spec2 c : sProp 𝕄) = inv2 c iprop(∃ d, owns (c : Thread nD τ) scM2 fullShare d) := by
  unfold Pipeline.ΦA; rw [scopedRest2_split]; simp only [scM2, owns_whole]; try rfl

section Whole
variable {κ : Kind} {sp : Space} {S : Shape} {e : EltTy} (v : View sig κ sp S e) {off : Fin S.rank → Nat}
  (inb : ∀ a, off a + S.size a ≤ S.size a) (f : v.ty.Contents (Elt F)) (w : S.Idx → Elt F e)

-- A rectangle of the whole shape's size that fits starts at zero.
theorem off_zero2 {S : Shape} {off : Fin S.rank → Nat} (inb : ∀ a, off a + S.size a ≤ S.size a) : off = fun _ => 0 :=
  funext fun a => by have := inb a; show off a = 0; omega

-- A load through it reads the contents,
theorem readAt_whole2 : v.readAt (Elt F) (Rect.unit off S.size inb).toLoadRect f = v.read (Elt F) f :=
  (View.readAt_eq_ld v f _).trans (View.ld_unit_zero (off_zero2 inb) inb _)

-- or, of what one store through it left, the payload;
theorem readCov_whole2 : v.readCov [(⟨Rect.unit off S.size inb, w⟩ : View.Piece (Elt F) S e)] (Rect.unit off S.size inb).toLoadRect = w :=
  View.readCov_unit_zero v (off_zero2 inb) inb w

-- a store through it, last, covers every element.
theorem read_writes_whole2 (L : List (View.Piece (Elt F) S e)) :
    v.read (Elt F) (v.writes (Elt F) f ((⟨Rect.unit off S.size inb, w⟩ : View.Piece (Elt F) S e) :: L)) = w :=
  (View.read_writes_eq_canon v f _ (fun y => ⟨⟨Rect.unit off S.size inb, w⟩, List.mem_cons.mpr (Or.inl rfl),
    View.mem_set_unit_zero (off_zero2 inb) inb y⟩)).trans (View.canon_cons_unit_zero (off_zero2 inb) inb w L)
end Whole

section Run
variable (c : Dev nD) (E : Set ℕ) (i : grid2.Coords)
  {arg2 : Memref sig .tc .vmem S5000x128 .f32} (harg2 : arg2.IsWhole) {arg3 : Memref sig .tc .vmem S5000x1 .f32} (harg3 : arg3.IsWhole)
  {arg4 arg5 : Memref sig .tc .vmem S1x128 .f32} (harg4 : arg4.IsWhole) (harg5 : arg5.IsWhole)
  {arg6 arg7 : Memref sig .tc .vmem S1x1x128 .f32} (harg6 : arg6.IsWhole) (harg7 : arg7.IsWhole)
  (x0 : Vec F S5000x128 .f32) (x1 : Vec F S5000x1 .f32) (x2 x3 : Vec F S1x128 .f32) (xi s : Vec F S1x1x128 .f32)

-- The body's triple: the inputs are handed back as found, the output's buffer and the accumulator are left at o6 and o7.
abbrev Run2 (o6 o7 : Vec F S1x1x128 .f32) (K : PUnit → sProp 𝕄) : Prop :=
  iprop(owns (c : Thread nD τ) arg2 fullShare x0 ∗ owns (c : Thread nD τ) arg3 fullShare x1 ∗ owns (c : Thread nD τ) arg4 fullShare x2 ∗ owns (c : Thread nD τ) arg5 fullShare x3
      ∗ owns (c : Thread nD τ) arg6 fullShare xi ∗ owns (c : Thread nD τ) arg7 fullShare s
      ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare o6 ∗ owns (c : Thread nD τ) arg7 fullShare o7) -∗ K ⟨⟩))
    ⊢ wp frame (wpE (defs₀ (F := F)) Variants.none c none) E (cc2__var_kernel i arg2 harg2 arg3 harg3 arg4 harg4 arg5 harg5 arg6 harg6 arg7 harg7) K

set_option maxHeartbeats 1000000 in
-- At the first point of a row the accumulator is reset, then this tile's contribution is added.
theorem runA2 (hc0 : cond2_0 i) (hc1 : ¬cond2_1 i)  (K : PUnit → sProp 𝕄) :
    Run2 c E i harg2 harg3 harg4 harg5 harg6 harg7 x0 x1 x2 x3 xi s xi (k2_pay2 x0 x1 x2 x3 (k2_pay1 (F := F))) K := by
  unfold Run2 owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  iexists _; isplitr; swap; · iexact H7
  ipureintro; sl_unfold_run_names
  rw [read_writes_whole2 arg7.view, readCov_whole2 arg7.view, readAt_whole2 arg2.view, readAt_whole2 arg3.view, readAt_whole2 arg4.view, readAt_whole2 arg5.view]

set_option maxHeartbeats 1000000 in
-- At a middle point this tile's contribution is added to the accumulator.
theorem runB2 (hc0 : ¬cond2_0 i) (hc1 : ¬cond2_1 i)  (K : PUnit → sProp 𝕄) :
    Run2 c E i harg2 harg3 harg4 harg5 harg6 harg7 x0 x1 x2 x3 xi s xi (k2_pay2 x0 x1 x2 x3 s) K := by
  unfold Run2 owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  iexists _; isplitr; swap; · iexact H7
  ipureintro; sl_unfold_run_names
  rw [read_writes_whole2 arg7.view, readAt_whole2 arg2.view, readAt_whole2 arg3.view, readAt_whole2 arg4.view, readAt_whole2 arg5.view, readAt_whole2 arg7.view]

set_option maxHeartbeats 1000000 in
-- At the last point of a row the accumulator, once added to, is copied into the output's buffer.
theorem runC2 (hc0 : ¬cond2_0 i) (hc1 : cond2_1 i)  (K : PUnit → sProp 𝕄) :
    Run2 c E i harg2 harg3 harg4 harg5 harg6 harg7 x0 x1 x2 x3 xi s (k2_pay2 x0 x1 x2 x3 s) (k2_pay2 x0 x1 x2 x3 s) K := by
  unfold Run2 owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr; swap; · iexact H6
    ipureintro; sl_unfold_run_names
    rw [read_writes_whole2 arg6.view, readCov_whole2 arg7.view, readAt_whole2 arg2.view, readAt_whole2 arg3.view, readAt_whole2 arg4.view, readAt_whole2 arg5.view, readAt_whole2 arg7.view]
  iexists _; isplitr; swap; · iexact H7
  ipureintro; sl_unfold_run_names
  rw [read_writes_whole2 arg7.view, readAt_whole2 arg2.view, readAt_whole2 arg3.view, readAt_whole2 arg4.view, readAt_whole2 arg5.view, readAt_whole2 arg7.view]
end Run

-- This tile's contribution added to s.
abbrev step2 (c : Dev nD) (t : Fin cfg2.N) (s : Vec F S1x1x128 .f32) : Vec F S1x1x128 .f32 :=
  k2_pay2 (iblk2 V c 0 t) (iblk2 V c 1 t) (iblk2 V c 2 t) (iblk2 V c 3 t) s

-- What the accumulator holds after the body at position n: the contributions of the row's tiles so far, over zeros.
def acc2 (c : Dev nD) : (n : ℕ) → n < cfg2.N → Vec F S1x1x128 .f32
  | 0, hn => step2 V c ⟨0, hn⟩ (k2_pay1 (F := F))
  | n + 1, hn => step2 V c ⟨n + 1, hn⟩ (if (n + 1) % 10 = 0 then k2_pay1 (F := F) else acc2 c n (Nat.lt_of_succ_lt hn))

theorem acc2_eq (c : Dev nD) (t : Fin cfg2.N) : acc2 V c t.val t.isLt
    = step2 V c t (if t.val % 10 = 0 then k2_pay1 (F := F) else acc2 V c (t.val - 1) (Nat.lt_of_le_of_lt (Nat.sub_le _ _) t.isLt)) := by
  obtain ⟨_ | n, hn⟩ := t <;> rfl

-- The invariant before position n: from the second position on the accumulator is at what the position before left.
def PhiS2 (c : Dev nD) : (n : ℕ) → n ≤ cfg2.N → sProp 𝕄
  | 0, _ => Pipeline.ΦA spec2 c
  | n + 1, hn => inv2 c (owns (c : Thread nD τ) scM2 fullShare (acc2 V c n hn))

theorem PhiS2_pos (c : Dev nD) (n : ℕ) (h : n ≤ cfg2.N) (hz : n ≠ 0) :
    PhiS2 V c n h = inv2 c (owns (c : Thread nD τ) scM2 fullShare (acc2 V c (n - 1) (by omega))) := by
  cases n with
  | zero => exact absurd rfl hz
  | succ n => rfl

-- At any position it gives back the accumulator at some contents.
theorem Phi_out2 (c : Dev nD) : ∀ (n : ℕ) (h : n ≤ cfg2.N), PhiS2 V c n h ⊢ inv2 c iprop(∃ d, owns (c : Thread nD τ) scM2 fullShare d)
  | 0, _ => by rw [PhiS2, PhiA2_eq]
  | n + 1, _ => by
    rw [PhiS2]; unfold inv2
    iintro ⟨⟨HS, HR⟩, Hg⟩
    iframe HR Hg
    iexists _; iexact HS

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_4 (c : Dev nD) (t : Fin cfg2.N) : (dat2 V c).after 4 t = acc2 V c t.val t.isLt := rfl

-- The body leaves the inputs as it finds them, so each input holds its block at every point.
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

set_option maxHeartbeats 4800000 in
-- The body at any point: which case the point is in is read off its position in the row.
theorem sound_body2 (c : Dev nD) (t : Fin cfg2.N) :
    iprop(PhiS2 V c t.val (Nat.le_of_lt t.isLt) ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d)))
    ⊢ wp frame (wpE (defs₀ (F := F)) Variants.none c none) Set.univ (bodyAt2 t) (fun _ =>
      iprop(inv2 c (owns (c : Thread nD τ) scM2 fullShare (acc2 V c t.val t.isLt)) ∗ (dat2 V c).owesAt () t.castSucc
        ∗ owns (c : Thread nD τ) (st2_0 t) fullShare (iblk2 V c 0 t) ∗ owns (c : Thread nD τ) (st2_1 t) fullShare (iblk2 V c 1 t)
        ∗ owns (c : Thread nD τ) (st2_2 t) fullShare (iblk2 V c 2 t) ∗ owns (c : Thread nD τ) (st2_3 t) fullShare (iblk2 V c 3 t) ∗ (dat2 V c).leavesExact 4 t)) := by
  simp only [before2_0, before2_1, before2_2, before2_3]
  rw [acc2_eq V c t]
  by_cases h0 : t.val % 10 = 0
  · have hc0 := (hcond2_0 t).mpr h0
    have hc1 : ¬cond2_1 (grid2.coords t) := fun h => by have := (hcond2_1 t).mp h; omega
    rw [Dat.leavesExact_idle (dat2 V c) 4 t (idleAt2_4 t hc1) (noFlush2_4 t hc1), if_pos h0]
    refine (sep_mono_left (Phi_out2 V c _ _)).trans ?_
    unfold inv2
    iintro ⟨⟨⟨⟨%s, HS⟩, HR⟩, Hg⟩, Ho, ⟨%d0, H0⟩, ⟨%d1, H1⟩, ⟨%d2, H2⟩, ⟨%d3, H3⟩, ⟨%d4, H4⟩⟩
    iapply (runA2 c Set.univ (grid2.coords t) _ _ _ _ _ _ (iblk2 V c 0 t) (iblk2 V c 1 t) (iblk2 V c 2 t) (iblk2 V c 3 t) _ _ hc0 hc1 _)
    iframe H0 H1 H2 H3 H4 HS
    iintro ⟨H0, H1, H2, H3, H4, HS⟩
    iframe HS HR Hg Ho H0 H1 H2 H3
    iexists _; iexact H4
  · have hc0 : ¬cond2_0 (grid2.coords t) := fun h => h0 ((hcond2_0 t).mp h)
    rw [if_neg h0, PhiS2_pos V c _ _ fun h => h0 (by rw [h])]
    by_cases h1 : t.val % 10 = 9
    · have hc1 := (hcond2_1 t).mpr h1
      rw [show (dat2 V c).leavesExact 4 t = owns (c : Thread nD τ) (st2_4 t) fullShare ((dat2 V c).after 4 t) from by
        unfold Dat.leavesExact; rw [liveAt2_4 t hc1], after2_4, acc2_eq V c t, if_neg h0]
      unfold inv2
      iintro ⟨⟨⟨HS, HR⟩, Hg⟩, Ho, ⟨%d0, H0⟩, ⟨%d1, H1⟩, ⟨%d2, H2⟩, ⟨%d3, H3⟩, ⟨%d4, H4⟩⟩
      iapply (runC2 c Set.univ (grid2.coords t) _ _ _ _ _ _ (iblk2 V c 0 t) (iblk2 V c 1 t) (iblk2 V c 2 t) (iblk2 V c 3 t) _ _ hc0 hc1 _)
      iframe H0 H1 H2 H3 H4 HS
      iintro ⟨H0, H1, H2, H3, H4, HS⟩
      iframe HS HR Hg Ho H0 H1 H2 H3
      iexact H4
    · have hc1 : ¬cond2_1 (grid2.coords t) := fun h => h1 ((hcond2_1 t).mp h)
      rw [Dat.leavesExact_idle (dat2 V c) 4 t (idleAt2_4 t hc1) (noFlush2_4 t hc1)]
      unfold inv2
      iintro ⟨⟨⟨HS, HR⟩, Hg⟩, Ho, ⟨%d0, H0⟩, ⟨%d1, H1⟩, ⟨%d2, H2⟩, ⟨%d3, H3⟩, ⟨%d4, H4⟩⟩
      iapply (runB2 c Set.univ (grid2.coords t) _ _ _ _ _ _ (iblk2 V c 0 t) (iblk2 V c 1 t) (iblk2 V c 2 t) (iblk2 V c 3 t) _ _ hc0 hc1 _)
      iframe H0 H1 H2 H3 H4 HS
      iintro ⟨H0, H1, H2, H3, H4, HS⟩
      iframe HS HR Hg Ho H0 H1 H2 H3
      iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := by
  rw [PhiA2_eq]; exact Phi_out2 V c cfg2.N (Nat.le_refl _)

end Cert.Kernel.Hand

end
-- ==== Proof.KRegion3.lean ====
import proofs.«429421_j77326591197817_3_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (V : EntryVal F) (c : Dev nD)

local notation "𝕄" => MM F

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S5000x128 := Rect.unit (s := S5000x128) ![0, 0] S5000x128.size inb_S5000x128_S5000x128_0_0
abbrev r3_d : Rect S5000x1 := Rect.unit (s := S5000x1) ![0, 0] S5000x1.size inb_S5000x1_S5000x1_0_0
abbrev r3_r : Rect S1x128 := Rect.unit (s := S1x128) ![0, 0] S1x128.size inb_S1x128_S1x128_0_0
abbrev r3_w : Rect S128x128 := Rect.unit (s := S128x128) ![0, 0] S128x128.size inb_S128x128_S128x128_0_0

def val3 (x0 : Vec F S5000x128 .f32) (x1 : Vec F S5000x1 .f32) (x2 x3 x4 x5 x6 : Vec F S1x128 .f32) (x7 : Vec F S128x128 .f32) :
    Vec F S5000x128 .f32 :=
  k3_pay1 (View.ld x0 r3_a) (View.ld x1 r3_d) (View.ld x2 r3_r) (View.ld x3 r3_r) (View.ld x4 r3_r) (View.ld x5 r3_r) (View.ld x6 r3_r)
    (View.ld x7 r3_w) (View.ld x1 r3_d)

def out3_8 (x0 : Vec F S5000x128 .f32) (x1 : Vec F S5000x1 .f32) (x2 x3 x4 x5 x6 : Vec F S1x128 .f32) (x7 : Vec F S128x128 .f32) :
    Vec F S5000x128 .f32 :=
  View.canon [⟨r3_a, val3 x0 x1 x2 x3 x4 x5 x6 x7⟩]

set_option maxHeartbeats 1000000 in
/-- The one store covers the output, so what is read back there is `out3_8` of what the inputs read, whatever it held. -/
theorem sound_kernel3 (E : Set ℕ) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S5000x128 .f32) (harg9 : arg9.IsWhole)
    (x0 : Vec F S5000x128 .f32) (x1 : Vec F S5000x1 .f32) (x2 x3 x4 x5 x6 : Vec F S1x128 .f32) (x7 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7)) -∗ K ⟨⟩))
      ⊢ wp frame (wpE (defs₀ (F := F)) Variants.none c none) E (cc3__normrelu_linear_kernel i arg1 harg1 arg2 harg2 arg3 harg3 arg4 harg4 arg5 harg5 arg6 harg6 arg7 harg7 arg8 harg8 arg9 harg9) K := by
  simp only [cc3__normrelu_linear_kernel_eq_skeleton]; unfold cc3__normrelu_linear_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (View.cover_of_tiled _ S5000x128.size (by rfl))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (w : Fin cfg3.W) : (dat3 V c).A w = V c (Pipeline.arrRef spec3 w) := rfl

theorem after3_8 (t : Fin cfg3.N) :
    (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

theorem hin3 : Pipeline.ΦA spec3 c ⊢ (dat3 V c).Φ 0 := .rfl
theorem hout3 : (dat3 V c).Φ (Fin.last cfg3.N) ⊢ Pipeline.ΦA spec3 c := .rfl

theorem before3 : ∀ w : Fin cfg3.W, w ≠ 8 → ∀ t d, (dat3 V c).before w t d = (dat3 V c).after w t
  | ⟨0, _⟩, _ | ⟨1, _⟩, _ | ⟨2, _⟩, _ | ⟨3, _⟩, _ | ⟨4, _⟩, _ | ⟨5, _⟩, _ | ⟨6, _⟩, _ | ⟨7, _⟩, _ => fun t d =>
    ((dat3 V c).before_in_eq_fetched _ rfl (fun _ => rfl) (fun _ _ _ => rfl) (fun _ => rfl) t d).trans rfl
  | ⟨8, _⟩, h => absurd rfl h

theorem body_obligation3 : BodyObligation (dat3 (F := F) V c) (defs₀ (F := F)) Variants.none () Set.univ := fun t => by
  rw [bigSep_W3, bigSep_W3]
  show _ ⊢ wp frame _ _ (bodyAt3 t) _
  unfold bodyAt3
  simp only [before3 V c 0 (by decide), before3 V c 1 (by decide), before3 V c 2 (by decide), before3 V c 3 (by decide), before3 V c 4 (by decide), before3 V c 5 (by decide), before3 V c 6 (by decide), before3 V c 7 (by decide)]
  rw [show (dat3 V c).Φ t.succ = (dat3 V c).Φ t.castSucc from rfl,
    show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.Kernel.Hand

end
-- ==== Proof.KRegion4.lean ====
import proofs.«429421_j77326591197817_3_alg».proof.Proof.KBase
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : EntryVal F)

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)

abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

theorem liveAt4 : ∀ w : Fin cfg4.W, w ≠ 3 → ∀ t : Fin cfg4.N, cfg4.idle w (grid4.coords t) = false := by decide +kernel
theorem idleAt4_3 : ∀ t : Fin cfg4.N, ¬cond4_1 (grid4.coords t) → cfg4.idle 3 (grid4.coords t) = true ∧ (cfg4.win 3).flush t = false := by decide +kernel
theorem liveAt4_3 : ∀ t : Fin cfg4.N, cond4_1 (grid4.coords t) → cfg4.idle 3 (grid4.coords t) = false := by decide +kernel

abbrev ms4_0 (t : Fin cfg4.N) : Memref sig .tc .vmem S5000x128 .f32 := win4_0.stage (cfg4.slots t 0)
abbrev ms4_1 (t : Fin cfg4.N) : Memref sig .tc .vmem S5000x1 .f32 := win4_1.stage (cfg4.slots t 1)
abbrev ms4_2 (t : Fin cfg4.N) : Memref sig .tc .vmem S1x128 .f32 := win4_2.stage (cfg4.slots t 2)
abbrev ms4_3 (t : Fin cfg4.N) : Memref sig .tc .vmem S1x1x128 .f32 := win4_3.stage (cfg4.slots t 3)
abbrev scM4_0 : Memref sig .tc .vmem S1x1x128 .f32 := Memref.whole cc4_scratch0

abbrev rest4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop(iprop((∃ d, owns c scM4_0 fullShare d)) ∗ rest4 c) ∗ (∃ r, prngReg c r)) := by
  unfold Pipeline.ΦA; rw [scopedRest4_split]; simp only [scM4_0, owns_whole]; try rfl

section
variable (c : Dev nD) (i : grid4.Coords) {arg2 : Memref sig .tc .vmem S5000x128 .f32} (harg2 : arg2.IsWhole) {arg3 : Memref sig .tc .vmem S5000x1 .f32} (harg3 : arg3.IsWhole) {arg4 : Memref sig .tc .vmem S1x128 .f32} (harg4 : arg4.IsWhole) {arg5 arg6 : Memref sig .tc .vmem S1x1x128 .f32} (harg5 : arg5.IsWhole) (harg6 : arg6.IsWhole)
  (x0 : Vec F S5000x128 .f32) (x1 : Vec F S5000x1 .f32) (x2 : Vec F S1x128 .f32) (xs0 : Vec F S1x1x128 .f32)

set_option maxHeartbeats 1000000 in
noncomputable def kernelRun4_A (hc0 : cond4_0 i) (hc1 : ¬cond4_1 i) :
    { LS0 : List (View.Piece (Elt F) S1x1x128 .f32) //
      ∀ (xi3 : Vec F S1x1x128 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc4__sum_kernel i arg2 harg2 arg3 harg3 arg4 harg4 arg5 harg5 arg6 harg6) K } := by
  refine ⟨?_, fun xi3 E K => ?run⟩
  case run =>
    simp only [cc4__sum_kernel_eq_skeleton]; unfold cc4__sum_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
noncomputable def kernelRun4_B (hc0 : ¬cond4_0 i) (hc1 : ¬cond4_1 i) :
    { LS0 : List (View.Piece (Elt F) S1x1x128 .f32) //
      ∀ (xi3 : Vec F S1x1x128 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc4__sum_kernel i arg2 harg2 arg3 harg3 arg4 harg4 arg5 harg5 arg6 harg6) K } := by
  refine ⟨?_, fun xi3 E K => ?run⟩
  case run =>
    simp only [cc4__sum_kernel_eq_skeleton]; unfold cc4__sum_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
noncomputable def kernelRun4_C (hc0 : ¬cond4_0 i) (hc1 : cond4_1 i) :
    Σ' (L3 : List (View.Piece (Elt F) S1x1x128 .f32)), { LS0 : List (View.Piece (Elt F) S1x1x128 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc c ↦[arg5.view.set]{fullShare} arg5.view.writes (Elt F) f L3) ∗ (∃ f, arg6.view.loc c ↦[arg6.view.set]{fullShare} arg6.view.writes (Elt F) f LS0)) -∗ K ⟨⟩))
          ⊢ wp frame (wpE (defs₀ (F := F)) Variants.none c none) E (cc4__sum_kernel i arg2 harg2 arg3 harg3 arg4 harg4 arg5 harg5 arg6 harg6) K } := by
  refine ⟨?_, ?_, fun E K => ?run⟩
  case run =>
    simp only [cc4__sum_kernel_eq_skeleton]; unfold cc4__sum_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

theorem hz4_3 : (![0, 0, 0] : Fin 3 → Nat) = fun _ => 0 := funext fun a => by fin_cases a <;> rfl
theorem hz4_2 : (![0, 0] : Fin 2 → Nat) = fun _ => 0 := funext fun a => by fin_cases a <;> rfl

variable (v : View sig .tc .vmem S1x1x128 .f32) (f : v.ty.Contents (Elt F))

theorem sout4_A (hc0 : cond4_0 i) (hc1 : ¬cond4_1 i) :
    v.read (Elt F) (v.writes (Elt F) f (kernelRun4_A c i harg2 harg3 harg4 harg5 harg6 x0 x1 x2 hc0 hc1).1) = k4_pay2 x0 x1 x2 (k4_pay1 (F := F)) := by
  rw [View.read_writes_eq_canon _ _ _ (View.cover_of_tiledL (kernelRun4_A c i harg2 harg3 harg4 harg5 harg6 x0 x1 x2 hc0 hc1).1 S1x1x128.size (by sl_kernel_rfl))]
  unfold kernelRun4_A
  dsimp only
  sl_unfold_words
  rw [View.canon_cons_unit_zero (S := S1x1x128) hz4_3, View.readCov_unit_zero (S := S1x1x128) _ hz4_3]
  simp only [View.readAt_eq_ld, harg2.read_unread, harg3.read_unread, harg4.read_unread, harg6.read_unread, View.ld_unit_zero (S := S5000x128) hz4_2, View.ld_unit_zero (S := S5000x1) hz4_2, View.ld_unit_zero (S := S1x128) hz4_2, View.ld_unit_zero (S := S1x1x128) hz4_3]

theorem sout4_B (hc0 : ¬cond4_0 i) (hc1 : ¬cond4_1 i) :
    v.read (Elt F) (v.writes (Elt F) f (kernelRun4_B c i harg2 harg3 harg4 harg5 harg6 x0 x1 x2 xs0 hc0 hc1).1) = k4_pay2 x0 x1 x2 xs0 := by
  rw [View.read_writes_eq_canon _ _ _ (View.cover_of_tiledL (kernelRun4_B c i harg2 harg3 harg4 harg5 harg6 x0 x1 x2 xs0 hc0 hc1).1 S1x1x128.size (by sl_kernel_rfl))]
  unfold kernelRun4_B
  dsimp only
  rw [View.canon_unit_zero hz4_3]
  simp only [View.readAt_eq_ld, harg2.read_unread, harg3.read_unread, harg4.read_unread, harg6.read_unread, View.ld_unit_zero (S := S5000x128) hz4_2, View.ld_unit_zero (S := S5000x1) hz4_2, View.ld_unit_zero (S := S1x128) hz4_2, View.ld_unit_zero (S := S1x1x128) hz4_3]

theorem sout4_C (hc0 : ¬cond4_0 i) (hc1 : cond4_1 i) :
    v.read (Elt F) (v.writes (Elt F) f (kernelRun4_C c i harg2 harg3 harg4 harg5 harg6 x0 x1 x2 xs0 hc0 hc1).2.1) = k4_pay2 x0 x1 x2 xs0 := by
  rw [View.read_writes_eq_canon _ _ _ (View.cover_of_tiledL (kernelRun4_C c i harg2 harg3 harg4 harg5 harg6 x0 x1 x2 xs0 hc0 hc1).2.1 S1x1x128.size (by sl_kernel_rfl))]
  unfold kernelRun4_C
  dsimp only
  sl_unfold_words
  rw [View.canon_unit_zero hz4_3]
  simp only [View.readAt_eq_ld, harg2.read_unread, harg3.read_unread, harg4.read_unread, harg6.read_unread, View.ld_unit_zero (S := S5000x128) hz4_2, View.ld_unit_zero (S := S5000x1) hz4_2, View.ld_unit_zero (S := S1x128) hz4_2, View.ld_unit_zero (S := S1x1x128) hz4_3]

theorem out4_C_3 (hc0 : ¬cond4_0 i) (hc1 : cond4_1 i) :
    v.read (Elt F) (v.writes (Elt F) f (kernelRun4_C c i harg2 harg3 harg4 harg5 harg6 x0 x1 x2 xs0 hc0 hc1).1) = k4_pay2 x0 x1 x2 xs0 := by
  rw [View.read_writes_eq_canon _ _ _ (View.cover_of_tiledL (kernelRun4_C c i harg2 harg3 harg4 harg5 harg6 x0 x1 x2 xs0 hc0 hc1).1 S1x1x128.size (by sl_kernel_rfl))]
  unfold kernelRun4_C
  dsimp only
  sl_unfold_words
  rw [View.canon_unit_zero hz4_3, View.readCov_unit_zero (S := S1x1x128) _ hz4_3]
  simp only [View.readAt_eq_ld, harg2.read_unread, harg3.read_unread, harg4.read_unread, harg6.read_unread, View.ld_unit_zero (S := S5000x128) hz4_2, View.ld_unit_zero (S := S5000x1) hz4_2, View.ld_unit_zero (S := S1x128) hz4_2, View.ld_unit_zero (S := S1x1x128) hz4_3]

end

def acc4 (c : Dev nD) : (n : ℕ) → n < cfg4.N → Vec F S1x1x128 .f32
  | 0, hn => k4_pay2 (iblk4 V c 0 ⟨0, hn⟩) (iblk4 V c 1 ⟨0, hn⟩) (iblk4 V c 2 ⟨0, hn⟩) (k4_pay1 (F := F))
  | n + 1, hn =>
    if (n + 1) % 10 = 0 then k4_pay2 (iblk4 V c 0 ⟨n + 1, hn⟩) (iblk4 V c 1 ⟨n + 1, hn⟩) (iblk4 V c 2 ⟨n + 1, hn⟩) (k4_pay1 (F := F))
    else k4_pay2 (iblk4 V c 0 ⟨n + 1, hn⟩) (iblk4 V c 1 ⟨n + 1, hn⟩) (iblk4 V c 2 ⟨n + 1, hn⟩) (acc4 c n (Nat.lt_of_succ_lt hn))

theorem acc4_reset (c : Dev nD) (t : Fin cfg4.N) (h0 : t.val % 10 = 0) :
    acc4 V c t.val t.isLt = k4_pay2 (iblk4 V c 0 t) (iblk4 V c 1 t) (iblk4 V c 2 t) (k4_pay1 (F := F)) := by
  obtain ⟨n, hn⟩ := t
  cases n with
  | zero => rfl
  | succ n => exact (if_pos h0).trans rfl

theorem acc4_step (c : Dev nD) (t : Fin cfg4.N) (h0 : ¬t.val % 10 = 0) :
    acc4 V c t.val t.isLt = k4_pay2 (iblk4 V c 0 t) (iblk4 V c 1 t) (iblk4 V c 2 t) (acc4 V c (t.val - 1) (Nat.lt_of_le_of_lt (Nat.sub_le _ _) t.isLt)) := by
  obtain ⟨n, hn⟩ := t
  cases n with
  | zero => exact absurd (Nat.zero_mod _) h0
  | succ n => exact (if_neg h0).trans rfl

def PhiS4 (c : Dev nD) (n : ℕ) (hn : n ≤ cfg4.N) : sProp 𝕄 :=
  iprop(iprop(iprop(∃ d, ⌜∀ h : n ≠ 0, d = acc4 V c (n - 1) (by omega)⌝ ∗ owns c scM4_0 fullShare d) ∗ rest4 c) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns c (ms4_0 t) fullShare ((dat4 V c).before 0 t d))
    ∗ (∃ d, owns c (ms4_1 t) fullShare ((dat4 V c).before 1 t d))
    ∗ (∃ d, owns c (ms4_2 t) fullShare ((dat4 V c).before 2 t d))
    ∗ (∃ d, owns c (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = PhiS4 V c (t.val + 1) t.isLt from rfl,
    show (dat4 V c).Φ t.castSucc = PhiS4 V c t.val (Nat.le_of_lt t.isLt) from rfl,
    show (dat4 V c).leavesExact 0 t = owns c (ms4_0 t) fullShare (iblk4 V c 0 t) from by
      unfold Dat.leavesExact; rw [liveAt4 0 (by decide) t]; rfl,
    show (dat4 V c).leavesExact 1 t = owns c (ms4_1 t) fullShare (iblk4 V c 1 t) from by
      unfold Dat.leavesExact; rw [liveAt4 1 (by decide) t]; rfl,
    show (dat4 V c).leavesExact 2 t = owns c (ms4_2 t) fullShare (iblk4 V c 2 t) from by
      unfold Dat.leavesExact; rw [liveAt4 2 (by decide) t]; rfl]
  unfold PhiS4
  have e0 := hcond4_0 t
  have e1 := hcond4_1 t
  by_cases h0 : t.val % 10 = 0
  · have hc0 : cond4_0 (grid4.coords t) := e0.mpr h0
    have hc1 : ¬cond4_1 (grid4.coords t) := fun h => by have := e1.mp h; omega
    rw [Dat.leavesExact_idle (dat4 V c) 3 t (idleAt4_3 t hc1).1 (idleAt4_3 t hc1).2]
    iintro ⟨⟨⟨⟨%ds, -, HS0⟩, Hr⟩, Hg⟩, Ho, ⟨%d0, H0⟩, ⟨%d1, H1⟩, ⟨%d2, H2⟩, ⟨%d3, H3⟩⟩
    iapply ((kernelRun4_A c (grid4.coords t) _ _ _ _ _ (iblk4 V c 0 t) (iblk4 V c 1 t) (iblk4 V c 2 t) hc0 hc1).2 _ Set.univ _)
    iframe H0 H1 H2
    isplitl [H3]; · iexact H3
    isplitl [HS0]; · iexists _; iexact HS0
    iintro ⟨H0, H1, H2, H3, ⟨%es0, HS0⟩⟩
    iframe Hr Hg Ho H0 H1 H2
    isplitl [HS0]
    · iexists _; isplitr; · ipureintro; exact fun _ => (acc4_reset V c t h0).symm
      unfold owns; iexists _; isplitr; swap; · iexact HS0
      ipureintro; exact sout4_A c _ _ _ _ _ _ _ _ _ _ _ hc0 hc1
    iexists _; iexact H3
  have hc0 : ¬cond4_0 (grid4.coords t) := fun h => h0 (e0.mp h)
  iintro ⟨⟨⟨⟨%ds, %hds, HS0⟩, Hr⟩, Hg⟩, Ho, ⟨%d0, H0⟩, ⟨%d1, H1⟩, ⟨%d2, H2⟩, ⟨%d3, H3⟩⟩
  obtain rfl := hds fun h => h0 (by rw [h])
  by_cases h1 : t.val % 10 = 9
  · have hc1 : cond4_1 (grid4.coords t) := e1.mpr h1
    rw [show (dat4 V c).leavesExact 3 t = owns c (ms4_3 t) fullShare (acc4 V c t.val t.isLt) from by
      unfold Dat.leavesExact; rw [liveAt4_3 t hc1]; rfl, acc4_step V c t h0]
    iapply ((kernelRun4_C c (grid4.coords t) _ _ _ _ _ (iblk4 V c 0 t) (iblk4 V c 1 t) (iblk4 V c 2 t) _ hc0 hc1).2.2 Set.univ _)
    iframe H0 H1 H2
    isplitl [H3]; · iexists _; iexact H3
    isplitl [HS0]; · iexact HS0
    iintro ⟨H0, H1, H2, ⟨%e3, H3⟩, ⟨%es0, HS0⟩⟩
    iframe Hr Hg Ho H0 H1 H2
    isplitl [HS0]
    · iexists _; isplitr; · ipureintro; exact fun _ => (acc4_step V c t h0).symm
      unfold owns; iexists _; isplitr; swap; · iexact HS0
      ipureintro; exact sout4_C c _ _ _ _ _ _ _ _ _ _ _ _ hc0 hc1
    unfold owns; iexists _; isplitr; swap; · iexact H3
    ipureintro; exact out4_C_3 c _ _ _ _ _ _ _ _ _ _ _ _ hc0 hc1
  · have hc1 : ¬cond4_1 (grid4.coords t) := fun h => h1 (e1.mp h)
    rw [Dat.leavesExact_idle (dat4 V c) 3 t (idleAt4_3 t hc1).1 (idleAt4_3 t hc1).2]
    iapply ((kernelRun4_B c (grid4.coords t) _ _ _ _ _ (iblk4 V c 0 t) (iblk4 V c 1 t) (iblk4 V c 2 t) _ hc0 hc1).2 _ Set.univ _)
    iframe H0 H1 H2
    isplitl [H3]; · iexact H3
    isplitl [HS0]; · iexact HS0
    iintro ⟨H0, H1, H2, H3, ⟨%es0, HS0⟩⟩
    iframe Hr Hg Ho H0 H1 H2
    isplitl [HS0]
    · iexists _; isplitr; · ipureintro; exact fun _ => (acc4_step V c t h0).symm
      unfold owns; iexists _; isplitr; swap; · iexact HS0
      ipureintro; exact sout4_B c _ _ _ _ _ _ _ _ _ _ _ _ hc0 hc1
    iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [PhiA4_eq, show (dat4 V c).Φ 0 = PhiS4 V c 0 (Nat.zero_le _) from rfl]
  unfold PhiS4
  iintro ⟨⟨⟨%d, HS0⟩, Hr⟩, Hg⟩
  isplitl [HS0 Hr]
  · isplitl [HS0]
    · iexists d; isplitr; · ipureintro; exact fun h => absurd rfl h
      iexact HS0
    iexact Hr
  iexact Hg

theorem hout4 (c : Dev nD) : (dat4 V c).Φ (Fin.last cfg4.N) ⊢ Pipeline.ΦA spec4 c := by
  rw [PhiA4_eq, show (dat4 V c).Φ (Fin.last cfg4.N) = PhiS4 V c cfg4.N (Nat.le_refl _) from rfl]
  unfold PhiS4
  iintro ⟨⟨⟨%d, -, HS0⟩, Hr⟩, Hg⟩
  isplitl [HS0 Hr]
  · isplitl [HS0]
    · iexists _; iexact HS0
    iexact Hr
  iexact Hg

end Cert.Kernel.Hand

end
-- ==== Proof.KRegion5.lean ====
import proofs.«429421_j77326591197817_3_alg».proof.Proof.KBase
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : EntryVal F)

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 10 = 0 :=
  (by decide +kernel : ∀ t : Fin grid5.N, cond5_0 (grid5.coords t) ↔ t.val % 10 = 0)

abbrev cond5_1 (i : grid5.Coords) : Prop := k5_cond2 i = 1#1
theorem hcond5_1 : ∀ t : Fin cfg5.N, cond5_1 (grid5.coords t) ↔ t.val % 10 = 9 :=
  (by decide +kernel : ∀ t : Fin grid5.N, cond5_1 (grid5.coords t) ↔ t.val % 10 = 9)

theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel
theorem liveAt5_4 : ∀ t : Fin cfg5.N, cond5_1 (grid5.coords t) → cfg5.idle 4 (grid5.coords t) = false := by decide +kernel

abbrev scM5 : Memref sig .tc .vmem S1x1x128 .f32 := Memref.whole cc5_scratch0

-- The region's invariant, with the accumulator held as P.
abbrev inv5 (c : Dev nD) (P : sProp 𝕄) : sProp 𝕄 :=
  iprop(iprop(P ∗ Pipeline.scopedRestBut (Ix := Unit) (Name := ℕ) (U := UR sig nD τ) (Lvl := ℕ) (Val := Elt F) spec5 c [cc5_scratch0]) ∗ (∃ r, prngReg c r))

theorem PhiA5_eq (c : Dev nD) : (Pipeline.ΦA spec5 c : sProp 𝕄) = inv5 c iprop(∃ d, owns (c : Thread nD τ) scM5 fullShare d) := by
  unfold Pipeline.ΦA; rw [scopedRest5_split]; simp only [scM5, owns_whole]; try rfl

section Whole
variable {κ : Kind} {sp : Space} {S : Shape} {e : EltTy} (v : View sig κ sp S e) {off : Fin S.rank → Nat}
  (inb : ∀ a, off a + S.size a ≤ S.size a) (f : v.ty.Contents (Elt F)) (w : S.Idx → Elt F e)

-- A rectangle of the whole shape's size that fits starts at zero.
theorem off_zero5 {S : Shape} {off : Fin S.rank → Nat} (inb : ∀ a, off a + S.size a ≤ S.size a) : off = fun _ => 0 :=
  funext fun a => by have := inb a; show off a = 0; omega

-- A load through it reads the contents,
theorem readAt_whole5 : v.readAt (Elt F) (Rect.unit off S.size inb).toLoadRect f = v.read (Elt F) f :=
  (View.readAt_eq_ld v f _).trans (View.ld_unit_zero (off_zero5 inb) inb _)

-- or, of what one store through it left, the payload;
theorem readCov_whole5 : v.readCov [(⟨Rect.unit off S.size inb, w⟩ : View.Piece (Elt F) S e)] (Rect.unit off S.size inb).toLoadRect = w :=
  View.readCov_unit_zero v (off_zero5 inb) inb w

-- a store through it, last, covers every element.
theorem read_writes_whole5 (L : List (View.Piece (Elt F) S e)) :
    v.read (Elt F) (v.writes (Elt F) f ((⟨Rect.unit off S.size inb, w⟩ : View.Piece (Elt F) S e) :: L)) = w :=
  (View.read_writes_eq_canon v f _ (fun y => ⟨⟨Rect.unit off S.size inb, w⟩, List.mem_cons.mpr (Or.inl rfl),
    View.mem_set_unit_zero (off_zero5 inb) inb y⟩)).trans (View.canon_cons_unit_zero (off_zero5 inb) inb w L)
end Whole

section Run
variable (c : Dev nD) (E : Set ℕ) (i : grid5.Coords)
  {arg2 : Memref sig .tc .vmem S5000x128 .f32} (harg2 : arg2.IsWhole) {arg3 : Memref sig .tc .vmem S5000x1 .f32} (harg3 : arg3.IsWhole)
  {arg4 arg5 : Memref sig .tc .vmem S1x128 .f32} (harg4 : arg4.IsWhole) (harg5 : arg5.IsWhole)
  {arg6 arg7 : Memref sig .tc .vmem S1x1x128 .f32} (harg6 : arg6.IsWhole) (harg7 : arg7.IsWhole)
  (x0 : Vec F S5000x128 .f32) (x1 : Vec F S5000x1 .f32) (x2 x3 : Vec F S1x128 .f32) (xi s : Vec F S1x1x128 .f32)

-- The body's triple: the inputs are handed back as found, the output's buffer and the accumulator are left at o6 and o7.
abbrev Run5 (o6 o7 : Vec F S1x1x128 .f32) (K : PUnit → sProp 𝕄) : Prop :=
  iprop(owns (c : Thread nD τ) arg2 fullShare x0 ∗ owns (c : Thread nD τ) arg3 fullShare x1 ∗ owns (c : Thread nD τ) arg4 fullShare x2 ∗ owns (c : Thread nD τ) arg5 fullShare x3
      ∗ owns (c : Thread nD τ) arg6 fullShare xi ∗ owns (c : Thread nD τ) arg7 fullShare s
      ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare o6 ∗ owns (c : Thread nD τ) arg7 fullShare o7) -∗ K ⟨⟩))
    ⊢ wp frame (wpE (defs₀ (F := F)) Variants.none c none) E (cc5__var_kernel i arg2 harg2 arg3 harg3 arg4 harg4 arg5 harg5 arg6 harg6 arg7 harg7) K

set_option maxHeartbeats 1000000 in
-- At the first point of a row the accumulator is reset, then this tile's contribution is added.
theorem runA5 (hc0 : cond5_0 i) (hc1 : ¬cond5_1 i)  (K : PUnit → sProp 𝕄) :
    Run5 c E i harg2 harg3 harg4 harg5 harg6 harg7 x0 x1 x2 x3 xi s xi (k5_pay2 x0 x1 x2 x3 (k5_pay1 (F := F))) K := by
  unfold Run5 owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  iexists _; isplitr; swap; · iexact H7
  ipureintro; sl_unfold_run_names
  rw [read_writes_whole5 arg7.view, readCov_whole5 arg7.view, readAt_whole5 arg2.view, readAt_whole5 arg3.view, readAt_whole5 arg4.view, readAt_whole5 arg5.view]

set_option maxHeartbeats 1000000 in
-- At a middle point this tile's contribution is added to the accumulator.
theorem runB5 (hc0 : ¬cond5_0 i) (hc1 : ¬cond5_1 i)  (K : PUnit → sProp 𝕄) :
    Run5 c E i harg2 harg3 harg4 harg5 harg6 harg7 x0 x1 x2 x3 xi s xi (k5_pay2 x0 x1 x2 x3 s) K := by
  unfold Run5 owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  iexists _; isplitr; swap; · iexact H7
  ipureintro; sl_unfold_run_names
  rw [read_writes_whole5 arg7.view, readAt_whole5 arg2.view, readAt_whole5 arg3.view, readAt_whole5 arg4.view, readAt_whole5 arg5.view, readAt_whole5 arg7.view]

set_option maxHeartbeats 1000000 in
-- At the last point of a row the accumulator, once added to, is copied into the output's buffer.
theorem runC5 (hc0 : ¬cond5_0 i) (hc1 : cond5_1 i)  (K : PUnit → sProp 𝕄) :
    Run5 c E i harg2 harg3 harg4 harg5 harg6 harg7 x0 x1 x2 x3 xi s (k5_pay2 x0 x1 x2 x3 s) (k5_pay2 x0 x1 x2 x3 s) K := by
  unfold Run5 owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr; swap; · iexact H6
    ipureintro; sl_unfold_run_names
    rw [read_writes_whole5 arg6.view, readCov_whole5 arg7.view, readAt_whole5 arg2.view, readAt_whole5 arg3.view, readAt_whole5 arg4.view, readAt_whole5 arg5.view, readAt_whole5 arg7.view]
  iexists _; isplitr; swap; · iexact H7
  ipureintro; sl_unfold_run_names
  rw [read_writes_whole5 arg7.view, readAt_whole5 arg2.view, readAt_whole5 arg3.view, readAt_whole5 arg4.view, readAt_whole5 arg5.view, readAt_whole5 arg7.view]
end Run

-- This tile's contribution added to s.
abbrev step5 (c : Dev nD) (t : Fin cfg5.N) (s : Vec F S1x1x128 .f32) : Vec F S1x1x128 .f32 :=
  k5_pay2 (iblk5 V c 0 t) (iblk5 V c 1 t) (iblk5 V c 2 t) (iblk5 V c 3 t) s

-- What the accumulator holds after the body at position n: the contributions of the row's tiles so far, over zeros.
def acc5 (c : Dev nD) : (n : ℕ) → n < cfg5.N → Vec F S1x1x128 .f32
  | 0, hn => step5 V c ⟨0, hn⟩ (k5_pay1 (F := F))
  | n + 1, hn => step5 V c ⟨n + 1, hn⟩ (if (n + 1) % 10 = 0 then k5_pay1 (F := F) else acc5 c n (Nat.lt_of_succ_lt hn))

theorem acc5_eq (c : Dev nD) (t : Fin cfg5.N) : acc5 V c t.val t.isLt
    = step5 V c t (if t.val % 10 = 0 then k5_pay1 (F := F) else acc5 V c (t.val - 1) (Nat.lt_of_le_of_lt (Nat.sub_le _ _) t.isLt)) := by
  obtain ⟨_ | n, hn⟩ := t <;> rfl

-- The invariant before position n: from the second position on the accumulator is at what the position before left.
def PhiS5 (c : Dev nD) : (n : ℕ) → n ≤ cfg5.N → sProp 𝕄
  | 0, _ => Pipeline.ΦA spec5 c
  | n + 1, hn => inv5 c (owns (c : Thread nD τ) scM5 fullShare (acc5 V c n hn))

theorem PhiS5_pos (c : Dev nD) (n : ℕ) (h : n ≤ cfg5.N) (hz : n ≠ 0) :
    PhiS5 V c n h = inv5 c (owns (c : Thread nD τ) scM5 fullShare (acc5 V c (n - 1) (by omega))) := by
  cases n with
  | zero => exact absurd rfl hz
  | succ n => rfl

-- At any position it gives back the accumulator at some contents.
theorem Phi_out5 (c : Dev nD) : ∀ (n : ℕ) (h : n ≤ cfg5.N), PhiS5 V c n h ⊢ inv5 c iprop(∃ d, owns (c : Thread nD τ) scM5 fullShare d)
  | 0, _ => by rw [PhiS5, PhiA5_eq]
  | n + 1, _ => by
    rw [PhiS5]; unfold inv5
    iintro ⟨⟨HS, HR⟩, Hg⟩
    iframe HR Hg
    iexists _; iexact HS

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => acc5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_4 (c : Dev nD) (t : Fin cfg5.N) : (dat5 V c).after 4 t = acc5 V c t.val t.isLt := rfl

-- The body leaves the inputs as it finds them, so each input holds its block at every point.
theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d

set_option maxHeartbeats 4800000 in
-- The body at any point: which case the point is in is read off its position in the row.
theorem sound_body5 (c : Dev nD) (t : Fin cfg5.N) :
    iprop(PhiS5 V c t.val (Nat.le_of_lt t.isLt) ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d))
      ∗ (∃ d, owns (c : Thread nD τ) (st5_4 t) fullShare ((dat5 V c).before 4 t d)))
    ⊢ wp frame (wpE (defs₀ (F := F)) Variants.none c none) Set.univ (bodyAt5 t) (fun _ =>
      iprop(inv5 c (owns (c : Thread nD τ) scM5 fullShare (acc5 V c t.val t.isLt)) ∗ (dat5 V c).owesAt () t.castSucc
        ∗ owns (c : Thread nD τ) (st5_0 t) fullShare (iblk5 V c 0 t) ∗ owns (c : Thread nD τ) (st5_1 t) fullShare (iblk5 V c 1 t)
        ∗ owns (c : Thread nD τ) (st5_2 t) fullShare (iblk5 V c 2 t) ∗ owns (c : Thread nD τ) (st5_3 t) fullShare (iblk5 V c 3 t) ∗ (dat5 V c).leavesExact 4 t)) := by
  simp only [before5_0, before5_1, before5_2, before5_3]
  rw [acc5_eq V c t]
  by_cases h0 : t.val % 10 = 0
  · have hc0 := (hcond5_0 t).mpr h0
    have hc1 : ¬cond5_1 (grid5.coords t) := fun h => by have := (hcond5_1 t).mp h; omega
    rw [Dat.leavesExact_idle (dat5 V c) 4 t (idleAt5_4 t hc1) (noFlush5_4 t hc1), if_pos h0]
    refine (sep_mono_left (Phi_out5 V c _ _)).trans ?_
    unfold inv5
    iintro ⟨⟨⟨⟨%s, HS⟩, HR⟩, Hg⟩, Ho, ⟨%d0, H0⟩, ⟨%d1, H1⟩, ⟨%d2, H2⟩, ⟨%d3, H3⟩, ⟨%d4, H4⟩⟩
    iapply (runA5 c Set.univ (grid5.coords t) _ _ _ _ _ _ (iblk5 V c 0 t) (iblk5 V c 1 t) (iblk5 V c 2 t) (iblk5 V c 3 t) _ _ hc0 hc1 _)
    iframe H0 H1 H2 H3 H4 HS
    iintro ⟨H0, H1, H2, H3, H4, HS⟩
    iframe HS HR Hg Ho H0 H1 H2 H3
    iexists _; iexact H4
  · have hc0 : ¬cond5_0 (grid5.coords t) := fun h => h0 ((hcond5_0 t).mp h)
    rw [if_neg h0, PhiS5_pos V c _ _ fun h => h0 (by rw [h])]
    by_cases h1 : t.val % 10 = 9
    · have hc1 := (hcond5_1 t).mpr h1
      rw [show (dat5 V c).leavesExact 4 t = owns (c : Thread nD τ) (st5_4 t) fullShare ((dat5 V c).after 4 t) from by
        unfold Dat.leavesExact; rw [liveAt5_4 t hc1], after5_4, acc5_eq V c t, if_neg h0]
      unfold inv5
      iintro ⟨⟨⟨HS, HR⟩, Hg⟩, Ho, ⟨%d0, H0⟩, ⟨%d1, H1⟩, ⟨%d2, H2⟩, ⟨%d3, H3⟩, ⟨%d4, H4⟩⟩
      iapply (runC5 c Set.univ (grid5.coords t) _ _ _ _ _ _ (iblk5 V c 0 t) (iblk5 V c 1 t) (iblk5 V c 2 t) (iblk5 V c 3 t) _ _ hc0 hc1 _)
      iframe H0 H1 H2 H3 H4 HS
      iintro ⟨H0, H1, H2, H3, H4, HS⟩
      iframe HS HR Hg Ho H0 H1 H2 H3
      iexact H4
    · have hc1 : ¬cond5_1 (grid5.coords t) := fun h => h1 ((hcond5_1 t).mp h)
      rw [Dat.leavesExact_idle (dat5 V c) 4 t (idleAt5_4 t hc1) (noFlush5_4 t hc1)]
      unfold inv5
      iintro ⟨⟨⟨HS, HR⟩, Hg⟩, Ho, ⟨%d0, H0⟩, ⟨%d1, H1⟩, ⟨%d2, H2⟩, ⟨%d3, H3⟩, ⟨%d4, H4⟩⟩
      iapply (runB5 c Set.univ (grid5.coords t) _ _ _ _ _ _ (iblk5 V c 0 t) (iblk5 V c 1 t) (iblk5 V c 2 t) (iblk5 V c 3 t) _ _ hc0 hc1 _)
      iframe H0 H1 H2 H3 H4 HS
      iintro ⟨H0, H1, H2, H3, H4, HS⟩
      iframe HS HR Hg Ho H0 H1 H2 H3
      iexists _; iexact H4

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl

theorem hout5 (c : Dev nD) : (dat5 V c).Φ (Fin.last cfg5.N) ⊢ Pipeline.ΦA spec5 c := by
  rw [PhiA5_eq]; exact Phi_out5 V c cfg5.N (Nat.le_refl _)

end Cert.Kernel.Hand

end
-- ==== Proof.KRegion6.lean ====
import proofs.«429421_j77326591197817_3_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : EntryVal F)

abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 10 = 0 :=
  (by decide +kernel : ∀ t : Fin grid6.N, cond6_0 (grid6.coords t) ↔ t.val % 10 = 0)

abbrev cond6_1 (i : grid6.Coords) : Prop := k6_cond2 i = 1#1
theorem hcond6_1 : ∀ t : Fin cfg6.N, cond6_1 (grid6.coords t) ↔ t.val % 10 = 9 :=
  (by decide +kernel : ∀ t : Fin grid6.N, cond6_1 (grid6.coords t) ↔ t.val % 10 = 9)

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl
theorem liveAt6_4 : ∀ t : Fin cfg6.N, cfg6.idle 4 (grid6.coords t) = false := fun _ => rfl
theorem liveAt6_5 : ∀ t : Fin cfg6.N, cfg6.idle 5 (grid6.coords t) = false := fun _ => rfl
theorem liveAt6_6 : ∀ t : Fin cfg6.N, cfg6.idle 6 (grid6.coords t) = false := fun _ => rfl
theorem liveAt6_7 : ∀ t : Fin cfg6.N, cfg6.idle 7 (grid6.coords t) = false := fun _ => rfl
theorem idleAt6_8 : ∀ t : Fin cfg6.N, ¬cond6_1 (grid6.coords t) → cfg6.idle 8 (grid6.coords t) = true := by decide +kernel
theorem noFlush6_8 : ∀ t : Fin cfg6.N, ¬cond6_1 (grid6.coords t) → (cfg6.win 8).flush t = false := by decide +kernel
theorem liveAt6_8 : ∀ t : Fin cfg6.N, cond6_1 (grid6.coords t) → cfg6.idle 8 (grid6.coords t) = false := by decide +kernel

abbrev VO6_8 : View sig .tc .vmem S1x128x128 .f32 := (Memref.whole cc6_stg8_0 : Memref sig .tc .vmem S1x128x128 .f32).view
abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x1 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S5000x1 .i32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S1x128x128 .f32 := win6_8.stage (cfg6.slots t 8)
abbrev hs6_8 (t : Fin cfg6.N) : (ms6_8 t).IsWhole := hstage6_8 ((cfg6.slots t 8).cast nbuf6_8)
abbrev scM6 : Memref sig .tc .vmem S1x128x128 .f32 := Memref.whole cc6_scratch0
abbrev hsc6 : scM6.IsWhole := Memref.isWhole_whole _
abbrev VS6 : View sig .tc .vmem S1x128x128 .f32 := scM6.view

abbrev Rest6 (c : Dev nD) : sProp 𝕄 :=
  Pipeline.scopedRestBut (Ix := Unit) (Name := ℕ) (U := UR sig nD τ) (Lvl := ℕ) (Val := Elt F) spec6 c [cc6_scratch0]

theorem PhiA6_eq (c : Dev nD) :
    (Pipeline.ΦA spec6 c : sProp 𝕄)
      = iprop(iprop((∃ d, owns (c : Thread nD τ) scM6 fullShare d) ∗ Rest6 (F := F) c) ∗ (∃ r, prngReg c r)) := by
  unfold Pipeline.ΦA; rw [scopedRest6_split]; simp only [scM6, owns_whole]; try rfl

section Run

variable (c : Dev nD) (i : grid6.Coords) (arg2 : Memref sig .tc .vmem S5000x128 .f32) (arg3 : Memref sig .tc .vmem S5000x1 .f32)
  (arg4 arg5 arg6 arg7 arg8 : Memref sig .tc .vmem S1x128 .f32) (arg9 : Memref sig .tc .vmem S5000x1 .i32) (arg10 arg11 : Memref sig .tc .vmem S1x128x128 .f32)
  (x0 : Vec F S5000x128 .f32) (x1 : Vec F S5000x1 .f32) (x2 x3 x4 x5 x6 : Vec F S1x128 .f32) (x7 : Vec F S5000x1 .i32)

def withIns6 (R : sProp 𝕄) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ R)

variable {arg2 arg3 arg4 arg5 arg6 arg7 arg8 arg9 arg10 arg11}
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole)

section A
variable (hc0 : cond6_0 i) (hc1 : ¬cond6_1 i)
include hc0 hc1

set_option maxHeartbeats 1000000 in
def kernelRun6_A : Σ' (L8 : List (View.Piece (Elt F) S1x128x128 .f32)), { LS0 : List (View.Piece (Elt F) S1x128x128 .f32) //
    ∀ (xi8 : Vec F S1x128x128 .f32) (E : Set ℕ) (K : PUnit → sProp 𝕄),
      withIns6 c arg2 arg3 arg4 arg5 arg6 arg7 arg8 arg9 x0 x1 x2 x3 x4 x5 x6 x7 (iprop(owns (c : Thread nD τ) arg10 fullShare xi8 ∗ (∃ d, owns (c : Thread nD τ) arg11 fullShare d) ∗ (withIns6 c arg2 arg3 arg4 arg5 arg6 arg7 arg8 arg9 x0 x1 x2 x3 x4 x5 x6 x7 (iprop(owns (c : Thread nD τ) arg10 fullShare xi8 ∗ (∃ f, arg11.view.loc (c : Thread nD τ) ↦[arg11.view.set]{fullShare} arg11.view.writes (Elt F) f LS0))) -∗ K ⟨⟩)))
        ⊢ wp frame (wpE (defs₀ (F := F)) Variants.none c none) E (cc6__normrelu_pool_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    unfold withIns6
    simp only [cc6__normrelu_pool_kernel_eq_skeleton]; unfold cc6__normrelu_pool_kernel_skel
    simp only [k6_part1_eq_skeleton]; unfold k6_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact hf8
      iexact H8
    iexists _; iexact HS0

theorem scover6_A (y : S1x128x128.Idx) : ∃ pc ∈ (kernelRun6_A c i x0 x1 x2 x3 x4 x5 x6 x7 harg2 harg3 harg4 harg5 harg6 harg7 harg8 harg9 harg10 harg11 hc0 hc1).2.1, y ∈ pc.1.set :=
  View.cover_of_tiledL (kernelRun6_A c i x0 x1 x2 x3 x4 x5 x6 x7 harg2 harg3 harg4 harg5 harg6 harg7 harg8 harg9 harg10 harg11 hc0 hc1).2.1 S1x128x128.size (by sl_kernel_rfl) y

def sout6_A : Vec F S1x128x128 .f32 :=
  VS6.read (Elt F) (VS6.writes (Elt F) VS6.junk (kernelRun6_A c i x0 x1 x2 x3 x4 x5 x6 x7 harg2 harg3 harg4 harg5 harg6 harg7 harg8 harg9 harg10 harg11 hc0 hc1).2.1)

end A

section B
variable (hc0 : ¬cond6_0 i) (hc1 : ¬cond6_1 i) (xs0 : Vec F S1x128x128 .f32)
include hc0 hc1

set_option maxHeartbeats 1000000 in
def kernelRun6_B : Σ' (L8 : List (View.Piece (Elt F) S1x128x128 .f32)), { LS0 : List (View.Piece (Elt F) S1x128x128 .f32) //
    ∀ (xi8 : Vec F S1x128x128 .f32) (E : Set ℕ) (K : PUnit → sProp 𝕄),
      withIns6 c arg2 arg3 arg4 arg5 arg6 arg7 arg8 arg9 x0 x1 x2 x3 x4 x5 x6 x7 (iprop(owns (c : Thread nD τ) arg10 fullShare xi8 ∗ owns (c : Thread nD τ) arg11 fullShare xs0 ∗ (withIns6 c arg2 arg3 arg4 arg5 arg6 arg7 arg8 arg9 x0 x1 x2 x3 x4 x5 x6 x7 (iprop(owns (c : Thread nD τ) arg10 fullShare xi8 ∗ (∃ f, arg11.view.loc (c : Thread nD τ) ↦[arg11.view.set]{fullShare} arg11.view.writes (Elt F) f LS0))) -∗ K ⟨⟩)))
        ⊢ wp frame (wpE (defs₀ (F := F)) Variants.none c none) E (cc6__normrelu_pool_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    unfold withIns6
    simp only [cc6__normrelu_pool_kernel_eq_skeleton]; unfold cc6__normrelu_pool_kernel_skel
    simp only [k6_part1_eq_skeleton]; unfold k6_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact hf8
      iexact H8
    iexists _; iexact HS0

theorem scover6_B (y : S1x128x128.Idx) : ∃ pc ∈ (kernelRun6_B c i x0 x1 x2 x3 x4 x5 x6 x7 harg2 harg3 harg4 harg5 harg6 harg7 harg8 harg9 harg10 harg11 hc0 hc1 xs0).2.1, y ∈ pc.1.set :=
  View.cover_of_tiledL (kernelRun6_B c i x0 x1 x2 x3 x4 x5 x6 x7 harg2 harg3 harg4 harg5 harg6 harg7 harg8 harg9 harg10 harg11 hc0 hc1 xs0).2.1 S1x128x128.size (by sl_kernel_rfl) y

def sout6_B : Vec F S1x128x128 .f32 :=
  VS6.read (Elt F) (VS6.writes (Elt F) VS6.junk (kernelRun6_B c i x0 x1 x2 x3 x4 x5 x6 x7 harg2 harg3 harg4 harg5 harg6 harg7 harg8 harg9 harg10 harg11 hc0 hc1 xs0).2.1)

end B

section C
variable (hc0 : ¬cond6_0 i) (hc1 : cond6_1 i) (xs0 : Vec F S1x128x128 .f32)
include hc0 hc1

set_option maxHeartbeats 1000000 in
def kernelRun6_C : Σ' (L8 : List (View.Piece (Elt F) S1x128x128 .f32)), { LS0 : List (View.Piece (Elt F) S1x128x128 .f32) //
    ∀ (E : Set ℕ) (K : PUnit → sProp 𝕄),
      withIns6 c arg2 arg3 arg4 arg5 arg6 arg7 arg8 arg9 x0 x1 x2 x3 x4 x5 x6 x7 (iprop((∃ d, owns (c : Thread nD τ) arg10 fullShare d) ∗ owns (c : Thread nD τ) arg11 fullShare xs0 ∗ (withIns6 c arg2 arg3 arg4 arg5 arg6 arg7 arg8 arg9 x0 x1 x2 x3 x4 x5 x6 x7 (iprop((∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0))) -∗ K ⟨⟩)))
        ⊢ wp frame (wpE (defs₀ (F := F)) Variants.none c none) E (cc6__normrelu_pool_kernel i arg2 harg2 arg3 harg3 arg4 harg4 arg5 harg5 arg6 harg6 arg7 harg7 arg8 harg8 arg9 harg9 arg10 harg10 arg11 harg11) K } := by
  refine ⟨?_, ?_, fun E K => ?run⟩
  case run =>
    unfold withIns6
    simp only [cc6__normrelu_pool_kernel_eq_skeleton]; unfold cc6__normrelu_pool_kernel_skel
    simp only [k6_part1_eq_skeleton]; unfold k6_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

theorem scover6_C (y : S1x128x128.Idx) : ∃ pc ∈ (kernelRun6_C c i x0 x1 x2 x3 x4 x5 x6 x7 harg2 harg3 harg4 harg5 harg6 harg7 harg8 harg9 harg10 harg11 hc0 hc1 xs0).2.1, y ∈ pc.1.set :=
  View.cover_of_tiledL (kernelRun6_C c i x0 x1 x2 x3 x4 x5 x6 x7 harg2 harg3 harg4 harg5 harg6 harg7 harg8 harg9 harg10 harg11 hc0 hc1 xs0).2.1 S1x128x128.size (by sl_kernel_rfl) y

def sout6_C : Vec F S1x128x128 .f32 :=
  VS6.read (Elt F) (VS6.writes (Elt F) VS6.junk (kernelRun6_C c i x0 x1 x2 x3 x4 x5 x6 x7 harg2 harg3 harg4 harg5 harg6 harg7 harg8 harg9 harg10 harg11 hc0 hc1 xs0).2.1)

theorem cover6_C_8 (y : S1x128x128.Idx) : ∃ pc ∈ (kernelRun6_C c i x0 x1 x2 x3 x4 x5 x6 x7 harg2 harg3 harg4 harg5 harg6 harg7 harg8 harg9 harg10 harg11 hc0 hc1 xs0).1, y ∈ pc.1.set :=
  View.cover_of_tiledL (kernelRun6_C c i x0 x1 x2 x3 x4 x5 x6 x7 harg2 harg3 harg4 harg5 harg6 harg7 harg8 harg9 harg10 harg11 hc0 hc1 xs0).1 S1x128x128.size (by sl_kernel_rfl) y

def out6_C_8 : Vec F S1x128x128 .f32 :=
  VO6_8.read (Elt F) (VO6_8.writes (Elt F) VO6_8.junk (kernelRun6_C c i x0 x1 x2 x3 x4 x5 x6 x7 harg2 harg3 harg4 harg5 harg6 harg7 harg8 harg9 harg10 harg11 hc0 hc1 xs0).1)

end C

end Run

def atA (c : Dev nD) (t : Fin cfg6.N) (h0 : cond6_0 (grid6.coords t)) (h1 : ¬cond6_1 (grid6.coords t)) : Vec F S1x128x128 .f32 × Vec F S1x128x128 .f32 :=
  (fun s => (s, s)) (sout6_A c (grid6.coords t) (iblk6 V c 0 t) (iblk6 V c 1 t) (iblk6 V c 2 t) (iblk6 V c 3 t) (iblk6 V c 4 t) (iblk6 V c 5 t) (iblk6 V c 6 t) (iblk6 V c 7 t) (hs6_0 t) (hs6_1 t) (hs6_2 t) (hs6_3 t) (hs6_4 t) (hs6_5 t) (hs6_6 t) (hs6_7 t) (hs6_8 t) hsc6 h0 h1)
def atB (c : Dev nD) (t : Fin cfg6.N) (h0 : ¬cond6_0 (grid6.coords t)) (h1 : ¬cond6_1 (grid6.coords t)) (xs : Vec F S1x128x128 .f32) : Vec F S1x128x128 .f32 × Vec F S1x128x128 .f32 :=
  (fun s => (s, s)) (sout6_B c (grid6.coords t) (iblk6 V c 0 t) (iblk6 V c 1 t) (iblk6 V c 2 t) (iblk6 V c 3 t) (iblk6 V c 4 t) (iblk6 V c 5 t) (iblk6 V c 6 t) (iblk6 V c 7 t) (hs6_0 t) (hs6_1 t) (hs6_2 t) (hs6_3 t) (hs6_4 t) (hs6_5 t) (hs6_6 t) (hs6_7 t) (hs6_8 t) hsc6 h0 h1 xs)
def atC (c : Dev nD) (t : Fin cfg6.N) (h0 : ¬cond6_0 (grid6.coords t)) (h1 : cond6_1 (grid6.coords t)) (xs : Vec F S1x128x128 .f32) : Vec F S1x128x128 .f32 × Vec F S1x128x128 .f32 :=
  (out6_C_8 c (grid6.coords t) (iblk6 V c 0 t) (iblk6 V c 1 t) (iblk6 V c 2 t) (iblk6 V c 3 t) (iblk6 V c 4 t) (iblk6 V c 5 t) (iblk6 V c 6 t) (iblk6 V c 7 t) (hs6_0 t) (hs6_1 t) (hs6_2 t) (hs6_3 t) (hs6_4 t) (hs6_5 t) (hs6_6 t) (hs6_7 t) (hs6_8 t) hsc6 h0 h1 xs,
   sout6_C c (grid6.coords t) (iblk6 V c 0 t) (iblk6 V c 1 t) (iblk6 V c 2 t) (iblk6 V c 3 t) (iblk6 V c 4 t) (iblk6 V c 5 t) (iblk6 V c 6 t) (iblk6 V c 7 t) (hs6_0 t) (hs6_1 t) (hs6_2 t) (hs6_3 t) (hs6_4 t) (hs6_5 t) (hs6_6 t) (hs6_7 t) (hs6_8 t) hsc6 h0 h1 xs)

def outsAt6 (c : Dev nD) : (n : ℕ) → n < cfg6.N → Vec F S1x128x128 .f32 × Vec F S1x128x128 .f32
  | 0, hn => atA V c ⟨0, hn⟩ ((hcond6_0 ⟨0, hn⟩).mpr (Nat.zero_mod _)) (fun h => (fun h => by (try dsimp only at h); omega) ((hcond6_1 ⟨0, hn⟩).mp h))
  | n + 1, hn =>
    if h0 : (n + 1) % 10 = 0 then
      if h1 : (n + 1) % 10 = 9 then
        False.elim (by omega)
      else
        atA V c ⟨n + 1, hn⟩ ((hcond6_0 ⟨n + 1, hn⟩).mpr h0) (fun h => h1 ((hcond6_1 ⟨n + 1, hn⟩).mp h))
    else
      if h1 : (n + 1) % 10 = 9 then
        atC V c ⟨n + 1, hn⟩ (fun h => h0 ((hcond6_0 ⟨n + 1, hn⟩).mp h)) ((hcond6_1 ⟨n + 1, hn⟩).mpr h1) (outsAt6 c n (Nat.lt_of_succ_lt hn)).2
      else
        atB V c ⟨n + 1, hn⟩ (fun h => h0 ((hcond6_0 ⟨n + 1, hn⟩).mp h)) (fun h => h1 ((hcond6_1 ⟨n + 1, hn⟩).mp h)) (outsAt6 c n (Nat.lt_of_succ_lt hn)).2

theorem outsAt6_A (c : Dev nD) (t : Fin cfg6.N) (h0 : t.val % 10 = 0) (h1 : ¬t.val % 10 = 9) :
    outsAt6 V c t.val t.isLt = atA V c t ((hcond6_0 t).mpr h0) (fun h => h1 ((hcond6_1 t).mp h)) := by
  obtain ⟨n, hn⟩ := t
  cases n with
  | zero => exact rfl
  | succ n => exact (dif_pos h0).trans ((dif_neg h1).trans rfl)

theorem outsAt6_B (c : Dev nD) (t : Fin cfg6.N) (h0 : ¬t.val % 10 = 0) (h1 : ¬t.val % 10 = 9) :
    outsAt6 V c t.val t.isLt = atB V c t (fun h => h0 ((hcond6_0 t).mp h)) (fun h => h1 ((hcond6_1 t).mp h))
      (outsAt6 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 10 = 0) (h1 : t.val % 10 = 9) :
    outsAt6 V c t.val t.isLt = atC V c t (fun h => h0 ((hcond6_0 t).mp h)) ((hcond6_1 t).mpr h1)
      (outsAt6 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS6 (c : Dev nD) : (n : ℕ) → n ≤ cfg6.N → sProp 𝕄
  | 0, _ => Pipeline.ΦA spec6 c
  | n + 1, hn => iprop(iprop(owns (c : Thread nD τ) scM6 fullShare ((outsAt6 V c n hn).2) ∗ Rest6 (F := F) c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare ((outsAt6 V c n hn).2) ∗ Rest6 (F := F) c) ∗ (∃ r, prngReg c r)) := rfl

theorem PhiS6_pos (c : Dev nD) (n : ℕ) (h : n ≤ cfg6.N) (hz : n ≠ 0) :
    PhiS6 V c n h = iprop(iprop(owns (c : Thread nD τ) scM6 fullShare ((outsAt6 V c (n - 1) (by omega)).2) ∗ Rest6 (F := F) c) ∗ (∃ r, prngReg c r)) := by
  cases n with
  | zero => exact absurd rfl hz
  | succ n => rfl

-- At every position the invariant holds the accumulator at some contents: its value is forgotten.
theorem PhiS6_weak (c : Dev nD) (n : ℕ) (h : n ≤ cfg6.N) :
    PhiS6 V c n h ⊢ iprop(iprop((∃ d, owns (c : Thread nD τ) scM6 fullShare d) ∗ Rest6 (F := F) c) ∗ (∃ r, prngReg c r)) := by
  cases n with
  | zero => rw [PhiS6_zero V c 0 h rfl, PhiA6_eq]; try exact Idealize.SL.BI.Entails.refl _
  | succ n =>
    rw [PhiS6_succ]
    iintro ⟨⟨HS0, Hr⟩, Hg⟩
    isplitl [HS0 Hr]
    · isplitl [HS0]
      · iexists _; iexact HS0
      iexact Hr
    iexact Hg

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = (outsAt6 V c t.val t.isLt).1 := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl
theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl
theorem before6_4 (c : Dev nD) (t : Fin cfg6.N) (d) : (dat6 V c).before 4 t d = iblk6 V c 4 t :=
  ((dat6 V c).before_in_eq_fetched 4 rfl (fun _ => rfl) (fun _ _ _ => rfl) (fun _ => rfl) t d).trans rfl
theorem before6_5 (c : Dev nD) (t : Fin cfg6.N) (d) : (dat6 V c).before 5 t d = iblk6 V c 5 t :=
  ((dat6 V c).before_in_eq_fetched 5 rfl (fun _ => rfl) (fun _ _ _ => rfl) (fun _ => rfl) t d).trans rfl
theorem before6_6 (c : Dev nD) (t : Fin cfg6.N) (d) : (dat6 V c).before 6 t d = iblk6 V c 6 t :=
  ((dat6 V c).before_in_eq_fetched 6 rfl (fun _ => rfl) (fun _ _ _ => rfl) (fun _ => rfl) t d).trans rfl
theorem before6_7 (c : Dev nD) (t : Fin cfg6.N) (d) : (dat6 V c).before 7 t d = iblk6 V c 7 t :=
  ((dat6 V c).before_in_eq_fetched 7 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t)

set_option maxHeartbeats 8000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).owesAt () t.succ = (dat6 V c).owesAt () t.castSucc from rfl]
  rw [show (dat6 V c).Φ t.succ = PhiS6 V c (t.val + 1) t.isLt from rfl, PhiS6_succ, PhiS6_castSucc V c t]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  rw [show (dat6 V c).leavesExact 4 t = owns (c : Thread nD τ) (ms6_4 t) fullShare ((dat6 V c).after 4 t) from by
    unfold Dat.leavesExact; rw [liveAt6_4 t], after6_4]
  rw [show (dat6 V c).leavesExact 5 t = owns (c : Thread nD τ) (ms6_5 t) fullShare ((dat6 V c).after 5 t) from by
    unfold Dat.leavesExact; rw [liveAt6_5 t], after6_5]
  rw [show (dat6 V c).leavesExact 6 t = owns (c : Thread nD τ) (ms6_6 t) fullShare ((dat6 V c).after 6 t) from by
    unfold Dat.leavesExact; rw [liveAt6_6 t], after6_6]
  rw [show (dat6 V c).leavesExact 7 t = owns (c : Thread nD τ) (ms6_7 t) fullShare ((dat6 V c).after 7 t) from by
    unfold Dat.leavesExact; rw [liveAt6_7 t], after6_7]
  have hw := PhiS6_weak V c t.val (Nat.le_of_lt t.isLt)
  by_cases h0 : t.val % 10 = 0
  · have h1 : ¬t.val % 10 = 9 := by omega
    rw [Dat.leavesExact_idle (dat6 V c) 8 t (idleAt6_8 t (fun h => h1 ((hcond6_1 t).mp h))) (noFlush6_8 t (fun h => h1 ((hcond6_1 t).mp h))), outsAt6_A V c t h0 h1]
    unfold atA sout6_A; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := hw $$ HΦ
    icases HΦ' with ⟨⟨HS0, Hr⟩, Hg⟩
    iapply ((kernelRun6_A c (grid6.coords t) (iblk6 V c 0 t) (iblk6 V c 1 t) (iblk6 V c 2 t) (iblk6 V c 3 t) (iblk6 V c 4 t) (iblk6 V c 5 t) (iblk6 V c 6 t) (iblk6 V c 7 t) _ _ _ _ _ _ _ _ _ _ ((hcond6_0 t).mpr h0) (fun h => h1 ((hcond6_1 t).mp h))).2.2 _ Set.univ _)
    unfold withIns6
    iframe H0 H1 H2 H3 H4 H5 H6 H7
    isplitl [H8]; · iexact H8
    isplitl [HS0]; · iexact HS0
    iintro ⟨H0, H1, H2, H3, H4, H5, H6, H7, H8, ⟨%es0, HS0⟩⟩
    iframe Hr Hg Ho H0 H1 H2 H3 H4 H5 H6 H7
    isplitl [HS0]
    · unfold owns; iexists _; isplitr
      swap; · iexact HS0
      ipureintro; exact View.read_writes_of_cover _ _ _ _ _ (scover6_A c _ _ _ _ _ _ _ _ _ _ _ _ _ _ _ _ _ _ _ _ _)
    iexists _; iexact H8
  · have hz : t.val ≠ 0 := by omega
    rw [PhiS6_pos V c _ _ hz]
    by_cases h1 : t.val % 10 = 9
    · rw [show (dat6 V c).leavesExact 8 t = owns (c : Thread nD τ) (ms6_8 t) fullShare ((dat6 V c).after 8 t) from by
        unfold Dat.leavesExact; rw [liveAt6_8 t ((hcond6_1 t).mpr h1)], after6_8, outsAt6_C V c t h0 h1]
      unfold atC out6_C_8 sout6_C; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun6_C c (grid6.coords t) (iblk6 V c 0 t) (iblk6 V c 1 t) (iblk6 V c 2 t) (iblk6 V c 3 t) (iblk6 V c 4 t) (iblk6 V c 5 t) (iblk6 V c 6 t) (iblk6 V c 7 t) _ _ _ _ _ _ _ _ _ _ (fun h => h0 ((hcond6_0 t).mp h)) ((hcond6_1 t).mpr h1) _).2.2 Set.univ _)
      unfold withIns6
      iframe H0 H1 H2 H3 H4 H5 H6 H7
      isplitl [H8]; · iexists _; iexact H8
      isplitl [HS0]; · iexact HS0
      iintro ⟨H0, H1, H2, H3, H4, H5, H6, H7, ⟨%e8, H8⟩, ⟨%es0, HS0⟩⟩
      iframe Hr Hg Ho H0 H1 H2 H3 H4 H5 H6 H7
      isplitl [HS0]
      · unfold owns; iexists _; isplitr
        swap; · iexact HS0
        ipureintro; exact View.read_writes_of_cover _ _ _ _ _ (scover6_C c _ _ _ _ _ _ _ _ _ _ _ _ _ _ _ _ _ _ _ _ _ _)
      unfold owns; iexists _; isplitr
      swap; · iexact H8
      ipureintro; exact View.read_writes_of_cover _ _ _ _ _ (cover6_C_8 c _ _ _ _ _ _ _ _ _ _ _ _ _ _ _ _ _ _ _ _ _ _)
    · rw [Dat.leavesExact_idle (dat6 V c) 8 t (idleAt6_8 t (fun h => h1 ((hcond6_1 t).mp h))) (noFlush6_8 t (fun h => h1 ((hcond6_1 t).mp h))), outsAt6_B V c t h0 h1]
      unfold atB sout6_B; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun6_B c (grid6.coords t) (iblk6 V c 0 t) (iblk6 V c 1 t) (iblk6 V c 2 t) (iblk6 V c 3 t) (iblk6 V c 4 t) (iblk6 V c 5 t) (iblk6 V c 6 t) (iblk6 V c 7 t) _ _ _ _ _ _ _ _ _ _ (fun h => h0 ((hcond6_0 t).mp h)) (fun h => h1 ((hcond6_1 t).mp h)) _).2.2 _ Set.univ _)
      unfold withIns6
      iframe H0 H1 H2 H3 H4 H5 H6 H7
      isplitl [H8]; · iexact H8
      isplitl [HS0]; · iexact HS0
      iintro ⟨H0, H1, H2, H3, H4, H5, H6, H7, H8, ⟨%es0, HS0⟩⟩
      iframe Hr Hg Ho H0 H1 H2 H3 H4 H5 H6 H7
      isplitl [HS0]
      · unfold owns; iexists _; isplitr
        swap; · iexact HS0
        ipureintro; exact View.read_writes_of_cover _ _ _ _ _ (scover6_B c _ _ _ _ _ _ _ _ _ _ _ _ _ _ _ _ _ _ _ _ _ _)
      iexists _; iexact H8

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl, PhiA6_eq]
  exact PhiS6_weak V c _ _

end Cert.Kernel.Hand

end
-- ==== Proof.KAssembly.lean ====
import proofs.«429421_j77326591197817_3_alg».proof.Proof.KRegion0
import proofs.«429421_j77326591197817_3_alg».proof.Proof.KRegion1
import proofs.«429421_j77326591197817_3_alg».proof.Proof.KRegion2
import proofs.«429421_j77326591197817_3_alg».proof.Proof.KRegion3
import proofs.«429421_j77326591197817_3_alg».proof.Proof.KRegion4
import proofs.«429421_j77326591197817_3_alg».proof.Proof.KRegion5
import proofs.«429421_j77326591197817_3_alg».proof.Proof.KRegion6
import proofs.«429421_j77326591197817_3_alg».proof.Proof.KRunCond

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MM F

variable (m : (ℓ : Loc nD τ sig) → Buf (Elt F) ℓ)

abbrev X3 (c : Dev nD) : Valuation τ sig (Elt F) := V3 m c
abbrev Y3 : EntryVal F := fun c b => X3 m c b
def o4 (c : Dev nD) : Buf (Elt F) ((c : Thread nD τ).loc main_v22) := (dat0 (Y3 m) c).arrAt 3 cfg0.N
abbrev X4 (c : Dev nD) : Valuation τ sig (Elt F) := Function.update (X3 m c) main_v22 (o4 m c)
abbrev X5 (c : Dev nD) : Valuation τ sig (Elt F) := StableHlo.after hostOps1 (X4 m c)
abbrev Y5 : EntryVal F := fun c b => X5 m c b
def o6 (c : Dev nD) : Buf (Elt F) ((c : Thread nD τ).loc main_v33) := (dat1 (Y5 m) c).arrAt 3 cfg1.N
abbrev X6 (c : Dev nD) : Valuation τ sig (Elt F) := Function.update (X5 m c) main_v33 (o6 m c)
abbrev X7 (c : Dev nD) : Valuation τ sig (Elt F) := StableHlo.after hostOps2 (X6 m c)
abbrev Y7 : EntryVal F := fun c b => X7 m c b
def o8 (c : Dev nD) : Buf (Elt F) ((c : Thread nD τ).loc main_v37) := (dat2 (Y7 m) c).arrAt 4 cfg2.N
abbrev X8 (c : Dev nD) : Valuation τ sig (Elt F) := Function.update (X7 m c) main_v37 (o8 m c)
abbrev X9 (c : Dev nD) : Valuation τ sig (Elt F) := StableHlo.after hostOps3 (X8 m c)
abbrev Y9 : EntryVal F := fun c b => X9 m c b
def o10 (c : Dev nD) : Buf (Elt F) ((c : Thread nD τ).loc main_v43) := (dat3 (Y9 m) c).arrAt 8 cfg3.N
abbrev X10 (c : Dev nD) : Valuation τ sig (Elt F) := Function.update (X9 m c) main_v43 (o10 m c)
abbrev X11 (c : Dev nD) : Valuation τ sig (Elt F) := StableHlo.after hostOps4 (X10 m c)
abbrev Y11 : EntryVal F := fun c b => X11 m c b
def o12 (c : Dev nD) : Buf (Elt F) ((c : Thread nD τ).loc main_v54) := (dat4 (Y11 m) c).arrAt 3 cfg4.N
abbrev X12 (c : Dev nD) : Valuation τ sig (Elt F) := Function.update (X11 m c) main_v54 (o12 m c)
abbrev X13 (c : Dev nD) : Valuation τ sig (Elt F) := StableHlo.after hostOps5 (X12 m c)
abbrev Y13 : EntryVal F := fun c b => X13 m c b
def o14 (c : Dev nD) : Buf (Elt F) ((c : Thread nD τ).loc main_v58) := (dat5 (Y13 m) c).arrAt 4 cfg5.N
abbrev X14 (c : Dev nD) : Valuation τ sig (Elt F) := Function.update (X13 m c) main_v58 (o14 m c)
abbrev X15 (c : Dev nD) : Valuation τ sig (Elt F) := StableHlo.after hostOps6 (X14 m c)
abbrev Y15 : EntryVal F := fun c b => X15 m c b
def o16 (c : Dev nD) : Buf (Elt F) ((c : Thread nD τ).loc main_v65) := (dat6 (Y15 m) c).arrAt 8 cfg6.N
abbrev X16 (c : Dev nD) : Valuation τ sig (Elt F) := Function.update (X15 m c) main_v65 (o16 m c)

def outs : Outs (F := F) := fun j r c => match j with
  | 4 => X4 m c r | 6 => X6 m c r | 8 => X8 m c r | 10 => X10 m c r | 12 => X12 m c r | 14 => X14 m c r | _ => X16 m c r

theorem V16_eq (c : Dev nD) : V16 m (outs m) c = X16 m c := rfl

def pdats : (p : Fin 7) → (c : Dev nD) → Dat τ (Elt F) Unit ℕ (UR sig nD τ) ℕ (cfgs p) c
  | ⟨0, _⟩ => dat0 (Y3 m)
  | ⟨1, _⟩ => dat1 (Y5 m)
  | ⟨2, _⟩ => dat2 (Y7 m)
  | ⟨3, _⟩ => dat3 (Y9 m)
  | ⟨4, _⟩ => dat4 (Y11 m)
  | ⟨5, _⟩ => dat5 (Y13 m)
  | ⟨6, _⟩ => dat6 (Y15 m)

abbrev L : GSem nD τ sig → Finset Unit := fun _ => ∅
abbrev lv : GSem nD τ sig → Unit → ℕ := fun _ _ => 0

-- Only the last window is an output, so the exit contents differ from the entry contents at its array alone.
set_option backward.isDefEq.respectTransparency.types false in
def reg {p : Fin 7} (lf : Pipeline.LaunchFacts (nD := nD) (τ := τ) cfgs p) (V V' : Dev nD → Valuation τ sig (Elt F))
    (hA : ∀ c w, (pdats m p c).A w = V c (Pipeline.arrRef (cfgs p).spec w))
    (hb : ∀ c, Pipeline.BodyObligation (pdats m p c) (defs₀ (F := F)) Variants.none () Set.univ)
    (hi : ∀ c, Pipeline.ΦA (cfgs p).spec c ⊢ (pdats m p c).Φ 0)
    (ho : ∀ c, (pdats m p c).Φ (Fin.last (cfgs p).N) ⊢ Pipeline.ΦA (cfgs p).spec c)
    (hk : (cfgs p).W - 1 < (cfgs p).W := by decide)
    (hio : ∀ w, w ≠ ⟨_, hk⟩ → ((cfgs p).win w).isOut = false := by decide)
    (hV : ∀ c, V' c = Function.update (V c) (Pipeline.arrRef (cfgs p).spec ⟨_, hk⟩) ((pdats m p c).arrAt ⟨_, hk⟩ (cfgs p).N) := by
      exact fun _ => rfl)
    (hq : ∀ c w, (pdats m p c).q w = fullShare := by exact fun _ _ => rfl)
    (howed : ∀ c t, (pdats m p c).owed t = 0 := by exact fun _ _ => rfl)
    (hrec : ∀ c x, x ∈ (pdats m p c).recorded 0 := by exact fun _ _ => trivial) :
    RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (V c) ∗ Ride c)
  post c := iprop(StableHlo.held (c : Thread nD τ) (Pipeline.ucRefs τ sig) (V' c) ∗ Ride c)
  X c := iprop(∃ r, prngReg c r)
  Y c := iprop(∃ r, prngReg c r)
  Z c := Pipeline.unscopedRest (cfgs p).spec c fun b => V c b
  hentry c := by
    rw [Pipeline.ownSems0_none]
    have hsplit := Pipeline.arrays_of_unscopedBufs (p := p) (pcfgs (F := F)) adm (pdats m) lf.win lf.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      erw [howed]
      icases HO with ⟨%W, HO⟩; iexists W; isplitr; · ipureintro; exact fun _ _ => Or.inl (hrec c _)
      iexact HO
    isplitl [Hp]; · iexact Hp
    iexact Hrest
  hin c := by
    have h := hi c
    unfold Pipeline.ΦA at h
    iintro ⟨Hp, -, Hr⟩
    iapply h; isplitl [Hr] <;> iassumption
  hout c := by
    rw [Pipeline.ownSems0_none]
    have h := ho c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := p) (pcfgs (F := F)) adm
      lf.win lf.arr_whole c (pdats m) ((pdats m p c).share_full (hq c)) (fun b => V c b) (fun b => V' c b)
      ((pdats m p c).arrAt · (cfgs p).N)
      (fun w => by
        rw [hV c]
        by_cases hw : w = ⟨_, hk⟩
        · subst hw; erw [Function.update_self]
        · exact (((pdats m p c).arrAt_in w (hio w hw) _).trans (hA c w)).trans
            (Function.update_of_ne (StableHlo.devRef_ne_of_ne (lf.win.arr_inj.ne hw)) _ _).symm)
      fun b hb => by
        rw [hV c]
        exact Function.update_of_ne (StableHlo.devRef_ne_of_ne fun e => hb (Finset.mem_image.mpr ⟨_, Finset.mem_univ _, e.symm⟩)) _ _
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    erw [howed]
    icases HO with ⟨%W, -, HO⟩; iexists W; iexact HO

def reg0 := reg m launch0 (V3 m) (V4 m (outs m)) (A_eq0 _) (body_obligation0 _) (hin0 _) (hout0 _)
def reg1 := reg m launch1 (V5 m (outs m)) (V6 m (outs m)) (A_eq1 _) (body_obligation1 _) (hin1 _) (hout1 _)
def reg2 := reg m launch2 (V7 m (outs m)) (V8 m (outs m)) (A_eq2 _) (body_obligation2 _) (hin2 _) (hout2 _)
def reg3 := reg m launch3 (V9 m (outs m)) (V10 m (outs m)) (A_eq3 _) (body_obligation3 _) (hin3 _) (hout3 _)
def reg4 := reg m launch4 (V11 m (outs m)) (V12 m (outs m)) (A_eq4 _) (body_obligation4 _) (hin4 _) (hout4 _)
def reg5 := reg m launch5 (V13 m (outs m)) (V14 m (outs m)) (A_eq5 _) (body_obligation5 _) (hin5 _) (hout5 _)
def reg6 := reg m launch6 (V15 m (outs m)) (V16 m (outs m)) (A_eq6 _) (body_obligation6 _) (hin6 _) (hout6 _)

set_option backward.isDefEq.respectTransparency.types false in
theorem run (ρ : Dev nD → PrngReg) :
    θ_run defs (onTc (τ := τ) (main (F := F))) ⟨m, fun _ => 0, ρ⟩ (fun r => ∀ c : Dev nD,
      r.2.mem ((c.tc : Thread nD τ).loc main_v86) = V20 m (outs m) c main_v86
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_cond m emb₁ () Variants.none L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (fun _ c => Ride c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
end Cert.Kernel.Hand
end
-- ==== Proof.KIBase.lean ====
import proofs.«429421_j77326591197817_3_alg».proof.Proof.Gen.KernelIdeal.Launch
import proofs.«429421_j77326591197817_3_alg».proof.Proof.Gen.KernelIdeal.Skeleton
import proofs.«429421_j77326591197817_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

abbrev MM (F : FTy → Type) : Type := MT nD τ sig Unit (Elt F) ℕ (UR sig nD τ) ℕ

abbrev EntryVal (F : FTy → Type) : Type := (c : Dev nD) → (b : Ref sig .tc) → Buf (Elt F) ((c : Thread nD τ).loc b)

abbrev Ride {F : FTy → Type} (c : Dev nD) : sProp (MM F) :=
  iprop((∃ r, prngReg c r) ∗ ∃ W, owes (c : Thread nD τ) (0 : CellTallies nD τ sig Unit) W)

end Cert.KernelIdeal.Hand

end
-- ==== Proof.KIRegion0.lean ====
import proofs.«429421_j77326591197817_3_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (V : EntryVal F) (c : Dev nD)

local notation "𝕄" => MM F

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0

def out0_3 (x0 : Vec F S5000x128 .f32) (x1 : Vec F S128x128 .f32) (x2 : Vec F S5000x1 .f32) : Vec F S5000x128 .f32 :=
  View.canon [⟨r0_0, k0_pay1 (View.ld x0 r0_0) (View.ld x1 r0_1) (View.ld x2 r0_2)⟩]

set_option maxHeartbeats 1000000 in
/-- The one store covers the output, so what is read back there is `out0_3` of what the inputs read, whatever it held. -/
theorem sound_kernel0 (E : Set ℕ) (i : grid0.Coords) (arg0 : Memref sig .tc .vmem S5000x128 .f32) (harg0 : arg0.IsWhole) (arg1 : Memref sig .tc .vmem S128x128 .f32) (harg1 : arg1.IsWhole) (arg2 : Memref sig .tc .vmem S5000x1 .f32) (harg2 : arg2.IsWhole) (arg3 : Memref sig .tc .vmem S5000x128 .f32) (harg3 : arg3.IsWhole)
    (x0 : Vec F S5000x128 .f32) (x1 : Vec F S128x128 .f32) (x2 : Vec F S5000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_scaled_kernel i arg0 harg0 arg1 harg1 arg2 harg2 arg3 harg3) K := by
  simp only [cc0__linear_scaled_kernel_eq_skeleton]; unfold cc0__linear_scaled_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x128.size (by rfl))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := rfl

theorem after0_3 (t : Fin cfg0.N) :
    (dat0 V c).after 3 t = out0_3 (iblk0 V c 0 t) (iblk0 V c 1 t) (iblk0 V c 2 t) := by dsimp only [dat0]

theorem hin0 : Pipeline.ΦA spec0 c ⊢ (dat0 V c).Φ 0 := .rfl
theorem hout0 : (dat0 V c).Φ (Fin.last cfg0.N) ⊢ Pipeline.ΦA spec0 c := .rfl

theorem before0 : ∀ w : Fin cfg0.W, w ≠ 3 → ∀ t d, (dat0 V c).before w t d = (dat0 V c).after w t
  | ⟨0, _⟩, _ | ⟨1, _⟩, _ | ⟨2, _⟩, _ => fun t d =>
    ((dat0 V c).before_in_eq_fetched _ rfl (fun _ => rfl) (fun _ _ _ => rfl) (fun _ => rfl) t d).trans rfl
  | ⟨3, _⟩, h => absurd rfl h

theorem body_obligation0 : BodyObligation (dat0 (F := F) V c) (defs₀ (F := F)) Variants.none () Set.univ := fun t => by
  rw [bigSep_W0, bigSep_W0]
  show _ ⊢ wp frame _ _ (bodyAt0 t) _
  unfold bodyAt0
  simp only [before0 V c 0 (by decide), before0 V c 1 (by decide), before0 V c 2 (by decide)]
  rw [show (dat0 V c).Φ t.succ = (dat0 V c).Φ t.castSucc from rfl,
    show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Hand

end
-- ==== Proof.KIRegion1.lean ====
import proofs.«429421_j77326591197817_3_alg».proof.Proof.KIBase
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : EntryVal F)

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

theorem liveAt1 : ∀ w : Fin cfg1.W, w ≠ 3 → ∀ t : Fin cfg1.N, cfg1.idle w (grid1.coords t) = false := by decide +kernel
theorem idleAt1_3 : ∀ t : Fin cfg1.N, ¬cond1_1 (grid1.coords t) → cfg1.idle 3 (grid1.coords t) = true ∧ (cfg1.win 3).flush t = false := by decide +kernel
theorem liveAt1_3 : ∀ t : Fin cfg1.N, cond1_1 (grid1.coords t) → cfg1.idle 3 (grid1.coords t) = false := by decide +kernel

abbrev ms1_0 (t : Fin cfg1.N) : Memref sig .tc .vmem S5000x128 .f32 := win1_0.stage (cfg1.slots t 0)
abbrev ms1_1 (t : Fin cfg1.N) : Memref sig .tc .vmem S5000x1 .f32 := win1_1.stage (cfg1.slots t 1)
abbrev ms1_2 (t : Fin cfg1.N) : Memref sig .tc .vmem S1x128 .f32 := win1_2.stage (cfg1.slots t 2)
abbrev ms1_3 (t : Fin cfg1.N) : Memref sig .tc .vmem S1x1x128 .f32 := win1_3.stage (cfg1.slots t 3)
abbrev scM1_0 : Memref sig .tc .vmem S1x1x128 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns c scM1_0 fullShare d)) ∗ rest1 c) ∗ (∃ r, prngReg c r)) := by
  unfold Pipeline.ΦA; rw [scopedRest1_split]; simp only [scM1_0, owns_whole]; try rfl

section
variable (c : Dev nD) (i : grid1.Coords) {arg2 : Memref sig .tc .vmem S5000x128 .f32} (harg2 : arg2.IsWhole) {arg3 : Memref sig .tc .vmem S5000x1 .f32} (harg3 : arg3.IsWhole) {arg4 : Memref sig .tc .vmem S1x128 .f32} (harg4 : arg4.IsWhole) {arg5 arg6 : Memref sig .tc .vmem S1x1x128 .f32} (harg5 : arg5.IsWhole) (harg6 : arg6.IsWhole)
  (x0 : Vec F S5000x128 .f32) (x1 : Vec F S5000x1 .f32) (x2 : Vec F S1x128 .f32) (xs0 : Vec F S1x1x128 .f32)

set_option maxHeartbeats 1000000 in
noncomputable def kernelRun1_A (hc0 : cond1_0 i) (hc1 : ¬cond1_1 i) :
    { LS0 : List (View.Piece (Elt F) S1x1x128 .f32) //
      ∀ (xi3 : Vec F S1x1x128 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc1__sum_kernel i arg2 harg2 arg3 harg3 arg4 harg4 arg5 harg5 arg6 harg6) K } := by
  refine ⟨?_, fun xi3 E K => ?run⟩
  case run =>
    simp only [cc1__sum_kernel_eq_skeleton]; unfold cc1__sum_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
noncomputable def kernelRun1_B (hc0 : ¬cond1_0 i) (hc1 : ¬cond1_1 i) :
    { LS0 : List (View.Piece (Elt F) S1x1x128 .f32) //
      ∀ (xi3 : Vec F S1x1x128 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc1__sum_kernel i arg2 harg2 arg3 harg3 arg4 harg4 arg5 harg5 arg6 harg6) K } := by
  refine ⟨?_, fun xi3 E K => ?run⟩
  case run =>
    simp only [cc1__sum_kernel_eq_skeleton]; unfold cc1__sum_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
noncomputable def kernelRun1_C (hc0 : ¬cond1_0 i) (hc1 : cond1_1 i) :
    Σ' (L3 : List (View.Piece (Elt F) S1x1x128 .f32)), { LS0 : List (View.Piece (Elt F) S1x1x128 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc c ↦[arg5.view.set]{fullShare} arg5.view.writes (Elt F) f L3) ∗ (∃ f, arg6.view.loc c ↦[arg6.view.set]{fullShare} arg6.view.writes (Elt F) f LS0)) -∗ K ⟨⟩))
          ⊢ wp frame (wpE (defs₀ (F := F)) Variants.none c none) E (cc1__sum_kernel i arg2 harg2 arg3 harg3 arg4 harg4 arg5 harg5 arg6 harg6) K } := by
  refine ⟨?_, ?_, fun E K => ?run⟩
  case run =>
    simp only [cc1__sum_kernel_eq_skeleton]; unfold cc1__sum_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

theorem hz1_3 : (![0, 0, 0] : Fin 3 → Nat) = fun _ => 0 := funext fun a => by fin_cases a <;> rfl
theorem hz1_2 : (![0, 0] : Fin 2 → Nat) = fun _ => 0 := funext fun a => by fin_cases a <;> rfl

variable (v : View sig .tc .vmem S1x1x128 .f32) (f : v.ty.Contents (Elt F))

theorem sout1_A (hc0 : cond1_0 i) (hc1 : ¬cond1_1 i) :
    v.read (Elt F) (v.writes (Elt F) f (kernelRun1_A c i harg2 harg3 harg4 harg5 harg6 x0 x1 x2 hc0 hc1).1) = k1_pay2 x0 x1 x2 (k1_pay1 (F := F)) := by
  rw [View.read_writes_eq_canon _ _ _ (View.cover_of_tiledL (kernelRun1_A c i harg2 harg3 harg4 harg5 harg6 x0 x1 x2 hc0 hc1).1 S1x1x128.size (by sl_kernel_rfl))]
  unfold kernelRun1_A
  dsimp only
  sl_unfold_words
  rw [View.canon_cons_unit_zero (S := S1x1x128) hz1_3, View.readCov_unit_zero (S := S1x1x128) _ hz1_3]
  simp only [View.readAt_eq_ld, harg2.read_unread, harg3.read_unread, harg4.read_unread, harg6.read_unread, View.ld_unit_zero (S := S5000x128) hz1_2, View.ld_unit_zero (S := S5000x1) hz1_2, View.ld_unit_zero (S := S1x128) hz1_2, View.ld_unit_zero (S := S1x1x128) hz1_3]

theorem sout1_B (hc0 : ¬cond1_0 i) (hc1 : ¬cond1_1 i) :
    v.read (Elt F) (v.writes (Elt F) f (kernelRun1_B c i harg2 harg3 harg4 harg5 harg6 x0 x1 x2 xs0 hc0 hc1).1) = k1_pay2 x0 x1 x2 xs0 := by
  rw [View.read_writes_eq_canon _ _ _ (View.cover_of_tiledL (kernelRun1_B c i harg2 harg3 harg4 harg5 harg6 x0 x1 x2 xs0 hc0 hc1).1 S1x1x128.size (by sl_kernel_rfl))]
  unfold kernelRun1_B
  dsimp only
  rw [View.canon_unit_zero hz1_3]
  simp only [View.readAt_eq_ld, harg2.read_unread, harg3.read_unread, harg4.read_unread, harg6.read_unread, View.ld_unit_zero (S := S5000x128) hz1_2, View.ld_unit_zero (S := S5000x1) hz1_2, View.ld_unit_zero (S := S1x128) hz1_2, View.ld_unit_zero (S := S1x1x128) hz1_3]

theorem sout1_C (hc0 : ¬cond1_0 i) (hc1 : cond1_1 i) :
    v.read (Elt F) (v.writes (Elt F) f (kernelRun1_C c i harg2 harg3 harg4 harg5 harg6 x0 x1 x2 xs0 hc0 hc1).2.1) = k1_pay2 x0 x1 x2 xs0 := by
  rw [View.read_writes_eq_canon _ _ _ (View.cover_of_tiledL (kernelRun1_C c i harg2 harg3 harg4 harg5 harg6 x0 x1 x2 xs0 hc0 hc1).2.1 S1x1x128.size (by sl_kernel_rfl))]
  unfold kernelRun1_C
  dsimp only
  sl_unfold_words
  rw [View.canon_unit_zero hz1_3]
  simp only [View.readAt_eq_ld, harg2.read_unread, harg3.read_unread, harg4.read_unread, harg6.read_unread, View.ld_unit_zero (S := S5000x128) hz1_2, View.ld_unit_zero (S := S5000x1) hz1_2, View.ld_unit_zero (S := S1x128) hz1_2, View.ld_unit_zero (S := S1x1x128) hz1_3]

theorem out1_C_3 (hc0 : ¬cond1_0 i) (hc1 : cond1_1 i) :
    v.read (Elt F) (v.writes (Elt F) f (kernelRun1_C c i harg2 harg3 harg4 harg5 harg6 x0 x1 x2 xs0 hc0 hc1).1) = k1_pay2 x0 x1 x2 xs0 := by
  rw [View.read_writes_eq_canon _ _ _ (View.cover_of_tiledL (kernelRun1_C c i harg2 harg3 harg4 harg5 harg6 x0 x1 x2 xs0 hc0 hc1).1 S1x1x128.size (by sl_kernel_rfl))]
  unfold kernelRun1_C
  dsimp only
  sl_unfold_words
  rw [View.canon_unit_zero hz1_3, View.readCov_unit_zero (S := S1x1x128) _ hz1_3]
  simp only [View.readAt_eq_ld, harg2.read_unread, harg3.read_unread, harg4.read_unread, harg6.read_unread, View.ld_unit_zero (S := S5000x128) hz1_2, View.ld_unit_zero (S := S5000x1) hz1_2, View.ld_unit_zero (S := S1x128) hz1_2, View.ld_unit_zero (S := S1x1x128) hz1_3]

end

def acc1 (c : Dev nD) : (n : ℕ) → n < cfg1.N → Vec F S1x1x128 .f32
  | 0, hn => k1_pay2 (iblk1 V c 0 ⟨0, hn⟩) (iblk1 V c 1 ⟨0, hn⟩) (iblk1 V c 2 ⟨0, hn⟩) (k1_pay1 (F := F))
  | n + 1, hn =>
    if (n + 1) % 10 = 0 then k1_pay2 (iblk1 V c 0 ⟨n + 1, hn⟩) (iblk1 V c 1 ⟨n + 1, hn⟩) (iblk1 V c 2 ⟨n + 1, hn⟩) (k1_pay1 (F := F))
    else k1_pay2 (iblk1 V c 0 ⟨n + 1, hn⟩) (iblk1 V c 1 ⟨n + 1, hn⟩) (iblk1 V c 2 ⟨n + 1, hn⟩) (acc1 c n (Nat.lt_of_succ_lt hn))

theorem acc1_reset (c : Dev nD) (t : Fin cfg1.N) (h0 : t.val % 10 = 0) :
    acc1 V c t.val t.isLt = k1_pay2 (iblk1 V c 0 t) (iblk1 V c 1 t) (iblk1 V c 2 t) (k1_pay1 (F := F)) := by
  obtain ⟨n, hn⟩ := t
  cases n with
  | zero => rfl
  | succ n => exact (if_pos h0).trans rfl

theorem acc1_step (c : Dev nD) (t : Fin cfg1.N) (h0 : ¬t.val % 10 = 0) :
    acc1 V c t.val t.isLt = k1_pay2 (iblk1 V c 0 t) (iblk1 V c 1 t) (iblk1 V c 2 t) (acc1 V c (t.val - 1) (Nat.lt_of_le_of_lt (Nat.sub_le _ _) t.isLt)) := by
  obtain ⟨n, hn⟩ := t
  cases n with
  | zero => exact absurd (Nat.zero_mod _) h0
  | succ n => exact (if_neg h0).trans rfl

def PhiS1 (c : Dev nD) (n : ℕ) (hn : n ≤ cfg1.N) : sProp 𝕄 :=
  iprop(iprop(iprop(∃ d, ⌜∀ h : n ≠ 0, d = acc1 V c (n - 1) (by omega)⌝ ∗ owns c scM1_0 fullShare d) ∗ rest1 c) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns c (ms1_0 t) fullShare ((dat1 V c).before 0 t d))
    ∗ (∃ d, owns c (ms1_1 t) fullShare ((dat1 V c).before 1 t d))
    ∗ (∃ d, owns c (ms1_2 t) fullShare ((dat1 V c).before 2 t d))
    ∗ (∃ d, owns c (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl,
    show (dat1 V c).Φ t.castSucc = PhiS1 V c t.val (Nat.le_of_lt t.isLt) from rfl,
    show (dat1 V c).leavesExact 0 t = owns c (ms1_0 t) fullShare (iblk1 V c 0 t) from by
      unfold Dat.leavesExact; rw [liveAt1 0 (by decide) t]; rfl,
    show (dat1 V c).leavesExact 1 t = owns c (ms1_1 t) fullShare (iblk1 V c 1 t) from by
      unfold Dat.leavesExact; rw [liveAt1 1 (by decide) t]; rfl,
    show (dat1 V c).leavesExact 2 t = owns c (ms1_2 t) fullShare (iblk1 V c 2 t) from by
      unfold Dat.leavesExact; rw [liveAt1 2 (by decide) t]; rfl]
  unfold PhiS1
  have e0 := hcond1_0 t
  have e1 := hcond1_1 t
  by_cases h0 : t.val % 10 = 0
  · have hc0 : cond1_0 (grid1.coords t) := e0.mpr h0
    have hc1 : ¬cond1_1 (grid1.coords t) := fun h => by have := e1.mp h; omega
    rw [Dat.leavesExact_idle (dat1 V c) 3 t (idleAt1_3 t hc1).1 (idleAt1_3 t hc1).2]
    iintro ⟨⟨⟨⟨%ds, -, HS0⟩, Hr⟩, Hg⟩, Ho, ⟨%d0, H0⟩, ⟨%d1, H1⟩, ⟨%d2, H2⟩, ⟨%d3, H3⟩⟩
    iapply ((kernelRun1_A c (grid1.coords t) _ _ _ _ _ (iblk1 V c 0 t) (iblk1 V c 1 t) (iblk1 V c 2 t) hc0 hc1).2 _ Set.univ _)
    iframe H0 H1 H2
    isplitl [H3]; · iexact H3
    isplitl [HS0]; · iexists _; iexact HS0
    iintro ⟨H0, H1, H2, H3, ⟨%es0, HS0⟩⟩
    iframe Hr Hg Ho H0 H1 H2
    isplitl [HS0]
    · iexists _; isplitr; · ipureintro; exact fun _ => (acc1_reset V c t h0).symm
      unfold owns; iexists _; isplitr; swap; · iexact HS0
      ipureintro; exact sout1_A c _ _ _ _ _ _ _ _ _ _ _ hc0 hc1
    iexists _; iexact H3
  have hc0 : ¬cond1_0 (grid1.coords t) := fun h => h0 (e0.mp h)
  iintro ⟨⟨⟨⟨%ds, %hds, HS0⟩, Hr⟩, Hg⟩, Ho, ⟨%d0, H0⟩, ⟨%d1, H1⟩, ⟨%d2, H2⟩, ⟨%d3, H3⟩⟩
  obtain rfl := hds fun h => h0 (by rw [h])
  by_cases h1 : t.val % 10 = 9
  · have hc1 : cond1_1 (grid1.coords t) := e1.mpr h1
    rw [show (dat1 V c).leavesExact 3 t = owns c (ms1_3 t) fullShare (acc1 V c t.val t.isLt) from by
      unfold Dat.leavesExact; rw [liveAt1_3 t hc1]; rfl, acc1_step V c t h0]
    iapply ((kernelRun1_C c (grid1.coords t) _ _ _ _ _ (iblk1 V c 0 t) (iblk1 V c 1 t) (iblk1 V c 2 t) _ hc0 hc1).2.2 Set.univ _)
    iframe H0 H1 H2
    isplitl [H3]; · iexists _; iexact H3
    isplitl [HS0]; · iexact HS0
    iintro ⟨H0, H1, H2, ⟨%e3, H3⟩, ⟨%es0, HS0⟩⟩
    iframe Hr Hg Ho H0 H1 H2
    isplitl [HS0]
    · iexists _; isplitr; · ipureintro; exact fun _ => (acc1_step V c t h0).symm
      unfold owns; iexists _; isplitr; swap; · iexact HS0
      ipureintro; exact sout1_C c _ _ _ _ _ _ _ _ _ _ _ _ hc0 hc1
    unfold owns; iexists _; isplitr; swap; · iexact H3
    ipureintro; exact out1_C_3 c _ _ _ _ _ _ _ _ _ _ _ _ hc0 hc1
  · have hc1 : ¬cond1_1 (grid1.coords t) := fun h => h1 (e1.mp h)
    rw [Dat.leavesExact_idle (dat1 V c) 3 t (idleAt1_3 t hc1).1 (idleAt1_3 t hc1).2]
    iapply ((kernelRun1_B c (grid1.coords t) _ _ _ _ _ (iblk1 V c 0 t) (iblk1 V c 1 t) (iblk1 V c 2 t) _ hc0 hc1).2 _ Set.univ _)
    iframe H0 H1 H2
    isplitl [H3]; · iexact H3
    isplitl [HS0]; · iexact HS0
    iintro ⟨H0, H1, H2, H3, ⟨%es0, HS0⟩⟩
    iframe Hr Hg Ho H0 H1 H2
    isplitl [HS0]
    · iexists _; isplitr; · ipureintro; exact fun _ => (acc1_step V c t h0).symm
      unfold owns; iexists _; isplitr; swap; · iexact HS0
      ipureintro; exact sout1_B c _ _ _ _ _ _ _ _ _ _ _ _ hc0 hc1
    iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq, show (dat1 V c).Φ 0 = PhiS1 V c 0 (Nat.zero_le _) from rfl]
  unfold PhiS1
  iintro ⟨⟨⟨%d, HS0⟩, Hr⟩, Hg⟩
  isplitl [HS0 Hr]
  · isplitl [HS0]
    · iexists d; isplitr; · ipureintro; exact fun h => absurd rfl h
      iexact HS0
    iexact Hr
  iexact Hg

theorem hout1 (c : Dev nD) : (dat1 V c).Φ (Fin.last cfg1.N) ⊢ Pipeline.ΦA spec1 c := by
  rw [PhiA1_eq, show (dat1 V c).Φ (Fin.last cfg1.N) = PhiS1 V c cfg1.N (Nat.le_refl _) from rfl]
  unfold PhiS1
  iintro ⟨⟨⟨%d, -, HS0⟩, Hr⟩, Hg⟩
  isplitl [HS0 Hr]
  · isplitl [HS0]
    · iexists _; iexact HS0
    iexact Hr
  iexact Hg

end Cert.KernelIdeal.Hand

end
-- ==== Proof.KIRegion2.lean ====
import proofs.«429421_j77326591197817_3_alg».proof.Proof.KIBase
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : EntryVal F)

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

abbrev scM2 : Memref sig .tc .vmem S1x1x128 .f32 := Memref.whole cc2_scratch0

-- The region's invariant, with the accumulator held as P.
abbrev inv2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

theorem PhiA2_eq (c : Dev nD) : (Pipeline.ΦA spec2 c : sProp 𝕄) = inv2 c iprop(∃ d, owns (c : Thread nD τ) scM2 fullShare d) := by
  unfold Pipeline.ΦA; rw [scopedRest2_split]; simp only [scM2, owns_whole]; try rfl

section Whole
variable {κ : Kind} {sp : Space} {S : Shape} {e : EltTy} (v : View sig κ sp S e) {off : Fin S.rank → Nat}
  (inb : ∀ a, off a + S.size a ≤ S.size a) (f : v.ty.Contents (Elt F)) (w : S.Idx → Elt F e)

-- A rectangle of the whole shape's size that fits starts at zero.
theorem off_zero2 {S : Shape} {off : Fin S.rank → Nat} (inb : ∀ a, off a + S.size a ≤ S.size a) : off = fun _ => 0 :=
  funext fun a => by have := inb a; show off a = 0; omega

-- A load through it reads the contents,
theorem readAt_whole2 : v.readAt (Elt F) (Rect.unit off S.size inb).toLoadRect f = v.read (Elt F) f :=
  (View.readAt_eq_ld v f _).trans (View.ld_unit_zero (off_zero2 inb) inb _)

-- or, of what one store through it left, the payload;
theorem readCov_whole2 : v.readCov [(⟨Rect.unit off S.size inb, w⟩ : View.Piece (Elt F) S e)] (Rect.unit off S.size inb).toLoadRect = w :=
  View.readCov_unit_zero v (off_zero2 inb) inb w

-- a store through it, last, covers every element.
theorem read_writes_whole2 (L : List (View.Piece (Elt F) S e)) :
    v.read (Elt F) (v.writes (Elt F) f ((⟨Rect.unit off S.size inb, w⟩ : View.Piece (Elt F) S e) :: L)) = w :=
  (View.read_writes_eq_canon v f _ (fun y => ⟨⟨Rect.unit off S.size inb, w⟩, List.mem_cons.mpr (Or.inl rfl),
    View.mem_set_unit_zero (off_zero2 inb) inb y⟩)).trans (View.canon_cons_unit_zero (off_zero2 inb) inb w L)
end Whole

section Run
variable (c : Dev nD) (E : Set ℕ) (i : grid2.Coords)
  {arg2 : Memref sig .tc .vmem S5000x128 .f32} (harg2 : arg2.IsWhole) {arg3 : Memref sig .tc .vmem S5000x1 .f32} (harg3 : arg3.IsWhole)
  {arg4 arg5 : Memref sig .tc .vmem S1x128 .f32} (harg4 : arg4.IsWhole) (harg5 : arg5.IsWhole)
  {arg6 arg7 : Memref sig .tc .vmem S1x1x128 .f32} (harg6 : arg6.IsWhole) (harg7 : arg7.IsWhole)
  (x0 : Vec F S5000x128 .f32) (x1 : Vec F S5000x1 .f32) (x2 x3 : Vec F S1x128 .f32) (xi s : Vec F S1x1x128 .f32)

-- The body's triple: the inputs are handed back as found, the output's buffer and the accumulator are left at o6 and o7.
abbrev Run2 (o6 o7 : Vec F S1x1x128 .f32) (K : PUnit → sProp 𝕄) : Prop :=
  iprop(owns (c : Thread nD τ) arg2 fullShare x0 ∗ owns (c : Thread nD τ) arg3 fullShare x1 ∗ owns (c : Thread nD τ) arg4 fullShare x2 ∗ owns (c : Thread nD τ) arg5 fullShare x3
      ∗ owns (c : Thread nD τ) arg6 fullShare xi ∗ owns (c : Thread nD τ) arg7 fullShare s
      ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare o6 ∗ owns (c : Thread nD τ) arg7 fullShare o7) -∗ K ⟨⟩))
    ⊢ wp frame (wpE (defs₀ (F := F)) Variants.none c none) E (cc2__var_kernel i arg2 harg2 arg3 harg3 arg4 harg4 arg5 harg5 arg6 harg6 arg7 harg7) K

set_option maxHeartbeats 1000000 in
-- At the first point of a row the accumulator is reset, then this tile's contribution is added.
theorem runA2 (hc0 : cond2_0 i) (hc1 : ¬cond2_1 i)  (K : PUnit → sProp 𝕄) :
    Run2 c E i harg2 harg3 harg4 harg5 harg6 harg7 x0 x1 x2 x3 xi s xi (k2_pay2 x0 x1 x2 x3 (k2_pay1 (F := F))) K := by
  unfold Run2 owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  iexists _; isplitr; swap; · iexact H7
  ipureintro; sl_unfold_run_names
  rw [read_writes_whole2 arg7.view, readCov_whole2 arg7.view, readAt_whole2 arg2.view, readAt_whole2 arg3.view, readAt_whole2 arg4.view, readAt_whole2 arg5.view]

set_option maxHeartbeats 1000000 in
-- At a middle point this tile's contribution is added to the accumulator.
theorem runB2 (hc0 : ¬cond2_0 i) (hc1 : ¬cond2_1 i)  (K : PUnit → sProp 𝕄) :
    Run2 c E i harg2 harg3 harg4 harg5 harg6 harg7 x0 x1 x2 x3 xi s xi (k2_pay2 x0 x1 x2 x3 s) K := by
  unfold Run2 owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  iexists _; isplitr; swap; · iexact H7
  ipureintro; sl_unfold_run_names
  rw [read_writes_whole2 arg7.view, readAt_whole2 arg2.view, readAt_whole2 arg3.view, readAt_whole2 arg4.view, readAt_whole2 arg5.view, readAt_whole2 arg7.view]

set_option maxHeartbeats 1000000 in
-- At the last point of a row the accumulator, once added to, is copied into the output's buffer.
theorem runC2 (hc0 : ¬cond2_0 i) (hc1 : cond2_1 i)  (K : PUnit → sProp 𝕄) :
    Run2 c E i harg2 harg3 harg4 harg5 harg6 harg7 x0 x1 x2 x3 xi s (k2_pay2 x0 x1 x2 x3 s) (k2_pay2 x0 x1 x2 x3 s) K := by
  unfold Run2 owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr; swap; · iexact H6
    ipureintro; sl_unfold_run_names
    rw [read_writes_whole2 arg6.view, readCov_whole2 arg7.view, readAt_whole2 arg2.view, readAt_whole2 arg3.view, readAt_whole2 arg4.view, readAt_whole2 arg5.view, readAt_whole2 arg7.view]
  iexists _; isplitr; swap; · iexact H7
  ipureintro; sl_unfold_run_names
  rw [read_writes_whole2 arg7.view, readAt_whole2 arg2.view, readAt_whole2 arg3.view, readAt_whole2 arg4.view, readAt_whole2 arg5.view, readAt_whole2 arg7.view]
end Run

-- This tile's contribution added to s.
abbrev step2 (c : Dev nD) (t : Fin cfg2.N) (s : Vec F S1x1x128 .f32) : Vec F S1x1x128 .f32 :=
  k2_pay2 (iblk2 V c 0 t) (iblk2 V c 1 t) (iblk2 V c 2 t) (iblk2 V c 3 t) s

-- What the accumulator holds after the body at position n: the contributions of the row's tiles so far, over zeros.
def acc2 (c : Dev nD) : (n : ℕ) → n < cfg2.N → Vec F S1x1x128 .f32
  | 0, hn => step2 V c ⟨0, hn⟩ (k2_pay1 (F := F))
  | n + 1, hn => step2 V c ⟨n + 1, hn⟩ (if (n + 1) % 10 = 0 then k2_pay1 (F := F) else acc2 c n (Nat.lt_of_succ_lt hn))

theorem acc2_eq (c : Dev nD) (t : Fin cfg2.N) : acc2 V c t.val t.isLt
    = step2 V c t (if t.val % 10 = 0 then k2_pay1 (F := F) else acc2 V c (t.val - 1) (Nat.lt_of_le_of_lt (Nat.sub_le _ _) t.isLt)) := by
  obtain ⟨_ | n, hn⟩ := t <;> rfl

-- The invariant before position n: from the second position on the accumulator is at what the position before left.
def PhiS2 (c : Dev nD) : (n : ℕ) → n ≤ cfg2.N → sProp 𝕄
  | 0, _ => Pipeline.ΦA spec2 c
  | n + 1, hn => inv2 c (owns (c : Thread nD τ) scM2 fullShare (acc2 V c n hn))

theorem PhiS2_pos (c : Dev nD) (n : ℕ) (h : n ≤ cfg2.N) (hz : n ≠ 0) :
    PhiS2 V c n h = inv2 c (owns (c : Thread nD τ) scM2 fullShare (acc2 V c (n - 1) (by omega))) := by
  cases n with
  | zero => exact absurd rfl hz
  | succ n => rfl

-- At any position it gives back the accumulator at some contents.
theorem Phi_out2 (c : Dev nD) : ∀ (n : ℕ) (h : n ≤ cfg2.N), PhiS2 V c n h ⊢ inv2 c iprop(∃ d, owns (c : Thread nD τ) scM2 fullShare d)
  | 0, _ => by rw [PhiS2, PhiA2_eq]
  | n + 1, _ => by
    rw [PhiS2]; unfold inv2
    iintro ⟨⟨HS, HR⟩, Hg⟩
    iframe HR Hg
    iexists _; iexact HS

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_4 (c : Dev nD) (t : Fin cfg2.N) : (dat2 V c).after 4 t = acc2 V c t.val t.isLt := rfl

-- The body leaves the inputs as it finds them, so each input holds its block at every point.
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

set_option maxHeartbeats 4800000 in
-- The body at any point: which case the point is in is read off its position in the row.
theorem sound_body2 (c : Dev nD) (t : Fin cfg2.N) :
    iprop(PhiS2 V c t.val (Nat.le_of_lt t.isLt) ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d)))
    ⊢ wp frame (wpE (defs₀ (F := F)) Variants.none c none) Set.univ (bodyAt2 t) (fun _ =>
      iprop(inv2 c (owns (c : Thread nD τ) scM2 fullShare (acc2 V c t.val t.isLt)) ∗ (dat2 V c).owesAt () t.castSucc
        ∗ owns (c : Thread nD τ) (st2_0 t) fullShare (iblk2 V c 0 t) ∗ owns (c : Thread nD τ) (st2_1 t) fullShare (iblk2 V c 1 t)
        ∗ owns (c : Thread nD τ) (st2_2 t) fullShare (iblk2 V c 2 t) ∗ owns (c : Thread nD τ) (st2_3 t) fullShare (iblk2 V c 3 t) ∗ (dat2 V c).leavesExact 4 t)) := by
  simp only [before2_0, before2_1, before2_2, before2_3]
  rw [acc2_eq V c t]
  by_cases h0 : t.val % 10 = 0
  · have hc0 := (hcond2_0 t).mpr h0
    have hc1 : ¬cond2_1 (grid2.coords t) := fun h => by have := (hcond2_1 t).mp h; omega
    rw [Dat.leavesExact_idle (dat2 V c) 4 t (idleAt2_4 t hc1) (noFlush2_4 t hc1), if_pos h0]
    refine (sep_mono_left (Phi_out2 V c _ _)).trans ?_
    unfold inv2
    iintro ⟨⟨⟨⟨%s, HS⟩, HR⟩, Hg⟩, Ho, ⟨%d0, H0⟩, ⟨%d1, H1⟩, ⟨%d2, H2⟩, ⟨%d3, H3⟩, ⟨%d4, H4⟩⟩
    iapply (runA2 c Set.univ (grid2.coords t) _ _ _ _ _ _ (iblk2 V c 0 t) (iblk2 V c 1 t) (iblk2 V c 2 t) (iblk2 V c 3 t) _ _ hc0 hc1 _)
    iframe H0 H1 H2 H3 H4 HS
    iintro ⟨H0, H1, H2, H3, H4, HS⟩
    iframe HS HR Hg Ho H0 H1 H2 H3
    iexists _; iexact H4
  · have hc0 : ¬cond2_0 (grid2.coords t) := fun h => h0 ((hcond2_0 t).mp h)
    rw [if_neg h0, PhiS2_pos V c _ _ fun h => h0 (by rw [h])]
    by_cases h1 : t.val % 10 = 9
    · have hc1 := (hcond2_1 t).mpr h1
      rw [show (dat2 V c).leavesExact 4 t = owns (c : Thread nD τ) (st2_4 t) fullShare ((dat2 V c).after 4 t) from by
        unfold Dat.leavesExact; rw [liveAt2_4 t hc1], after2_4, acc2_eq V c t, if_neg h0]
      unfold inv2
      iintro ⟨⟨⟨HS, HR⟩, Hg⟩, Ho, ⟨%d0, H0⟩, ⟨%d1, H1⟩, ⟨%d2, H2⟩, ⟨%d3, H3⟩, ⟨%d4, H4⟩⟩
      iapply (runC2 c Set.univ (grid2.coords t) _ _ _ _ _ _ (iblk2 V c 0 t) (iblk2 V c 1 t) (iblk2 V c 2 t) (iblk2 V c 3 t) _ _ hc0 hc1 _)
      iframe H0 H1 H2 H3 H4 HS
      iintro ⟨H0, H1, H2, H3, H4, HS⟩
      iframe HS HR Hg Ho H0 H1 H2 H3
      iexact H4
    · have hc1 : ¬cond2_1 (grid2.coords t) := fun h => h1 ((hcond2_1 t).mp h)
      rw [Dat.leavesExact_idle (dat2 V c) 4 t (idleAt2_4 t hc1) (noFlush2_4 t hc1)]
      unfold inv2
      iintro ⟨⟨⟨HS, HR⟩, Hg⟩, Ho, ⟨%d0, H0⟩, ⟨%d1, H1⟩, ⟨%d2, H2⟩, ⟨%d3, H3⟩, ⟨%d4, H4⟩⟩
      iapply (runB2 c Set.univ (grid2.coords t) _ _ _ _ _ _ (iblk2 V c 0 t) (iblk2 V c 1 t) (iblk2 V c 2 t) (iblk2 V c 3 t) _ _ hc0 hc1 _)
      iframe H0 H1 H2 H3 H4 HS
      iintro ⟨H0, H1, H2, H3, H4, HS⟩
      iframe HS HR Hg Ho H0 H1 H2 H3
      iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := by
  rw [PhiA2_eq]; exact Phi_out2 V c cfg2.N (Nat.le_refl _)

end Cert.KernelIdeal.Hand

end
-- ==== Proof.KIRegion3.lean ====
import proofs.«429421_j77326591197817_3_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (V : EntryVal F) (c : Dev nD)

local notation "𝕄" => MM F

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_a : Rect S5000x128 := Rect.unit (s := S5000x128) ![0, 0] S5000x128.size inb_S5000x128_S5000x128_0_0
abbrev r3_d : Rect S5000x1 := Rect.unit (s := S5000x1) ![0, 0] S5000x1.size inb_S5000x1_S5000x1_0_0
abbrev r3_r : Rect S1x128 := Rect.unit (s := S1x128) ![0, 0] S1x128.size inb_S1x128_S1x128_0_0
abbrev r3_w : Rect S128x128 := Rect.unit (s := S128x128) ![0, 0] S128x128.size inb_S128x128_S128x128_0_0

def val3 (x0 : Vec F S5000x128 .f32) (x1 : Vec F S5000x1 .f32) (x2 x3 x4 x5 x6 : Vec F S1x128 .f32) (x7 : Vec F S128x128 .f32) :
    Vec F S5000x128 .f32 :=
  k3_pay1 (View.ld x0 r3_a) (View.ld x1 r3_d) (View.ld x2 r3_r) (View.ld x3 r3_r) (View.ld x4 r3_r) (View.ld x5 r3_r) (View.ld x6 r3_r)
    (View.ld x7 r3_w) (View.ld x1 r3_d)

def out3_8 (x0 : Vec F S5000x128 .f32) (x1 : Vec F S5000x1 .f32) (x2 x3 x4 x5 x6 : Vec F S1x128 .f32) (x7 : Vec F S128x128 .f32) :
    Vec F S5000x128 .f32 :=
  View.canon [⟨r3_a, val3 x0 x1 x2 x3 x4 x5 x6 x7⟩]

set_option maxHeartbeats 1000000 in
/-- The one store covers the output, so what is read back there is `out3_8` of what the inputs read, whatever it held. -/
theorem sound_kernel3 (E : Set ℕ) (i : grid3.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S5000x128 .f32) (harg9 : arg9.IsWhole)
    (x0 : Vec F S5000x128 .f32) (x1 : Vec F S5000x1 .f32) (x2 x3 x4 x5 x6 : Vec F S1x128 .f32) (x7 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7)) -∗ K ⟨⟩))
      ⊢ wp frame (wpE (defs₀ (F := F)) Variants.none c none) E (cc3__normrelu_linear_kernel i arg1 harg1 arg2 harg2 arg3 harg3 arg4 harg4 arg5 harg5 arg6 harg6 arg7 harg7 arg8 harg8 arg9 harg9) K := by
  simp only [cc3__normrelu_linear_kernel_eq_skeleton]; unfold cc3__normrelu_linear_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (View.cover_of_tiled _ S5000x128.size (by rfl))

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (w : Fin cfg3.W) : (dat3 V c).A w = V c (Pipeline.arrRef spec3 w) := rfl

theorem after3_8 (t : Fin cfg3.N) :
    (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

theorem hin3 : Pipeline.ΦA spec3 c ⊢ (dat3 V c).Φ 0 := .rfl
theorem hout3 : (dat3 V c).Φ (Fin.last cfg3.N) ⊢ Pipeline.ΦA spec3 c := .rfl

theorem before3 : ∀ w : Fin cfg3.W, w ≠ 8 → ∀ t d, (dat3 V c).before w t d = (dat3 V c).after w t
  | ⟨0, _⟩, _ | ⟨1, _⟩, _ | ⟨2, _⟩, _ | ⟨3, _⟩, _ | ⟨4, _⟩, _ | ⟨5, _⟩, _ | ⟨6, _⟩, _ | ⟨7, _⟩, _ => fun t d =>
    ((dat3 V c).before_in_eq_fetched _ rfl (fun _ => rfl) (fun _ _ _ => rfl) (fun _ => rfl) t d).trans rfl
  | ⟨8, _⟩, h => absurd rfl h

theorem body_obligation3 : BodyObligation (dat3 (F := F) V c) (defs₀ (F := F)) Variants.none () Set.univ := fun t => by
  rw [bigSep_W3, bigSep_W3]
  show _ ⊢ wp frame _ _ (bodyAt3 t) _
  unfold bodyAt3
  simp only [before3 V c 0 (by decide), before3 V c 1 (by decide), before3 V c 2 (by decide), before3 V c 3 (by decide), before3 V c 4 (by decide), before3 V c 5 (by decide), before3 V c 6 (by decide), before3 V c 7 (by decide)]
  rw [show (dat3 V c).Φ t.succ = (dat3 V c).Φ t.castSucc from rfl,
    show (dat3 V c).owesAt () t.succ = (dat3 V c).owesAt () t.castSucc from rfl]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Hand

end
-- ==== Proof.KIRegion4.lean ====
import proofs.«429421_j77326591197817_3_alg».proof.Proof.KIBase
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : EntryVal F)

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)

abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

theorem liveAt4 : ∀ w : Fin cfg4.W, w ≠ 3 → ∀ t : Fin cfg4.N, cfg4.idle w (grid4.coords t) = false := by decide +kernel
theorem idleAt4_3 : ∀ t : Fin cfg4.N, ¬cond4_1 (grid4.coords t) → cfg4.idle 3 (grid4.coords t) = true ∧ (cfg4.win 3).flush t = false := by decide +kernel
theorem liveAt4_3 : ∀ t : Fin cfg4.N, cond4_1 (grid4.coords t) → cfg4.idle 3 (grid4.coords t) = false := by decide +kernel

abbrev ms4_0 (t : Fin cfg4.N) : Memref sig .tc .vmem S5000x128 .f32 := win4_0.stage (cfg4.slots t 0)
abbrev ms4_1 (t : Fin cfg4.N) : Memref sig .tc .vmem S5000x1 .f32 := win4_1.stage (cfg4.slots t 1)
abbrev ms4_2 (t : Fin cfg4.N) : Memref sig .tc .vmem S1x128 .f32 := win4_2.stage (cfg4.slots t 2)
abbrev ms4_3 (t : Fin cfg4.N) : Memref sig .tc .vmem S1x1x128 .f32 := win4_3.stage (cfg4.slots t 3)
abbrev scM4_0 : Memref sig .tc .vmem S1x1x128 .f32 := Memref.whole cc4_scratch0

abbrev rest4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop(iprop((∃ d, owns c scM4_0 fullShare d)) ∗ rest4 c) ∗ (∃ r, prngReg c r)) := by
  unfold Pipeline.ΦA; rw [scopedRest4_split]; simp only [scM4_0, owns_whole]; try rfl

section
variable (c : Dev nD) (i : grid4.Coords) {arg2 : Memref sig .tc .vmem S5000x128 .f32} (harg2 : arg2.IsWhole) {arg3 : Memref sig .tc .vmem S5000x1 .f32} (harg3 : arg3.IsWhole) {arg4 : Memref sig .tc .vmem S1x128 .f32} (harg4 : arg4.IsWhole) {arg5 arg6 : Memref sig .tc .vmem S1x1x128 .f32} (harg5 : arg5.IsWhole) (harg6 : arg6.IsWhole)
  (x0 : Vec F S5000x128 .f32) (x1 : Vec F S5000x1 .f32) (x2 : Vec F S1x128 .f32) (xs0 : Vec F S1x1x128 .f32)

set_option maxHeartbeats 1000000 in
noncomputable def kernelRun4_A (hc0 : cond4_0 i) (hc1 : ¬cond4_1 i) :
    { LS0 : List (View.Piece (Elt F) S1x1x128 .f32) //
      ∀ (xi3 : Vec F S1x1x128 .f32) (E : Set ℕ) (K : PUnit → sProp 𝕄),
        iprop(owns c arg2 fullShare x0 ∗ owns c arg3 fullShare x1 ∗ owns c arg4 fullShare x2 ∗ owns c arg5 fullShare xi3 ∗ (∃ d, owns c arg6 fullShare d)
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc4__sum_kernel i arg2 harg2 arg3 harg3 arg4 harg4 arg5 harg5 arg6 harg6) K } := by
  refine ⟨?_, fun xi3 E K => ?run⟩
  case run =>
    simp only [cc4__sum_kernel_eq_skeleton]; unfold cc4__sum_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
noncomputable def kernelRun4_B (hc0 : ¬cond4_0 i) (hc1 : ¬cond4_1 i) :
    { LS0 : List (View.Piece (Elt F) S1x1x128 .f32) //
      ∀ (xi3 : Vec F S1x1x128 .f32) (E : Set ℕ) (K : PUnit → sProp 𝕄),
        iprop(owns c arg2 fullShare x0 ∗ owns c arg3 fullShare x1 ∗ owns c arg4 fullShare x2 ∗ owns c arg5 fullShare xi3 ∗ owns c arg6 fullShare xs0
            ∗ (iprop(owns c arg2 fullShare x0 ∗ owns c arg3 fullShare x1 ∗ owns c arg4 fullShare x2 ∗ owns c arg5 fullShare xi3 ∗ (∃ f, arg6.view.loc c ↦[arg6.view.set]{fullShare} arg6.view.writes (Elt F) f LS0)) -∗ K ⟨⟩))
          ⊢ wp frame (wpE (defs₀ (F := F)) Variants.none c none) E (cc4__sum_kernel i arg2 harg2 arg3 harg3 arg4 harg4 arg5 harg5 arg6 harg6) K } := by
  refine ⟨?_, fun xi3 E K => ?run⟩
  case run =>
    simp only [cc4__sum_kernel_eq_skeleton]; unfold cc4__sum_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
noncomputable def kernelRun4_C (hc0 : ¬cond4_0 i) (hc1 : cond4_1 i) :
    Σ' (L3 : List (View.Piece (Elt F) S1x1x128 .f32)), { LS0 : List (View.Piece (Elt F) S1x1x128 .f32) //
      ∀ (E : Set ℕ) (K : PUnit → sProp 𝕄),
        iprop(owns c arg2 fullShare x0 ∗ owns c arg3 fullShare x1 ∗ owns c arg4 fullShare x2 ∗ (∃ d, owns c arg5 fullShare d) ∗ owns c arg6 fullShare xs0
            ∗ (iprop(owns c arg2 fullShare x0 ∗ owns c arg3 fullShare x1 ∗ owns c arg4 fullShare x2 ∗ (∃ f, arg5.view.loc c ↦[arg5.view.set]{fullShare} arg5.view.writes (Elt F) f L3) ∗ (∃ f, arg6.view.loc c ↦[arg6.view.set]{fullShare} arg6.view.writes (Elt F) f LS0)) -∗ K ⟨⟩))
          ⊢ wp frame (wpE (defs₀ (F := F)) Variants.none c none) E (cc4__sum_kernel i arg2 harg2 arg3 harg3 arg4 harg4 arg5 harg5 arg6 harg6) K } := by
  refine ⟨?_, ?_, fun E K => ?run⟩
  case run =>
    simp only [cc4__sum_kernel_eq_skeleton]; unfold cc4__sum_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

theorem hz4_3 : (![0, 0, 0] : Fin 3 → Nat) = fun _ => 0 := funext fun a => by fin_cases a <;> rfl
theorem hz4_2 : (![0, 0] : Fin 2 → Nat) = fun _ => 0 := funext fun a => by fin_cases a <;> rfl

variable (v : View sig .tc .vmem S1x1x128 .f32) (f : v.ty.Contents (Elt F))

theorem sout4_A (hc0 : cond4_0 i) (hc1 : ¬cond4_1 i) :
    v.read (Elt F) (v.writes (Elt F) f (kernelRun4_A c i harg2 harg3 harg4 harg5 harg6 x0 x1 x2 hc0 hc1).1) = k4_pay2 x0 x1 x2 (k4_pay1 (F := F)) := by
  rw [View.read_writes_eq_canon _ _ _ (View.cover_of_tiledL (kernelRun4_A c i harg2 harg3 harg4 harg5 harg6 x0 x1 x2 hc0 hc1).1 S1x1x128.size (by sl_kernel_rfl))]
  unfold kernelRun4_A
  dsimp only
  sl_unfold_words
  rw [View.canon_cons_unit_zero (S := S1x1x128) hz4_3, View.readCov_unit_zero (S := S1x1x128) _ hz4_3]
  simp only [View.readAt_eq_ld, harg2.read_unread, harg3.read_unread, harg4.read_unread, harg6.read_unread, View.ld_unit_zero (S := S5000x128) hz4_2, View.ld_unit_zero (S := S5000x1) hz4_2, View.ld_unit_zero (S := S1x128) hz4_2, View.ld_unit_zero (S := S1x1x128) hz4_3]

theorem sout4_B (hc0 : ¬cond4_0 i) (hc1 : ¬cond4_1 i) :
    v.read (Elt F) (v.writes (Elt F) f (kernelRun4_B c i harg2 harg3 harg4 harg5 harg6 x0 x1 x2 xs0 hc0 hc1).1) = k4_pay2 x0 x1 x2 xs0 := by
  rw [View.read_writes_eq_canon _ _ _ (View.cover_of_tiledL (kernelRun4_B c i harg2 harg3 harg4 harg5 harg6 x0 x1 x2 xs0 hc0 hc1).1 S1x1x128.size (by sl_kernel_rfl))]
  unfold kernelRun4_B
  dsimp only
  rw [View.canon_unit_zero hz4_3]
  simp only [View.readAt_eq_ld, harg2.read_unread, harg3.read_unread, harg4.read_unread, harg6.read_unread, View.ld_unit_zero (S := S5000x128) hz4_2, View.ld_unit_zero (S := S5000x1) hz4_2, View.ld_unit_zero (S := S1x128) hz4_2, View.ld_unit_zero (S := S1x1x128) hz4_3]

theorem sout4_C (hc0 : ¬cond4_0 i) (hc1 : cond4_1 i) :
    v.read (Elt F) (v.writes (Elt F) f (kernelRun4_C c i harg2 harg3 harg4 harg5 harg6 x0 x1 x2 xs0 hc0 hc1).2.1) = k4_pay2 x0 x1 x2 xs0 := by
  rw [View.read_writes_eq_canon _ _ _ (View.cover_of_tiledL (kernelRun4_C c i harg2 harg3 harg4 harg5 harg6 x0 x1 x2 xs0 hc0 hc1).2.1 S1x1x128.size (by sl_kernel_rfl))]
  unfold kernelRun4_C
  dsimp only
  sl_unfold_words
  rw [View.canon_unit_zero hz4_3]
  simp only [View.readAt_eq_ld, harg2.read_unread, harg3.read_unread, harg4.read_unread, harg6.read_unread, View.ld_unit_zero (S := S5000x128) hz4_2, View.ld_unit_zero (S := S5000x1) hz4_2, View.ld_unit_zero (S := S1x128) hz4_2, View.ld_unit_zero (S := S1x1x128) hz4_3]

theorem out4_C_3 (hc0 : ¬cond4_0 i) (hc1 : cond4_1 i) :
    v.read (Elt F) (v.writes (Elt F) f (kernelRun4_C c i harg2 harg3 harg4 harg5 harg6 x0 x1 x2 xs0 hc0 hc1).1) = k4_pay2 x0 x1 x2 xs0 := by
  rw [View.read_writes_eq_canon _ _ _ (View.cover_of_tiledL (kernelRun4_C c i harg2 harg3 harg4 harg5 harg6 x0 x1 x2 xs0 hc0 hc1).1 S1x1x128.size (by sl_kernel_rfl))]
  unfold kernelRun4_C
  dsimp only
  sl_unfold_words
  rw [View.canon_unit_zero hz4_3, View.readCov_unit_zero (S := S1x1x128) _ hz4_3]
  simp only [View.readAt_eq_ld, harg2.read_unread, harg3.read_unread, harg4.read_unread, harg6.read_unread, View.ld_unit_zero (S := S5000x128) hz4_2, View.ld_unit_zero (S := S5000x1) hz4_2, View.ld_unit_zero (S := S1x128) hz4_2, View.ld_unit_zero (S := S1x1x128) hz4_3]

end

def acc4 (c : Dev nD) : (n : ℕ) → n < cfg4.N → Vec F S1x1x128 .f32
  | 0, hn => k4_pay2 (iblk4 V c 0 ⟨0, hn⟩) (iblk4 V c 1 ⟨0, hn⟩) (iblk4 V c 2 ⟨0, hn⟩) (k4_pay1 (F := F))
  | n + 1, hn =>
    if (n + 1) % 10 = 0 then k4_pay2 (iblk4 V c 0 ⟨n + 1, hn⟩) (iblk4 V c 1 ⟨n + 1, hn⟩) (iblk4 V c 2 ⟨n + 1, hn⟩) (k4_pay1 (F := F))
    else k4_pay2 (iblk4 V c 0 ⟨n + 1, hn⟩) (iblk4 V c 1 ⟨n + 1, hn⟩) (iblk4 V c 2 ⟨n + 1, hn⟩) (acc4 c n (Nat.lt_of_succ_lt hn))

theorem acc4_reset (c : Dev nD) (t : Fin cfg4.N) (h0 : t.val % 10 = 0) :
    acc4 V c t.val t.isLt = k4_pay2 (iblk4 V c 0 t) (iblk4 V c 1 t) (iblk4 V c 2 t) (k4_pay1 (F := F)) := by
  obtain ⟨n, hn⟩ := t
  cases n with
  | zero => rfl
  | succ n => exact (if_pos h0).trans rfl

theorem acc4_step (c : Dev nD) (t : Fin cfg4.N) (h0 : ¬t.val % 10 = 0) :
    acc4 V c t.val t.isLt = k4_pay2 (iblk4 V c 0 t) (iblk4 V c 1 t) (iblk4 V c 2 t) (acc4 V c (t.val - 1) (Nat.lt_of_le_of_lt (Nat.sub_le _ _) t.isLt)) := by
  obtain ⟨n, hn⟩ := t
  cases n with
  | zero => exact absurd (Nat.zero_mod _) h0
  | succ n => exact (if_neg h0).trans rfl

def PhiS4 (c : Dev nD) (n : ℕ) (hn : n ≤ cfg4.N) : sProp 𝕄 :=
  iprop(iprop(iprop(∃ d, ⌜∀ h : n ≠ 0, d = acc4 V c (n - 1) (by omega)⌝ ∗ owns c scM4_0 fullShare d) ∗ rest4 c) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns c (ms4_0 t) fullShare ((dat4 V c).before 0 t d))
    ∗ (∃ d, owns c (ms4_1 t) fullShare ((dat4 V c).before 1 t d))
    ∗ (∃ d, owns c (ms4_2 t) fullShare ((dat4 V c).before 2 t d))
    ∗ (∃ d, owns c (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = PhiS4 V c (t.val + 1) t.isLt from rfl,
    show (dat4 V c).Φ t.castSucc = PhiS4 V c t.val (Nat.le_of_lt t.isLt) from rfl,
    show (dat4 V c).leavesExact 0 t = owns c (ms4_0 t) fullShare (iblk4 V c 0 t) from by
      unfold Dat.leavesExact; rw [liveAt4 0 (by decide) t]; rfl,
    show (dat4 V c).leavesExact 1 t = owns c (ms4_1 t) fullShare (iblk4 V c 1 t) from by
      unfold Dat.leavesExact; rw [liveAt4 1 (by decide) t]; rfl,
    show (dat4 V c).leavesExact 2 t = owns c (ms4_2 t) fullShare (iblk4 V c 2 t) from by
      unfold Dat.leavesExact; rw [liveAt4 2 (by decide) t]; rfl]
  unfold PhiS4
  have e0 := hcond4_0 t
  have e1 := hcond4_1 t
  by_cases h0 : t.val % 10 = 0
  · have hc0 : cond4_0 (grid4.coords t) := e0.mpr h0
    have hc1 : ¬cond4_1 (grid4.coords t) := fun h => by have := e1.mp h; omega
    rw [Dat.leavesExact_idle (dat4 V c) 3 t (idleAt4_3 t hc1).1 (idleAt4_3 t hc1).2]
    iintro ⟨⟨⟨⟨%ds, -, HS0⟩, Hr⟩, Hg⟩, Ho, ⟨%d0, H0⟩, ⟨%d1, H1⟩, ⟨%d2, H2⟩, ⟨%d3, H3⟩⟩
    iapply ((kernelRun4_A c (grid4.coords t) _ _ _ _ _ (iblk4 V c 0 t) (iblk4 V c 1 t) (iblk4 V c 2 t) hc0 hc1).2 _ Set.univ _)
    iframe H0 H1 H2
    isplitl [H3]; · iexact H3
    isplitl [HS0]; · iexists _; iexact HS0
    iintro ⟨H0, H1, H2, H3, ⟨%es0, HS0⟩⟩
    iframe Hr Hg Ho H0 H1 H2
    isplitl [HS0]
    · iexists _; isplitr; · ipureintro; exact fun _ => (acc4_reset V c t h0).symm
      unfold owns; iexists _; isplitr; swap; · iexact HS0
      ipureintro; exact sout4_A c _ _ _ _ _ _ _ _ _ _ _ hc0 hc1
    iexists _; iexact H3
  have hc0 : ¬cond4_0 (grid4.coords t) := fun h => h0 (e0.mp h)
  iintro ⟨⟨⟨⟨%ds, %hds, HS0⟩, Hr⟩, Hg⟩, Ho, ⟨%d0, H0⟩, ⟨%d1, H1⟩, ⟨%d2, H2⟩, ⟨%d3, H3⟩⟩
  obtain rfl := hds fun h => h0 (by rw [h])
  by_cases h1 : t.val % 10 = 9
  · have hc1 : cond4_1 (grid4.coords t) := e1.mpr h1
    rw [show (dat4 V c).leavesExact 3 t = owns c (ms4_3 t) fullShare (acc4 V c t.val t.isLt) from by
      unfold Dat.leavesExact; rw [liveAt4_3 t hc1]; rfl, acc4_step V c t h0]
    iapply ((kernelRun4_C c (grid4.coords t) _ _ _ _ _ (iblk4 V c 0 t) (iblk4 V c 1 t) (iblk4 V c 2 t) _ hc0 hc1).2.2 Set.univ _)
    iframe H0 H1 H2
    isplitl [H3]; · iexists _; iexact H3
    isplitl [HS0]; · iexact HS0
    iintro ⟨H0, H1, H2, ⟨%e3, H3⟩, ⟨%es0, HS0⟩⟩
    iframe Hr Hg Ho H0 H1 H2
    isplitl [HS0]
    · iexists _; isplitr; · ipureintro; exact fun _ => (acc4_step V c t h0).symm
      unfold owns; iexists _; isplitr; swap; · iexact HS0
      ipureintro; exact sout4_C c _ _ _ _ _ _ _ _ _ _ _ _ hc0 hc1
    unfold owns; iexists _; isplitr; swap; · iexact H3
    ipureintro; exact out4_C_3 c _ _ _ _ _ _ _ _ _ _ _ _ hc0 hc1
  · have hc1 : ¬cond4_1 (grid4.coords t) := fun h => h1 (e1.mp h)
    rw [Dat.leavesExact_idle (dat4 V c) 3 t (idleAt4_3 t hc1).1 (idleAt4_3 t hc1).2]
    iapply ((kernelRun4_B c (grid4.coords t) _ _ _ _ _ (iblk4 V c 0 t) (iblk4 V c 1 t) (iblk4 V c 2 t) _ hc0 hc1).2 _ Set.univ _)
    iframe H0 H1 H2
    isplitl [H3]; · iexact H3
    isplitl [HS0]; · iexact HS0
    iintro ⟨H0, H1, H2, H3, ⟨%es0, HS0⟩⟩
    iframe Hr Hg Ho H0 H1 H2
    isplitl [HS0]
    · iexists _; isplitr; · ipureintro; exact fun _ => (acc4_step V c t h0).symm
      unfold owns; iexists _; isplitr; swap; · iexact HS0
      ipureintro; exact sout4_B c _ _ _ _ _ _ _ _ _ _ _ _ hc0 hc1
    iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [PhiA4_eq, show (dat4 V c).Φ 0 = PhiS4 V c 0 (Nat.zero_le _) from rfl]
  unfold PhiS4
  iintro ⟨⟨⟨%d, HS0⟩, Hr⟩, Hg⟩
  isplitl [HS0 Hr]
  · isplitl [HS0]
    · iexists d; isplitr; · ipureintro; exact fun h => absurd rfl h
      iexact HS0
    iexact Hr
  iexact Hg

theorem hout4 (c : Dev nD) : (dat4 V c).Φ (Fin.last cfg4.N) ⊢ Pipeline.ΦA spec4 c := by
  rw [PhiA4_eq, show (dat4 V c).Φ (Fin.last cfg4.N) = PhiS4 V c cfg4.N (Nat.le_refl _) from rfl]
  unfold PhiS4
  iintro ⟨⟨⟨%d, -, HS0⟩, Hr⟩, Hg⟩
  isplitl [HS0 Hr]
  · isplitl [HS0]
    · iexists _; iexact HS0
    iexact Hr
  iexact Hg

end Cert.KernelIdeal.Hand

end
-- ==== Proof.KIRegion5.lean ====
import proofs.«429421_j77326591197817_3_alg».proof.Proof.KIBase
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : EntryVal F)

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 10 = 0 :=
  (by decide +kernel : ∀ t : Fin grid5.N, cond5_0 (grid5.coords t) ↔ t.val % 10 = 0)

abbrev cond5_1 (i : grid5.Coords) : Prop := k5_cond2 i = 1#1
theorem hcond5_1 : ∀ t : Fin cfg5.N, cond5_1 (grid5.coords t) ↔ t.val % 10 = 9 :=
  (by decide +kernel : ∀ t : Fin grid5.N, cond5_1 (grid5.coords t) ↔ t.val % 10 = 9)

theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel
theorem liveAt5_4 : ∀ t : Fin cfg5.N, cond5_1 (grid5.coords t) → cfg5.idle 4 (grid5.coords t) = false := by decide +kernel

abbrev scM5 : Memref sig .tc .vmem S1x1x128 .f32 := Memref.whole cc5_scratch0

-- The region's invariant, with the accumulator held as P.
abbrev inv5 (c : Dev nD) (P : sProp 𝕄) : sProp 𝕄 :=
  iprop(iprop(P ∗ Pipeline.scopedRestBut (Ix := Unit) (Name := ℕ) (U := UR sig nD τ) (Lvl := ℕ) (Val := Elt F) spec5 c [cc5_scratch0]) ∗ (∃ r, prngReg c r))

theorem PhiA5_eq (c : Dev nD) : (Pipeline.ΦA spec5 c : sProp 𝕄) = inv5 c iprop(∃ d, owns (c : Thread nD τ) scM5 fullShare d) := by
  unfold Pipeline.ΦA; rw [scopedRest5_split]; simp only [scM5, owns_whole]; try rfl

section Whole
variable {κ : Kind} {sp : Space} {S : Shape} {e : EltTy} (v : View sig κ sp S e) {off : Fin S.rank → Nat}
  (inb : ∀ a, off a + S.size a ≤ S.size a) (f : v.ty.Contents (Elt F)) (w : S.Idx → Elt F e)

-- A rectangle of the whole shape's size that fits starts at zero.
theorem off_zero5 {S : Shape} {off : Fin S.rank → Nat} (inb : ∀ a, off a + S.size a ≤ S.size a) : off = fun _ => 0 :=
  funext fun a => by have := inb a; show off a = 0; omega

-- A load through it reads the contents,
theorem readAt_whole5 : v.readAt (Elt F) (Rect.unit off S.size inb).toLoadRect f = v.read (Elt F) f :=
  (View.readAt_eq_ld v f _).trans (View.ld_unit_zero (off_zero5 inb) inb _)

-- or, of what one store through it left, the payload;
theorem readCov_whole5 : v.readCov [(⟨Rect.unit off S.size inb, w⟩ : View.Piece (Elt F) S e)] (Rect.unit off S.size inb).toLoadRect = w :=
  View.readCov_unit_zero v (off_zero5 inb) inb w

-- a store through it, last, covers every element.
theorem read_writes_whole5 (L : List (View.Piece (Elt F) S e)) :
    v.read (Elt F) (v.writes (Elt F) f ((⟨Rect.unit off S.size inb, w⟩ : View.Piece (Elt F) S e) :: L)) = w :=
  (View.read_writes_eq_canon v f _ (fun y => ⟨⟨Rect.unit off S.size inb, w⟩, List.mem_cons.mpr (Or.inl rfl),
    View.mem_set_unit_zero (off_zero5 inb) inb y⟩)).trans (View.canon_cons_unit_zero (off_zero5 inb) inb w L)
end Whole

section Run
variable (c : Dev nD) (E : Set ℕ) (i : grid5.Coords)
  {arg2 : Memref sig .tc .vmem S5000x128 .f32} (harg2 : arg2.IsWhole) {arg3 : Memref sig .tc .vmem S5000x1 .f32} (harg3 : arg3.IsWhole)
  {arg4 arg5 : Memref sig .tc .vmem S1x128 .f32} (harg4 : arg4.IsWhole) (harg5 : arg5.IsWhole)
  {arg6 arg7 : Memref sig .tc .vmem S1x1x128 .f32} (harg6 : arg6.IsWhole) (harg7 : arg7.IsWhole)
  (x0 : Vec F S5000x128 .f32) (x1 : Vec F S5000x1 .f32) (x2 x3 : Vec F S1x128 .f32) (xi s : Vec F S1x1x128 .f32)

-- The body's triple: the inputs are handed back as found, the output's buffer and the accumulator are left at o6 and o7.
abbrev Run5 (o6 o7 : Vec F S1x1x128 .f32) (K : PUnit → sProp 𝕄) : Prop :=
  iprop(owns (c : Thread nD τ) arg2 fullShare x0 ∗ owns (c : Thread nD τ) arg3 fullShare x1 ∗ owns (c : Thread nD τ) arg4 fullShare x2 ∗ owns (c : Thread nD τ) arg5 fullShare x3
      ∗ owns (c : Thread nD τ) arg6 fullShare xi ∗ owns (c : Thread nD τ) arg7 fullShare s
      ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare o6 ∗ owns (c : Thread nD τ) arg7 fullShare o7) -∗ K ⟨⟩))
    ⊢ wp frame (wpE (defs₀ (F := F)) Variants.none c none) E (cc5__var_kernel i arg2 harg2 arg3 harg3 arg4 harg4 arg5 harg5 arg6 harg6 arg7 harg7) K

set_option maxHeartbeats 1000000 in
-- At the first point of a row the accumulator is reset, then this tile's contribution is added.
theorem runA5 (hc0 : cond5_0 i) (hc1 : ¬cond5_1 i)  (K : PUnit → sProp 𝕄) :
    Run5 c E i harg2 harg3 harg4 harg5 harg6 harg7 x0 x1 x2 x3 xi s xi (k5_pay2 x0 x1 x2 x3 (k5_pay1 (F := F))) K := by
  unfold Run5 owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  iexists _; isplitr; swap; · iexact H7
  ipureintro; sl_unfold_run_names
  rw [read_writes_whole5 arg7.view, readCov_whole5 arg7.view, readAt_whole5 arg2.view, readAt_whole5 arg3.view, readAt_whole5 arg4.view, readAt_whole5 arg5.view]

set_option maxHeartbeats 1000000 in
-- At a middle point this tile's contribution is added to the accumulator.
theorem runB5 (hc0 : ¬cond5_0 i) (hc1 : ¬cond5_1 i)  (K : PUnit → sProp 𝕄) :
    Run5 c E i harg2 harg3 harg4 harg5 harg6 harg7 x0 x1 x2 x3 xi s xi (k5_pay2 x0 x1 x2 x3 s) K := by
  unfold Run5 owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  iexists _; isplitr; swap; · iexact H7
  ipureintro; sl_unfold_run_names
  rw [read_writes_whole5 arg7.view, readAt_whole5 arg2.view, readAt_whole5 arg3.view, readAt_whole5 arg4.view, readAt_whole5 arg5.view, readAt_whole5 arg7.view]

set_option maxHeartbeats 1000000 in
-- At the last point of a row the accumulator, once added to, is copied into the output's buffer.
theorem runC5 (hc0 : ¬cond5_0 i) (hc1 : cond5_1 i)  (K : PUnit → sProp 𝕄) :
    Run5 c E i harg2 harg3 harg4 harg5 harg6 harg7 x0 x1 x2 x3 xi s (k5_pay2 x0 x1 x2 x3 s) (k5_pay2 x0 x1 x2 x3 s) K := by
  unfold Run5 owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr; swap; · iexact H6
    ipureintro; sl_unfold_run_names
    rw [read_writes_whole5 arg6.view, readCov_whole5 arg7.view, readAt_whole5 arg2.view, readAt_whole5 arg3.view, readAt_whole5 arg4.view, readAt_whole5 arg5.view, readAt_whole5 arg7.view]
  iexists _; isplitr; swap; · iexact H7
  ipureintro; sl_unfold_run_names
  rw [read_writes_whole5 arg7.view, readAt_whole5 arg2.view, readAt_whole5 arg3.view, readAt_whole5 arg4.view, readAt_whole5 arg5.view, readAt_whole5 arg7.view]
end Run

-- This tile's contribution added to s.
abbrev step5 (c : Dev nD) (t : Fin cfg5.N) (s : Vec F S1x1x128 .f32) : Vec F S1x1x128 .f32 :=
  k5_pay2 (iblk5 V c 0 t) (iblk5 V c 1 t) (iblk5 V c 2 t) (iblk5 V c 3 t) s

-- What the accumulator holds after the body at position n: the contributions of the row's tiles so far, over zeros.
def acc5 (c : Dev nD) : (n : ℕ) → n < cfg5.N → Vec F S1x1x128 .f32
  | 0, hn => step5 V c ⟨0, hn⟩ (k5_pay1 (F := F))
  | n + 1, hn => step5 V c ⟨n + 1, hn⟩ (if (n + 1) % 10 = 0 then k5_pay1 (F := F) else acc5 c n (Nat.lt_of_succ_lt hn))

theorem acc5_eq (c : Dev nD) (t : Fin cfg5.N) : acc5 V c t.val t.isLt
    = step5 V c t (if t.val % 10 = 0 then k5_pay1 (F := F) else acc5 V c (t.val - 1) (Nat.lt_of_le_of_lt (Nat.sub_le _ _) t.isLt)) := by
  obtain ⟨_ | n, hn⟩ := t <;> rfl

-- The invariant before position n: from the second position on the accumulator is at what the position before left.
def PhiS5 (c : Dev nD) : (n : ℕ) → n ≤ cfg5.N → sProp 𝕄
  | 0, _ => Pipeline.ΦA spec5 c
  | n + 1, hn => inv5 c (owns (c : Thread nD τ) scM5 fullShare (acc5 V c n hn))

theorem PhiS5_pos (c : Dev nD) (n : ℕ) (h : n ≤ cfg5.N) (hz : n ≠ 0) :
    PhiS5 V c n h = inv5 c (owns (c : Thread nD τ) scM5 fullShare (acc5 V c (n - 1) (by omega))) := by
  cases n with
  | zero => exact absurd rfl hz
  | succ n => rfl

-- At any position it gives back the accumulator at some contents.
theorem Phi_out5 (c : Dev nD) : ∀ (n : ℕ) (h : n ≤ cfg5.N), PhiS5 V c n h ⊢ inv5 c iprop(∃ d, owns (c : Thread nD τ) scM5 fullShare d)
  | 0, _ => by rw [PhiS5, PhiA5_eq]
  | n + 1, _ => by
    rw [PhiS5]; unfold inv5
    iintro ⟨⟨HS, HR⟩, Hg⟩
    iframe HR Hg
    iexists _; iexact HS

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => acc5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_4 (c : Dev nD) (t : Fin cfg5.N) : (dat5 V c).after 4 t = acc5 V c t.val t.isLt := rfl

-- The body leaves the inputs as it finds them, so each input holds its block at every point.
theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d

set_option maxHeartbeats 4800000 in
-- The body at any point: which case the point is in is read off its position in the row.
theorem sound_body5 (c : Dev nD) (t : Fin cfg5.N) :
    iprop(PhiS5 V c t.val (Nat.le_of_lt t.isLt) ∗ (dat5 V c).owesAt () t.castSucc
      ∗ (∃ d, owns (c : Thread nD τ) (st5_0 t) fullShare ((dat5 V c).before 0 t d))
      ∗ (∃ d, owns (c : Thread nD τ) (st5_1 t) fullShare ((dat5 V c).before 1 t d))
      ∗ (∃ d, owns (c : Thread nD τ) (st5_2 t) fullShare ((dat5 V c).before 2 t d))
      ∗ (∃ d, owns (c : Thread nD τ) (st5_3 t) fullShare ((dat5 V c).before 3 t d))
      ∗ (∃ d, owns (c : Thread nD τ) (st5_4 t) fullShare ((dat5 V c).before 4 t d)))
    ⊢ wp frame (wpE (defs₀ (F := F)) Variants.none c none) Set.univ (bodyAt5 t) (fun _ =>
      iprop(inv5 c (owns (c : Thread nD τ) scM5 fullShare (acc5 V c t.val t.isLt)) ∗ (dat5 V c).owesAt () t.castSucc
        ∗ owns (c : Thread nD τ) (st5_0 t) fullShare (iblk5 V c 0 t) ∗ owns (c : Thread nD τ) (st5_1 t) fullShare (iblk5 V c 1 t)
        ∗ owns (c : Thread nD τ) (st5_2 t) fullShare (iblk5 V c 2 t) ∗ owns (c : Thread nD τ) (st5_3 t) fullShare (iblk5 V c 3 t) ∗ (dat5 V c).leavesExact 4 t)) := by
  simp only [before5_0, before5_1, before5_2, before5_3]
  rw [acc5_eq V c t]
  by_cases h0 : t.val % 10 = 0
  · have hc0 := (hcond5_0 t).mpr h0
    have hc1 : ¬cond5_1 (grid5.coords t) := fun h => by have := (hcond5_1 t).mp h; omega
    rw [Dat.leavesExact_idle (dat5 V c) 4 t (idleAt5_4 t hc1) (noFlush5_4 t hc1), if_pos h0]
    refine (sep_mono_left (Phi_out5 V c _ _)).trans ?_
    unfold inv5
    iintro ⟨⟨⟨⟨%s, HS⟩, HR⟩, Hg⟩, Ho, ⟨%d0, H0⟩, ⟨%d1, H1⟩, ⟨%d2, H2⟩, ⟨%d3, H3⟩, ⟨%d4, H4⟩⟩
    iapply (runA5 c Set.univ (grid5.coords t) _ _ _ _ _ _ (iblk5 V c 0 t) (iblk5 V c 1 t) (iblk5 V c 2 t) (iblk5 V c 3 t) _ _ hc0 hc1 _)
    iframe H0 H1 H2 H3 H4 HS
    iintro ⟨H0, H1, H2, H3, H4, HS⟩
    iframe HS HR Hg Ho H0 H1 H2 H3
    iexists _; iexact H4
  · have hc0 : ¬cond5_0 (grid5.coords t) := fun h => h0 ((hcond5_0 t).mp h)
    rw [if_neg h0, PhiS5_pos V c _ _ fun h => h0 (by rw [h])]
    by_cases h1 : t.val % 10 = 9
    · have hc1 := (hcond5_1 t).mpr h1
      rw [show (dat5 V c).leavesExact 4 t = owns (c : Thread nD τ) (st5_4 t) fullShare ((dat5 V c).after 4 t) from by
        unfold Dat.leavesExact; rw [liveAt5_4 t hc1], after5_4, acc5_eq V c t, if_neg h0]
      unfold inv5
      iintro ⟨⟨⟨HS, HR⟩, Hg⟩, Ho, ⟨%d0, H0⟩, ⟨%d1, H1⟩, ⟨%d2, H2⟩, ⟨%d3, H3⟩, ⟨%d4, H4⟩⟩
      iapply (runC5 c Set.univ (grid5.coords t) _ _ _ _ _ _ (iblk5 V c 0 t) (iblk5 V c 1 t) (iblk5 V c 2 t) (iblk5 V c 3 t) _ _ hc0 hc1 _)
      iframe H0 H1 H2 H3 H4 HS
      iintro ⟨H0, H1, H2, H3, H4, HS⟩
      iframe HS HR Hg Ho H0 H1 H2 H3
      iexact H4
    · have hc1 : ¬cond5_1 (grid5.coords t) := fun h => h1 ((hcond5_1 t).mp h)
      rw [Dat.leavesExact_idle (dat5 V c) 4 t (idleAt5_4 t hc1) (noFlush5_4 t hc1)]
      unfold inv5
      iintro ⟨⟨⟨HS, HR⟩, Hg⟩, Ho, ⟨%d0, H0⟩, ⟨%d1, H1⟩, ⟨%d2, H2⟩, ⟨%d3, H3⟩, ⟨%d4, H4⟩⟩
      iapply (runB5 c Set.univ (grid5.coords t) _ _ _ _ _ _ (iblk5 V c 0 t) (iblk5 V c 1 t) (iblk5 V c 2 t) (iblk5 V c 3 t) _ _ hc0 hc1 _)
      iframe H0 H1 H2 H3 H4 HS
      iintro ⟨H0, H1, H2, H3, H4, HS⟩
      iframe HS HR Hg Ho H0 H1 H2 H3
      iexists _; iexact H4

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := .rfl

theorem hout5 (c : Dev nD) : (dat5 V c).Φ (Fin.last cfg5.N) ⊢ Pipeline.ΦA spec5 c := by
  rw [PhiA5_eq]; exact Phi_out5 V c cfg5.N (Nat.le_refl _)

end Cert.KernelIdeal.Hand

end
-- ==== Proof.KIRegion6.lean ====
import proofs.«429421_j77326591197817_3_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : EntryVal F)

abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 10 = 0 :=
  (by decide +kernel : ∀ t : Fin grid6.N, cond6_0 (grid6.coords t) ↔ t.val % 10 = 0)

abbrev cond6_1 (i : grid6.Coords) : Prop := k6_cond2 i = 1#1
theorem hcond6_1 : ∀ t : Fin cfg6.N, cond6_1 (grid6.coords t) ↔ t.val % 10 = 9 :=
  (by decide +kernel : ∀ t : Fin grid6.N, cond6_1 (grid6.coords t) ↔ t.val % 10 = 9)

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl
theorem liveAt6_4 : ∀ t : Fin cfg6.N, cfg6.idle 4 (grid6.coords t) = false := fun _ => rfl
theorem liveAt6_5 : ∀ t : Fin cfg6.N, cfg6.idle 5 (grid6.coords t) = false := fun _ => rfl
theorem liveAt6_6 : ∀ t : Fin cfg6.N, cfg6.idle 6 (grid6.coords t) = false := fun _ => rfl
theorem liveAt6_7 : ∀ t : Fin cfg6.N, cfg6.idle 7 (grid6.coords t) = false := fun _ => rfl
theorem idleAt6_8 : ∀ t : Fin cfg6.N, ¬cond6_1 (grid6.coords t) → cfg6.idle 8 (grid6.coords t) = true := by decide +kernel
theorem noFlush6_8 : ∀ t : Fin cfg6.N, ¬cond6_1 (grid6.coords t) → (cfg6.win 8).flush t = false := by decide +kernel
theorem liveAt6_8 : ∀ t : Fin cfg6.N, cond6_1 (grid6.coords t) → cfg6.idle 8 (grid6.coords t) = false := by decide +kernel

abbrev VO6_8 : View sig .tc .vmem S1x128x128 .f32 := (Memref.whole cc6_stg8_0 : Memref sig .tc .vmem S1x128x128 .f32).view
abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x1 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S5000x1 .i32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S1x128x128 .f32 := win6_8.stage (cfg6.slots t 8)
abbrev hs6_8 (t : Fin cfg6.N) : (ms6_8 t).IsWhole := hstage6_8 ((cfg6.slots t 8).cast nbuf6_8)
abbrev scM6 : Memref sig .tc .vmem S1x128x128 .f32 := Memref.whole cc6_scratch0
abbrev hsc6 : scM6.IsWhole := Memref.isWhole_whole _
abbrev VS6 : View sig .tc .vmem S1x128x128 .f32 := scM6.view

abbrev Rest6 (c : Dev nD) : sProp 𝕄 :=
  Pipeline.scopedRestBut (Ix := Unit) (Name := ℕ) (U := UR sig nD τ) (Lvl := ℕ) (Val := Elt F) spec6 c [cc6_scratch0]

theorem PhiA6_eq (c : Dev nD) :
    (Pipeline.ΦA spec6 c : sProp 𝕄)
      = iprop(iprop((∃ d, owns (c : Thread nD τ) scM6 fullShare d) ∗ Rest6 (F := F) c) ∗ (∃ r, prngReg c r)) := by
  unfold Pipeline.ΦA; rw [scopedRest6_split]; simp only [scM6, owns_whole]; try rfl

section Run

variable (c : Dev nD) (i : grid6.Coords) (arg2 : Memref sig .tc .vmem S5000x128 .f32) (arg3 : Memref sig .tc .vmem S5000x1 .f32)
  (arg4 arg5 arg6 arg7 arg8 : Memref sig .tc .vmem S1x128 .f32) (arg9 : Memref sig .tc .vmem S5000x1 .i32) (arg10 arg11 : Memref sig .tc .vmem S1x128x128 .f32)
  (x0 : Vec F S5000x128 .f32) (x1 : Vec F S5000x1 .f32) (x2 x3 x4 x5 x6 : Vec F S1x128 .f32) (x7 : Vec F S5000x1 .i32)

def withIns6 (R : sProp 𝕄) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ R)

variable {arg2 arg3 arg4 arg5 arg6 arg7 arg8 arg9 arg10 arg11}
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole)

section A
variable (hc0 : cond6_0 i) (hc1 : ¬cond6_1 i)
include hc0 hc1

set_option maxHeartbeats 1000000 in
def kernelRun6_A : Σ' (L8 : List (View.Piece (Elt F) S1x128x128 .f32)), { LS0 : List (View.Piece (Elt F) S1x128x128 .f32) //
    ∀ (xi8 : Vec F S1x128x128 .f32) (E : Set ℕ) (K : PUnit → sProp 𝕄),
      withIns6 c arg2 arg3 arg4 arg5 arg6 arg7 arg8 arg9 x0 x1 x2 x3 x4 x5 x6 x7 (iprop(owns (c : Thread nD τ) arg10 fullShare xi8 ∗ (∃ d, owns (c : Thread nD τ) arg11 fullShare d) ∗ (withIns6 c arg2 arg3 arg4 arg5 arg6 arg7 arg8 arg9 x0 x1 x2 x3 x4 x5 x6 x7 (iprop(owns (c : Thread nD τ) arg10 fullShare xi8 ∗ (∃ f, arg11.view.loc (c : Thread nD τ) ↦[arg11.view.set]{fullShare} arg11.view.writes (Elt F) f LS0))) -∗ K ⟨⟩)))
        ⊢ wp frame (wpE (defs₀ (F := F)) Variants.none c none) E (cc6__normrelu_pool_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    unfold withIns6
    simp only [cc6__normrelu_pool_kernel_eq_skeleton]; unfold cc6__normrelu_pool_kernel_skel
    simp only [k6_part1_eq_skeleton]; unfold k6_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact hf8
      iexact H8
    iexists _; iexact HS0

theorem scover6_A (y : S1x128x128.Idx) : ∃ pc ∈ (kernelRun6_A c i x0 x1 x2 x3 x4 x5 x6 x7 harg2 harg3 harg4 harg5 harg6 harg7 harg8 harg9 harg10 harg11 hc0 hc1).2.1, y ∈ pc.1.set :=
  View.cover_of_tiledL (kernelRun6_A c i x0 x1 x2 x3 x4 x5 x6 x7 harg2 harg3 harg4 harg5 harg6 harg7 harg8 harg9 harg10 harg11 hc0 hc1).2.1 S1x128x128.size (by sl_kernel_rfl) y

def sout6_A : Vec F S1x128x128 .f32 :=
  VS6.read (Elt F) (VS6.writes (Elt F) VS6.junk (kernelRun6_A c i x0 x1 x2 x3 x4 x5 x6 x7 harg2 harg3 harg4 harg5 harg6 harg7 harg8 harg9 harg10 harg11 hc0 hc1).2.1)

end A

section B
variable (hc0 : ¬cond6_0 i) (hc1 : ¬cond6_1 i) (xs0 : Vec F S1x128x128 .f32)
include hc0 hc1

set_option maxHeartbeats 1000000 in
def kernelRun6_B : Σ' (L8 : List (View.Piece (Elt F) S1x128x128 .f32)), { LS0 : List (View.Piece (Elt F) S1x128x128 .f32) //
    ∀ (xi8 : Vec F S1x128x128 .f32) (E : Set ℕ) (K : PUnit → sProp 𝕄),
      withIns6 c arg2 arg3 arg4 arg5 arg6 arg7 arg8 arg9 x0 x1 x2 x3 x4 x5 x6 x7 (iprop(owns (c : Thread nD τ) arg10 fullShare xi8 ∗ owns (c : Thread nD τ) arg11 fullShare xs0 ∗ (withIns6 c arg2 arg3 arg4 arg5 arg6 arg7 arg8 arg9 x0 x1 x2 x3 x4 x5 x6 x7 (iprop(owns (c : Thread nD τ) arg10 fullShare xi8 ∗ (∃ f, arg11.view.loc (c : Thread nD τ) ↦[arg11.view.set]{fullShare} arg11.view.writes (Elt F) f LS0))) -∗ K ⟨⟩)))
        ⊢ wp frame (wpE (defs₀ (F := F)) Variants.none c none) E (cc6__normrelu_pool_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    unfold withIns6
    simp only [cc6__normrelu_pool_kernel_eq_skeleton]; unfold cc6__normrelu_pool_kernel_skel
    simp only [k6_part1_eq_skeleton]; unfold k6_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact hf8
      iexact H8
    iexists _; iexact HS0

theorem scover6_B (y : S1x128x128.Idx) : ∃ pc ∈ (kernelRun6_B c i x0 x1 x2 x3 x4 x5 x6 x7 harg2 harg3 harg4 harg5 harg6 harg7 harg8 harg9 harg10 harg11 hc0 hc1 xs0).2.1, y ∈ pc.1.set :=
  View.cover_of_tiledL (kernelRun6_B c i x0 x1 x2 x3 x4 x5 x6 x7 harg2 harg3 harg4 harg5 harg6 harg7 harg8 harg9 harg10 harg11 hc0 hc1 xs0).2.1 S1x128x128.size (by sl_kernel_rfl) y

def sout6_B : Vec F S1x128x128 .f32 :=
  VS6.read (Elt F) (VS6.writes (Elt F) VS6.junk (kernelRun6_B c i x0 x1 x2 x3 x4 x5 x6 x7 harg2 harg3 harg4 harg5 harg6 harg7 harg8 harg9 harg10 harg11 hc0 hc1 xs0).2.1)

end B

section C
variable (hc0 : ¬cond6_0 i) (hc1 : cond6_1 i) (xs0 : Vec F S1x128x128 .f32)
include hc0 hc1

set_option maxHeartbeats 1000000 in
def kernelRun6_C : Σ' (L8 : List (View.Piece (Elt F) S1x128x128 .f32)), { LS0 : List (View.Piece (Elt F) S1x128x128 .f32) //
    ∀ (E : Set ℕ) (K : PUnit → sProp 𝕄),
      withIns6 c arg2 arg3 arg4 arg5 arg6 arg7 arg8 arg9 x0 x1 x2 x3 x4 x5 x6 x7 (iprop((∃ d, owns (c : Thread nD τ) arg10 fullShare d) ∗ owns (c : Thread nD τ) arg11 fullShare xs0 ∗ (withIns6 c arg2 arg3 arg4 arg5 arg6 arg7 arg8 arg9 x0 x1 x2 x3 x4 x5 x6 x7 (iprop((∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0))) -∗ K ⟨⟩)))
        ⊢ wp frame (wpE (defs₀ (F := F)) Variants.none c none) E (cc6__normrelu_pool_kernel i arg2 harg2 arg3 harg3 arg4 harg4 arg5 harg5 arg6 harg6 arg7 harg7 arg8 harg8 arg9 harg9 arg10 harg10 arg11 harg11) K } := by
  refine ⟨?_, ?_, fun E K => ?run⟩
  case run =>
    unfold withIns6
    simp only [cc6__normrelu_pool_kernel_eq_skeleton]; unfold cc6__normrelu_pool_kernel_skel
    simp only [k6_part1_eq_skeleton]; unfold k6_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

theorem scover6_C (y : S1x128x128.Idx) : ∃ pc ∈ (kernelRun6_C c i x0 x1 x2 x3 x4 x5 x6 x7 harg2 harg3 harg4 harg5 harg6 harg7 harg8 harg9 harg10 harg11 hc0 hc1 xs0).2.1, y ∈ pc.1.set :=
  View.cover_of_tiledL (kernelRun6_C c i x0 x1 x2 x3 x4 x5 x6 x7 harg2 harg3 harg4 harg5 harg6 harg7 harg8 harg9 harg10 harg11 hc0 hc1 xs0).2.1 S1x128x128.size (by sl_kernel_rfl) y

def sout6_C : Vec F S1x128x128 .f32 :=
  VS6.read (Elt F) (VS6.writes (Elt F) VS6.junk (kernelRun6_C c i x0 x1 x2 x3 x4 x5 x6 x7 harg2 harg3 harg4 harg5 harg6 harg7 harg8 harg9 harg10 harg11 hc0 hc1 xs0).2.1)

theorem cover6_C_8 (y : S1x128x128.Idx) : ∃ pc ∈ (kernelRun6_C c i x0 x1 x2 x3 x4 x5 x6 x7 harg2 harg3 harg4 harg5 harg6 harg7 harg8 harg9 harg10 harg11 hc0 hc1 xs0).1, y ∈ pc.1.set :=
  View.cover_of_tiledL (kernelRun6_C c i x0 x1 x2 x3 x4 x5 x6 x7 harg2 harg3 harg4 harg5 harg6 harg7 harg8 harg9 harg10 harg11 hc0 hc1 xs0).1 S1x128x128.size (by sl_kernel_rfl) y

def out6_C_8 : Vec F S1x128x128 .f32 :=
  VO6_8.read (Elt F) (VO6_8.writes (Elt F) VO6_8.junk (kernelRun6_C c i x0 x1 x2 x3 x4 x5 x6 x7 harg2 harg3 harg4 harg5 harg6 harg7 harg8 harg9 harg10 harg11 hc0 hc1 xs0).1)

end C

end Run

def atA (c : Dev nD) (t : Fin cfg6.N) (h0 : cond6_0 (grid6.coords t)) (h1 : ¬cond6_1 (grid6.coords t)) : Vec F S1x128x128 .f32 × Vec F S1x128x128 .f32 :=
  (fun s => (s, s)) (sout6_A c (grid6.coords t) (iblk6 V c 0 t) (iblk6 V c 1 t) (iblk6 V c 2 t) (iblk6 V c 3 t) (iblk6 V c 4 t) (iblk6 V c 5 t) (iblk6 V c 6 t) (iblk6 V c 7 t) (hs6_0 t) (hs6_1 t) (hs6_2 t) (hs6_3 t) (hs6_4 t) (hs6_5 t) (hs6_6 t) (hs6_7 t) (hs6_8 t) hsc6 h0 h1)
def atB (c : Dev nD) (t : Fin cfg6.N) (h0 : ¬cond6_0 (grid6.coords t)) (h1 : ¬cond6_1 (grid6.coords t)) (xs : Vec F S1x128x128 .f32) : Vec F S1x128x128 .f32 × Vec F S1x128x128 .f32 :=
  (fun s => (s, s)) (sout6_B c (grid6.coords t) (iblk6 V c 0 t) (iblk6 V c 1 t) (iblk6 V c 2 t) (iblk6 V c 3 t) (iblk6 V c 4 t) (iblk6 V c 5 t) (iblk6 V c 6 t) (iblk6 V c 7 t) (hs6_0 t) (hs6_1 t) (hs6_2 t) (hs6_3 t) (hs6_4 t) (hs6_5 t) (hs6_6 t) (hs6_7 t) (hs6_8 t) hsc6 h0 h1 xs)
def atC (c : Dev nD) (t : Fin cfg6.N) (h0 : ¬cond6_0 (grid6.coords t)) (h1 : cond6_1 (grid6.coords t)) (xs : Vec F S1x128x128 .f32) : Vec F S1x128x128 .f32 × Vec F S1x128x128 .f32 :=
  (out6_C_8 c (grid6.coords t) (iblk6 V c 0 t) (iblk6 V c 1 t) (iblk6 V c 2 t) (iblk6 V c 3 t) (iblk6 V c 4 t) (iblk6 V c 5 t) (iblk6 V c 6 t) (iblk6 V c 7 t) (hs6_0 t) (hs6_1 t) (hs6_2 t) (hs6_3 t) (hs6_4 t) (hs6_5 t) (hs6_6 t) (hs6_7 t) (hs6_8 t) hsc6 h0 h1 xs,
   sout6_C c (grid6.coords t) (iblk6 V c 0 t) (iblk6 V c 1 t) (iblk6 V c 2 t) (iblk6 V c 3 t) (iblk6 V c 4 t) (iblk6 V c 5 t) (iblk6 V c 6 t) (iblk6 V c 7 t) (hs6_0 t) (hs6_1 t) (hs6_2 t) (hs6_3 t) (hs6_4 t) (hs6_5 t) (hs6_6 t) (hs6_7 t) (hs6_8 t) hsc6 h0 h1 xs)

def outsAt6 (c : Dev nD) : (n : ℕ) → n < cfg6.N → Vec F S1x128x128 .f32 × Vec F S1x128x128 .f32
  | 0, hn => atA V c ⟨0, hn⟩ ((hcond6_0 ⟨0, hn⟩).mpr (Nat.zero_mod _)) (fun h => (fun h => by (try dsimp only at h); omega) ((hcond6_1 ⟨0, hn⟩).mp h))
  | n + 1, hn =>
    if h0 : (n + 1) % 10 = 0 then
      if h1 : (n + 1) % 10 = 9 then
        False.elim (by omega)
      else
        atA V c ⟨n + 1, hn⟩ ((hcond6_0 ⟨n + 1, hn⟩).mpr h0) (fun h => h1 ((hcond6_1 ⟨n + 1, hn⟩).mp h))
    else
      if h1 : (n + 1) % 10 = 9 then
        atC V c ⟨n + 1, hn⟩ (fun h => h0 ((hcond6_0 ⟨n + 1, hn⟩).mp h)) ((hcond6_1 ⟨n + 1, hn⟩).mpr h1) (outsAt6 c n (Nat.lt_of_succ_lt hn)).2
      else
        atB V c ⟨n + 1, hn⟩ (fun h => h0 ((hcond6_0 ⟨n + 1, hn⟩).mp h)) (fun h => h1 ((hcond6_1 ⟨n + 1, hn⟩).mp h)) (outsAt6 c n (Nat.lt_of_succ_lt hn)).2

theorem outsAt6_A (c : Dev nD) (t : Fin cfg6.N) (h0 : t.val % 10 = 0) (h1 : ¬t.val % 10 = 9) :
    outsAt6 V c t.val t.isLt = atA V c t ((hcond6_0 t).mpr h0) (fun h => h1 ((hcond6_1 t).mp h)) := by
  obtain ⟨n, hn⟩ := t
  cases n with
  | zero => exact rfl
  | succ n => exact (dif_pos h0).trans ((dif_neg h1).trans rfl)

theorem outsAt6_B (c : Dev nD) (t : Fin cfg6.N) (h0 : ¬t.val % 10 = 0) (h1 : ¬t.val % 10 = 9) :
    outsAt6 V c t.val t.isLt = atB V c t (fun h => h0 ((hcond6_0 t).mp h)) (fun h => h1 ((hcond6_1 t).mp h))
      (outsAt6 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt6_C (c : Dev nD) (t : Fin cfg6.N) (h0 : ¬t.val % 10 = 0) (h1 : t.val % 10 = 9) :
    outsAt6 V c t.val t.isLt = atC V c t (fun h => h0 ((hcond6_0 t).mp h)) ((hcond6_1 t).mpr h1)
      (outsAt6 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

def PhiS6 (c : Dev nD) : (n : ℕ) → n ≤ cfg6.N → sProp 𝕄
  | 0, _ => Pipeline.ΦA spec6 c
  | n + 1, hn => iprop(iprop(owns (c : Thread nD τ) scM6 fullShare ((outsAt6 V c n hn).2) ∗ Rest6 (F := F) c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare ((outsAt6 V c n hn).2) ∗ Rest6 (F := F) c) ∗ (∃ r, prngReg c r)) := rfl

theorem PhiS6_pos (c : Dev nD) (n : ℕ) (h : n ≤ cfg6.N) (hz : n ≠ 0) :
    PhiS6 V c n h = iprop(iprop(owns (c : Thread nD τ) scM6 fullShare ((outsAt6 V c (n - 1) (by omega)).2) ∗ Rest6 (F := F) c) ∗ (∃ r, prngReg c r)) := by
  cases n with
  | zero => exact absurd rfl hz
  | succ n => rfl

-- At every position the invariant holds the accumulator at some contents: its value is forgotten.
theorem PhiS6_weak (c : Dev nD) (n : ℕ) (h : n ≤ cfg6.N) :
    PhiS6 V c n h ⊢ iprop(iprop((∃ d, owns (c : Thread nD τ) scM6 fullShare d) ∗ Rest6 (F := F) c) ∗ (∃ r, prngReg c r)) := by
  cases n with
  | zero => rw [PhiS6_zero V c 0 h rfl, PhiA6_eq]; try exact Idealize.SL.BI.Entails.refl _
  | succ n =>
    rw [PhiS6_succ]
    iintro ⟨⟨HS0, Hr⟩, Hg⟩
    isplitl [HS0 Hr]
    · isplitl [HS0]
      · iexists _; iexact HS0
      iexact Hr
    iexact Hg

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = (outsAt6 V c t.val t.isLt).1 := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl
theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl
theorem before6_4 (c : Dev nD) (t : Fin cfg6.N) (d) : (dat6 V c).before 4 t d = iblk6 V c 4 t :=
  ((dat6 V c).before_in_eq_fetched 4 rfl (fun _ => rfl) (fun _ _ _ => rfl) (fun _ => rfl) t d).trans rfl
theorem before6_5 (c : Dev nD) (t : Fin cfg6.N) (d) : (dat6 V c).before 5 t d = iblk6 V c 5 t :=
  ((dat6 V c).before_in_eq_fetched 5 rfl (fun _ => rfl) (fun _ _ _ => rfl) (fun _ => rfl) t d).trans rfl
theorem before6_6 (c : Dev nD) (t : Fin cfg6.N) (d) : (dat6 V c).before 6 t d = iblk6 V c 6 t :=
  ((dat6 V c).before_in_eq_fetched 6 rfl (fun _ => rfl) (fun _ _ _ => rfl) (fun _ => rfl) t d).trans rfl
theorem before6_7 (c : Dev nD) (t : Fin cfg6.N) (d) : (dat6 V c).before 7 t d = iblk6 V c 7 t :=
  ((dat6 V c).before_in_eq_fetched 7 rfl (fun _ => rfl) (fun _ _ _ => rfl) (fun _ => rfl) t d).trans rfl

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t)

set_option maxHeartbeats 8000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).owesAt () t.succ = (dat6 V c).owesAt () t.castSucc from rfl]
  rw [show (dat6 V c).Φ t.succ = PhiS6 V c (t.val + 1) t.isLt from rfl, PhiS6_succ, PhiS6_castSucc V c t]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  rw [show (dat6 V c).leavesExact 4 t = owns (c : Thread nD τ) (ms6_4 t) fullShare ((dat6 V c).after 4 t) from by
    unfold Dat.leavesExact; rw [liveAt6_4 t], after6_4]
  rw [show (dat6 V c).leavesExact 5 t = owns (c : Thread nD τ) (ms6_5 t) fullShare ((dat6 V c).after 5 t) from by
    unfold Dat.leavesExact; rw [liveAt6_5 t], after6_5]
  rw [show (dat6 V c).leavesExact 6 t = owns (c : Thread nD τ) (ms6_6 t) fullShare ((dat6 V c).after 6 t) from by
    unfold Dat.leavesExact; rw [liveAt6_6 t], after6_6]
  rw [show (dat6 V c).leavesExact 7 t = owns (c : Thread nD τ) (ms6_7 t) fullShare ((dat6 V c).after 7 t) from by
    unfold Dat.leavesExact; rw [liveAt6_7 t], after6_7]
  have hw := PhiS6_weak V c t.val (Nat.le_of_lt t.isLt)
  by_cases h0 : t.val % 10 = 0
  · have h1 : ¬t.val % 10 = 9 := by omega
    rw [Dat.leavesExact_idle (dat6 V c) 8 t (idleAt6_8 t (fun h => h1 ((hcond6_1 t).mp h))) (noFlush6_8 t (fun h => h1 ((hcond6_1 t).mp h))), outsAt6_A V c t h0 h1]
    unfold atA sout6_A; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := hw $$ HΦ
    icases HΦ' with ⟨⟨HS0, Hr⟩, Hg⟩
    iapply ((kernelRun6_A c (grid6.coords t) (iblk6 V c 0 t) (iblk6 V c 1 t) (iblk6 V c 2 t) (iblk6 V c 3 t) (iblk6 V c 4 t) (iblk6 V c 5 t) (iblk6 V c 6 t) (iblk6 V c 7 t) _ _ _ _ _ _ _ _ _ _ ((hcond6_0 t).mpr h0) (fun h => h1 ((hcond6_1 t).mp h))).2.2 _ Set.univ _)
    unfold withIns6
    iframe H0 H1 H2 H3 H4 H5 H6 H7
    isplitl [H8]; · iexact H8
    isplitl [HS0]; · iexact HS0
    iintro ⟨H0, H1, H2, H3, H4, H5, H6, H7, H8, ⟨%es0, HS0⟩⟩
    iframe Hr Hg Ho H0 H1 H2 H3 H4 H5 H6 H7
    isplitl [HS0]
    · unfold owns; iexists _; isplitr
      swap; · iexact HS0
      ipureintro; exact View.read_writes_of_cover _ _ _ _ _ (scover6_A c _ _ _ _ _ _ _ _ _ _ _ _ _ _ _ _ _ _ _ _ _)
    iexists _; iexact H8
  · have hz : t.val ≠ 0 := by omega
    rw [PhiS6_pos V c _ _ hz]
    by_cases h1 : t.val % 10 = 9
    · rw [show (dat6 V c).leavesExact 8 t = owns (c : Thread nD τ) (ms6_8 t) fullShare ((dat6 V c).after 8 t) from by
        unfold Dat.leavesExact; rw [liveAt6_8 t ((hcond6_1 t).mpr h1)], after6_8, outsAt6_C V c t h0 h1]
      unfold atC out6_C_8 sout6_C; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun6_C c (grid6.coords t) (iblk6 V c 0 t) (iblk6 V c 1 t) (iblk6 V c 2 t) (iblk6 V c 3 t) (iblk6 V c 4 t) (iblk6 V c 5 t) (iblk6 V c 6 t) (iblk6 V c 7 t) _ _ _ _ _ _ _ _ _ _ (fun h => h0 ((hcond6_0 t).mp h)) ((hcond6_1 t).mpr h1) _).2.2 Set.univ _)
      unfold withIns6
      iframe H0 H1 H2 H3 H4 H5 H6 H7
      isplitl [H8]; · iexists _; iexact H8
      isplitl [HS0]; · iexact HS0
      iintro ⟨H0, H1, H2, H3, H4, H5, H6, H7, ⟨%e8, H8⟩, ⟨%es0, HS0⟩⟩
      iframe Hr Hg Ho H0 H1 H2 H3 H4 H5 H6 H7
      isplitl [HS0]
      · unfold owns; iexists _; isplitr
        swap; · iexact HS0
        ipureintro; exact View.read_writes_of_cover _ _ _ _ _ (scover6_C c _ _ _ _ _ _ _ _ _ _ _ _ _ _ _ _ _ _ _ _ _ _)
      unfold owns; iexists _; isplitr
      swap; · iexact H8
      ipureintro; exact View.read_writes_of_cover _ _ _ _ _ (cover6_C_8 c _ _ _ _ _ _ _ _ _ _ _ _ _ _ _ _ _ _ _ _ _ _)
    · rw [Dat.leavesExact_idle (dat6 V c) 8 t (idleAt6_8 t (fun h => h1 ((hcond6_1 t).mp h))) (noFlush6_8 t (fun h => h1 ((hcond6_1 t).mp h))), outsAt6_B V c t h0 h1]
      unfold atB sout6_B; (try dsimp only)
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun6_B c (grid6.coords t) (iblk6 V c 0 t) (iblk6 V c 1 t) (iblk6 V c 2 t) (iblk6 V c 3 t) (iblk6 V c 4 t) (iblk6 V c 5 t) (iblk6 V c 6 t) (iblk6 V c 7 t) _ _ _ _ _ _ _ _ _ _ (fun h => h0 ((hcond6_0 t).mp h)) (fun h => h1 ((hcond6_1 t).mp h)) _).2.2 _ Set.univ _)
      unfold withIns6
      iframe H0 H1 H2 H3 H4 H5 H6 H7
      isplitl [H8]; · iexact H8
      isplitl [HS0]; · iexact HS0
      iintro ⟨H0, H1, H2, H3, H4, H5, H6, H7, H8, ⟨%es0, HS0⟩⟩
      iframe Hr Hg Ho H0 H1 H2 H3 H4 H5 H6 H7
      isplitl [HS0]
      · unfold owns; iexists _; isplitr
        swap; · iexact HS0
        ipureintro; exact View.read_writes_of_cover _ _ _ _ _ (scover6_B c _ _ _ _ _ _ _ _ _ _ _ _ _ _ _ _ _ _ _ _ _ _)
      iexists _; iexact H8

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl, PhiA6_eq]
  exact PhiS6_weak V c _ _

end Cert.KernelIdeal.Hand

end
-- ==== Proof.KIAssembly.lean ====
import proofs.«429421_j77326591197817_3_alg».proof.Proof.KIRegion0
import proofs.«429421_j77326591197817_3_alg».proof.Proof.KIRegion1
import proofs.«429421_j77326591197817_3_alg».proof.Proof.KIRegion2
import proofs.«429421_j77326591197817_3_alg».proof.Proof.KIRegion3
import proofs.«429421_j77326591197817_3_alg».proof.Proof.KIRegion4
import proofs.«429421_j77326591197817_3_alg».proof.Proof.KIRegion5
import proofs.«429421_j77326591197817_3_alg».proof.Proof.KIRegion6
import proofs.«429421_j77326591197817_3_alg».proof.Proof.KIRunCond

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MM F

variable (m : (ℓ : Loc nD τ sig) → Buf (Elt F) ℓ)

abbrev X3 (c : Dev nD) : Valuation τ sig (Elt F) := V3 m c
abbrev Y3 : EntryVal F := fun c b => X3 m c b
def o4 (c : Dev nD) : Buf (Elt F) ((c : Thread nD τ).loc main_v22) := (dat0 (Y3 m) c).arrAt 3 cfg0.N
abbrev X4 (c : Dev nD) : Valuation τ sig (Elt F) := Function.update (X3 m c) main_v22 (o4 m c)
abbrev X5 (c : Dev nD) : Valuation τ sig (Elt F) := StableHlo.after hostOps1 (X4 m c)
abbrev Y5 : EntryVal F := fun c b => X5 m c b
def o6 (c : Dev nD) : Buf (Elt F) ((c : Thread nD τ).loc main_v33) := (dat1 (Y5 m) c).arrAt 3 cfg1.N
abbrev X6 (c : Dev nD) : Valuation τ sig (Elt F) := Function.update (X5 m c) main_v33 (o6 m c)
abbrev X7 (c : Dev nD) : Valuation τ sig (Elt F) := StableHlo.after hostOps2 (X6 m c)
abbrev Y7 : EntryVal F := fun c b => X7 m c b
def o8 (c : Dev nD) : Buf (Elt F) ((c : Thread nD τ).loc main_v37) := (dat2 (Y7 m) c).arrAt 4 cfg2.N
abbrev X8 (c : Dev nD) : Valuation τ sig (Elt F) := Function.update (X7 m c) main_v37 (o8 m c)
abbrev X9 (c : Dev nD) : Valuation τ sig (Elt F) := StableHlo.after hostOps3 (X8 m c)
abbrev Y9 : EntryVal F := fun c b => X9 m c b
def o10 (c : Dev nD) : Buf (Elt F) ((c : Thread nD τ).loc main_v43) := (dat3 (Y9 m) c).arrAt 8 cfg3.N
abbrev X10 (c : Dev nD) : Valuation τ sig (Elt F) := Function.update (X9 m c) main_v43 (o10 m c)
abbrev X11 (c : Dev nD) : Valuation τ sig (Elt F) := StableHlo.after hostOps4 (X10 m c)
abbrev Y11 : EntryVal F := fun c b => X11 m c b
def o12 (c : Dev nD) : Buf (Elt F) ((c : Thread nD τ).loc main_v54) := (dat4 (Y11 m) c).arrAt 3 cfg4.N
abbrev X12 (c : Dev nD) : Valuation τ sig (Elt F) := Function.update (X11 m c) main_v54 (o12 m c)
abbrev X13 (c : Dev nD) : Valuation τ sig (Elt F) := StableHlo.after hostOps5 (X12 m c)
abbrev Y13 : EntryVal F := fun c b => X13 m c b
def o14 (c : Dev nD) : Buf (Elt F) ((c : Thread nD τ).loc main_v58) := (dat5 (Y13 m) c).arrAt 4 cfg5.N
abbrev X14 (c : Dev nD) : Valuation τ sig (Elt F) := Function.update (X13 m c) main_v58 (o14 m c)
abbrev X15 (c : Dev nD) : Valuation τ sig (Elt F) := StableHlo.after hostOps6 (X14 m c)
abbrev Y15 : EntryVal F := fun c b => X15 m c b
def o16 (c : Dev nD) : Buf (Elt F) ((c : Thread nD τ).loc main_v65) := (dat6 (Y15 m) c).arrAt 8 cfg6.N
abbrev X16 (c : Dev nD) : Valuation τ sig (Elt F) := Function.update (X15 m c) main_v65 (o16 m c)

def outs : Outs (F := F) := fun j r c => match j with
  | 4 => X4 m c r | 6 => X6 m c r | 8 => X8 m c r | 10 => X10 m c r | 12 => X12 m c r | 14 => X14 m c r | _ => X16 m c r

theorem V16_eq (c : Dev nD) : V16 m (outs m) c = X16 m c := rfl

def pdats : (p : Fin 7) → (c : Dev nD) → Dat τ (Elt F) Unit ℕ (UR sig nD τ) ℕ (cfgs p) c
  | ⟨0, _⟩ => dat0 (Y3 m)
  | ⟨1, _⟩ => dat1 (Y5 m)
  | ⟨2, _⟩ => dat2 (Y7 m)
  | ⟨3, _⟩ => dat3 (Y9 m)
  | ⟨4, _⟩ => dat4 (Y11 m)
  | ⟨5, _⟩ => dat5 (Y13 m)
  | ⟨6, _⟩ => dat6 (Y15 m)

abbrev L : GSem nD τ sig → Finset Unit := fun _ => ∅
abbrev lv : GSem nD τ sig → Unit → ℕ := fun _ _ => 0

-- Only the last window is an output, so the exit contents differ from the entry contents at its array alone.
set_option backward.isDefEq.respectTransparency.types false in
def reg {p : Fin 7} (lf : Pipeline.LaunchFacts (nD := nD) (τ := τ) cfgs p) (V V' : Dev nD → Valuation τ sig (Elt F))
    (hA : ∀ c w, (pdats m p c).A w = V c (Pipeline.arrRef (cfgs p).spec w))
    (hb : ∀ c, Pipeline.BodyObligation (pdats m p c) (defs₀ (F := F)) Variants.none () Set.univ)
    (hi : ∀ c, Pipeline.ΦA (cfgs p).spec c ⊢ (pdats m p c).Φ 0)
    (ho : ∀ c, (pdats m p c).Φ (Fin.last (cfgs p).N) ⊢ Pipeline.ΦA (cfgs p).spec c)
    (hk : (cfgs p).W - 1 < (cfgs p).W := by decide)
    (hio : ∀ w, w ≠ ⟨_, hk⟩ → ((cfgs p).win w).isOut = false := by decide)
    (hV : ∀ c, V' c = Function.update (V c) (Pipeline.arrRef (cfgs p).spec ⟨_, hk⟩) ((pdats m p c).arrAt ⟨_, hk⟩ (cfgs p).N) := by
      exact fun _ => rfl)
    (hq : ∀ c w, (pdats m p c).q w = fullShare := by exact fun _ _ => rfl)
    (howed : ∀ c t, (pdats m p c).owed t = 0 := by exact fun _ _ => rfl)
    (hrec : ∀ c x, x ∈ (pdats m p c).recorded 0 := by exact fun _ _ => trivial) :
    RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (V c) ∗ Ride c)
  post c := iprop(StableHlo.held (c : Thread nD τ) (Pipeline.ucRefs τ sig) (V' c) ∗ Ride c)
  X c := iprop(∃ r, prngReg c r)
  Y c := iprop(∃ r, prngReg c r)
  Z c := Pipeline.unscopedRest (cfgs p).spec c fun b => V c b
  hentry c := by
    rw [Pipeline.ownSems0_none]
    have hsplit := Pipeline.arrays_of_unscopedBufs (p := p) (pcfgs (F := F)) adm (pdats m) lf.win lf.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      erw [howed]
      icases HO with ⟨%W, HO⟩; iexists W; isplitr; · ipureintro; exact fun _ _ => Or.inl (hrec c _)
      iexact HO
    isplitl [Hp]; · iexact Hp
    iexact Hrest
  hin c := by
    have h := hi c
    unfold Pipeline.ΦA at h
    iintro ⟨Hp, -, Hr⟩
    iapply h; isplitl [Hr] <;> iassumption
  hout c := by
    rw [Pipeline.ownSems0_none]
    have h := ho c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := p) (pcfgs (F := F)) adm
      lf.win lf.arr_whole c (pdats m) ((pdats m p c).share_full (hq c)) (fun b => V c b) (fun b => V' c b)
      ((pdats m p c).arrAt · (cfgs p).N)
      (fun w => by
        rw [hV c]
        by_cases hw : w = ⟨_, hk⟩
        · subst hw; erw [Function.update_self]
        · exact (((pdats m p c).arrAt_in w (hio w hw) _).trans (hA c w)).trans
            (Function.update_of_ne (StableHlo.devRef_ne_of_ne (lf.win.arr_inj.ne hw)) _ _).symm)
      fun b hb => by
        rw [hV c]
        exact Function.update_of_ne (StableHlo.devRef_ne_of_ne fun e => hb (Finset.mem_image.mpr ⟨_, Finset.mem_univ _, e.symm⟩)) _ _
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    erw [howed]
    icases HO with ⟨%W, -, HO⟩; iexists W; iexact HO

def reg0 := reg m launch0 (V3 m) (V4 m (outs m)) (A_eq0 _) (body_obligation0 _) (hin0 _) (hout0 _)
def reg1 := reg m launch1 (V5 m (outs m)) (V6 m (outs m)) (A_eq1 _) (body_obligation1 _) (hin1 _) (hout1 _)
def reg2 := reg m launch2 (V7 m (outs m)) (V8 m (outs m)) (A_eq2 _) (body_obligation2 _) (hin2 _) (hout2 _)
def reg3 := reg m launch3 (V9 m (outs m)) (V10 m (outs m)) (A_eq3 _) (body_obligation3 _) (hin3 _) (hout3 _)
def reg4 := reg m launch4 (V11 m (outs m)) (V12 m (outs m)) (A_eq4 _) (body_obligation4 _) (hin4 _) (hout4 _)
def reg5 := reg m launch5 (V13 m (outs m)) (V14 m (outs m)) (A_eq5 _) (body_obligation5 _) (hin5 _) (hout5 _)
def reg6 := reg m launch6 (V15 m (outs m)) (V16 m (outs m)) (A_eq6 _) (body_obligation6 _) (hin6 _) (hout6 _)

set_option backward.isDefEq.respectTransparency.types false in
theorem run (ρ : Dev nD → PrngReg) :
    θ_run defs (onTc (τ := τ) (main (F := F))) ⟨m, fun _ => 0, ρ⟩ (fun r => ∀ c : Dev nD,
      r.2.mem ((c.tc : Thread nD τ).loc main_v86) = V20 m (outs m) c main_v86
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_cond m emb₁ () Variants.none L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (fun _ c => Ride c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
end Cert.KernelIdeal.Hand
end
-- ==== Proof.KIKept.lean ====
import proofs.«429421_j77326591197817_3_alg».proof.Proof.KIAssembly

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- An item of the run changes only the buffers it writes: every other buffer holds after it what it held before. -/
theorem X4_of (c : Dev nD) (r : Ref sig .tc) (h : r ∉ ([main_v22] : List (Ref sig .tc))) : X4 m c r = X3 m c r := by
  simp only [X4, Function.update_of_ne (StableHlo.devRef_ne_of_ne (List.ne_of_not_mem_cons h) : (Proc.devRef .tc r : DevRef τ sig) ≠ Proc.devRef .tc main_v22)]
theorem X5_of (c : Dev nD) (r : Ref sig .tc) (h : r ∉ hostOps1_W) : X5 m c r = X4 m c r :=
  StableHlo.after_of_writes_sub hostOps1 _ hostOps1_writes h
theorem X6_of (c : Dev nD) (r : Ref sig .tc) (h : r ∉ ([main_v33] : List (Ref sig .tc))) : X6 m c r = X5 m c r := by
  simp only [X6, Function.update_of_ne (StableHlo.devRef_ne_of_ne (List.ne_of_not_mem_cons h) : (Proc.devRef .tc r : DevRef τ sig) ≠ Proc.devRef .tc main_v33)]
theorem X7_of (c : Dev nD) (r : Ref sig .tc) (h : r ∉ hostOps2_W) : X7 m c r = X6 m c r :=
  StableHlo.after_of_writes_sub hostOps2 _ hostOps2_writes h
theorem X8_of (c : Dev nD) (r : Ref sig .tc) (h : r ∉ ([main_v37] : List (Ref sig .tc))) : X8 m c r = X7 m c r := by
  simp only [X8, Function.update_of_ne (StableHlo.devRef_ne_of_ne (List.ne_of_not_mem_cons h) : (Proc.devRef .tc r : DevRef τ sig) ≠ Proc.devRef .tc main_v37)]
theorem X9_of (c : Dev nD) (r : Ref sig .tc) (h : r ∉ hostOps3_W) : X9 m c r = X8 m c r :=
  StableHlo.after_of_writes_sub hostOps3 _ hostOps3_writes h
theorem X10_of (c : Dev nD) (r : Ref sig .tc) (h : r ∉ ([main_v43] : List (Ref sig .tc))) : X10 m c r = X9 m c r := by
  simp only [X10, Function.update_of_ne (StableHlo.devRef_ne_of_ne (List.ne_of_not_mem_cons h) : (Proc.devRef .tc r : DevRef τ sig) ≠ Proc.devRef .tc main_v43)]
theorem X11_of (c : Dev nD) (r : Ref sig .tc) (h : r ∉ hostOps4_W) : X11 m c r = X10 m c r :=
  StableHlo.after_of_writes_sub hostOps4 _ hostOps4_writes h
theorem X12_of (c : Dev nD) (r : Ref sig .tc) (h : r ∉ ([main_v54] : List (Ref sig .tc))) : X12 m c r = X11 m c r := by
  simp only [X12, Function.update_of_ne (StableHlo.devRef_ne_of_ne (List.ne_of_not_mem_cons h) : (Proc.devRef .tc r : DevRef τ sig) ≠ Proc.devRef .tc main_v54)]
theorem X13_of (c : Dev nD) (r : Ref sig .tc) (h : r ∉ hostOps5_W) : X13 m c r = X12 m c r :=
  StableHlo.after_of_writes_sub hostOps5 _ hostOps5_writes h
theorem X14_of (c : Dev nD) (r : Ref sig .tc) (h : r ∉ ([main_v58] : List (Ref sig .tc))) : X14 m c r = X13 m c r := by
  simp only [X14, Function.update_of_ne (StableHlo.devRef_ne_of_ne (List.ne_of_not_mem_cons h) : (Proc.devRef .tc r : DevRef τ sig) ≠ Proc.devRef .tc main_v58)]
theorem X15_of (c : Dev nD) (r : Ref sig .tc) (h : r ∉ hostOps6_W) : X15 m c r = X14 m c r :=
  StableHlo.after_of_writes_sub hostOps6 _ hostOps6_writes h
theorem X16_of (c : Dev nD) (r : Ref sig .tc) (h : r ∉ ([main_v65] : List (Ref sig .tc))) : X16 m c r = X15 m c r := by
  simp only [X16, Function.update_of_ne (StableHlo.devRef_ne_of_ne (List.ne_of_not_mem_cons h) : (Proc.devRef .tc r : DevRef τ sig) ≠ Proc.devRef .tc main_v65)]

end Cert.KernelIdeal.Hand

end
-- ==== Proof.Spec.lean ====
import Idealize.ShloMosaic.PureOps.Ideal
import Idealize.ShloMosaic.PureOps.Ideal.Laws
import Mathlib.Algebra.BigOperators.Group.Finset.Basic
import Mathlib.Algebra.BigOperators.Fin
import Mathlib.Data.Fintype.BigOperators

noncomputable section

namespace Cert.GNN

open Idealize.ShloMosaic
open scoped BigOperators

abbrev NN : Nat := 100000
abbrev EE : Nat := 1700000
abbrev DD : Nat := 128
abbrev GG : Nat := 64

def g128 (g : Fin GG) : Fin 128 := ⟨g.val, lt_of_lt_of_le g.isLt (by decide)⟩

abbrev NodeMat : Type := Fin NN → Fin DD → EReal
abbrev Row : Type := Fin DD → EReal

def cN : EReal := Ideal.ofBits .f32 0x47C35000#32
def cEps : EReal := Ideal.ofBits .f32 0x3727C5AC#32

def cMax : EReal := Ideal.ofBits .f32 0x7F7FFFFF#32
def cMin : EReal := Ideal.ofBits .f32 0xFF7FFFFF#32

/-- An infinite value becomes the largest finite value of its sign; a finite one is kept. -/
def scrub (v : EReal) : EReal :=
  let b := if v = ⊤ then cMax else v
  if b = ⊥ then cMin else b

/-- Every row times a weight matrix. -/
def lin (h : NodeMat) (W : Fin DD → Fin DD → EReal) : NodeMat := fun i l => ∑ k : Fin DD, h i k * W k l

section Graph

variable (src dst : Fin EE → Fin NN) (tgt : Fin EE → Option (Fin NN)) (dinv : Fin NN → EReal)

/-- The edges whose destination is node `j`. -/
def into (j : Fin NN) : Finset (Fin EE) := Finset.univ.filter fun e => tgt e = some j

/-- One layer, each message scaled at its edge by both ends' degree factors, then summed into its destination. -/
def convRef (xw : NodeMat) (b : Row) : NodeMat := fun j l =>
  (0 + ∑ e ∈ into tgt j, xw (src e) l * (dinv (src e) * dinv (dst e))) + b l

/-- The same layer in three steps: rows scaled at the source, summed over the incoming edges, scaled at the destination. -/
def scaled (xw : NodeMat) : NodeMat := fun i l => xw i l * dinv i

def aggK (xws : NodeMat) : NodeMat := fun j l => 0 + ∑ e ∈ into tgt j, xws (src e) l

def valK (agg : NodeMat) (b : Row) : NodeMat := fun j l => agg j l * dinv j + b l

end Graph

/-- A column's mean and mean squared deviation over all nodes. -/
def colMean (v : NodeMat) : Row := fun l => Ideal.div (0 + ∑ j : Fin NN, v j l) cN

def colVar (v : NodeMat) (mean : Row) : Row := fun l => Ideal.div (0 + ∑ j : Fin NN, (v j l - mean l) * (v j l - mean l)) cN

/-- Normalise by the column statistics, rescale, shift, and clamp at zero. -/
def bnRelu (v : NodeMat) (mean var g be : Row) : NodeMat := fun j l =>
  max ((v j l - mean l) * Ideal.rsqrt (var l + cEps) * g l + be l) 0

/-- Row `r` of tile `t` of half `c` of the nodes; `rowOf1` numbers the twenty tiles in one run. -/
def rowOf (c : Fin 2) (t : Fin 10) (r : Fin 5000) : Fin NN := ⟨(c.val * 10 + t.val) * 5000 + r.val, by
  have := c.isLt; have := t.isLt; have := r.isLt; show _ < 100000; omega⟩

def rowOf1 (t : Fin 20) (r : Fin 5000) : Fin NN := ⟨t.val * 5000 + r.val, by
  have := t.isLt; have := r.isLt; show _ < 100000; omega⟩

/-- Column sums and statistics taken half by half and tile by tile. -/
def halfSum (v : NodeMat) (c : Fin 2) : Row := fun l => ∑ t : Fin 10, ∑ r : Fin 5000, v (rowOf c t r) l

def colMeanK (v : NodeMat) : Row := fun l => Ideal.div (0 + ∑ c : Fin 2, halfSum v c l) cN

def colVarK (v : NodeMat) (mean : Row) : Row := fun l =>
  max (Ideal.div (0 + ∑ c : Fin 2, halfSum (fun j l => (v j l - mean l) * (v j l - mean l)) c l) cN) 0

/-- A graph's sum over the rows its id selects; `poolK` is the same sum through a zero-one indicator, tile by tile. -/
def pool (btgt : Fin NN → Option (Fin GG)) (h : NodeMat) : Fin GG → Fin DD → EReal := fun g l =>
  0 + ∑ j ∈ Finset.univ.filter (fun j : Fin NN => btgt j = some g), h j l

def poolK (ind : Fin NN → Fin 128 → EReal) (h : NodeMat) : Fin 128 → Fin DD → EReal := fun g l =>
  0 + ∑ c : Fin 2, ∑ t : Fin 10, ∑ r : Fin 5000, ind (rowOf c t r) g * h (rowOf c t r) l

/-! The network in its two arrangements: `…Ref` scales each message at its edge and sums whole columns; `…K` scales
    rows before and after the edge sum and sums columns tile by tile. -/
section Net

variable (src dst : Fin EE → Fin NN) (tgt : Fin EE → Option (Fin NN)) (dinv : Fin NN → EReal)
  (btgt : Fin NN → Option (Fin GG)) (ind : Fin NN → Fin 128 → EReal)
  (x : NodeMat) (W1 : Fin DD → Fin DD → EReal) (b1 g1 be1 : Row) (W2 : Fin DD → Fin DD → EReal) (b2 g2 be2 : Row)

def v1Ref : NodeMat := convRef src dst tgt dinv (lin (fun i k => scrub (x i k)) W1) b1

def h1Ref : NodeMat :=
  bnRelu (v1Ref src dst tgt dinv x W1 b1) (colMean (v1Ref src dst tgt dinv x W1 b1))
    (colVar (v1Ref src dst tgt dinv x W1 b1) (colMean (v1Ref src dst tgt dinv x W1 b1))) g1 be1

def v2Ref : NodeMat := convRef src dst tgt dinv (lin (h1Ref src dst tgt dinv x W1 b1 g1 be1) W2) b2

def h2Ref : NodeMat :=
  bnRelu (v2Ref src dst tgt dinv x W1 b1 g1 be1 W2 b2) (colMean (v2Ref src dst tgt dinv x W1 b1 g1 be1 W2 b2))
    (colVar (v2Ref src dst tgt dinv x W1 b1 g1 be1 W2 b2) (colMean (v2Ref src dst tgt dinv x W1 b1 g1 be1 W2 b2))) g2 be2

def poolRef : Fin GG → Fin DD → EReal := pool btgt (h2Ref src dst tgt dinv x W1 b1 g1 be1 W2 b2 g2 be2)

def o0K : NodeMat := scaled dinv (lin (fun i k => scrub (x i k)) W1)

def v1K : NodeMat := valK dinv (aggK src tgt (o0K dinv x W1)) b1

def m1K : Row := colMeanK (v1K src tgt dinv x W1 b1)
def s1K : Row := colVarK (v1K src tgt dinv x W1 b1) (m1K src tgt dinv x W1 b1)

def h1K : NodeMat := bnRelu (v1K src tgt dinv x W1 b1) (m1K src tgt dinv x W1 b1) (s1K src tgt dinv x W1 b1) g1 be1

def o3K : NodeMat := scaled dinv (lin (h1K src tgt dinv x W1 b1 g1 be1) W2)

def v2K : NodeMat := valK dinv (aggK src tgt (o3K src tgt dinv x W1 b1 g1 be1 W2)) b2
def m2K : Row := colMeanK (v2K src tgt dinv x W1 b1 g1 be1 W2 b2)
def s2K : Row := colVarK (v2K src tgt dinv x W1 b1 g1 be1 W2 b2) (m2K src tgt dinv x W1 b1 g1 be1 W2 b2)
def h2K : NodeMat :=
  bnRelu (v2K src tgt dinv x W1 b1 g1 be1 W2 b2) (m2K src tgt dinv x W1 b1 g1 be1 W2 b2) (s2K src tgt dinv x W1 b1 g1 be1 W2 b2) g2 be2

def poolKer : Fin 128 → Fin DD → EReal := poolK ind (h2K src tgt dinv x W1 b1 g1 be1 W2 b2 g2 be2)

end Net

end Cert.GNN

end
-- ==== Proof.LibDotPlain.lean ====
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

theorem getElem_zero_of_eq_singleton {α : Type} {l : List α} {c : α} (h : l = [c]) (hp : 0 < l.length) : l[0] = c := by
  subst h; rfl

theorem contr_rank_one {sl sr so : Shape} (d : DotDims sl sr so) {c : Fin sl.rank} (hlc : d.lhsContracting = [c]) :
    d.contr.rank = 1 := by
  rw [d.rank_contr, hlc]; rfl

theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

private theorem val_congr {s : Shape} (j : s.Idx) (p q : Nat) (hp : p < s.rank) (hq : q < s.rank) (h : p = q) :
    (j ⟨p, hp⟩).val = (j ⟨q, hq⟩).val := by
  subst h; rfl

theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

section RowsCols

variable {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
include hlb hrb hlc hrc hln hrn

theorem sum_rows_cols (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

theorem dotGeneral_rows_cols (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

theorem matmul_zero_rows_cols (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

end RowsCols

section ColsCols

variable {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
include hlb hrb hlc hrc hln hrn

theorem sum_cols_cols (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

theorem matmul_zero_cols_cols (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end ColsCols

end Cert.DotPlain

end
-- ==== Proof.KIRegion0Value.lean ====
import proofs.«429421_j77326591197817_3_alg».proof.Proof.KIRegion0
import proofs.«429421_j77326591197817_3_alg».proof.Proof.Spec
import proofs.«429421_j77326591197817_3_alg».proof.Proof.LibDotPlain
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.GNN
open scoped BigOperators

theorem sel_one_self (v z : EReal) : Scalar.select (Ideal.cmp .one v v) z v = v := by
  simp [Scalar.select, Ideal.cmp]

theorem sel_oeq (v w a : EReal) : Scalar.select (Ideal.cmp .oeq v w) a v = if v = w then a else v := by
  unfold Scalar.select Ideal.cmp
  by_cases h : v = w <;> simp [h]

theorem ofBits_posInf : Ideal.ofBits .f32 0x7F800000#32 = ⊤ := by simp [Ideal.ofBits, Ideal.ieee]
theorem ofBits_negInf : Ideal.ofBits .f32 0xFF800000#32 = ⊥ := by simp [Ideal.ofBits, Ideal.ieee]

theorem scrub_sel (v : EReal) :
    let a := Scalar.select (Ideal.cmp .one v v) (Ideal.ofBits .f32 0x00000000#32) v
    let b := Scalar.select (Ideal.cmp .oeq a (Ideal.ofBits .f32 0x7F800000#32)) (Ideal.ofBits .f32 0x7F7FFFFF#32) a
    Scalar.select (Ideal.cmp .oeq b (Ideal.ofBits .f32 0xFF800000#32)) (Ideal.ofBits .f32 0xFF7FFFFF#32) b = scrub v := by
  simp only [sel_one_self, sel_oeq, ofBits_posInf, ofBits_negInf]
  rfl

theorem pay0_apply (x0 : FVec Ideal S5000x128 .f32) (x1 : FVec Ideal S128x128 .f32) (x2 : FVec Ideal S5000x1 .f32) (a : Fin 5000) (b : Fin 128) :
    k0_pay1 (F := Ideal) x0 x1 x2 (ix2 a b) = (∑ k : Fin 128, scrub (x0 (ix2 a k)) * x1 (ix2 k b)) * x2 (ix2 a 0) := by
  unfold k0_pay1
  simp only [shapeCast_self]
  rw [mulf_apply]
  exact congrArg₂ (· * ·)
    ((Cert.DotPlain.matmul_zero_rows_cols dot_S5000x128_S128x128_S5000x128_1_0_0_1_n_n rfl rfl rfl rfl rfl rfl none _ x1 a b).trans
      (Finset.sum_congr rfl fun k _ => congrArg (· * x1 (ix2 k b)) (scrub_sel (x0 (ix2 a k)))))
    (broadcastTo_apply x2 _ (ix2 a b) (ix2 a 0) fun ax => by match ax with | ⟨0, _⟩ => rfl | ⟨1, _⟩ => rfl)

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

def row0 (t : Fin cfg0.N) (a : Fin 5000) : Fin 100000 := ⟨t.val * 5000 + a.val, by
  have h : t.val < 20 := t.isLt
  have := a.isLt; omega⟩

section Final

variable (V : EntryVal Ideal) (c : Dev nD) (X : NodeMat) (W : Fin 128 → Fin 128 → EReal) (dv : Fin 100000 → EReal)

def G0 : S100000x128.Idx → EReal := fun i => scaled dv (lin (fun i k => scrub (X i k)) W) (i 0) (i 1)

theorem emb0_0 (t : Fin cfg0.N) (a : Fin 5000) (k : Fin 128) :
    ((cfg0.win 0).blk t).view.emb (ix2 a k) = ix2 (row0 t a) k := by
  have := idx_facts0 t
  funext ax; apply Fin.ext
  match ax with
  | ⟨0, _⟩ => show win0_0.index t (0 : Fin 2) * 5000 + 1 * a.val = t.val * 5000 + a.val; omega
  | ⟨1, _⟩ => show win0_0.index t (1 : Fin 2) * 128 + 1 * k.val = k.val; omega

theorem emb0_1 (t : Fin cfg0.N) (k : Fin 128) (b : Fin 128) :
    ((cfg0.win 1).blk t).view.emb (ix2 k b) = ix2 k b := by
  have := idx_facts0 t
  funext ax; apply Fin.ext
  match ax with
  | ⟨0, _⟩ => show win0_1.index t (0 : Fin 2) * 128 + 1 * k.val = k.val; omega
  | ⟨1, _⟩ => show win0_1.index t (1 : Fin 2) * 128 + 1 * b.val = b.val; omega

theorem emb0_2 (t : Fin cfg0.N) (a : Fin 5000) (z : Fin 1) :
    ((cfg0.win 2).blk t).view.emb (ix2 a z) = ix2 (row0 t a) (0 : Fin 1) := by
  have := idx_facts0 t
  funext ax; apply Fin.ext
  match ax with
  | ⟨0, _⟩ => show win0_2.index t (0 : Fin 2) * 5000 + 1 * a.val = t.val * 5000 + a.val; omega
  | ⟨1, _⟩ => show win0_2.index t (1 : Fin 2) * 1 + 1 * z.val = 0; have := z.isLt; omega

theorem emb0_3 (t : Fin cfg0.N) (a : Fin 5000) (b : Fin 128) :
    ((cfg0.win 3).blk t).view.emb (ix2 a b) = ix2 (row0 t a) b := by
  have := idx_facts0 t
  funext ax; apply Fin.ext
  match ax with
  | ⟨0, _⟩ => show win0_3.index t (0 : Fin 2) * 5000 + 1 * a.val = t.val * 5000 + a.val; omega
  | ⟨1, _⟩ => show win0_3.index t (1 : Fin 2) * 128 + 1 * b.val = b.val; omega

theorem cover0_arr (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 := ⟨⟨(i 0).val / 5000, (by omega : (i 0).val / 5000 < 20)⟩, rfl⟩
  have := idx_facts0 t
  refine ⟨t, flush0_3 _, ?_⟩
  show i ∈ ((View.whole main_v22).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

variable (hx : ∀ i k, (V c main_arg0 : S100000x128.Idx → EReal) (ix2 i k) = X i k)
  (hw : ∀ k l, (V c main_arg3 : S128x128.Idx → EReal) (ix2 k l) = W k l)
  (hd : ∀ i, (V c main_v15 : S100000x1.Idx → EReal) (ix2 i 0) = dv i)

include hx hw hd

theorem flushed0_3_eq (t : Fin cfg0.N) :
    (dat0 V c).flushed 3 t = ((cfg0.win 3).blk t).view.read (Elt Ideal) (G0 X W dv) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S5000x1) hz0]
  funext j
  obtain ⟨a, b, rfl⟩ : ∃ (a : Fin 5000) (b : Fin 128), j = ix2 a b := ⟨j 0, j 1, eq_ix2 j⟩
  show k0_pay1 (F := Ideal) (iblk0 V c 0 t) (iblk0 V c 1 t) (iblk0 V c 2 t) (ix2 a b) = G0 X W dv (((cfg0.win 3).blk t).view.emb (ix2 a b))
  refine (pay0_apply _ _ _ a b).trans ?_
  rw [emb0_3]
  show (∑ k : Fin 128, scrub ((V c main_arg0 : S100000x128.Idx → EReal) (((cfg0.win 0).blk t).view.emb (ix2 a k)))
        * (V c main_arg3 : S128x128.Idx → EReal) (((cfg0.win 1).blk t).view.emb (ix2 k b)))
      * (V c main_v15 : S100000x1.Idx → EReal) (((cfg0.win 2).blk t).view.emb (ix2 a (0 : Fin 1)))
    = (∑ k : Fin 128, scrub (X (row0 t a) k) * W k b) * dv (row0 t a)
  rw [emb0_2, hd]
  refine congrArg (· * dv (row0 t a)) (Finset.sum_congr rfl fun k _ => ?_)
  rw [emb0_0, emb0_1, hx, hw]

theorem value0 (i : Fin 100000) (l : Fin 128) :
    ((dat0 V c).arrAt 3 cfg0.N : S100000x128.Idx → EReal) (ix2 i l) = scaled dv (lin (fun i k => scrub (X i k)) W) i l :=
  congrFun ((dat0 V c).arrAt_eq_of_cover 3 (G0 X W dv) (fun t _ => flushed0_3_eq V c X W dv hx hw hd t) cover0_arr) (ix2 i l)

end Final

end Cert.KernelIdeal.Hand

end
-- ==== Proof.LibBlockSum.lean ====
import Mathlib.Algebra.BigOperators.Group.Finset.Basic
import Mathlib.Algebra.BigOperators.Fin
import Mathlib.Data.Fintype.BigOperators

namespace Cert.BlockSum

open scoped BigOperators

/-- Position `r` of block `t` among all `B · R` positions. -/
def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

/-- Summing block by block is summing over all positions: regrouping needs only a commutative monoid. -/
theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

end Cert.BlockSum
-- ==== Proof.KIRegion1Value.lean ====
import proofs.«429421_j77326591197817_3_alg».proof.Proof.KIRegion1
import proofs.«429421_j77326591197817_3_alg».proof.Proof.Spec
import proofs.«429421_j77326591197817_3_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)
open Idealize.ShloMosaic.ValueIdx
open Cert.GNN
open scoped BigOperators

theorem lift1_apply (h : S5000x128.Reduces [0] S128) (l : Fin 128) (r : Fin 5000) : h.lift (ix1 l) r = ix2 r l := by
  funext a; match a with | ⟨0, _⟩ => rfl | ⟨1, _⟩ => rfl

theorem bcastCol1_apply (v : S5000x1.Idx → EReal) (h : S5000x1.Broadcasts S5000x128) (r : Fin 5000) (l : Fin 128) :
    broadcastTo S5000x128 v h (ix2 r l) = v (ix2 r (0 : Fin 1)) := by
  refine broadcastTo_apply v h (ix2 r l) (ix2 r (0 : Fin 1)) fun ax => ?_
  match ax with
  | ⟨0, _⟩ => rfl
  | ⟨1, _⟩ => rfl

theorem pay1_apply1 (j : S1x1x128.Idx) : (k1_pay1 (F := Ideal)) j = 0 := by
  unfold k1_pay1
  simp only [shapeCast_self]
  show Ideal.ofBits .f32 0x00000000#32 = 0
  exact Ideal.ofBits_zero_f32

theorem pay2_apply1 (x0 : Vec Ideal S5000x128 .f32) (x1 : Vec Ideal S5000x1 .f32) (x2 : Vec Ideal S1x128 .f32)
    (xs : Vec Ideal S1x1x128 .f32) (l : Fin 128) :
    k1_pay2 x0 x1 x2 xs (ix3 (0 : Fin 1) (0 : Fin 1) l)
      = xs (ix3 (0 : Fin 1) (0 : Fin 1) l) + ∑ r : Fin 5000, (x0 (ix2 r l) * x1 (ix2 r (0 : Fin 1)) + x2 (ix2 (0 : Fin 1) l)) := by
  unfold k1_pay2
  simp only [shapeCast_self]
  rw [addf_apply, shapeCast_ab_1ab_apply, shapeCast_a_1a_apply]
  refine congrArg (xs (ix3 (0 : Fin 1) (0 : Fin 1) l) + ·) ?_
  refine (Ideal.multiReduction_add_single _ _ reduces_S5000x128_S128 _ _ (ix1 l)).trans ?_
  refine Finset.sum_congr rfl ?_
  intro (r : Fin 5000) _
  rw [lift1_apply, addf_apply, mulf_apply, bcastCol1_apply, broadcastTo_1b_ab_apply]

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 3) = t.val / 10 ∧ win1_3.index t (1 : Fin 3) = 0 ∧ win1_3.index t (2 : Fin 3) = 0 :=
  (by decide +kernel : ∀ t : Fin grid1.N, _)

section
variable (V : EntryVal Ideal) (c : Dev nD) (AGG : NodeMat) (dv : Fin 100000 → EReal) (B : Row) (hagg : ∀ j l, (V c main_v32 : S100000x128.Idx → EReal) (ix2 j l) = AGG j l) (hd : ∀ j, (V c main_v15 : S100000x1.Idx → EReal) (ix2 j 0) = dv j) (hb : ∀ l, (V c main_v16 : S1x128.Idx → EReal) (ix2 0 l) = B l)

theorem iblk1_0_apply (t : Fin cfg1.N) (r : Fin 5000) (l : Fin 128) (h : t.val * 5000 + r.val < 100000) :
    (iblk1 V c 0 t : S5000x128.Idx → EReal) (ix2 r l) = (V c main_v32 : S100000x128.Idx → EReal) (ix2 ⟨t.val * 5000 + r.val, h⟩ l) := by
  obtain ⟨e0, e1, -⟩ := idx_facts1 t
  show (V c main_v32 : S100000x128.Idx → EReal) (((cfg1.win 0).blk t).view.emb (ix2 r l)) = _
  refine congrArg (V c main_v32 : S100000x128.Idx → EReal) (funext fun a => Fin.ext ?_)
  match a with
  | ⟨0, _⟩ => show win1_0.index t (0 : Fin 2) * 5000 + 1 * r.val = t.val * 5000 + r.val; omega
  | ⟨1, _⟩ => show win1_0.index t (1 : Fin 2) * 128 + 1 * l.val = l.val; omega

theorem iblk1_1_apply (t : Fin cfg1.N) (r : Fin 5000) (h : t.val * 5000 + r.val < 100000) :
    (iblk1 V c 1 t : S5000x1.Idx → EReal) (ix2 r (0 : Fin 1)) = (V c main_v15 : S100000x1.Idx → EReal) (ix2 ⟨t.val * 5000 + r.val, h⟩ (0 : Fin 1)) := by
  obtain ⟨-, -, e0, e1, -⟩ := idx_facts1 t
  show (V c main_v15 : S100000x1.Idx → EReal) (((cfg1.win 1).blk t).view.emb (ix2 r (0 : Fin 1))) = _
  refine congrArg (V c main_v15 : S100000x1.Idx → EReal) (funext fun a => Fin.ext ?_)
  match a with
  | ⟨0, _⟩ => show win1_1.index t (0 : Fin 2) * 5000 + 1 * r.val = t.val * 5000 + r.val; omega
  | ⟨1, _⟩ => show win1_1.index t (1 : Fin 2) * 1 + 1 * 0 = 0; omega

theorem iblk1_2_apply (t : Fin cfg1.N) (l : Fin 128) :
    (iblk1 V c 2 t : S1x128.Idx → EReal) (ix2 (0 : Fin 1) l) = (V c main_v16 : S1x128.Idx → EReal) (ix2 (0 : Fin 1) l) := by
  obtain ⟨-, -, -, -, e0, e1, -⟩ := idx_facts1 t
  show (V c main_v16 : S1x128.Idx → EReal) (((cfg1.win 2).blk t).view.emb (ix2 (0 : Fin 1) l)) = _
  refine congrArg (V c main_v16 : S1x128.Idx → EReal) (funext fun a => Fin.ext ?_)
  match a with
  | ⟨0, _⟩ => show win1_2.index t (0 : Fin 2) * 1 + 1 * 0 = 0; omega
  | ⟨1, _⟩ => show win1_2.index t (1 : Fin 2) * 128 + 1 * l.val = l.val; omega

def tile1 (v : NodeMat) (q : Fin 2) (l : Fin 128) (n : ℕ) : EReal :=
  if h : n < 10 then ∑ r : Fin 5000, v (rowOf q ⟨n, h⟩ r) l else 0

theorem halfSum_eq_range1 (v : NodeMat) (q : Fin 2) (l : Fin 128) : halfSum v q l = ∑ k ∈ Finset.range 10, tile1 v q l k := by
  rw [Finset.sum_range]
  show ∑ t : Fin 10, ∑ r : Fin 5000, v (rowOf q t r) l = _
  refine Finset.sum_congr rfl fun tt _ => ?_
  unfold tile1; rw [dif_pos tt.isLt]

def hs1 (v : NodeMat) (a b : ℕ) : EReal := if h : a < 2 ∧ b < 128 then halfSum v ⟨a, h.1⟩ ⟨b, h.2⟩ else 0

def G1 (v : NodeMat) : S2x1x128.Idx → EReal := fun i => hs1 v (i 0).val (i 2).val

theorem mem_blk1 (t : Fin cfg1.N) (i : S2x1x128.Idx) :
    i ∈ ((cfg1.win 3).blk t).view.set ↔ ∀ a : Fin 3, win1_3.index t a * S1x1x128.size a ≤ (i a).val ∧ (i a).val < win1_3.index t a * S1x1x128.size a + S1x1x128.size a := by
  show i ∈ ((View.whole main_v33).slice (win1_3.rect t)).set ↔ _
  rw [View.set_slice_whole, Rect.mem_set_unit]
  exact Iff.rfl

theorem cover1 (i : S2x1x128.Idx) : ∃ t : Fin cfg1.N, (cfg1.win 3).flush t = true ∧ i ∈ ((cfg1.win 3).blk t).view.set := by
  have hN : cfg1.N = 20 := N_1
  have hi0 : (i 0).val < 2 := (i 0).isLt
  have hi1 : (i 1).val < 1 := (i 1).isLt
  have hi2 : (i 2).val < 128 := (i 2).isLt
  obtain ⟨t, ht⟩ : ∃ t : Fin cfg1.N, t.val = 10 * (i 0).val + 9 := ⟨⟨10 * (i 0).val + 9, by omega⟩, rfl⟩
  obtain ⟨-, -, -, -, -, -, e0, e1, e2⟩ := idx_facts1 t
  refine ⟨t, (flush1_3 t).mpr (by omega), ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1 ≤ (i 1).val ∧ (i 1).val < win1_3.index t (1 : Fin 3) * 1 + 1; omega
  | ⟨2, _⟩ => show win1_3.index t (2 : Fin 3) * 128 ≤ (i 2).val ∧ (i 2).val < win1_3.index t (2 : Fin 3) * 128 + 128; omega

include hagg hd hb

theorem tile1_eq (q : Fin 2) (n : ℕ) (hn : n < 10) (t : Fin cfg1.N) (ht : t.val = 10 * q.val + n) (l : Fin 128)
    (x0 : Vec Ideal S5000x128 .f32) (x1 : Vec Ideal S5000x1 .f32) (x2 : Vec Ideal S1x128 .f32)
    (h0 : x0 = iblk1 V c 0 t) (h1 : x1 = iblk1 V c 1 t) (h2 : x2 = iblk1 V c 2 t) :
    ∑ r : Fin 5000, (x0 (ix2 r l) * x1 (ix2 r (0 : Fin 1)) + x2 (ix2 (0 : Fin 1) l)) = tile1 (valK dv AGG B) q l n := by
  subst h0 h1 h2
  unfold tile1; rw [dif_pos hn]
  refine Finset.sum_congr rfl fun r _ => ?_
  have hr : t.val * 5000 + r.val < 100000 := by have := r.isLt; have := q.isLt; omega
  rw [iblk1_0_apply V c t r l hr, iblk1_1_apply V c t r hr, iblk1_2_apply V c t l, hagg, hd, hb]
  have e : (⟨t.val * 5000 + r.val, hr⟩ : Fin 100000) = rowOf q ⟨n, hn⟩ r :=
    Fin.ext (by show t.val * 5000 + r.val = (q.val * 10 + n) * 5000 + r.val; omega)
  rw [e]; rfl

theorem acc1_sum (q : Fin 2) (l : Fin 128) :
    ∀ (n : ℕ) (hn : n < 10) (t : Fin cfg1.N), t.val = 10 * q.val + n →
      (acc1 V c t.val t.isLt : S1x1x128.Idx → EReal) (ix3 (0 : Fin 1) (0 : Fin 1) l) = ∑ k ∈ Finset.range (n + 1), tile1 (valK dv AGG B) q l k
  | 0, hn, t, ht => by
    rw [acc1_reset V c t (by omega), pay2_apply1, pay1_apply1, zero_add, tile1_eq V c AGG dv B hagg hd hb q 0 hn t ht l _ _ _ rfl rfl rfl,
      Finset.sum_range_one]
  | n + 1, hn, t, ht => by
    have hN : cfg1.N = 20 := N_1
    have hq := q.isLt
    rw [acc1_step V c t (by omega), pay2_apply1, tile1_eq V c AGG dv B hagg hd hb q (n + 1) hn t ht l _ _ _ rfl rfl rfl,
      Finset.sum_range_succ _ (n + 1)]
    refine congrArg (· + tile1 (valK dv AGG B) q l (n + 1)) ?_
    exact acc1_sum q l n (by omega) ⟨t.val - 1, by omega⟩ (by show t.val - 1 = _; omega)

theorem flushed1_eq (t : Fin cfg1.N) (hf : (cfg1.win 3).flush t = true) :
    (dat1 V c).flushed 3 t = ((cfg1.win 3).blk t).view.read (Elt Ideal) (G1 (valK dv AGG B)) := by
  have h9 : t.val % 10 = 9 := (flush1_3 t).mp hf
  have hN : t.val < 20 := lt_of_lt_of_eq t.isLt (show cfg1.N = 20 from N_1)
  obtain ⟨-, -, -, -, -, -, e0, e1, e2⟩ := idx_facts1 t
  show (cfg1.win 3).cut (grid1.coords t) (acc1 V c t.val t.isLt) = _
  funext j
  obtain ⟨u0, u1, l, rfl⟩ : ∃ (u0 : Fin 1) (u1 : Fin 1) (l : Fin 128), j = ix3 u0 u1 l := ⟨j 0, j 1, j 2, eq_ix3 j⟩
  obtain rfl : u0 = 0 := Subsingleton.elim _ _
  obtain rfl : u1 = 0 := Subsingleton.elim _ _
  show (acc1 V c t.val t.isLt : S1x1x128.Idx → EReal) (ix3 (0 : Fin 1) (0 : Fin 1) l)
    = hs1 (valK dv AGG B) (win1_3.index t (0 : Fin 3) * 1 + 1 * 0) (win1_3.index t (2 : Fin 3) * 128 + 1 * l.val)
  rw [show win1_3.index t (0 : Fin 3) * 1 + 1 * 0 = t.val / 10 by omega, show win1_3.index t (2 : Fin 3) * 128 + 1 * l.val = l.val by omega]
  have hq : t.val / 10 < 2 := by omega
  rw [acc1_sum V c AGG dv B hagg hd hb ⟨t.val / 10, hq⟩ l 9 (by decide) t (by show t.val = 10 * (t.val / 10) + 9; omega),
    ← halfSum_eq_range1]
  unfold hs1; rw [dif_pos ⟨hq, l.isLt⟩]

theorem value1 (c' : Fin 2) (l : Fin 128) :
    ((dat1 V c).arrAt 3 cfg1.N : S2x1x128.Idx → EReal) (ix3 c' 0 l) = halfSum (valK dv AGG B) c' l := by
  rw [(dat1 V c).arrAt_eq_of_cover 3 (G1 (valK dv AGG B)) (flushed1_eq V c AGG dv B hagg hd hb) cover1]
  show hs1 (valK dv AGG B) c'.val l.val = _
  unfold hs1; rw [dif_pos ⟨c'.isLt, l.isLt⟩]

end

end Cert.KernelIdeal.Hand

end
-- ==== Proof.KIRegion2Value.lean ====
import proofs.«429421_j77326591197817_3_alg».proof.Proof.KIRegion2
import proofs.«429421_j77326591197817_3_alg».proof.Proof.Spec
import proofs.«429421_j77326591197817_3_alg».proof.Proof.LibBlockSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.GNN
open scoped BigOperators

theorem pay2_1_at (l : Fin 128) : (k2_pay1 (F := Ideal)) (ix3 0 0 l) = 0 := by
  unfold k2_pay1
  rw [shapeCast_self]
  exact Ideal.ofBits_zero_f32

def contrib2 (x0 : Vec Ideal S5000x128 .f32) (x1 : Vec Ideal S5000x1 .f32) (x2 x3 : Vec Ideal S1x128 .f32) (l : Fin 128) : EReal :=
  ∑ r : Fin 5000, ((x0 (ix2 r l) * x1 (ix2 r 0) + x2 (ix2 0 l)) - x3 (ix2 0 l)) * ((x0 (ix2 r l) * x1 (ix2 r 0) + x2 (ix2 0 l)) - x3 (ix2 0 l))

theorem colsum2_at (v : FVec Ideal S5000x128 .f32) (h : S5000x128.Reduces [0] S128) (hφ : FKind.Formats .f32)
    (hacc : (0x00000000#32 : BitVec 32) = 0x00000000#32) (l : Fin 128) :
    multiReduction .add [0] S128 v 0x00000000#32 h hφ hacc (ix1 l) = ∑ r : Fin 5000, v (ix2 r l) := by
  refine (Ideal.multiReduction_add_single v 0x00000000#32 h hφ hacc (ix1 l)).trans ?_
  refine Finset.sum_congr rfl fun r _ => congrArg v ?_
  funext a; match a with | ⟨0, _⟩ => rfl | ⟨1, _⟩ => rfl

theorem pay2_2_at (x0 : Vec Ideal S5000x128 .f32) (x1 : Vec Ideal S5000x1 .f32) (x2 x3 : Vec Ideal S1x128 .f32)
    (s : Vec Ideal S1x1x128 .f32) (l : Fin 128) :
    k2_pay2 x0 x1 x2 x3 s (ix3 0 0 l) = s (ix3 0 0 l) + contrib2 x0 x1 x2 x3 l := by
  unfold k2_pay2 contrib2
  simp only [shapeCast_self]
  rw [addf_apply]
  refine congrArg (s (ix3 0 0 l) + ·) ?_
  have hk1 : (S1x128.rowMajor (ix2 0 l)).val = (S1x1x128.rowMajor (ix3 0 0 l)).val := by
    rw [Shape.rowMajor_val_two, Shape.rowMajor_val_three]
    show (0 : ℕ) * 128 + l.val = ((0 : ℕ) * 1 + 0) * 128 + l.val
    omega
  have hk2 : (S128.rowMajor (ix1 l)).val = (S1x128.rowMajor (ix2 0 l)).val := by
    rw [Shape.rowMajor_val_one, Shape.rowMajor_val_two]
    show l.val = (0 : ℕ) * 128 + l.val
    omega
  rw [shapeCast_apply _ _ (ix3 0 0 l) (ix2 0 l) hk1, shapeCast_apply _ _ (ix2 0 l) (ix1 l) hk2]
  refine (colsum2_at _ _ _ _ l).trans ?_
  refine Finset.sum_congr rfl fun r _ => ?_
  rw [mulf_apply, subf_apply, addf_apply, mulf_apply]
  rw [broadcastTo_apply x1 _ (ix2 r l) (ix2 r 0) (fun a => by match a with | ⟨0, _⟩ => rfl | ⟨1, _⟩ => rfl),
    broadcastTo_apply x2 _ (ix2 r l) (ix2 0 l) (fun a => by match a with | ⟨0, _⟩ => rfl | ⟨1, _⟩ => rfl),
    broadcastTo_apply x3 _ (ix2 r l) (ix2 0 l) (fun a => by match a with | ⟨0, _⟩ => rfl | ⟨1, _⟩ => rfl)]

variable (V : EntryVal Ideal)

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = t.val / 10 ∧ win2_4.index t (1 : Fin 3) = 0 ∧ win2_4.index t (2 : Fin 3) = 0 :=
  (by decide +kernel : ∀ t : Fin grid2.N, _)

theorem blk2_0_at (c : Dev nD) (t : Fin cfg2.N) (r : Fin 5000) (l : Fin 128) (j : Fin 100000) (hj : j.val = t.val * 5000 + r.val) :
    (iblk2 V c 0 t : Vec Ideal S5000x128 .f32) (ix2 r l) = (V c main_v32 : S100000x128.Idx → EReal) (ix2 j l) := by
  obtain ⟨e0, e1, -⟩ := idx_facts2 t
  unfold iblk2
  rw [View.read_apply]
  show V c main_v32 _ = V c main_v32 _
  congr 1
  funext a; apply Fin.ext
  match a with
  | ⟨0, _⟩ => show win2_0.index t 0 * 5000 + 1 * r.val = j.val; rw [e0, hj]; omega
  | ⟨1, _⟩ => show win2_0.index t 1 * 128 + 1 * l.val = l.val; rw [e1]; omega

theorem blk2_1_at (c : Dev nD) (t : Fin cfg2.N) (r : Fin 5000) (j : Fin 100000) (hj : j.val = t.val * 5000 + r.val) :
    (iblk2 V c 1 t : Vec Ideal S5000x1 .f32) (ix2 r 0) = (V c main_v15 : S100000x1.Idx → EReal) (ix2 j 0) := by
  obtain ⟨-, -, e0, e1, -⟩ := idx_facts2 t
  unfold iblk2
  rw [View.read_apply]
  show V c main_v15 _ = V c main_v15 _
  congr 1
  funext a; apply Fin.ext
  match a with
  | ⟨0, _⟩ => show win2_1.index t 0 * 5000 + 1 * r.val = j.val; rw [e0, hj]; omega
  | ⟨1, _⟩ => show win2_1.index t 1 * 1 + 1 * 0 = 0; rw [e1]

theorem blk2_2_at (c : Dev nD) (t : Fin cfg2.N) (l : Fin 128) :
    (iblk2 V c 2 t : Vec Ideal S1x128 .f32) (ix2 0 l) = (V c main_v16 : S1x128.Idx → EReal) (ix2 0 l) := by
  obtain ⟨-, -, -, -, e0, e1, -⟩ := idx_facts2 t
  unfold iblk2
  rw [View.read_apply]
  show V c main_v16 _ = V c main_v16 _
  congr 1
  funext a; apply Fin.ext
  match a with
  | ⟨0, _⟩ => show win2_2.index t 0 * 1 + 1 * 0 = 0; rw [e0]
  | ⟨1, _⟩ => show win2_2.index t 1 * 128 + 1 * l.val = l.val; rw [e1]; omega

theorem blk2_3_at (c : Dev nD) (t : Fin cfg2.N) (l : Fin 128) :
    (iblk2 V c 3 t : Vec Ideal S1x128 .f32) (ix2 0 l) = (V c main_v36 : S1x128.Idx → EReal) (ix2 0 l) := by
  obtain ⟨-, -, -, -, -, -, e0, e1, -⟩ := idx_facts2 t
  unfold iblk2
  rw [View.read_apply]
  show V c main_v36 _ = V c main_v36 _
  congr 1
  funext a; apply Fin.ext
  match a with
  | ⟨0, _⟩ => show win2_3.index t 0 * 1 + 1 * 0 = 0; rw [e0]
  | ⟨1, _⟩ => show win2_3.index t 1 * 128 + 1 * l.val = l.val; rw [e1]; omega

section Sum

variable (c : Dev nD) (AGG : NodeMat) (dv : Fin 100000 → EReal) (B M : Row)
  (hagg : ∀ j l, (V c main_v32 : S100000x128.Idx → EReal) (ix2 j l) = AGG j l)
  (hd : ∀ j, (V c main_v15 : S100000x1.Idx → EReal) (ix2 j 0) = dv j)
  (hb : ∀ l, (V c main_v16 : S1x128.Idx → EReal) (ix2 0 l) = B l)
  (hm : ∀ l, (V c main_v36 : S1x128.Idx → EReal) (ix2 0 l) = M l)

abbrev sqdev2 (AGG : NodeMat) (dv : Fin 100000 → EReal) (B M : Row) : NodeMat :=
  fun j l => (valK dv AGG B j l - M l) * (valK dv AGG B j l - M l)

include hagg hd hb hm in
theorem contrib2_eq (t : Fin cfg2.N) (c' : Fin 2) (k : Fin 10) (ht : t.val = c'.val * 10 + k.val) (l : Fin 128) :
    contrib2 (iblk2 V c 0 t) (iblk2 V c 1 t) (iblk2 V c 2 t) (iblk2 V c 3 t) l
      = ∑ r : Fin 5000, sqdev2 AGG dv B M (rowOf c' k r) l := by
  unfold contrib2
  refine Finset.sum_congr rfl fun r _ => ?_
  have hj : (rowOf c' k r).val = t.val * 5000 + r.val := by rw [ht]; rfl
  rw [blk2_0_at V c t r l (rowOf c' k r) hj, blk2_1_at V c t r (rowOf c' k r) hj, blk2_2_at V c t l, blk2_3_at V c t l,
    hagg, hd, hb, hm]
  rfl

def tileSum2 (AGG : NodeMat) (dv : Fin 100000 → EReal) (B M : Row) (c' : Fin 2) (l : Fin 128) (k : ℕ) : EReal :=
  if hk : k < 10 then ∑ r : Fin 5000, sqdev2 AGG dv B M (rowOf c' ⟨k, hk⟩ r) l else 0

theorem acc2_congr (n n' : ℕ) (h : n < cfg2.N) (e : n = n') : acc2 V c n h = acc2 V c n' (e ▸ h) := by
  subst e; rfl

include hagg hd hb hm in
theorem acc2_eq_sum (c' : Fin 2) (l : Fin 128) : ∀ (k : ℕ) (hk : k < 10) (h : c'.val * 10 + k < cfg2.N),
    acc2 V c (c'.val * 10 + k) h (ix3 0 0 l) = ∑ t ∈ Finset.range (k + 1), tileSum2 AGG dv B M c' l t
  | 0, hk, h => by
    have h0 : (⟨c'.val * 10 + 0, h⟩ : Fin cfg2.N).val % 10 = 0 := by show (c'.val * 10 + 0) % 10 = 0; omega
    rw [acc2_eq V c ⟨c'.val * 10 + 0, h⟩, if_pos h0, step2, pay2_2_at, pay2_1_at, zero_add,
      contrib2_eq V c AGG dv B M hagg hd hb hm ⟨c'.val * 10 + 0, h⟩ c' ⟨0, hk⟩ rfl l, Finset.sum_range_one]
    unfold tileSum2; rw [dif_pos hk]
  | k + 1, hk, h => by
    have h0 : ¬(⟨c'.val * 10 + (k + 1), h⟩ : Fin cfg2.N).val % 10 = 0 := by show ¬(c'.val * 10 + (k + 1)) % 10 = 0; omega
    have hN : cfg2.N = 20 := N_2
    have h' : c'.val * 10 + k < cfg2.N := by omega
    rw [acc2_eq V c ⟨c'.val * 10 + (k + 1), h⟩, if_neg h0, step2, pay2_2_at,
      contrib2_eq V c AGG dv B M hagg hd hb hm ⟨c'.val * 10 + (k + 1), h⟩ c' ⟨k + 1, hk⟩ rfl l,
      acc2_congr V c _ (c'.val * 10 + k) _ (by show c'.val * 10 + (k + 1) - 1 = c'.val * 10 + k; omega),
      acc2_eq_sum c' l k (by omega) h', Finset.sum_range_succ _ (k + 1)]
    unfold tileSum2; rw [dif_pos hk]

theorem idx_ne2_4 : ∀ t t' : Fin cfg2.N, (cfg2.win 4).flush t = true → (cfg2.win 4).flush t' = true → t ≠ t' →
    win2_4.index t ≠ win2_4.index t' :=
  (by decide +kernel : ∀ t t' : Fin grid2.N, win2_4.flush t = true → win2_4.flush t' = true → t ≠ t' →
    win2_4.index t ≠ win2_4.index t')

theorem disjoint2_4 : ∀ t t' : Fin cfg2.N, (cfg2.win 4).flush t = true → (cfg2.win 4).flush t' = true → t ≠ t' →
    Disjoint ((cfg2.win 4).blk t).view.set ((cfg2.win 4).blk t').view.set :=
  fun t t' hf hf' hne => (cfg2.win 4).disjoint_blk (idx_ne2_4 t t' hf hf' hne)

include hagg hd hb hm in
theorem value2 (c' : Fin 2) (l : Fin 128) :
    ((dat2 V c).arrAt 4 cfg2.N : S2x1x128.Idx → EReal) (ix3 c' 0 l)
      = halfSum (fun j l => (valK dv AGG B j l - M l) * (valK dv AGG B j l - M l)) c' l := by
  have hN : cfg2.N = 20 := N_2
  have hlt : c'.val * 10 + 9 < cfg2.N := by have := c'.isLt; omega
  have hfl : (cfg2.win 4).flush ⟨c'.val * 10 + 9, hlt⟩ = true :=
    (flush2_4 ⟨c'.val * 10 + 9, hlt⟩).mpr (by show (c'.val * 10 + 9) % 10 = 9; omega)
  obtain ⟨-, -, -, -, -, -, -, -, e0, e1, e2⟩ := idx_facts2 ⟨c'.val * 10 + 9, hlt⟩
  have e : ((cfg2.win 4).blk ⟨c'.val * 10 + 9, hlt⟩).view.emb (ix3 0 0 l) = (ix3 c' (0 : Fin 1) l : S2x1x128.Idx) := by
    funext a; apply Fin.ext
    match a with
    | ⟨0, _⟩ => show win2_4.index ⟨c'.val * 10 + 9, hlt⟩ 0 * 1 + 1 * 0 = c'.val; rw [e0]; show (c'.val * 10 + 9) / 10 * 1 + 1 * 0 = c'.val; omega
    | ⟨1, _⟩ => show win2_4.index ⟨c'.val * 10 + 9, hlt⟩ 1 * 1 + 1 * 0 = 0; rw [e1]
    | ⟨2, _⟩ => show win2_4.index ⟨c'.val * 10 + 9, hlt⟩ 2 * 128 + 1 * l.val = l.val; rw [e2]; omega
  have h := (dat2 V c).arrAt_emb_eq_flushed 4 disjoint2_4 ⟨c'.val * 10 + 9, hlt⟩ hfl (ix3 0 0 l)
  refine ((congrArg ((dat2 V c).arrAt 4 cfg2.N) e).symm.trans h).trans ?_
  show (dat2 V c).after 4 ⟨c'.val * 10 + 9, hlt⟩ (ix3 0 0 l) = _
  rw [after2_4]
  refine (acc2_eq_sum V c AGG dv B M hagg hd hb hm c' l 9 (by omega) hlt).trans ?_
  rw [Finset.sum_range]
  unfold halfSum
  refine Finset.sum_congr rfl fun t _ => ?_
  unfold tileSum2; rw [dif_pos t.isLt]

end Sum

end Cert.KernelIdeal.Hand

end
-- ==== Proof.KIRegion3Value.lean ====
import proofs.«429421_j77326591197817_3_alg».proof.Proof.KIRegion3
import proofs.«429421_j77326591197817_3_alg».proof.Proof.Spec
import proofs.«429421_j77326591197817_3_alg».proof.Proof.LibDotPlain
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)
open Cert.GNN Idealize.ShloMosaic.ValueIdx
open scoped BigOperators

theorem hz3 : (![0, 0] : Fin 2 → Nat) = fun _ => 0 := funext fun a => by fin_cases a <;> rfl

theorem spread_col_apply (x : S5000x1.Idx → EReal) (h : S5000x1.Broadcasts S5000x128) (p : Fin 5000) (q : Fin 128) :
    broadcastTo S5000x128 x h (ix2 p q) = x (ix2 p 0) :=
  broadcastTo_apply x h (ix2 p q) (ix2 p 0) fun a => by
    match a with
    | ⟨0, _⟩ => rfl
    | ⟨1, _⟩ => rfl

theorem spread_row_apply (x : S1x128.Idx → EReal) (h : S1x128.Broadcasts S5000x128) (p : Fin 5000) (q : Fin 128) :
    broadcastTo S5000x128 x h (ix2 p q) = x (ix2 0 q) :=
  broadcastTo_apply x h (ix2 p q) (ix2 0 q) fun a => by
    match a with
    | ⟨0, _⟩ => rfl
    | ⟨1, _⟩ => rfl

def act3 (x0 : S5000x128.Idx → EReal) (x1 : S5000x1.Idx → EReal) (x2 x3 x4 x5 x6 : S1x128.Idx → EReal) (p : Fin 5000) (k : Fin 128) : EReal :=
  max ((x0 (ix2 p k) * x1 (ix2 p 0) + x2 (ix2 0 k) - x3 (ix2 0 k)) * Ideal.rsqrt (x4 (ix2 0 k) + cEps) * x5 (ix2 0 k) + x6 (ix2 0 k)) 0

theorem val3_apply (x0 : Vec Ideal S5000x128 .f32) (x1 : Vec Ideal S5000x1 .f32) (x2 x3 x4 x5 x6 : Vec Ideal S1x128 .f32) (x7 : Vec Ideal S128x128 .f32)
    (p : Fin 5000) (q : Fin 128) :
    val3 x0 x1 x2 x3 x4 x5 x6 x7 (ix2 p q) = (∑ k : Fin 128, act3 x0 x1 x2 x3 x4 x5 x6 p k * x7 (ix2 k q)) * x1 (ix2 p 0) := by
  unfold val3 k3_pay1
  simp only [View.ld_unit_zero (S := S5000x128) hz3, View.ld_unit_zero (S := S5000x1) hz3, View.ld_unit_zero (S := S1x128) hz3,
    View.ld_unit_zero (S := S128x128) hz3, shapeCast_self]
  rw [mulf_apply, spread_col_apply]
  refine congrArg (· * x1 (ix2 p 0)) ?_
  refine (Cert.DotPlain.matmul_zero_rows_cols (M := 5000) (K := 128) (N := 128) dot_S5000x128_S128x128_S5000x128_1_0_0_1_n_n
    rfl rfl rfl rfl rfl rfl none _ x7 p q).trans ?_
  refine Finset.sum_congr rfl fun k _ => ?_
  refine congrArg (· * x7 (ix2 k q)) ?_
  simp only [maximumf_apply, addf_apply, mulf_apply, subf_apply, spread_col_apply, spread_row_apply]
  unfold act3
  exact congrArg₂ max rfl Ideal.ofBits_zero_f32

def tile3 (t : Fin cfg3.N) : Fin 20 := ⟨t.val, lt_of_lt_of_eq t.isLt N_3⟩

theorem idx3_t : ∀ t : Fin cfg3.N, (win3_0.index t (0 : Fin 2) = t.val ∧ win3_0.index t (1 : Fin 2) = 0)
    ∧ (win3_1.index t (0 : Fin 2) = t.val ∧ win3_1.index t (1 : Fin 2) = 0) ∧ win3_8.index t (0 : Fin 2) = t.val ∧ win3_8.index t (1 : Fin 2) = 0 :=
  (by decide +kernel : ∀ t : Fin grid3.N, _)
theorem idx3_z : ∀ (t : Fin cfg3.N) (a : Fin 2), win3_2.index t a = 0 ∧ win3_3.index t a = 0 ∧ win3_4.index t a = 0 ∧ win3_5.index t a = 0
    ∧ win3_6.index t a = 0 ∧ win3_7.index t a = 0 :=
  (by decide +kernel : ∀ (t : Fin grid3.N) (a : Fin 2), _)

section Blocks

variable (V : EntryVal Ideal) (c : Dev nD) (AGG : NodeMat) (dv : Fin 100000 → EReal) (B M S G BE : Row) (W : Fin 128 → Fin 128 → EReal)
  (hagg : ∀ j l, (V c main_v32 : S100000x128.Idx → EReal) (ix2 j l) = AGG j l) (hd : ∀ j, (V c main_v15 : S100000x1.Idx → EReal) (ix2 j 0) = dv j)
  (hb : ∀ l, (V c main_v16 : S1x128.Idx → EReal) (ix2 0 l) = B l) (hm : ∀ l, (V c main_v36 : S1x128.Idx → EReal) (ix2 0 l) = M l)
  (hs : ∀ l, (V c main_v42 : S1x128.Idx → EReal) (ix2 0 l) = S l) (hg : ∀ l, (V c main_v17 : S1x128.Idx → EReal) (ix2 0 l) = G l)
  (hbe : ∀ l, (V c main_v18 : S1x128.Idx → EReal) (ix2 0 l) = BE l) (hw : ∀ k l, (V c main_arg7 : S128x128.Idx → EReal) (ix2 k l) = W k l)

include hagg in
theorem blk3_0 (t : Fin cfg3.N) (p : Fin 5000) (k : Fin 128) : iblk3 V c 0 t (ix2 p k) = AGG (rowOf1 (tile3 t) p) k := by
  obtain ⟨⟨e0, e1⟩, -⟩ := idx3_t t
  have e : ((cfg3.win 0).blk t).view.emb (ix2 p k) = ix2 (rowOf1 (tile3 t) p) k := by
    funext a; apply Fin.ext
    match a with
    | ⟨0, _⟩ => show win3_0.index t (0 : Fin 2) * 5000 + 1 * p.val = t.val * 5000 + p.val; omega
    | ⟨1, _⟩ => show win3_0.index t (1 : Fin 2) * 128 + 1 * k.val = k.val; omega
  show (V c main_v32 : S100000x128.Idx → EReal) (((cfg3.win 0).blk t).view.emb (ix2 p k)) = _
  rw [e]; exact hagg _ _

include hd in
theorem blk3_1 (t : Fin cfg3.N) (p : Fin 5000) : iblk3 V c 1 t (ix2 p 0) = dv (rowOf1 (tile3 t) p) := by
  obtain ⟨-, ⟨e0, e1⟩, -⟩ := idx3_t t
  have e : ((cfg3.win 1).blk t).view.emb (ix2 p 0) = ix2 (rowOf1 (tile3 t) p) 0 := by
    funext a; apply Fin.ext
    match a with
    | ⟨0, _⟩ => show win3_1.index t (0 : Fin 2) * 5000 + 1 * p.val = t.val * 5000 + p.val; omega
    | ⟨1, _⟩ => show win3_1.index t (1 : Fin 2) * 1 + 1 * 0 = 0; omega
  show (V c main_v15 : S100000x1.Idx → EReal) (((cfg3.win 1).blk t).view.emb (ix2 p 0)) = _
  rw [e]; exact hd _

include hb in
theorem blk3_2 (t : Fin cfg3.N) (k : Fin 128) : iblk3 V c 2 t (ix2 0 k) = B k := by
  have e : ((cfg3.win 2).blk t).view.emb (ix2 0 k) = ix2 0 k :=
    funext fun a => Fin.ext (win3_2.rect_emb_val_of_index_zero t a (idx3_z t a).1 _)
  show (V c main_v16 : S1x128.Idx → EReal) (((cfg3.win 2).blk t).view.emb (ix2 0 k)) = _
  rw [e]; exact hb _
include hm in
theorem blk3_3 (t : Fin cfg3.N) (k : Fin 128) : iblk3 V c 3 t (ix2 0 k) = M k := by
  have e : ((cfg3.win 3).blk t).view.emb (ix2 0 k) = ix2 0 k :=
    funext fun a => Fin.ext (win3_3.rect_emb_val_of_index_zero t a (idx3_z t a).2.1 _)
  show (V c main_v36 : S1x128.Idx → EReal) (((cfg3.win 3).blk t).view.emb (ix2 0 k)) = _
  rw [e]; exact hm _
include hs in
theorem blk3_4 (t : Fin cfg3.N) (k : Fin 128) : iblk3 V c 4 t (ix2 0 k) = S k := by
  have e : ((cfg3.win 4).blk t).view.emb (ix2 0 k) = ix2 0 k :=
    funext fun a => Fin.ext (win3_4.rect_emb_val_of_index_zero t a (idx3_z t a).2.2.1 _)
  show (V c main_v42 : S1x128.Idx → EReal) (((cfg3.win 4).blk t).view.emb (ix2 0 k)) = _
  rw [e]; exact hs _
include hg in
theorem blk3_5 (t : Fin cfg3.N) (k : Fin 128) : iblk3 V c 5 t (ix2 0 k) = G k := by
  have e : ((cfg3.win 5).blk t).view.emb (ix2 0 k) = ix2 0 k :=
    funext fun a => Fin.ext (win3_5.rect_emb_val_of_index_zero t a (idx3_z t a).2.2.2.1 _)
  show (V c main_v17 : S1x128.Idx → EReal) (((cfg3.win 5).blk t).view.emb (ix2 0 k)) = _
  rw [e]; exact hg _
include hbe in
theorem blk3_6 (t : Fin cfg3.N) (k : Fin 128) : iblk3 V c 6 t (ix2 0 k) = BE k := by
  have e : ((cfg3.win 6).blk t).view.emb (ix2 0 k) = ix2 0 k :=
    funext fun a => Fin.ext (win3_6.rect_emb_val_of_index_zero t a (idx3_z t a).2.2.2.2.1 _)
  show (V c main_v18 : S1x128.Idx → EReal) (((cfg3.win 6).blk t).view.emb (ix2 0 k)) = _
  rw [e]; exact hbe _

include hw in
theorem blk3_7 (t : Fin cfg3.N) (k q : Fin 128) : iblk3 V c 7 t (ix2 k q) = W k q := by
  have e : ((cfg3.win 7).blk t).view.emb (ix2 k q) = ix2 k q :=
    funext fun a => Fin.ext (win3_7.rect_emb_val_of_index_zero t a (idx3_z t a).2.2.2.2.2 _)
  show (V c main_arg7 : S128x128.Idx → EReal) (((cfg3.win 7).blk t).view.emb (ix2 k q)) = _
  rw [e]; exact hw _ _

def G3 : S100000x128.Idx → EReal :=
  fun i => scaled dv (lin (bnRelu (valK dv AGG B) M S G BE) W) (i 0) (i 1)

include hagg hd hb hm hs hg hbe hw in
/-- Tile `t` of the result is tile `t` of `G3`, index by index. -/
theorem flushed3_8_eq (t : Fin cfg3.N) :
    (dat3 V c).flushed 8 t = ((cfg3.win 8).blk t).view.read (Elt Ideal) (G3 AGG dv B M S G BE W) := by
  show (cfg3.win 8).cut (grid3.coords t) ((dat3 V c).after 8 t) = _
  rw [after3_8]
  unfold out3_8
  rw [View.canon_unit_zero hz3]
  funext j
  obtain ⟨p, q, rfl⟩ : ∃ (p : Fin 5000) (q : Fin 128), j = ix2 p q := ⟨j 0, j 1, eq_ix2 j⟩
  obtain ⟨-, -, e0, e1⟩ := idx3_t t
  have e : ((cfg3.win 8).blk t).view.emb (ix2 p q) = ix2 (rowOf1 (tile3 t) p) q := by
    funext a; apply Fin.ext
    match a with
    | ⟨0, _⟩ => show win3_8.index t (0 : Fin 2) * 5000 + 1 * p.val = t.val * 5000 + p.val; omega
    | ⟨1, _⟩ => show win3_8.index t (1 : Fin 2) * 128 + 1 * q.val = q.val; omega
  show val3 (F := Ideal) _ _ _ _ _ _ _ _ (ix2 p q) = G3 AGG dv B M S G BE W (((cfg3.win 8).blk t).view.emb (ix2 p q))
  rw [e, val3_apply]
  show _ = scaled dv (lin (bnRelu (valK dv AGG B) M S G BE) W) (rowOf1 (tile3 t) p) q
  unfold scaled lin bnRelu valK act3
  simp only [blk3_0 V c AGG hagg, blk3_1 V c dv hd, blk3_2 V c B hb, blk3_3 V c M hm, blk3_4 V c S hs, blk3_5 V c G hg,
    blk3_6 V c BE hbe, blk3_7 V c W hw]

/-- Row `r` is in tile `r / 5000`. -/
theorem tiles_cover3_8 (i : S100000x128.Idx) :
    ∃ t : Fin cfg3.N, (cfg3.win 8).flush t = true ∧ i ∈ ((cfg3.win 8).blk t).view.set := by
  have hi0 : (i 0).val < 100000 := (i 0).isLt
  have hi1 : (i 1).val < 128 := (i 1).isLt
  have ht : (i 0).val / 5000 < cfg3.N := lt_of_lt_of_eq (by omega : (i 0).val / 5000 < 20) N_3.symm
  obtain ⟨-, -, e0, e1⟩ := idx3_t ⟨(i 0).val / 5000, ht⟩
  have e0' : win3_8.index ⟨(i 0).val / 5000, ht⟩ (0 : Fin 2) = (i 0).val / 5000 := e0
  refine ⟨⟨(i 0).val / 5000, ht⟩, flush3_8 _, ?_⟩
  show i ∈ ((View.whole main_v43).slice (win3_8.rect ⟨(i 0).val / 5000, ht⟩)).set
  rw [View.set_slice_whole, Rect.mem_set_unit]
  intro a
  match a with
  | ⟨0, _⟩ =>
    show win3_8.index ⟨(i 0).val / 5000, ht⟩ (0 : Fin 2) * 5000 ≤ (i 0).val ∧ (i 0).val < win3_8.index ⟨(i 0).val / 5000, ht⟩ (0 : Fin 2) * 5000 + 5000
    omega
  | ⟨1, _⟩ =>
    show win3_8.index ⟨(i 0).val / 5000, ht⟩ (1 : Fin 2) * 128 ≤ (i 1).val ∧ (i 1).val < win3_8.index ⟨(i 0).val / 5000, ht⟩ (1 : Fin 2) * 128 + 128
    omega

end Blocks

theorem value3 (V : EntryVal Ideal) (c : Dev nD) (AGG : NodeMat) (dv : Fin 100000 → EReal) (B M S G BE : Row) (W : Fin 128 → Fin 128 → EReal)
    (hagg : ∀ j l, (V c main_v32 : S100000x128.Idx → EReal) (ix2 j l) = AGG j l) (hd : ∀ j, (V c main_v15 : S100000x1.Idx → EReal) (ix2 j 0) = dv j)
    (hb : ∀ l, (V c main_v16 : S1x128.Idx → EReal) (ix2 0 l) = B l) (hm : ∀ l, (V c main_v36 : S1x128.Idx → EReal) (ix2 0 l) = M l)
    (hs : ∀ l, (V c main_v42 : S1x128.Idx → EReal) (ix2 0 l) = S l) (hg : ∀ l, (V c main_v17 : S1x128.Idx → EReal) (ix2 0 l) = G l)
    (hbe : ∀ l, (V c main_v18 : S1x128.Idx → EReal) (ix2 0 l) = BE l) (hw : ∀ k l, (V c main_arg7 : S128x128.Idx → EReal) (ix2 k l) = W k l)
    (i : Fin 100000) (l : Fin 128) :
    ((dat3 V c).arrAt 8 cfg3.N : S100000x128.Idx → EReal) (ix2 i l) = scaled dv (lin (bnRelu (valK dv AGG B) M S G BE) W) i l :=
  congrFun ((dat3 V c).arrAt_eq_of_cover 8 (G3 AGG dv B M S G BE W)
    (fun t _ => flushed3_8_eq V c AGG dv B M S G BE W hagg hd hb hm hs hg hbe hw t) tiles_cover3_8) (ix2 i l)

end Cert.KernelIdeal.Hand

end
-- ==== Proof.KIRegion4Value.lean ====
import proofs.«429421_j77326591197817_3_alg».proof.Proof.KIRegion4
import proofs.«429421_j77326591197817_3_alg».proof.Proof.Spec
import proofs.«429421_j77326591197817_3_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)
open Idealize.ShloMosaic.ValueIdx
open Cert.GNN
open scoped BigOperators

theorem lift4_apply (h : S5000x128.Reduces [0] S128) (l : Fin 128) (r : Fin 5000) : h.lift (ix1 l) r = ix2 r l := by
  funext a; match a with | ⟨0, _⟩ => rfl | ⟨1, _⟩ => rfl

theorem bcastCol4_apply (v : S5000x1.Idx → EReal) (h : S5000x1.Broadcasts S5000x128) (r : Fin 5000) (l : Fin 128) :
    broadcastTo S5000x128 v h (ix2 r l) = v (ix2 r (0 : Fin 1)) := by
  refine broadcastTo_apply v h (ix2 r l) (ix2 r (0 : Fin 1)) fun ax => ?_
  match ax with
  | ⟨0, _⟩ => rfl
  | ⟨1, _⟩ => rfl

theorem pay1_apply4 (j : S1x1x128.Idx) : (k4_pay1 (F := Ideal)) j = 0 := by
  unfold k4_pay1
  simp only [shapeCast_self]
  show Ideal.ofBits .f32 0x00000000#32 = 0
  exact Ideal.ofBits_zero_f32

theorem pay2_apply4 (x0 : Vec Ideal S5000x128 .f32) (x1 : Vec Ideal S5000x1 .f32) (x2 : Vec Ideal S1x128 .f32)
    (xs : Vec Ideal S1x1x128 .f32) (l : Fin 128) :
    k4_pay2 x0 x1 x2 xs (ix3 (0 : Fin 1) (0 : Fin 1) l)
      = xs (ix3 (0 : Fin 1) (0 : Fin 1) l) + ∑ r : Fin 5000, (x0 (ix2 r l) * x1 (ix2 r (0 : Fin 1)) + x2 (ix2 (0 : Fin 1) l)) := by
  unfold k4_pay2
  simp only [shapeCast_self]
  rw [addf_apply, shapeCast_ab_1ab_apply, shapeCast_a_1a_apply]
  refine congrArg (xs (ix3 (0 : Fin 1) (0 : Fin 1) l) + ·) ?_
  refine (Ideal.multiReduction_add_single _ _ reduces_S5000x128_S128 _ _ (ix1 l)).trans ?_
  refine Finset.sum_congr rfl ?_
  intro (r : Fin 5000) _
  rw [lift4_apply, addf_apply, mulf_apply, bcastCol4_apply, broadcastTo_1b_ab_apply]

theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 3) = t.val / 10 ∧ win4_3.index t (1 : Fin 3) = 0 ∧ win4_3.index t (2 : Fin 3) = 0 :=
  (by decide +kernel : ∀ t : Fin grid4.N, _)

section
variable (V : EntryVal Ideal) (c : Dev nD) (AGG : NodeMat) (dv : Fin 100000 → EReal) (B : Row) (hagg : ∀ j l, (V c main_v53 : S100000x128.Idx → EReal) (ix2 j l) = AGG j l) (hd : ∀ j, (V c main_v15 : S100000x1.Idx → EReal) (ix2 j 0) = dv j) (hb : ∀ l, (V c main_v19 : S1x128.Idx → EReal) (ix2 0 l) = B l)

theorem iblk4_0_apply (t : Fin cfg4.N) (r : Fin 5000) (l : Fin 128) (h : t.val * 5000 + r.val < 100000) :
    (iblk4 V c 0 t : S5000x128.Idx → EReal) (ix2 r l) = (V c main_v53 : S100000x128.Idx → EReal) (ix2 ⟨t.val * 5000 + r.val, h⟩ l) := by
  obtain ⟨e0, e1, -⟩ := idx_facts4 t
  show (V c main_v53 : S100000x128.Idx → EReal) (((cfg4.win 0).blk t).view.emb (ix2 r l)) = _
  refine congrArg (V c main_v53 : S100000x128.Idx → EReal) (funext fun a => Fin.ext ?_)
  match a with
  | ⟨0, _⟩ => show win4_0.index t (0 : Fin 2) * 5000 + 1 * r.val = t.val * 5000 + r.val; omega
  | ⟨1, _⟩ => show win4_0.index t (1 : Fin 2) * 128 + 1 * l.val = l.val; omega

theorem iblk4_1_apply (t : Fin cfg4.N) (r : Fin 5000) (h : t.val * 5000 + r.val < 100000) :
    (iblk4 V c 1 t : S5000x1.Idx → EReal) (ix2 r (0 : Fin 1)) = (V c main_v15 : S100000x1.Idx → EReal) (ix2 ⟨t.val * 5000 + r.val, h⟩ (0 : Fin 1)) := by
  obtain ⟨-, -, e0, e1, -⟩ := idx_facts4 t
  show (V c main_v15 : S100000x1.Idx → EReal) (((cfg4.win 1).blk t).view.emb (ix2 r (0 : Fin 1))) = _
  refine congrArg (V c main_v15 : S100000x1.Idx → EReal) (funext fun a => Fin.ext ?_)
  match a with
  | ⟨0, _⟩ => show win4_1.index t (0 : Fin 2) * 5000 + 1 * r.val = t.val * 5000 + r.val; omega
  | ⟨1, _⟩ => show win4_1.index t (1 : Fin 2) * 1 + 1 * 0 = 0; omega

theorem iblk4_2_apply (t : Fin cfg4.N) (l : Fin 128) :
    (iblk4 V c 2 t : S1x128.Idx → EReal) (ix2 (0 : Fin 1) l) = (V c main_v19 : S1x128.Idx → EReal) (ix2 (0 : Fin 1) l) := by
  obtain ⟨-, -, -, -, e0, e1, -⟩ := idx_facts4 t
  show (V c main_v19 : S1x128.Idx → EReal) (((cfg4.win 2).blk t).view.emb (ix2 (0 : Fin 1) l)) = _
  refine congrArg (V c main_v19 : S1x128.Idx → EReal) (funext fun a => Fin.ext ?_)
  match a with
  | ⟨0, _⟩ => show win4_2.index t (0 : Fin 2) * 1 + 1 * 0 = 0; omega
  | ⟨1, _⟩ => show win4_2.index t (1 : Fin 2) * 128 + 1 * l.val = l.val; omega

def tile4 (v : NodeMat) (q : Fin 2) (l : Fin 128) (n : ℕ) : EReal :=
  if h : n < 10 then ∑ r : Fin 5000, v (rowOf q ⟨n, h⟩ r) l else 0

theorem halfSum_eq_range4 (v : NodeMat) (q : Fin 2) (l : Fin 128) : halfSum v q l = ∑ k ∈ Finset.range 10, tile4 v q l k := by
  rw [Finset.sum_range]
  show ∑ t : Fin 10, ∑ r : Fin 5000, v (rowOf q t r) l = _
  refine Finset.sum_congr rfl fun tt _ => ?_
  unfold tile4; rw [dif_pos tt.isLt]

def hs4 (v : NodeMat) (a b : ℕ) : EReal := if h : a < 2 ∧ b < 128 then halfSum v ⟨a, h.1⟩ ⟨b, h.2⟩ else 0

def G4 (v : NodeMat) : S2x1x128.Idx → EReal := fun i => hs4 v (i 0).val (i 2).val

theorem mem_blk4 (t : Fin cfg4.N) (i : S2x1x128.Idx) :
    i ∈ ((cfg4.win 3).blk t).view.set ↔ ∀ a : Fin 3, win4_3.index t a * S1x1x128.size a ≤ (i a).val ∧ (i a).val < win4_3.index t a * S1x1x128.size a + S1x1x128.size a := by
  show i ∈ ((View.whole main_v54).slice (win4_3.rect t)).set ↔ _
  rw [View.set_slice_whole, Rect.mem_set_unit]
  exact Iff.rfl

theorem cover4 (i : S2x1x128.Idx) : ∃ t : Fin cfg4.N, (cfg4.win 3).flush t = true ∧ i ∈ ((cfg4.win 3).blk t).view.set := by
  have hN : cfg4.N = 20 := N_4
  have hi0 : (i 0).val < 2 := (i 0).isLt
  have hi1 : (i 1).val < 1 := (i 1).isLt
  have hi2 : (i 2).val < 128 := (i 2).isLt
  obtain ⟨t, ht⟩ : ∃ t : Fin cfg4.N, t.val = 10 * (i 0).val + 9 := ⟨⟨10 * (i 0).val + 9, by omega⟩, rfl⟩
  obtain ⟨-, -, -, -, -, -, e0, e1, e2⟩ := idx_facts4 t
  refine ⟨t, (flush4_3 t).mpr (by omega), ?_⟩
  rw [mem_blk4]
  intro a
  match a with
  | ⟨0, _⟩ => show win4_3.index t (0 : Fin 3) * 1 ≤ (i 0).val ∧ (i 0).val < win4_3.index t (0 : Fin 3) * 1 + 1; omega
  | ⟨1, _⟩ => show win4_3.index t (1 : Fin 3) * 1 ≤ (i 1).val ∧ (i 1).val < win4_3.index t (1 : Fin 3) * 1 + 1; omega
  | ⟨2, _⟩ => show win4_3.index t (2 : Fin 3) * 128 ≤ (i 2).val ∧ (i 2).val < win4_3.index t (2 : Fin 3) * 128 + 128; omega

include hagg hd hb

theorem tile4_eq (q : Fin 2) (n : ℕ) (hn : n < 10) (t : Fin cfg4.N) (ht : t.val = 10 * q.val + n) (l : Fin 128)
    (x0 : Vec Ideal S5000x128 .f32) (x1 : Vec Ideal S5000x1 .f32) (x2 : Vec Ideal S1x128 .f32)
    (h0 : x0 = iblk4 V c 0 t) (h1 : x1 = iblk4 V c 1 t) (h2 : x2 = iblk4 V c 2 t) :
    ∑ r : Fin 5000, (x0 (ix2 r l) * x1 (ix2 r (0 : Fin 1)) + x2 (ix2 (0 : Fin 1) l)) = tile4 (valK dv AGG B) q l n := by
  subst h0 h1 h2
  unfold tile4; rw [dif_pos hn]
  refine Finset.sum_congr rfl fun r _ => ?_
  have hr : t.val * 5000 + r.val < 100000 := by have := r.isLt; have := q.isLt; omega
  rw [iblk4_0_apply V c t r l hr, iblk4_1_apply V c t r hr, iblk4_2_apply V c t l, hagg, hd, hb]
  have e : (⟨t.val * 5000 + r.val, hr⟩ : Fin 100000) = rowOf q ⟨n, hn⟩ r :=
    Fin.ext (by show t.val * 5000 + r.val = (q.val * 10 + n) * 5000 + r.val; omega)
  rw [e]; rfl

theorem acc4_sum (q : Fin 2) (l : Fin 128) :
    ∀ (n : ℕ) (hn : n < 10) (t : Fin cfg4.N), t.val = 10 * q.val + n →
      (acc4 V c t.val t.isLt : S1x1x128.Idx → EReal) (ix3 (0 : Fin 1) (0 : Fin 1) l) = ∑ k ∈ Finset.range (n + 1), tile4 (valK dv AGG B) q l k
  | 0, hn, t, ht => by
    rw [acc4_reset V c t (by omega), pay2_apply4, pay1_apply4, zero_add, tile4_eq V c AGG dv B hagg hd hb q 0 hn t ht l _ _ _ rfl rfl rfl,
      Finset.sum_range_one]
  | n + 1, hn, t, ht => by
    have hN : cfg4.N = 20 := N_4
    have hq := q.isLt
    rw [acc4_step V c t (by omega), pay2_apply4, tile4_eq V c AGG dv B hagg hd hb q (n + 1) hn t ht l _ _ _ rfl rfl rfl,
      Finset.sum_range_succ _ (n + 1)]
    refine congrArg (· + tile4 (valK dv AGG B) q l (n + 1)) ?_
    exact acc4_sum q l n (by omega) ⟨t.val - 1, by omega⟩ (by show t.val - 1 = _; omega)

theorem flushed4_eq (t : Fin cfg4.N) (hf : (cfg4.win 3).flush t = true) :
    (dat4 V c).flushed 3 t = ((cfg4.win 3).blk t).view.read (Elt Ideal) (G4 (valK dv AGG B)) := by
  have h9 : t.val % 10 = 9 := (flush4_3 t).mp hf
  have hN : t.val < 20 := lt_of_lt_of_eq t.isLt (show cfg4.N = 20 from N_4)
  obtain ⟨-, -, -, -, -, -, e0, e1, e2⟩ := idx_facts4 t
  show (cfg4.win 3).cut (grid4.coords t) (acc4 V c t.val t.isLt) = _
  funext j
  obtain ⟨u0, u1, l, rfl⟩ : ∃ (u0 : Fin 1) (u1 : Fin 1) (l : Fin 128), j = ix3 u0 u1 l := ⟨j 0, j 1, j 2, eq_ix3 j⟩
  obtain rfl : u0 = 0 := Subsingleton.elim _ _
  obtain rfl : u1 = 0 := Subsingleton.elim _ _
  show (acc4 V c t.val t.isLt : S1x1x128.Idx → EReal) (ix3 (0 : Fin 1) (0 : Fin 1) l)
    = hs4 (valK dv AGG B) (win4_3.index t (0 : Fin 3) * 1 + 1 * 0) (win4_3.index t (2 : Fin 3) * 128 + 1 * l.val)
  rw [show win4_3.index t (0 : Fin 3) * 1 + 1 * 0 = t.val / 10 by omega, show win4_3.index t (2 : Fin 3) * 128 + 1 * l.val = l.val by omega]
  have hq : t.val / 10 < 2 := by omega
  rw [acc4_sum V c AGG dv B hagg hd hb ⟨t.val / 10, hq⟩ l 9 (by decide) t (by show t.val = 10 * (t.val / 10) + 9; omega),
    ← halfSum_eq_range4]
  unfold hs4; rw [dif_pos ⟨hq, l.isLt⟩]

theorem value4 (c' : Fin 2) (l : Fin 128) :
    ((dat4 V c).arrAt 3 cfg4.N : S2x1x128.Idx → EReal) (ix3 c' 0 l) = halfSum (valK dv AGG B) c' l := by
  rw [(dat4 V c).arrAt_eq_of_cover 3 (G4 (valK dv AGG B)) (flushed4_eq V c AGG dv B hagg hd hb) cover4]
  show hs4 (valK dv AGG B) c'.val l.val = _
  unfold hs4; rw [dif_pos ⟨c'.isLt, l.isLt⟩]

end

end Cert.KernelIdeal.Hand

end
-- ==== Proof.KIRegion5Value.lean ====
import proofs.«429421_j77326591197817_3_alg».proof.Proof.KIRegion5
import proofs.«429421_j77326591197817_3_alg».proof.Proof.Spec
import proofs.«429421_j77326591197817_3_alg».proof.Proof.LibBlockSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.GNN
open scoped BigOperators

theorem pay5_1_at (l : Fin 128) : (k5_pay1 (F := Ideal)) (ix3 0 0 l) = 0 := by
  unfold k5_pay1
  rw [shapeCast_self]
  exact Ideal.ofBits_zero_f32

def contrib5 (x0 : Vec Ideal S5000x128 .f32) (x1 : Vec Ideal S5000x1 .f32) (x2 x3 : Vec Ideal S1x128 .f32) (l : Fin 128) : EReal :=
  ∑ r : Fin 5000, ((x0 (ix2 r l) * x1 (ix2 r 0) + x2 (ix2 0 l)) - x3 (ix2 0 l)) * ((x0 (ix2 r l) * x1 (ix2 r 0) + x2 (ix2 0 l)) - x3 (ix2 0 l))

theorem colsum5_at (v : FVec Ideal S5000x128 .f32) (h : S5000x128.Reduces [0] S128) (hφ : FKind.Formats .f32)
    (hacc : (0x00000000#32 : BitVec 32) = 0x00000000#32) (l : Fin 128) :
    multiReduction .add [0] S128 v 0x00000000#32 h hφ hacc (ix1 l) = ∑ r : Fin 5000, v (ix2 r l) := by
  refine (Ideal.multiReduction_add_single v 0x00000000#32 h hφ hacc (ix1 l)).trans ?_
  refine Finset.sum_congr rfl fun r _ => congrArg v ?_
  funext a; match a with | ⟨0, _⟩ => rfl | ⟨1, _⟩ => rfl

theorem pay5_2_at (x0 : Vec Ideal S5000x128 .f32) (x1 : Vec Ideal S5000x1 .f32) (x2 x3 : Vec Ideal S1x128 .f32)
    (s : Vec Ideal S1x1x128 .f32) (l : Fin 128) :
    k5_pay2 x0 x1 x2 x3 s (ix3 0 0 l) = s (ix3 0 0 l) + contrib5 x0 x1 x2 x3 l := by
  unfold k5_pay2 contrib5
  simp only [shapeCast_self]
  rw [addf_apply]
  refine congrArg (s (ix3 0 0 l) + ·) ?_
  have hk1 : (S1x128.rowMajor (ix2 0 l)).val = (S1x1x128.rowMajor (ix3 0 0 l)).val := by
    rw [Shape.rowMajor_val_two, Shape.rowMajor_val_three]
    show (0 : ℕ) * 128 + l.val = ((0 : ℕ) * 1 + 0) * 128 + l.val
    omega
  have hk2 : (S128.rowMajor (ix1 l)).val = (S1x128.rowMajor (ix2 0 l)).val := by
    rw [Shape.rowMajor_val_one, Shape.rowMajor_val_two]
    show l.val = (0 : ℕ) * 128 + l.val
    omega
  rw [shapeCast_apply _ _ (ix3 0 0 l) (ix2 0 l) hk1, shapeCast_apply _ _ (ix2 0 l) (ix1 l) hk2]
  refine (colsum5_at _ _ _ _ l).trans ?_
  refine Finset.sum_congr rfl fun r _ => ?_
  rw [mulf_apply, subf_apply, addf_apply, mulf_apply]
  rw [broadcastTo_apply x1 _ (ix2 r l) (ix2 r 0) (fun a => by match a with | ⟨0, _⟩ => rfl | ⟨1, _⟩ => rfl),
    broadcastTo_apply x2 _ (ix2 r l) (ix2 0 l) (fun a => by match a with | ⟨0, _⟩ => rfl | ⟨1, _⟩ => rfl),
    broadcastTo_apply x3 _ (ix2 r l) (ix2 0 l) (fun a => by match a with | ⟨0, _⟩ => rfl | ⟨1, _⟩ => rfl)]

variable (V : EntryVal Ideal)

theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 3) = t.val / 10 ∧ win5_4.index t (1 : Fin 3) = 0 ∧ win5_4.index t (2 : Fin 3) = 0 :=
  (by decide +kernel : ∀ t : Fin grid5.N, _)

theorem blk5_0_at (c : Dev nD) (t : Fin cfg5.N) (r : Fin 5000) (l : Fin 128) (j : Fin 100000) (hj : j.val = t.val * 5000 + r.val) :
    (iblk5 V c 0 t : Vec Ideal S5000x128 .f32) (ix2 r l) = (V c main_v53 : S100000x128.Idx → EReal) (ix2 j l) := by
  obtain ⟨e0, e1, -⟩ := idx_facts5 t
  unfold iblk5
  rw [View.read_apply]
  show V c main_v53 _ = V c main_v53 _
  congr 1
  funext a; apply Fin.ext
  match a with
  | ⟨0, _⟩ => show win5_0.index t 0 * 5000 + 1 * r.val = j.val; rw [e0, hj]; omega
  | ⟨1, _⟩ => show win5_0.index t 1 * 128 + 1 * l.val = l.val; rw [e1]; omega

theorem blk5_1_at (c : Dev nD) (t : Fin cfg5.N) (r : Fin 5000) (j : Fin 100000) (hj : j.val = t.val * 5000 + r.val) :
    (iblk5 V c 1 t : Vec Ideal S5000x1 .f32) (ix2 r 0) = (V c main_v15 : S100000x1.Idx → EReal) (ix2 j 0) := by
  obtain ⟨-, -, e0, e1, -⟩ := idx_facts5 t
  unfold iblk5
  rw [View.read_apply]
  show V c main_v15 _ = V c main_v15 _
  congr 1
  funext a; apply Fin.ext
  match a with
  | ⟨0, _⟩ => show win5_1.index t 0 * 5000 + 1 * r.val = j.val; rw [e0, hj]; omega
  | ⟨1, _⟩ => show win5_1.index t 1 * 1 + 1 * 0 = 0; rw [e1]

theorem blk5_2_at (c : Dev nD) (t : Fin cfg5.N) (l : Fin 128) :
    (iblk5 V c 2 t : Vec Ideal S1x128 .f32) (ix2 0 l) = (V c main_v19 : S1x128.Idx → EReal) (ix2 0 l) := by
  obtain ⟨-, -, -, -, e0, e1, -⟩ := idx_facts5 t
  unfold iblk5
  rw [View.read_apply]
  show V c main_v19 _ = V c main_v19 _
  congr 1
  funext a; apply Fin.ext
  match a with
  | ⟨0, _⟩ => show win5_2.index t 0 * 1 + 1 * 0 = 0; rw [e0]
  | ⟨1, _⟩ => show win5_2.index t 1 * 128 + 1 * l.val = l.val; rw [e1]; omega

theorem blk5_3_at (c : Dev nD) (t : Fin cfg5.N) (l : Fin 128) :
    (iblk5 V c 3 t : Vec Ideal S1x128 .f32) (ix2 0 l) = (V c main_v57 : S1x128.Idx → EReal) (ix2 0 l) := by
  obtain ⟨-, -, -, -, -, -, e0, e1, -⟩ := idx_facts5 t
  unfold iblk5
  rw [View.read_apply]
  show V c main_v57 _ = V c main_v57 _
  congr 1
  funext a; apply Fin.ext
  match a with
  | ⟨0, _⟩ => show win5_3.index t 0 * 1 + 1 * 0 = 0; rw [e0]
  | ⟨1, _⟩ => show win5_3.index t 1 * 128 + 1 * l.val = l.val; rw [e1]; omega

section Sum

variable (c : Dev nD) (AGG : NodeMat) (dv : Fin 100000 → EReal) (B M : Row)
  (hagg : ∀ j l, (V c main_v53 : S100000x128.Idx → EReal) (ix2 j l) = AGG j l)
  (hd : ∀ j, (V c main_v15 : S100000x1.Idx → EReal) (ix2 j 0) = dv j)
  (hb : ∀ l, (V c main_v19 : S1x128.Idx → EReal) (ix2 0 l) = B l)
  (hm : ∀ l, (V c main_v57 : S1x128.Idx → EReal) (ix2 0 l) = M l)

abbrev sqdev5 (AGG : NodeMat) (dv : Fin 100000 → EReal) (B M : Row) : NodeMat :=
  fun j l => (valK dv AGG B j l - M l) * (valK dv AGG B j l - M l)

include hagg hd hb hm in
theorem contrib5_eq (t : Fin cfg5.N) (c' : Fin 2) (k : Fin 10) (ht : t.val = c'.val * 10 + k.val) (l : Fin 128) :
    contrib5 (iblk5 V c 0 t) (iblk5 V c 1 t) (iblk5 V c 2 t) (iblk5 V c 3 t) l
      = ∑ r : Fin 5000, sqdev5 AGG dv B M (rowOf c' k r) l := by
  unfold contrib5
  refine Finset.sum_congr rfl fun r _ => ?_
  have hj : (rowOf c' k r).val = t.val * 5000 + r.val := by rw [ht]; rfl
  rw [blk5_0_at V c t r l (rowOf c' k r) hj, blk5_1_at V c t r (rowOf c' k r) hj, blk5_2_at V c t l, blk5_3_at V c t l,
    hagg, hd, hb, hm]
  rfl

def tileSum5 (AGG : NodeMat) (dv : Fin 100000 → EReal) (B M : Row) (c' : Fin 2) (l : Fin 128) (k : ℕ) : EReal :=
  if hk : k < 10 then ∑ r : Fin 5000, sqdev5 AGG dv B M (rowOf c' ⟨k, hk⟩ r) l else 0

theorem acc5_congr (n n' : ℕ) (h : n < cfg5.N) (e : n = n') : acc5 V c n h = acc5 V c n' (e ▸ h) := by
  subst e; rfl

include hagg hd hb hm in
theorem acc5_eq_sum (c' : Fin 2) (l : Fin 128) : ∀ (k : ℕ) (hk : k < 10) (h : c'.val * 10 + k < cfg5.N),
    acc5 V c (c'.val * 10 + k) h (ix3 0 0 l) = ∑ t ∈ Finset.range (k + 1), tileSum5 AGG dv B M c' l t
  | 0, hk, h => by
    have h0 : (⟨c'.val * 10 + 0, h⟩ : Fin cfg5.N).val % 10 = 0 := by show (c'.val * 10 + 0) % 10 = 0; omega
    rw [acc5_eq V c ⟨c'.val * 10 + 0, h⟩, if_pos h0, step5, pay5_2_at, pay5_1_at, zero_add,
      contrib5_eq V c AGG dv B M hagg hd hb hm ⟨c'.val * 10 + 0, h⟩ c' ⟨0, hk⟩ rfl l, Finset.sum_range_one]
    unfold tileSum5; rw [dif_pos hk]
  | k + 1, hk, h => by
    have h0 : ¬(⟨c'.val * 10 + (k + 1), h⟩ : Fin cfg5.N).val % 10 = 0 := by show ¬(c'.val * 10 + (k + 1)) % 10 = 0; omega
    have hN : cfg5.N = 20 := N_5
    have h' : c'.val * 10 + k < cfg5.N := by omega
    rw [acc5_eq V c ⟨c'.val * 10 + (k + 1), h⟩, if_neg h0, step5, pay5_2_at,
      contrib5_eq V c AGG dv B M hagg hd hb hm ⟨c'.val * 10 + (k + 1), h⟩ c' ⟨k + 1, hk⟩ rfl l,
      acc5_congr V c _ (c'.val * 10 + k) _ (by show c'.val * 10 + (k + 1) - 1 = c'.val * 10 + k; omega),
      acc5_eq_sum c' l k (by omega) h', Finset.sum_range_succ _ (k + 1)]
    unfold tileSum5; rw [dif_pos hk]

theorem idx_ne5_4 : ∀ t t' : Fin cfg5.N, (cfg5.win 4).flush t = true → (cfg5.win 4).flush t' = true → t ≠ t' →
    win5_4.index t ≠ win5_4.index t' :=
  (by decide +kernel : ∀ t t' : Fin grid5.N, win5_4.flush t = true → win5_4.flush t' = true → t ≠ t' →
    win5_4.index t ≠ win5_4.index t')

theorem disjoint5_4 : ∀ t t' : Fin cfg5.N, (cfg5.win 4).flush t = true → (cfg5.win 4).flush t' = true → t ≠ t' →
    Disjoint ((cfg5.win 4).blk t).view.set ((cfg5.win 4).blk t').view.set :=
  fun t t' hf hf' hne => (cfg5.win 4).disjoint_blk (idx_ne5_4 t t' hf hf' hne)

include hagg hd hb hm in
theorem value5 (c' : Fin 2) (l : Fin 128) :
    ((dat5 V c).arrAt 4 cfg5.N : S2x1x128.Idx → EReal) (ix3 c' 0 l)
      = halfSum (fun j l => (valK dv AGG B j l - M l) * (valK dv AGG B j l - M l)) c' l := by
  have hN : cfg5.N = 20 := N_5
  have hlt : c'.val * 10 + 9 < cfg5.N := by have := c'.isLt; omega
  have hfl : (cfg5.win 4).flush ⟨c'.val * 10 + 9, hlt⟩ = true :=
    (flush5_4 ⟨c'.val * 10 + 9, hlt⟩).mpr (by show (c'.val * 10 + 9) % 10 = 9; omega)
  obtain ⟨-, -, -, -, -, -, -, -, e0, e1, e2⟩ := idx_facts5 ⟨c'.val * 10 + 9, hlt⟩
  have e : ((cfg5.win 4).blk ⟨c'.val * 10 + 9, hlt⟩).view.emb (ix3 0 0 l) = (ix3 c' (0 : Fin 1) l : S2x1x128.Idx) := by
    funext a; apply Fin.ext
    match a with
    | ⟨0, _⟩ => show win5_4.index ⟨c'.val * 10 + 9, hlt⟩ 0 * 1 + 1 * 0 = c'.val; rw [e0]; show (c'.val * 10 + 9) / 10 * 1 + 1 * 0 = c'.val; omega
    | ⟨1, _⟩ => show win5_4.index ⟨c'.val * 10 + 9, hlt⟩ 1 * 1 + 1 * 0 = 0; rw [e1]
    | ⟨2, _⟩ => show win5_4.index ⟨c'.val * 10 + 9, hlt⟩ 2 * 128 + 1 * l.val = l.val; rw [e2]; omega
  have h := (dat5 V c).arrAt_emb_eq_flushed 4 disjoint5_4 ⟨c'.val * 10 + 9, hlt⟩ hfl (ix3 0 0 l)
  refine ((congrArg ((dat5 V c).arrAt 4 cfg5.N) e).symm.trans h).trans ?_
  show (dat5 V c).after 4 ⟨c'.val * 10 + 9, hlt⟩ (ix3 0 0 l) = _
  rw [after5_4]
  refine (acc5_eq_sum V c AGG dv B M hagg hd hb hm c' l 9 (by omega) hlt).trans ?_
  rw [Finset.sum_range]
  unfold halfSum
  refine Finset.sum_congr rfl fun t _ => ?_
  unfold tileSum5; rw [dif_pos t.isLt]

end Sum

end Cert.KernelIdeal.Hand

end
-- ==== Proof.LibScatterGather.lean ====
import Idealize.ShloMosaic.PureOps.Ideal
import Idealize.ShloMosaic.Lib.ValueIdx
import Idealize.ShloMosaic.Lib.StableHlo.Predicate

noncomputable section

namespace Cert.ScatterGather

open Idealize.ShloMosaic Idealize.ShloMosaic.ValueIdx
open scoped BigOperators

def tgtW (N : Nat) {w : Nat} (x : BitVec w) : Option (Fin N) :=
  if h : 0 ≤ x.toInt ∧ x.toInt < (N : Int) then some ⟨x.toInt.toNat, by omega⟩ else none

def rowW (N : Nat) (hN : 0 < N) {w : Nat} (x : BitVec w) : Fin N := ⟨min x.toInt.toNat (N - 1), by omega⟩

theorem rowW_of_tgtW {N : Nat} (hN : 0 < N) {w : Nat} (x : BitVec w) (i : Fin N) (h : tgtW N x = some i) :
    rowW N hN x = i := by
  unfold tgtW at h
  split at h
  · obtain rfl := Option.some.inj h
    exact Fin.ext (by show min x.toInt.toNat (N - 1) = x.toInt.toNat; omega)
  · exact absurd h (by simp)

def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Vec

variable {N E w : Nat} (d : ScatterDims ⟨1, ![N]⟩ ⟨2, ![E, 1]⟩ ⟨1, ![E]⟩)

theorem start_vec (hs : d.scatterDimsToOperandDims = [0]) (hv : d.indexVectorDim = 1)
    (idx : IVec ⟨2, ![E, 1]⟩ w) (e : Fin E) :
    d.start (ix1 e) idx 0 = (idx (ix2 e 0)).toInt := by
  have hm : (0 : Fin 1) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    have e' : ∀ X : Fin 1, ((ix1 e : (⟨1, ![E]⟩ : Shape).Idx) X).val = e.val := fun X => by
      have hX : X = 0 := Subsingleton.elim _ _
      subst hX; rfl
    exact e' _
  | ⟨1, _⟩ =>
    unfold ScatterDims.siIdx
    rw [dif_pos (by rw [hv])]
    apply Fin.ext
    show List.idxOf (0 : Fin 1) d.scatterDimsToOperandDims = 0
    rw [hs]; simp

theorem window_vec (hi : d.insertedWindowDims = [0]) (j : (⟨1, ![E]⟩ : Shape).Idx) : d.window j 0 = 0 := by
  have hk : (0 : Fin 1) ∉ d.sKept := by simp [ScatterDims.sKept, Shape.kept, hi]
  unfold ScatterDims.window
  rw [dif_neg hk]

theorem resultIdx?_vec (hi : d.insertedWindowDims = [0])
    (hs : d.scatterDimsToOperandDims = [0]) (hv : d.indexVectorDim = 1)
    (idx : IVec ⟨2, ![E, 1]⟩ w) (e : Fin E) :
    d.resultIdx? (ix1 e) idx = (tgtW N (idx (ix2 e 0))).map ix1 := by
  have hst := start_vec d hs hv idx e
  have hwi := window_vec d hi (ix1 e)
  unfold ScatterDims.resultIdx? tgtW
  by_cases hx : 0 ≤ (idx (ix2 e 0)).toInt ∧ (idx (ix2 e 0)).toInt < (N : Int)
  · have hall : ∀ a : Fin 1, 0 ≤ d.start (ix1 e) idx a + d.window (ix1 e) a ∧
        d.start (ix1 e) idx a + d.window (ix1 e) a < (⟨1, ![N]⟩ : Shape).size a := fun a => by
      obtain rfl : a = 0 := Subsingleton.elim _ _
      rw [hst, hwi]
      show 0 ≤ (idx (ix2 e 0)).toInt + ((0 : Nat) : Int) ∧ (idx (ix2 e 0)).toInt + ((0 : Nat) : Int) < (N : Int)
      omega
    rw [dif_pos hall, dif_pos hx]
    show some _ = some _
    congr 1
    funext a
    obtain rfl : a = 0 := Subsingleton.elim _ _
    apply Fin.ext
    show (d.start (ix1 e) idx 0 + d.window (ix1 e) 0).toNat = (idx (ix2 e 0)).toInt.toNat
    rw [hst, hwi]
    simp
  · have hnall : ¬ ∀ a : Fin 1, 0 ≤ d.start (ix1 e) idx a + d.window (ix1 e) a ∧
        d.start (ix1 e) idx a + d.window (ix1 e) a < (⟨1, ![N]⟩ : Shape).size a := fun hall => by
      have h0 := hall 0
      rw [hst, hwi] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Vec

theorem scatterAdd_vec_apply {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e ∈ Finset.univ.filter (fun e : Fin E => tgtW N (idx (ix2 e 0)) = some i), upd (ix1 e) := by
  show x (ix1 i) + ∑ j ∈ Finset.univ.filter (fun j => d.resultIdx? j idx = some (ix1 i)), upd j = _
  congr 1
  rw [Finset.sum_filter, Finset.sum_filter, sum_idx1]
  refine Finset.sum_congr rfl fun e _ => ?_
  have hiff : d.resultIdx? (ix1 e) idx = some (ix1 i) ↔ tgtW N (idx (ix2 e 0)) = some i := by
    rw [resultIdx?_vec d hi hs hv idx e]
    cases tgtW N (idx (ix2 e 0)) with
    | none => simp
    | some r =>
      simp only [Option.map_some, Option.some.injEq]
      constructor
      · intro h'
        exact congrFun h' 0
      · intro h'
        rw [h']
  exact if_congr hiff rfl rfl

theorem ix2_val_axis0 {n0 n1 : Nat} (a : Fin n0) (b : Fin n1) (X : Fin 2) (hX : X = 0) :
    ((ix2 a b : (⟨2, ![n0, n1]⟩ : Shape).Idx) X).val = a.val := by
  subst hX; rfl

theorem ix2_val_axis1 {n0 n1 : Nat} (a : Fin n0) (b : Fin n1) (X : Fin 2) (hX : X = 1) :
    ((ix2 a b : (⟨2, ![n0, n1]⟩ : Shape).Idx) X).val = b.val := by
  subst hX; rfl

section Rows

variable {N H E w : Nat} (d : ScatterDims ⟨2, ![N, H]⟩ ⟨2, ![E, 1]⟩ ⟨2, ![E, H]⟩)

theorem uScatter_rows (hu : d.updateWindowDims = [1]) : d.uScatter = [0] := by
  show (List.finRange 2).filter (fun a => a ∉ d.updateWindowDims) = [0]
  rw [hu]
  exact (by decide : (List.finRange 2).filter (fun a : Fin 2 => a ∉ [(1 : Fin 2)]) = [(0 : Fin 2)])

theorem sKept_rows (hi : d.insertedWindowDims = [0]) : d.sKept = [1] := by
  show (List.finRange 2).filter (fun a => a ∉ d.insertedWindowDims) = [1]
  rw [hi]
  exact (by decide : (List.finRange 2).filter (fun a : Fin 2 => a ∉ [(0 : Fin 2)]) = [(1 : Fin 2)])

theorem start_rows0 (hu : d.updateWindowDims = [1])
    (hs : d.scatterDimsToOperandDims = [0]) (hv : d.indexVectorDim = 1)
    (idx : IVec ⟨2, ![E, 1]⟩ w) (e : Fin E) (c : Fin H) :
    d.start (ix2 e c) idx 0 = (idx (ix2 e 0)).toInt := by
  have hm : (0 : Fin 2) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    refine ix2_val_axis0 e c _ ?_
    have hall : ∀ X ∈ d.uScatter, X = 0 := by
      rw [uScatter_rows d hu]; intro X hX; exact List.mem_singleton.mp hX
    exact hall _ (List.getElem_mem _)
  | ⟨1, _⟩ =>
    unfold ScatterDims.siIdx
    rw [dif_pos (by rw [hv])]
    apply Fin.ext
    show List.idxOf (0 : Fin 2) d.scatterDimsToOperandDims = 0
    rw [hs]; simp

theorem start_rows1 (hs : d.scatterDimsToOperandDims = [0])
    (idx : IVec ⟨2, ![E, 1]⟩ w) (j : (⟨2, ![E, H]⟩ : Shape).Idx) : d.start j idx 1 = 0 := by
  have hm : (1 : Fin 2) ∉ d.scatterDimsToOperandDims := by
    rw [hs]; exact (by decide : (1 : Fin 2) ∉ [(0 : Fin 2)])
  unfold ScatterDims.start
  rw [dif_neg hm]

theorem window_rows0 (hi : d.insertedWindowDims = [0]) (j : (⟨2, ![E, H]⟩ : Shape).Idx) : d.window j 0 = 0 := by
  have hk : (0 : Fin 2) ∉ d.sKept := by
    rw [sKept_rows d hi]; exact (by decide : (0 : Fin 2) ∉ [(1 : Fin 2)])
  unfold ScatterDims.window
  rw [dif_neg hk]

theorem window_rows1 (hu : d.updateWindowDims = [1]) (hi : d.insertedWindowDims = [0]) (e : Fin E) (c : Fin H) :
    d.window (ix2 e c) 1 = c.val := by
  have hk : (1 : Fin 2) ∈ d.sKept := by rw [sKept_rows d hi]; exact List.mem_singleton.mpr rfl
  unfold ScatterDims.window
  rw [dif_pos hk]
  refine ix2_val_axis1 e c _ ?_
  have hall : ∀ X ∈ d.updateWindowDims, X = 1 := by
    rw [hu]; intro X hX; exact List.mem_singleton.mp hX
  exact hall _ (List.getElem_mem _)

theorem resultIdx?_rows (hu : d.updateWindowDims = [1]) (hi : d.insertedWindowDims = [0])
    (hs : d.scatterDimsToOperandDims = [0]) (hv : d.indexVectorDim = 1)
    (idx : IVec ⟨2, ![E, 1]⟩ w) (e : Fin E) (c : Fin H) :
    d.resultIdx? (ix2 e c) idx = (tgtW N (idx (ix2 e 0))).map (fun r => ix2 r c) := by
  have hst0 := start_rows0 d hu hs hv idx e c
  have hst1 := start_rows1 d hs idx (ix2 e c)
  have hwi0 := window_rows0 d hi (ix2 e c)
  have hwi1 := window_rows1 d hu hi e c
  have hc := c.isLt
  unfold ScatterDims.resultIdx? tgtW
  by_cases hx : 0 ≤ (idx (ix2 e 0)).toInt ∧ (idx (ix2 e 0)).toInt < (N : Int)
  · have hall : ∀ a : Fin 2, 0 ≤ d.start (ix2 e c) idx a + d.window (ix2 e c) a ∧
        d.start (ix2 e c) idx a + d.window (ix2 e c) a < (⟨2, ![N, H]⟩ : Shape).size a := by
      refine Fin.forall_fin_two.2 ⟨?_, ?_⟩
      · rw [hst0, hwi0]
        show 0 ≤ (idx (ix2 e 0)).toInt + ((0 : Nat) : Int) ∧ (idx (ix2 e 0)).toInt + ((0 : Nat) : Int) < (N : Int)
        omega
      · rw [hst1, hwi1]
        show 0 ≤ (0 : Int) + (c.val : Int) ∧ (0 : Int) + (c.val : Int) < (H : Int)
        omega
    rw [dif_pos hall, dif_pos hx]
    show some _ = some _
    congr 1
    have hpt : ∀ a : Fin 2,
        (⟨(d.start (ix2 e c) idx a + d.window (ix2 e c) a).toNat, by have := hall a; omega⟩ :
          Fin ((⟨2, ![N, H]⟩ : Shape).size a))
        = (ix2 (⟨(idx (ix2 e 0)).toInt.toNat, by omega⟩ : Fin N) c : (⟨2, ![N, H]⟩ : Shape).Idx) a := by
      refine Fin.forall_fin_two.2 ⟨?_, ?_⟩
      · apply Fin.ext
        show (d.start (ix2 e c) idx 0 + d.window (ix2 e c) 0).toNat = (idx (ix2 e 0)).toInt.toNat
        rw [hst0, hwi0]
        simp
      · apply Fin.ext
        show (d.start (ix2 e c) idx 1 + d.window (ix2 e c) 1).toNat = c.val
        rw [hst1, hwi1]
        simp
    funext a
    exact hpt a
  · have hnall : ¬ ∀ a : Fin 2, 0 ≤ d.start (ix2 e c) idx a + d.window (ix2 e c) a ∧
        d.start (ix2 e c) idx a + d.window (ix2 e c) a < (⟨2, ![N, H]⟩ : Shape).size a := fun hall => by
      have h0 := hall 0
      rw [hst0, hwi0] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Rows

theorem scatterAdd_rows_apply {N H E w : Nat}
    (d : ScatterDims ⟨2, ![N, H]⟩ ⟨2, ![E, 1]⟩ ⟨2, ![E, H]⟩)
    (hu : d.updateWindowDims = [1]) (hi : d.insertedWindowDims = [0])
    (hs : d.scatterDimsToOperandDims = [0]) (hv : d.indexVectorDim = 1)
    (x : (⟨2, ![N, H]⟩ : Shape).Idx → EReal) (idx : IVec ⟨2, ![E, 1]⟩ w) (upd : (⟨2, ![E, H]⟩ : Shape).Idx → EReal)
    (i : Fin N) (j : Fin H) :
    Ideal.hostScatterAdd d x idx upd (ix2 i j)
      = x (ix2 i j) + ∑ e ∈ Finset.univ.filter (fun e : Fin E => tgtW N (idx (ix2 e 0)) = some i), upd (ix2 e j) := by
  show x (ix2 i j) + ∑ u ∈ Finset.univ.filter (fun u => d.resultIdx? u idx = some (ix2 i j)), upd u = _
  congr 1
  rw [Finset.sum_filter, Finset.sum_filter, sum_idx2]
  refine Finset.sum_congr rfl fun e _ => ?_
  have hiff : ∀ c : Fin H, d.resultIdx? (ix2 e c) idx = some (ix2 i j) ↔ (tgtW N (idx (ix2 e 0)) = some i ∧ c = j) := by
    intro c
    rw [resultIdx?_rows d hu hi hs hv idx e c]
    cases tgtW N (idx (ix2 e 0)) with
    | none => simp
    | some r =>
      simp only [Option.map_some, Option.some.injEq]
      constructor
      · intro h'
        exact ⟨congrFun h' 0, congrFun h' 1⟩
      · rintro ⟨h1, h2⟩
        rw [h1, h2]
  by_cases hq : tgtW N (idx (ix2 e 0)) = some i
  · rw [if_pos hq]
    rw [Finset.sum_eq_single j]
    · rw [if_pos ((hiff j).2 ⟨hq, rfl⟩)]
    · intro c _ hcj
      rw [if_neg (fun h => hcj ((hiff c).1 h).2)]
    · intro hj
      exact absurd (Finset.mem_univ j) hj
  · rw [if_neg hq]
    refine Finset.sum_eq_zero fun c _ => ?_
    rw [if_neg (fun h => hq ((hiff c).1 h).1)]

section GatherRows

variable {N H E w : Nat} (d : GatherDims ⟨2, ![N, H]⟩ ⟨2, ![E, 1]⟩ ⟨2, ![E, H]⟩)

theorem gather_sKept_rows (hcoll : d.collapsedSliceDims = [0]) (hob : d.operandBatchingDims = []) : d.sKept = [1] := by
  show (List.finRange 2).filter (fun a => a ∉ d.collapsedSliceDims ++ d.operandBatchingDims) = [1]
  rw [hcoll, hob]
  exact (by decide : (List.finRange 2).filter (fun a : Fin 2 => a ∉ [(0 : Fin 2)] ++ []) = [(1 : Fin 2)])

theorem gather_batchDims_rows (hoff : d.offsetDims = [1]) : d.batchDims = [0] := by
  show (List.finRange 2).filter (fun a => a ∉ d.offsetDims) = [0]
  rw [hoff]
  exact (by decide : (List.finRange 2).filter (fun a : Fin 2 => a ∉ [(1 : Fin 2)]) = [(0 : Fin 2)])

theorem gather_siIdx_rows (hoff : d.offsetDims = [1]) (hsim : d.startIndexMap = [0]) (hivd : d.indexVectorDim = 1)
    (e : Fin E) (j : Fin H) (c : Fin d.startIndexMap.length) :
    d.siIdx (ix2 e j) c = ix2 e 0 := by
  funext b
  match b with
  | ⟨0, _⟩ =>
    unfold GatherDims.siIdx
    rw [dif_neg (by rw [hivd]; simp)]
    unfold GatherDims.siCoord
    apply Fin.ext
    simp only [Fin.val_cast]
    refine ix2_val_axis0 e j _ ?_
    have hall : ∀ X ∈ d.batchDims, X = 0 := by
      rw [gather_batchDims_rows d hoff]; intro X hX; exact List.mem_singleton.mp hX
    exact hall _ (List.getElem_mem _)
  | ⟨1, _⟩ =>
    unfold GatherDims.siIdx
    rw [dif_pos (by rw [hivd])]
    apply Fin.ext
    show c.val = 0
    have hlen : d.startIndexMap.length = 1 := by rw [hsim]; rfl
    have hc := c.isLt
    omega

theorem gather_start_rows0 (hoff : d.offsetDims = [1]) (hcoll : d.collapsedSliceDims = [0])
    (hsim : d.startIndexMap = [0]) (hivd : d.indexVectorDim = 1)
    (idx : IVec ⟨2, ![E, 1]⟩ w) (e : Fin E) (j : Fin H) :
    d.start (ix2 e j) idx 0 = min (idx (ix2 e 0)).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, gather_siIdx_rows d hoff hsim hivd e j]
  show min (idx (ix2 e 0)).toInt.toNat (N - d.sliceSizes 0) = _
  rw [hsl]

theorem gather_start_rows1 (hsim : d.startIndexMap = [0])
    (idx : IVec ⟨2, ![E, 1]⟩ w) (y : (⟨2, ![E, H]⟩ : Shape).Idx) : d.start y idx 1 = 0 := by
  have hm : (1 : Fin 2) ∉ d.startIndexMap := by
    rw [hsim]; exact (by decide : (1 : Fin 2) ∉ [(0 : Fin 2)])
  unfold GatherDims.start
  rw [dif_neg hm]

theorem gather_offCoord_rows1 (hoff : d.offsetDims = [1]) (hcoll : d.collapsedSliceDims = [0])
    (hob : d.operandBatchingDims = []) (e : Fin E) (j : Fin H) :
    d.offCoord (ix2 e j) 1 = j.val := by
  have hk : (1 : Fin 2) ∈ d.sKept := by rw [gather_sKept_rows d hcoll hob]; exact List.mem_singleton.mpr rfl
  unfold GatherDims.offCoord
  rw [dif_pos hk]
  refine ix2_val_axis1 e j _ ?_
  have hall : ∀ X ∈ d.offsetDims, X = 1 := by
    rw [hoff]; intro X hX; exact List.mem_singleton.mp hX
  exact hall _ (List.getElem_mem _)

end GatherRows

theorem gather_rows_apply {α : Type} {N H E w : Nat} (hN : 0 < N)
    (d : GatherDims ⟨2, ![N, H]⟩ ⟨2, ![E, 1]⟩ ⟨2, ![E, H]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, H])
    (x : (⟨2, ![N, H]⟩ : Shape).Idx → α) (idx : IVec ⟨2, ![E, 1]⟩ w) (e : Fin E) (j : Fin H) :
    Host.gather d x idx (ix2 e j) = x (ix2 (rowW N hN (idx (ix2 e 0))) j) := by
  unfold Host.gather
  congr 1
  have hb : ∀ a : Fin 2, a ∉ d.operandBatchingDims := fun a => by rw [hob]; exact List.not_mem_nil
  have hk0 : (0 : Fin 2) ∉ d.sKept := by
    rw [gather_sKept_rows d hcoll hob]; exact (by decide : (0 : Fin 2) ∉ [(1 : Fin 2)])
  have hpt : ∀ a : Fin 2, d.operandIdx (ix2 e j) idx a
      = (ix2 (rowW N hN (idx (ix2 e 0))) j : (⟨2, ![N, H]⟩ : Shape).Idx) a := by
    refine Fin.forall_fin_two.2 ⟨?_, ?_⟩
    · apply Fin.ext
      show d.start (ix2 e j) idx 0 + d.batchCoord (ix2 e j) 0 + d.offCoord (ix2 e j) 0
        = min (idx (ix2 e 0)).toInt.toNat (N - 1)
      rw [GatherDims.batchCoord_eq_zero _ _ _ (hb 0), GatherDims.offCoord_eq_zero _ _ _ hk0,
        gather_start_rows0 d hoff hcoll hsim hivd idx e j]
      simp only [Nat.add_zero]
    · apply Fin.ext
      show d.start (ix2 e j) idx 1 + d.batchCoord (ix2 e j) 1 + d.offCoord (ix2 e j) 1 = j.val
      rw [GatherDims.batchCoord_eq_zero _ _ _ (hb 1), gather_offCoord_rows1 d hoff hcoll hob e j,
        gather_start_rows1 d hsim idx (ix2 e j)]
      omega
  funext a
  exact hpt a

theorem gather_vec_apply {α : Type} {N E w : Nat} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (rowW N hN (idx (ix2 e 0)))) := by
  have h := StableHlo.Predicate.gather_take d hcoll hob hsim hivd x idx e hN
  have h1 : (Shape.Idx.ofFin e : (⟨1, ![E]⟩ : Shape).Idx) = ix1 e := by
    funext a
    match a with
    | ⟨0, _⟩ => rfl
  have h2 : (StableHlo.Predicate.ixP e : (⟨2, ![E, 1]⟩ : Shape).Idx) = ix2 e 0 := by
    funext a
    match a with
    | ⟨0, _⟩ => rfl
    | ⟨1, _⟩ => rfl
  rw [h1] at h
  rw [h]
  congr 1
  funext a
  match a with
  | ⟨0, _⟩ =>
    apply Fin.ext
    show min (idx (StableHlo.Predicate.ixP e)).toInt.toNat (N - 1) = min (idx (ix2 e 0)).toInt.toNat (N - 1)
    rw [h2]

end Cert.ScatterGather

end
-- ==== Proof.SpecIdx.lean ====
import proofs.«429421_j77326591197817_3_alg».proof.Proof.Spec
import proofs.«429421_j77326591197817_3_alg».proof.Proof.LibScatterGather

noncomputable section

namespace Cert.GNN

open Idealize.ShloMosaic Cert.ScatterGather
open scoped BigOperators

/-- The number of edges given, before one self loop per node is appended. -/
abbrev E0 : Nat := 1600000

/-- Row `a` of the edge list extended by the words 0, …, N−1. -/
def extWord (ei : Fin 2 → Fin E0 → BitVec 32) (a : Fin 2) (e : Fin EE) : BitVec 32 :=
  if h : e.val < E0 then ei a ⟨e.val, h⟩ else BitVec.ofNat 32 (e.val - E0)

/-- A negative word has the node count added once. -/
def wrapW (w : BitVec 32) : BitVec 32 := if BitVec.slt w 0#32 then w + 100000#32 else w

def srcOf (ei : Fin 2 → Fin E0 → BitVec 32) (e : Fin EE) : Fin NN := rowW NN (by decide) (wrapW (extWord ei 0 e))
def dstOf (ei : Fin 2 → Fin E0 → BitVec 32) (e : Fin EE) : Fin NN := rowW NN (by decide) (wrapW (extWord ei 1 e))
def tgtOf (ei : Fin 2 → Fin E0 → BitVec 32) (e : Fin EE) : Option (Fin NN) := tgtW NN (extWord ei 1 e)

/-- A word in range is not negative, so it is neither wrapped nor clamped. -/
theorem dstOf_of_tgtOf (ei : Fin 2 → Fin E0 → BitVec 32) (e : Fin EE) (j : Fin NN) (h : tgtOf ei e = some j) :
    dstOf ei e = j := by
  unfold tgtOf at h
  have h0 : 0 ≤ (extWord ei 1 e).toInt := by
    have h' := h
    unfold tgtW at h'
    split at h'
    · next hx => exact hx.1
    · exact absurd h' (by simp)
  unfold dstOf wrapW
  rw [if_neg (by rw [BitVec.slt_iff_toInt_lt]; simp only [BitVec.toInt_zero]; omega)]
  exact rowW_of_tgtW _ _ j h

/-- The number of edges pointing to a node, counted in the extended reals. -/
def degOf (ei : Fin 2 → Fin E0 → BitVec 32) (j : Fin NN) : EReal :=
  0 + ∑ _e ∈ into (tgtOf ei) j, Ideal.ofBits .f32 0x3F800000#32

def dinvOf (ei : Fin 2 → Fin E0 → BitVec 32) (j : Fin NN) : EReal :=
  if 0 < degOf ei j then Ideal.rsqrt (degOf ei j) else 0

/-- The degree is the natural number of incoming edges, so its factor is a real ≥ 0. -/
theorem dinvOf_real (ei : Fin 2 → Fin E0 → BitVec 32) (j : Fin NN) : ∃ r : ℝ, 0 ≤ r ∧ dinvOf ei j = (r : EReal) := by
  have hone : Ideal.ofBits .f32 0x3F800000#32 = 1 := by
    simp [Ideal.ofBits, Ideal.ieee, -EReal.coe_mul]; norm_num
  have hn : ∀ n : ℕ, n • (1 : EReal) = ((n : ℝ) : EReal) := fun n => by
    induction n with
    | zero => simp
    | succ k ih => rw [succ_nsmul, ih, Nat.cast_succ, EReal.coe_add, EReal.coe_one]
  unfold dinvOf degOf
  rw [hone, Finset.sum_const, zero_add, hn]
  by_cases hc : (0 : EReal) < (((into (tgtOf ei) j).card : ℝ) : EReal)
  · rw [if_pos hc]
    have hr : (0 : ℝ) < ((into (tgtOf ei) j).card : ℝ) := by exact_mod_cast hc
    refine ⟨(Real.sqrt ((into (tgtOf ei) j).card : ℝ))⁻¹, inv_nonneg.2 (Real.sqrt_nonneg _), ?_⟩
    rw [Ideal.rsqrt_coe, if_neg (not_lt.2 hr.le), if_neg hr.ne']
  · rw [if_neg hc]
    exact ⟨0, le_refl _, rfl⟩

def btgtOf (bt : Fin NN → BitVec 32) (j : Fin NN) : Option (Fin GG) := tgtW GG (bt j)

def indOf (bt : Fin NN → BitVec 32) (j : Fin NN) (g : Fin 128) : EReal := if bt j = BitVec.ofNat 32 g.val then 1 else 0

theorem tgtW_eq_some_iff (x : BitVec 32) (g : Fin GG) : tgtW GG x = some g ↔ x = BitVec.ofNat 32 g.val := by
  have hg : g.val < 64 := g.isLt
  have hGG : ((GG : Nat) : Int) = 64 := rfl
  have hgi : (BitVec.ofNat 32 g.val).toInt = (g.val : Int) :=
    StableHlo.Predicate.toInt_ofNat_small g.val (by omega)
  unfold tgtW
  constructor
  · intro h
    split at h
    · next hx =>
      have hv : x.toInt.toNat = g.val := congrArg Fin.val (Option.some.inj h)
      apply BitVec.eq_of_toInt_eq
      rw [hgi]
      omega
    · exact absurd h (by simp)
  · intro h
    subst h
    rw [dif_pos (by rw [hgi]; omega)]
    congr 1
    apply Fin.ext
    show (BitVec.ofNat 32 g.val).toInt.toNat = g.val
    rw [hgi]
    omega

/-- Among the first 64 columns the indicator of column g is that of "the word names graph g". -/
theorem indOf_spec (bt : Fin NN → BitVec 32) (j : Fin NN) (g : Fin GG) :
    indOf bt j (g128 g) = if btgtOf bt j = some g then 1 else 0 := by
  unfold indOf btgtOf
  exact if_congr (tgtW_eq_some_iff (bt j) g).symm rfl rfl

end Cert.GNN

end
-- ==== Proof.KIRegion6Value.lean ====
import proofs.«429421_j77326591197817_3_alg».proof.Proof.KIRegion6
import proofs.«429421_j77326591197817_3_alg».proof.Proof.Spec
import proofs.«429421_j77326591197817_3_alg».proof.Proof.SpecIdx
import proofs.«429421_j77326591197817_3_alg».proof.Proof.LibBlockSum
import proofs.«429421_j77326591197817_3_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)
open Idealize.ShloMosaic.ValueIdx
open Cert.GNN
open scoped BigOperators

theorem onehot6_scalar (a : BitVec 32) (g : Fin 128) :
    FloatOps.sitofp (F := Ideal) .f32 ((IntOp.cmpi .eq a (BitVec.ofNat 32 g.val)).setWidth 32)
      = if a = BitVec.ofNat 32 g.val then 1 else 0 := by
  show (((((IntOp.cmpi .eq a (BitVec.ofNat 32 g.val)).setWidth 32).toInt : ℝ)) : EReal) = _
  unfold IntOp.cmpi
  by_cases h : a = BitVec.ofNat 32 g.val
  · rw [if_pos h, beq_iff_eq.mpr h]
    show (((((1#1 : BitVec 1).setWidth 32).toInt : ℝ)) : EReal) = 1
    rw [show ((1#1 : BitVec 1).setWidth 32).toInt = 1 from by decide]
    simp
  · rw [if_neg h, beq_eq_false_iff_ne.mpr h]
    show (((((0#1 : BitVec 1).setWidth 32).toInt : ℝ)) : EReal) = 0
    rw [show ((0#1 : BitVec 1).setWidth 32).toInt = 0 from by decide]
    simp

theorem bcRow6 (v : FVec Ideal S1x128 .f32) (r : Fin 5000) (l : Fin 128) :
    broadcastTo S5000x128 v broadcasts_S1x128_S5000x128 (ix2 r l) = v (ix2 (0 : Fin 1) l) :=
  broadcastTo_1b_ab_apply v broadcasts_S1x128_S5000x128 r l

theorem bcCol6 {α : Type} (v : S5000x1.Idx → α) (r : Fin 5000) (l : Fin 128) :
    broadcastTo S5000x128 v broadcasts_S5000x1_S5000x128 (ix2 r l) = v (ix2 r (0 : Fin 1)) :=
  broadcastTo_apply v broadcasts_S5000x1_S5000x128 (ix2 r l) (ix2 r 0) (fun ax => by match ax with | ⟨0, _⟩ => rfl | ⟨1, _⟩ => rfl)

theorem bcRowI6 (v : IVec S1x128 32) (r : Fin 5000) (l : Fin 128) :
    broadcastTo S5000x128 v broadcasts_S1x128_S5000x128 (ix2 r l) = v (ix2 (0 : Fin 1) l) :=
  broadcastTo_1b_ab_apply v broadcasts_S1x128_S5000x128 r l

theorem k6pay3_apply (x0 : FVec Ideal S5000x128 .f32) (x1 : FVec Ideal S5000x1 .f32) (x2 x3 x4 x5 x6 : FVec Ideal S1x128 .f32)
    (r : Fin 5000) (l : Fin 128) :
    k6_pay3 (F := Ideal) x0 x1 x2 x3 x4 x5 x6 (ix2 r l)
      = max ((x0 (ix2 r l) * x1 (ix2 r 0) + x2 (ix2 0 l) - x3 (ix2 0 l)) * Ideal.rsqrt (x4 (ix2 0 l) + cEps) * x5 (ix2 0 l) + x6 (ix2 0 l)) 0 := by
  unfold k6_pay3
  simp only [maximumf_apply, addf_apply, mulf_apply, subf_apply, broadcast_apply, bcRow6, bcCol6, shapeCast_self]
  show max _ (Ideal.ofBits .f32 0x00000000#32) = _
  rw [Ideal.ofBits_zero_f32]
  rfl

theorem k6pay1_apply (v33 : FVec Ideal S5000x128 .f32) (v35 : IVec S5000x1 32) (v43 : FVec Ideal S1x128x128 .f32) (g l : Fin 128) :
    k6_pay1 (F := Ideal) v33 v35 (iota .tc S1x128 32 [1] iota_S1x128_d1_w32) v43 (ix3 (0 : Fin 1) g l)
      = v43 (ix3 (0 : Fin 1) g l) + ∑ r : Fin 5000, (if v35 (ix2 r 0) = BitVec.ofNat 32 g.val then 1 else 0) * v33 (ix2 r l) := by
  unfold k6_pay1
  simp only [shapeCast_self, addf_apply]
  refine congrArg (fun q : EReal => v43 (ix3 (0 : Fin 1) g l) + q) ?_
  rw [shapeCast_ab_1ab_apply]
  refine (Cert.DotPlain.matmul_zero_cols_cols dot_S5000x128_S5000x128_S128x128_0_0_1_1_n_n rfl rfl rfl rfl rfl rfl none _ v33 g l).trans
    (Finset.sum_congr rfl fun r _ => ?_)
  refine congrArg (fun q : EReal => q * v33 (ix2 r l)) ?_
  rw [sitofp_apply, extui_apply]
  show FloatOps.sitofp (F := Ideal) .f32 ((IntOp.cmpi .eq (broadcastTo S5000x128 v35 broadcasts_S5000x1_S5000x128 (ix2 r g))
      (broadcastTo S5000x128 (iota .tc S1x128 32 [1] iota_S1x128_d1_w32) broadcasts_S1x128_S5000x128 (ix2 r g))).setWidth 32) = _
  rw [bcCol6, bcRowI6, iota_single_apply]
  exact onehot6_scalar _ g

theorem k6pay4_eq (x7 : Vec Ideal S5000x1 .i32) : k6_pay4 (F := Ideal) x7 = x7 := shapeCast_self _ _

theorem k6pay2_apply (i : S1x128x128.Idx) : k6_pay2 (F := Ideal) i = 0 := by
  show shapeCast S1x128x128 (broadcast S1x128x128 (Scalar.ofBits (F := Ideal) .f32 0x00000000#32)) shapeCasts_S1x128x128_S1x128x128 i = 0
  rw [shapeCast_self, broadcast_apply]
  exact Ideal.ofBits_zero_f32

section Step

variable (AGG : NodeMat) (dv : Fin 100000 → EReal) (B M S G BE : Row) (BT : Fin 100000 → BitVec 32)

theorem step6_entry (x0 : FVec Ideal S5000x128 .f32) (x1 : FVec Ideal S5000x1 .f32) (x2 x3 x4 x5 x6 : FVec Ideal S1x128 .f32)
    (x7 : Vec Ideal S5000x1 .i32) (xs : FVec Ideal S1x128x128 .f32) (g l : Fin 128) (j : Fin 5000 → Fin 100000)
    (h0 : ∀ r k, x0 (ix2 r k) = AGG (j r) k) (h1 : ∀ r, x1 (ix2 r 0) = dv (j r))
    (h2 : ∀ k, x2 (ix2 0 k) = B k) (h3 : ∀ k, x3 (ix2 0 k) = M k) (h4 : ∀ k, x4 (ix2 0 k) = S k)
    (h5 : ∀ k, x5 (ix2 0 k) = G k) (h6 : ∀ k, x6 (ix2 0 k) = BE k) (h7 : ∀ r, (x7 : IVec S5000x1 32) (ix2 r 0) = BT (j r)) :
    k6_pay1 (F := Ideal) (k6_pay3 x0 x1 x2 x3 x4 x5 x6) (k6_pay4 x7) (iota .tc S1x128 32 [1] iota_S1x128_d1_w32) xs (ix3 (0 : Fin 1) g l)
      = xs (ix3 (0 : Fin 1) g l) + ∑ r : Fin 5000, indOf BT (j r) g * bnRelu (valK dv AGG B) M S G BE (j r) l := by
  refine (k6pay1_apply _ _ xs g l).trans ?_
  refine congrArg (fun q : EReal => xs (ix3 (0 : Fin 1) g l) + q) (Finset.sum_congr rfl fun r _ => ?_)
  rw [k6pay4_eq, h7, k6pay3_apply, h0, h1, h2, h3, h4, h5, h6]
  rfl

end Step

section Pieces

open Idealize.ShloMosaic.Tactic

variable {F : FTy → Type} [FloatOps F]

theorem hz6_3 : (![0, 0, 0] : Fin 3 → Nat) = fun _ => 0 := funext fun a => by fin_cases a <;> rfl
theorem hz6_2 : (![0, 0] : Fin 2 → Nat) = fun _ => 0 := funext fun a => by fin_cases a <;> rfl

def step6 (x0 : Vec F S5000x128 .f32) (x1 : Vec F S5000x1 .f32) (x2 x3 x4 x5 x6 : Vec F S1x128 .f32) (x7 : Vec F S5000x1 .i32) (acc : Vec F S1x128x128 .f32) : Vec F S1x128x128 .f32 :=
  k6_pay1 (k6_pay3 x0 x1 x2 x3 x4 x5 x6) (k6_pay4 x7) (iota .tc S1x128 32 [1] iota_S1x128_d1_w32) acc

section Run

variable (c : Dev nD) (i : grid6.Coords) (x0 : Vec F S5000x128 .f32) (x1 : Vec F S5000x1 .f32) (x2 x3 x4 x5 x6 : Vec F S1x128 .f32) (x7 : Vec F S5000x1 .i32)
  {arg2 : Memref sig .tc .vmem S5000x128 .f32} {arg3 : Memref sig .tc .vmem S5000x1 .f32} {arg4 arg5 arg6 arg7 arg8 : Memref sig .tc .vmem S1x128 .f32}
  {arg9 : Memref sig .tc .vmem S5000x1 .i32} {arg10 arg11 : Memref sig .tc .vmem S1x128x128 .f32}
  (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole)

theorem sout6_B_eq (hc0 : ¬cond6_0 i) (hc1 : ¬cond6_1 i) (xs0 : Vec F S1x128x128 .f32) :
    sout6_B c i x0 x1 x2 x3 x4 x5 x6 x7 harg2 harg3 harg4 harg5 harg6 harg7 harg8 harg9 harg10 harg11 hc0 hc1 xs0 = step6 x0 x1 x2 x3 x4 x5 x6 x7 xs0 := by
  unfold sout6_B
  rw [View.read_writes_eq_canon _ _ _ (scover6_B c i x0 x1 x2 x3 x4 x5 x6 x7 harg2 harg3 harg4 harg5 harg6 harg7 harg8 harg9 harg10 harg11 hc0 hc1 xs0)]
  unfold kernelRun6_B
  dsimp only
  sl_unfold_words
  dsimp only
  rw [View.canon_unit_zero hz6_3]
  unfold step6
  simp only [View.readAt_eq_ld, harg2.read_unread, harg3.read_unread, harg4.read_unread, harg5.read_unread, harg6.read_unread, harg7.read_unread, harg8.read_unread, harg9.read_unread, harg11.read_unread, View.ld_unit_zero (S := S5000x128) hz6_2, View.ld_unit_zero (S := S5000x1) hz6_2, View.ld_unit_zero (S := S1x128) hz6_2, View.ld_unit_zero (S := S1x128x128) hz6_3]

theorem sout6_C_eq (hc0 : ¬cond6_0 i) (hc1 : cond6_1 i) (xs0 : Vec F S1x128x128 .f32) :
    sout6_C c i x0 x1 x2 x3 x4 x5 x6 x7 harg2 harg3 harg4 harg5 harg6 harg7 harg8 harg9 harg10 harg11 hc0 hc1 xs0 = step6 x0 x1 x2 x3 x4 x5 x6 x7 xs0 := by
  unfold sout6_C
  rw [View.read_writes_eq_canon _ _ _ (scover6_C c i x0 x1 x2 x3 x4 x5 x6 x7 harg2 harg3 harg4 harg5 harg6 harg7 harg8 harg9 harg10 harg11 hc0 hc1 xs0)]
  unfold kernelRun6_C
  dsimp only
  sl_unfold_words
  dsimp only
  rw [View.canon_unit_zero hz6_3]
  unfold step6
  simp only [View.readAt_eq_ld, harg2.read_unread, harg3.read_unread, harg4.read_unread, harg5.read_unread, harg6.read_unread, harg7.read_unread, harg8.read_unread, harg9.read_unread, harg11.read_unread, View.ld_unit_zero (S := S5000x128) hz6_2, View.ld_unit_zero (S := S5000x1) hz6_2, View.ld_unit_zero (S := S1x128) hz6_2, View.ld_unit_zero (S := S1x128x128) hz6_3]

theorem out6_C_8_eq (hc0 : ¬cond6_0 i) (hc1 : cond6_1 i) (xs0 : Vec F S1x128x128 .f32) :
    out6_C_8 c i x0 x1 x2 x3 x4 x5 x6 x7 harg2 harg3 harg4 harg5 harg6 harg7 harg8 harg9 harg10 harg11 hc0 hc1 xs0 = step6 x0 x1 x2 x3 x4 x5 x6 x7 xs0 := by
  unfold out6_C_8
  rw [View.read_writes_eq_canon _ _ _ (cover6_C_8 c i x0 x1 x2 x3 x4 x5 x6 x7 harg2 harg3 harg4 harg5 harg6 harg7 harg8 harg9 harg10 harg11 hc0 hc1 xs0)]
  unfold kernelRun6_C
  dsimp only
  sl_unfold_words
  dsimp only
  rw [View.canon_unit_zero hz6_3]
  unfold step6
  simp only [View.readAt_eq_ld, harg2.read_unread, harg3.read_unread, harg4.read_unread, harg5.read_unread, harg6.read_unread, harg7.read_unread, harg8.read_unread, harg9.read_unread, harg11.read_unread, View.ld_unit_zero (S := S5000x128) hz6_2, View.ld_unit_zero (S := S5000x1) hz6_2, View.ld_unit_zero (S := S1x128) hz6_2, View.ld_unit_zero (S := S1x128x128) hz6_3, View.readCov_unit_zero (S := S1x128x128) _ hz6_3]

theorem sout6_A_eq (hc0 : cond6_0 i) (hc1 : ¬cond6_1 i) :
    sout6_A c i x0 x1 x2 x3 x4 x5 x6 x7 harg2 harg3 harg4 harg5 harg6 harg7 harg8 harg9 harg10 harg11 hc0 hc1 = step6 x0 x1 x2 x3 x4 x5 x6 x7 k6_pay2 := by
  unfold sout6_A
  rw [View.read_writes_eq_canon _ _ _ (scover6_A c i x0 x1 x2 x3 x4 x5 x6 x7 harg2 harg3 harg4 harg5 harg6 harg7 harg8 harg9 harg10 harg11 hc0 hc1)]
  unfold kernelRun6_A
  dsimp only
  sl_unfold_words
  dsimp only
  rw [View.canon_cons_unit_zero (S := S1x128x128) hz6_3]
  unfold step6
  simp only [View.readAt_eq_ld, harg2.read_unread, harg3.read_unread, harg4.read_unread, harg5.read_unread, harg6.read_unread, harg7.read_unread, harg8.read_unread, harg9.read_unread, harg11.read_unread, View.ld_unit_zero (S := S5000x128) hz6_2, View.ld_unit_zero (S := S5000x1) hz6_2, View.ld_unit_zero (S := S1x128) hz6_2, View.ld_unit_zero (S := S1x128x128) hz6_3, View.readCov_unit_zero (S := S1x128x128) _ hz6_3]

end Run

theorem outsAt6_snd_A (V : EntryVal F) (c : Dev nD) (t : Fin cfg6.N) (h0 : t.val % 10 = 0) :
    (outsAt6 V c t.val t.isLt).2 = step6 (iblk6 V c 0 t) (iblk6 V c 1 t) (iblk6 V c 2 t) (iblk6 V c 3 t) (iblk6 V c 4 t) (iblk6 V c 5 t) (iblk6 V c 6 t) (iblk6 V c 7 t) k6_pay2 := by
  have h1 : ¬t.val % 10 = 9 := by omega
  rw [outsAt6_A V c t h0 h1]
  unfold atA; dsimp only
  exact sout6_A_eq ..

theorem outsAt6_snd_BC (V : EntryVal F) (c : Dev nD) (t : Fin cfg6.N) (h0 : ¬t.val % 10 = 0) :
    (outsAt6 V c t.val t.isLt).2
      = step6 (iblk6 V c 0 t) (iblk6 V c 1 t) (iblk6 V c 2 t) (iblk6 V c 3 t) (iblk6 V c 4 t) (iblk6 V c 5 t) (iblk6 V c 6 t) (iblk6 V c 7 t) (outsAt6 V c (t.val - 1) (Nat.lt_of_le_of_lt (Nat.sub_le _ _) t.isLt)).2 := by
  by_cases h1 : t.val % 10 = 9
  · rw [outsAt6_C V c t h0 h1]
    unfold atC; dsimp only
    exact sout6_C_eq ..
  · rw [outsAt6_B V c t h0 h1]
    unfold atB; dsimp only
    exact sout6_B_eq ..

theorem outsAt6_fst_C (V : EntryVal F) (c : Dev nD) (t : Fin cfg6.N) (h1 : t.val % 10 = 9) :
    (outsAt6 V c t.val t.isLt).1 = (outsAt6 V c t.val t.isLt).2 := by
  have h0 : ¬t.val % 10 = 0 := by omega
  rw [outsAt6_C V c t h0 h1]
  unfold atC; dsimp only
  exact (out6_C_8_eq ..).trans (sout6_C_eq ..).symm

end Pieces

theorem idx6_0 : ∀ t : Fin cfg6.N, win6_0.index t (0 : Fin 2) = t.val ∧ win6_0.index t (1 : Fin 2) = 0 :=
  (by decide +kernel : ∀ t : Fin grid6.N, _)
theorem idx6_1 : ∀ t : Fin cfg6.N, win6_1.index t (0 : Fin 2) = t.val ∧ win6_1.index t (1 : Fin 2) = 0 :=
  (by decide +kernel : ∀ t : Fin grid6.N, _)
theorem idx6_2 : ∀ t : Fin cfg6.N, win6_2.index t (0 : Fin 2) = 0 ∧ win6_2.index t (1 : Fin 2) = 0 :=
  (by decide +kernel : ∀ t : Fin grid6.N, _)
theorem idx6_3 : ∀ t : Fin cfg6.N, win6_3.index t (0 : Fin 2) = 0 ∧ win6_3.index t (1 : Fin 2) = 0 :=
  (by decide +kernel : ∀ t : Fin grid6.N, _)
theorem idx6_4 : ∀ t : Fin cfg6.N, win6_4.index t (0 : Fin 2) = 0 ∧ win6_4.index t (1 : Fin 2) = 0 :=
  (by decide +kernel : ∀ t : Fin grid6.N, _)
theorem idx6_5 : ∀ t : Fin cfg6.N, win6_5.index t (0 : Fin 2) = 0 ∧ win6_5.index t (1 : Fin 2) = 0 :=
  (by decide +kernel : ∀ t : Fin grid6.N, _)
theorem idx6_6 : ∀ t : Fin cfg6.N, win6_6.index t (0 : Fin 2) = 0 ∧ win6_6.index t (1 : Fin 2) = 0 :=
  (by decide +kernel : ∀ t : Fin grid6.N, _)
theorem idx6_7 : ∀ t : Fin cfg6.N, win6_7.index t (0 : Fin 2) = t.val ∧ win6_7.index t (1 : Fin 2) = 0 :=
  (by decide +kernel : ∀ t : Fin grid6.N, _)
theorem idx6_8 : ∀ t : Fin cfg6.N, win6_8.index t (0 : Fin 3) = t.val / 10 ∧ win6_8.index t (1 : Fin 3) = 0 ∧ win6_8.index t (2 : Fin 3) = 0 :=
  (by decide +kernel : ∀ t : Fin grid6.N, _)

def rowN6 (p : ℕ) (a : Fin 5000) : Fin 100000 := ⟨(p * 5000 + a.val) % 100000, Nat.mod_lt _ (by decide)⟩

theorem emb6_0 (t : Fin cfg6.N) (a : Fin 5000) (k : Fin 128) :
    ((cfg6.win 0).blk t).view.emb (ix2 a k) = ix2 (rowN6 t.val a) k := by
  obtain ⟨e0, e1⟩ := idx6_0 t
  have hN : t.val < 20 := lt_of_lt_of_eq t.isLt N_6
  funext ax; apply Fin.ext
  match ax with
  | ⟨0, _⟩ => show win6_0.index t (0 : Fin 2) * 5000 + 1 * a.val = (t.val * 5000 + a.val) % 100000; have := a.isLt; omega
  | ⟨1, _⟩ => show win6_0.index t (1 : Fin 2) * 128 + 1 * k.val = k.val; omega

theorem emb6_1 (t : Fin cfg6.N) (a : Fin 5000) (z : Fin 1) :
    ((cfg6.win 1).blk t).view.emb (ix2 a z) = ix2 (rowN6 t.val a) (0 : Fin 1) := by
  obtain ⟨e0, e1⟩ := idx6_1 t
  have hN : t.val < 20 := lt_of_lt_of_eq t.isLt N_6
  funext ax; apply Fin.ext
  match ax with
  | ⟨0, _⟩ => show win6_1.index t (0 : Fin 2) * 5000 + 1 * a.val = (t.val * 5000 + a.val) % 100000; have := a.isLt; omega
  | ⟨1, _⟩ => show win6_1.index t (1 : Fin 2) * 1 + 1 * z.val = 0; have := z.isLt; omega

theorem emb6_2 (t : Fin cfg6.N) (z : Fin 1) (k : Fin 128) :
    ((cfg6.win 2).blk t).view.emb (ix2 z k) = ix2 (0 : Fin 1) k := by
  obtain ⟨e0, e1⟩ := idx6_2 t
  funext ax; apply Fin.ext
  match ax with
  | ⟨0, _⟩ => show win6_2.index t (0 : Fin 2) * 1 + 1 * z.val = 0; have := z.isLt; omega
  | ⟨1, _⟩ => show win6_2.index t (1 : Fin 2) * 128 + 1 * k.val = k.val; omega

theorem emb6_3 (t : Fin cfg6.N) (z : Fin 1) (k : Fin 128) :
    ((cfg6.win 3).blk t).view.emb (ix2 z k) = ix2 (0 : Fin 1) k := by
  obtain ⟨e0, e1⟩ := idx6_3 t
  funext ax; apply Fin.ext
  match ax with
  | ⟨0, _⟩ => show win6_3.index t (0 : Fin 2) * 1 + 1 * z.val = 0; have := z.isLt; omega
  | ⟨1, _⟩ => show win6_3.index t (1 : Fin 2) * 128 + 1 * k.val = k.val; omega

theorem emb6_4 (t : Fin cfg6.N) (z : Fin 1) (k : Fin 128) :
    ((cfg6.win 4).blk t).view.emb (ix2 z k) = ix2 (0 : Fin 1) k := by
  obtain ⟨e0, e1⟩ := idx6_4 t
  funext ax; apply Fin.ext
  match ax with
  | ⟨0, _⟩ => show win6_4.index t (0 : Fin 2) * 1 + 1 * z.val = 0; have := z.isLt; omega
  | ⟨1, _⟩ => show win6_4.index t (1 : Fin 2) * 128 + 1 * k.val = k.val; omega

theorem emb6_5 (t : Fin cfg6.N) (z : Fin 1) (k : Fin 128) :
    ((cfg6.win 5).blk t).view.emb (ix2 z k) = ix2 (0 : Fin 1) k := by
  obtain ⟨e0, e1⟩ := idx6_5 t
  funext ax; apply Fin.ext
  match ax with
  | ⟨0, _⟩ => show win6_5.index t (0 : Fin 2) * 1 + 1 * z.val = 0; have := z.isLt; omega
  | ⟨1, _⟩ => show win6_5.index t (1 : Fin 2) * 128 + 1 * k.val = k.val; omega

theorem emb6_6 (t : Fin cfg6.N) (z : Fin 1) (k : Fin 128) :
    ((cfg6.win 6).blk t).view.emb (ix2 z k) = ix2 (0 : Fin 1) k := by
  obtain ⟨e0, e1⟩ := idx6_6 t
  funext ax; apply Fin.ext
  match ax with
  | ⟨0, _⟩ => show win6_6.index t (0 : Fin 2) * 1 + 1 * z.val = 0; have := z.isLt; omega
  | ⟨1, _⟩ => show win6_6.index t (1 : Fin 2) * 128 + 1 * k.val = k.val; omega

theorem emb6_7 (t : Fin cfg6.N) (a : Fin 5000) (z : Fin 1) :
    ((cfg6.win 7).blk t).view.emb (ix2 a z) = ix2 (rowN6 t.val a) (0 : Fin 1) := by
  obtain ⟨e0, e1⟩ := idx6_7 t
  have hN : t.val < 20 := lt_of_lt_of_eq t.isLt N_6
  funext ax; apply Fin.ext
  match ax with
  | ⟨0, _⟩ => show win6_7.index t (0 : Fin 2) * 5000 + 1 * a.val = (t.val * 5000 + a.val) % 100000; have := a.isLt; omega
  | ⟨1, _⟩ => show win6_7.index t (1 : Fin 2) * 1 + 1 * z.val = 0; have := z.isLt; omega

def halfOf6 (t : Fin cfg6.N) : Fin 2 := ⟨t.val / 10, by have : t.val < 20 := lt_of_lt_of_eq t.isLt N_6; omega⟩

theorem emb6_8 (t : Fin cfg6.N) (z : Fin 1) (g l : Fin 128) :
    ((cfg6.win 8).blk t).view.emb (ix3 z g l) = ix3 (halfOf6 t) g l := by
  obtain ⟨e0, e1, e2⟩ := idx6_8 t
  funext ax; apply Fin.ext
  match ax with
  | ⟨0, _⟩ => show win6_8.index t (0 : Fin 3) * 1 + 1 * z.val = t.val / 10; have := z.isLt; omega
  | ⟨1, _⟩ => show win6_8.index t (1 : Fin 3) * 128 + 1 * g.val = g.val; omega
  | ⟨2, _⟩ => show win6_8.index t (2 : Fin 3) * 128 + 1 * l.val = l.val; omega

section Final

variable (V : EntryVal Ideal) (c : Dev nD) (AGG : NodeMat) (dv : Fin 100000 → EReal) (B M S G BE : Row) (BT : Fin 100000 → BitVec 32)

def tile6 (p : ℕ) (g l : Fin 128) : EReal :=
  ∑ r : Fin 5000, indOf BT (rowN6 p r) g * bnRelu (valK dv AGG B) M S G BE (rowN6 p r) l

def G6 : S2x128x128.Idx → EReal := fun i => ∑ k ∈ Finset.range 10, tile6 AGG dv B M S G BE BT ((i 0).val * 10 + k) (i 1) (i 2)

theorem G6_apply (c' : Fin 2) (g l : Fin 128) :
    G6 AGG dv B M S G BE BT (ix3 c' g l) = ∑ k ∈ Finset.range 10, tile6 AGG dv B M S G BE BT (c'.val * 10 + k) g l := rfl

variable (hagg : ∀ j l, (V c main_v53 : S100000x128.Idx → EReal) (ix2 j l) = AGG j l)
  (hd : ∀ j, (V c main_v15 : S100000x1.Idx → EReal) (ix2 j 0) = dv j)
  (hb : ∀ l, (V c main_v19 : S1x128.Idx → EReal) (ix2 0 l) = B l)
  (hm : ∀ l, (V c main_v57 : S1x128.Idx → EReal) (ix2 0 l) = M l)
  (hs : ∀ l, (V c main_v63 : S1x128.Idx → EReal) (ix2 0 l) = S l)
  (hg : ∀ l, (V c main_v20 : S1x128.Idx → EReal) (ix2 0 l) = G l)
  (hbe : ∀ l, (V c main_v21 : S1x128.Idx → EReal) (ix2 0 l) = BE l)
  (hbt : ∀ j, (V c main_v64 : IVec S100000x1 32) (ix2 j 0) = BT j)

include hagg in
theorem blk6_0 (t : Fin cfg6.N) (a : Fin 5000) (k : Fin 128) :
    (iblk6 V c 0 t : S5000x128.Idx → EReal) (ix2 a k) = AGG (rowN6 t.val a) k := by
  show (V c main_v53 : S100000x128.Idx → EReal) (((cfg6.win 0).blk t).view.emb (ix2 a k)) = _
  rw [emb6_0, hagg]

include hd in
theorem blk6_1 (t : Fin cfg6.N) (a : Fin 5000) :
    (iblk6 V c 1 t : S5000x1.Idx → EReal) (ix2 a 0) = dv (rowN6 t.val a) := by
  show (V c main_v15 : S100000x1.Idx → EReal) (((cfg6.win 1).blk t).view.emb (ix2 a (0 : Fin 1))) = _
  rw [emb6_1, hd]

include hb in
theorem blk6_2 (t : Fin cfg6.N) (k : Fin 128) :
    (iblk6 V c 2 t : S1x128.Idx → EReal) (ix2 0 k) = B k := by
  show (V c main_v19 : S1x128.Idx → EReal) (((cfg6.win 2).blk t).view.emb (ix2 (0 : Fin 1) k)) = _
  rw [emb6_2, hb]

include hm in
theorem blk6_3 (t : Fin cfg6.N) (k : Fin 128) :
    (iblk6 V c 3 t : S1x128.Idx → EReal) (ix2 0 k) = M k := by
  show (V c main_v57 : S1x128.Idx → EReal) (((cfg6.win 3).blk t).view.emb (ix2 (0 : Fin 1) k)) = _
  rw [emb6_3, hm]

include hs in
theorem blk6_4 (t : Fin cfg6.N) (k : Fin 128) :
    (iblk6 V c 4 t : S1x128.Idx → EReal) (ix2 0 k) = S k := by
  show (V c main_v63 : S1x128.Idx → EReal) (((cfg6.win 4).blk t).view.emb (ix2 (0 : Fin 1) k)) = _
  rw [emb6_4, hs]

include hg in
theorem blk6_5 (t : Fin cfg6.N) (k : Fin 128) :
    (iblk6 V c 5 t : S1x128.Idx → EReal) (ix2 0 k) = G k := by
  show (V c main_v20 : S1x128.Idx → EReal) (((cfg6.win 5).blk t).view.emb (ix2 (0 : Fin 1) k)) = _
  rw [emb6_5, hg]

include hbe in
theorem blk6_6 (t : Fin cfg6.N) (k : Fin 128) :
    (iblk6 V c 6 t : S1x128.Idx → EReal) (ix2 0 k) = BE k := by
  show (V c main_v21 : S1x128.Idx → EReal) (((cfg6.win 6).blk t).view.emb (ix2 (0 : Fin 1) k)) = _
  rw [emb6_6, hbe]

include hbt in
theorem blk6_7 (t : Fin cfg6.N) (a : Fin 5000) :
    (iblk6 V c 7 t : IVec S5000x1 32) (ix2 a 0) = BT (rowN6 t.val a) := by
  show (V c main_v64 : IVec S100000x1 32) (((cfg6.win 7).blk t).view.emb (ix2 a (0 : Fin 1))) = _
  rw [emb6_7, hbt]

include hagg hd hb hm hs hg hbe hbt in

theorem step6_at (t : Fin cfg6.N) (xs : FVec Ideal S1x128x128 .f32) (g l : Fin 128) :
    step6 (F := Ideal) (iblk6 V c 0 t) (iblk6 V c 1 t) (iblk6 V c 2 t) (iblk6 V c 3 t) (iblk6 V c 4 t) (iblk6 V c 5 t) (iblk6 V c 6 t) (iblk6 V c 7 t) xs (ix3 (0 : Fin 1) g l)
      = xs (ix3 (0 : Fin 1) g l) + tile6 AGG dv B M S G BE BT t.val g l :=
  step6_entry AGG dv B M S G BE BT (iblk6 V c 0 t) (iblk6 V c 1 t) (iblk6 V c 2 t) (iblk6 V c 3 t) (iblk6 V c 4 t) (iblk6 V c 5 t) (iblk6 V c 6 t) (iblk6 V c 7 t) xs g l (rowN6 t.val)
    (blk6_0 V c AGG hagg t) (blk6_1 V c dv hd t) (blk6_2 V c B hb t) (blk6_3 V c M hm t) (blk6_4 V c S hs t)
    (blk6_5 V c G hg t) (blk6_6 V c BE hbe t) (blk6_7 V c BT hbt t)

include hagg hd hb hm hs hg hbe hbt in

theorem acc6_inv : ∀ (n : ℕ) (h : n < cfg6.N) (g l : Fin 128),
    ((outsAt6 V c n h).2 : S1x128x128.Idx → EReal) (ix3 (0 : Fin 1) g l)
      = ∑ k ∈ Finset.range (n % 10 + 1), tile6 AGG dv B M S G BE BT (n - n % 10 + k) g l
  | 0, h, g, l => by
    refine (congrFun (outsAt6_snd_A V c ⟨0, h⟩ rfl) (ix3 (0 : Fin 1) g l)).trans ?_
    refine (step6_at V c AGG dv B M S G BE BT hagg hd hb hm hs hg hbe hbt ⟨0, h⟩ _ g l).trans ?_
    rw [k6pay2_apply, zero_add]
    show _ = ∑ k ∈ Finset.range 1, _
    rw [Finset.sum_range_one]
  | n + 1, h, g, l => by
    have hN : n + 1 < 20 := lt_of_lt_of_eq h N_6
    by_cases h0 : (n + 1) % 10 = 0
    · refine (congrFun (outsAt6_snd_A V c ⟨n + 1, h⟩ h0) (ix3 (0 : Fin 1) g l)).trans ?_
      refine (step6_at V c AGG dv B M S G BE BT hagg hd hb hm hs hg hbe hbt ⟨n + 1, h⟩ _ g l).trans ?_
      rw [k6pay2_apply, zero_add, h0]
      show _ = ∑ k ∈ Finset.range 1, _
      rw [Finset.sum_range_one]
      rfl
    · refine (congrFun (outsAt6_snd_BC V c ⟨n + 1, h⟩ h0) (ix3 (0 : Fin 1) g l)).trans ?_
      refine (step6_at V c AGG dv B M S G BE BT hagg hd hb hm hs hg hbe hbt ⟨n + 1, h⟩ _ g l).trans ?_
      have ih := acc6_inv n (Nat.lt_of_succ_lt h) g l
      show ((outsAt6 V c n (Nat.lt_of_succ_lt h)).2 : S1x128x128.Idx → EReal) (ix3 (0 : Fin 1) g l) + tile6 AGG dv B M S G BE BT (n + 1) g l = _
      rw [ih]
      have e1 : (n + 1) % 10 = n % 10 + 1 := by omega
      have e2 : n + 1 - (n % 10 + 1) = n - n % 10 := by omega
      have e3 : n + 1 = n - n % 10 + (n % 10 + 1) := by omega
      rw [e1, e2, Finset.sum_range_succ _ (n % 10 + 1), ← e3]

include hagg hd hb hm hs hg hbe hbt in

theorem flushed6_8_eq (t : Fin cfg6.N) (hf : (cfg6.win 8).flush t = true) :
    (dat6 V c).flushed 8 t = ((cfg6.win 8).blk t).view.read (Elt Ideal) (G6 AGG dv B M S G BE BT) := by
  have h9 : t.val % 10 = 9 := (flush6_8 t).mp hf
  have hN : t.val < 20 := lt_of_lt_of_eq t.isLt N_6
  show (cfg6.win 8).cut (grid6.coords t) ((dat6 V c).after 8 t) = _
  rw [after6_8, outsAt6_fst_C V c t h9]
  funext j
  obtain ⟨z, g, l, rfl⟩ : ∃ (z : Fin 1) (g l : Fin 128), j = ix3 z g l := ⟨j 0, j 1, j 2, eq_ix3 j⟩
  obtain rfl : z = 0 := Subsingleton.elim _ _
  show ((outsAt6 V c t.val t.isLt).2 : S1x128x128.Idx → EReal) (ix3 (0 : Fin 1) g l)
    = G6 AGG dv B M S G BE BT (((cfg6.win 8).blk t).view.emb (ix3 (0 : Fin 1) g l))
  rw [emb6_8, G6_apply, acc6_inv V c AGG dv B M S G BE BT hagg hd hb hm hs hg hbe hbt t.val t.isLt g l, h9]
  refine Finset.sum_congr rfl fun k _ => ?_
  have e : t.val - 9 + k = (halfOf6 t).val * 10 + k := by show t.val - 9 + k = t.val / 10 * 10 + k; omega
  rw [e]

theorem mem_blk6_8 (t : Fin cfg6.N) (i : S2x128x128.Idx) :
    i ∈ ((cfg6.win 8).blk t).view.set ↔ ∀ a : Fin 3, win6_8.index t a * S1x128x128.size a ≤ (i a).val ∧ (i a).val < win6_8.index t a * S1x128x128.size a + S1x128x128.size a := by
  show i ∈ ((View.whole main_v65).slice (win6_8.rect t)).set ↔ _
  rw [View.set_slice_whole, Rect.mem_set_unit]
  exact Iff.rfl

theorem cover6_arr (i : S2x128x128.Idx) :
    ∃ t : Fin cfg6.N, (cfg6.win 8).flush t = true ∧ i ∈ ((cfg6.win 8).blk t).view.set := by
  have hi0 : (i 0).val < 2 := (i 0).isLt
  have hi1 : (i 1).val < 128 := (i 1).isLt
  have hi2 : (i 2).val < 128 := (i 2).isLt
  have hq : (i 0).val * 10 + 9 < cfg6.N := by rw [show cfg6.N = 20 from N_6]; omega
  refine ⟨⟨(i 0).val * 10 + 9, hq⟩, (flush6_8 _).mpr (by show ((i 0).val * 10 + 9) % 10 = 9; omega), ?_⟩
  rw [mem_blk6_8]
  obtain ⟨e0, e1, e2⟩ := idx6_8 ⟨(i 0).val * 10 + 9, hq⟩
  intro a
  match a with
  | ⟨0, _⟩ =>
    show win6_8.index ⟨(i 0).val * 10 + 9, hq⟩ (0 : Fin 3) * 1 ≤ (i 0).val ∧ (i 0).val < win6_8.index ⟨(i 0).val * 10 + 9, hq⟩ (0 : Fin 3) * 1 + 1
    rw [e0]; show ((i 0).val * 10 + 9) / 10 * 1 ≤ (i 0).val ∧ (i 0).val < ((i 0).val * 10 + 9) / 10 * 1 + 1; omega
  | ⟨1, _⟩ =>
    show win6_8.index ⟨(i 0).val * 10 + 9, hq⟩ (1 : Fin 3) * 128 ≤ (i 1).val ∧ (i 1).val < win6_8.index ⟨(i 0).val * 10 + 9, hq⟩ (1 : Fin 3) * 128 + 128
    rw [e1]; omega
  | ⟨2, _⟩ =>
    show win6_8.index ⟨(i 0).val * 10 + 9, hq⟩ (2 : Fin 3) * 128 ≤ (i 2).val ∧ (i 2).val < win6_8.index ⟨(i 0).val * 10 + 9, hq⟩ (2 : Fin 3) * 128 + 128
    rw [e2]; omega

include hagg hd hb hm hs hg hbe hbt in

theorem final6_8 : (dat6 V c).arrAt 8 cfg6.N = G6 AGG dv B M S G BE BT :=
  (dat6 V c).arrAt_eq_of_cover 8 (G6 AGG dv B M S G BE BT) (fun t hf => flushed6_8_eq V c AGG dv B M S G BE BT hagg hd hb hm hs hg hbe hbt t hf) cover6_arr

end Final

theorem tile6_rowOf (AGG : NodeMat) (dv : Fin 100000 → EReal) (B M S G BE : Row) (BT : Fin 100000 → BitVec 32)
    (c' : Fin 2) (k : Fin 10) (g l : Fin 128) :
    tile6 AGG dv B M S G BE BT (c'.val * 10 + k.val) g l
      = ∑ r : Fin 5000, indOf BT (rowOf c' k r) g * bnRelu (valK dv AGG B) M S G BE (rowOf c' k r) l := by
  unfold tile6
  refine Finset.sum_congr rfl fun r _ => ?_
  have e : rowN6 (c'.val * 10 + k.val) r = rowOf c' k r := Fin.ext (by
    show ((c'.val * 10 + k.val) * 5000 + r.val) % 100000 = (c'.val * 10 + k.val) * 5000 + r.val
    have := c'.isLt; have := k.isLt; have := r.isLt; omega)
  rw [e]

theorem value6 (V : EntryVal Ideal) (c : Dev nD) (AGG : NodeMat) (dv : Fin 100000 → EReal) (B M S G BE : Row) (BT : Fin 100000 → BitVec 32)
    (hagg : ∀ j l, (V c main_v53 : S100000x128.Idx → EReal) (ix2 j l) = AGG j l)
    (hd : ∀ j, (V c main_v15 : S100000x1.Idx → EReal) (ix2 j 0) = dv j)
    (hb : ∀ l, (V c main_v19 : S1x128.Idx → EReal) (ix2 0 l) = B l)
    (hm : ∀ l, (V c main_v57 : S1x128.Idx → EReal) (ix2 0 l) = M l)
    (hs : ∀ l, (V c main_v63 : S1x128.Idx → EReal) (ix2 0 l) = S l)
    (hg : ∀ l, (V c main_v20 : S1x128.Idx → EReal) (ix2 0 l) = G l)
    (hbe : ∀ l, (V c main_v21 : S1x128.Idx → EReal) (ix2 0 l) = BE l)
    (hbt : ∀ j, (V c main_v64 : IVec S100000x1 32) (ix2 j 0) = BT j) (c' : Fin 2) (g l : Fin 128) :
    ((dat6 V c).arrAt 8 cfg6.N : S2x128x128.Idx → EReal) (ix3 c' g l)
      = ∑ t : Fin 10, ∑ r : Fin 5000, indOf BT (rowOf c' t r) g * bnRelu (valK dv AGG B) M S G BE (rowOf c' t r) l := by
  have key : (∑ k ∈ Finset.range 10, tile6 AGG dv B M S G BE BT (c'.val * 10 + k) g l : EReal)
      = ∑ t : Fin 10, ∑ r : Fin 5000, indOf BT (rowOf c' t r) g * bnRelu (valK dv AGG B) M S G BE (rowOf c' t r) l := by
    rw [Finset.sum_range]
    exact Finset.sum_congr rfl fun k _ => tile6_rowOf AGG dv B M S G BE BT c' k g l
  exact (congrFun (final6_8 V c AGG dv B M S G BE BT hagg hd hb hm hs hg hbe hbt) (ix3 c' g l)).trans key

end Cert.KernelIdeal.Hand

end
-- ==== Proof.Tail.lean ====
import proofs.«429421_j77326591197817_3_alg».proof.Proof.Gen.KernelIdeal
import Idealize.ShloMosaic.PureOps.Ideal

noncomputable section

namespace Cert.GNN

open Idealize.ShloMosaic Cert.KernelIdeal Cert.KernelIdeal.Gen

/-- The operations after the per-graph sums, common to both programs: the graphs' node counts, the means, the two dense layers and the final scrub. -/
def tail (P : Cert.KernelIdeal.S64x128.Idx → EReal) (BT : IVec Cert.KernelIdeal.S100000 32)
    (WC1 : Cert.KernelIdeal.S128x64.Idx → EReal) (BC1 : Cert.KernelIdeal.S64.Idx → EReal)
    (WC2 : Cert.KernelIdeal.S64x2.Idx → EReal) (BC2 : Cert.KernelIdeal.S2.Idx → EReal) :
    Cert.KernelIdeal.S64x2.Idx → EReal :=

  have cst_19 : FVec Ideal S_ .f32 := constant (F := Ideal) S_ .f32 0x3F800000#32
  have v68 : FVec Ideal S100000 .f32 := broadcastInDim S100000 ![] bcast_S_S100000 cst_19
  have cst_20 : FVec Ideal S_ .f32 := constant (F := Ideal) S_ .f32 0x00000000#32
  have v69 : FVec Ideal S64 .f32 := broadcastInDim S64 ![] bcast_S_S64 cst_20
  have v70 : IVec S100000x1 32 := broadcastInDim S100000x1 ![0] bcast_S100000_S100000x1_0 BT
  have v71 : FVec Ideal S64 .f32 := Host.scatterAdd (F := Ideal) scatter_S64_S100000x1_S100000_n_0_0_1 v69 v70 v68

  have cst_21 : FVec Ideal S_ .f32 := constant (F := Ideal) S_ .f32 0x3F800000#32
  have v72 : FVec Ideal S64 .f32 := broadcastInDim S64 ![] bcast_S_S64 cst_21
  have v73 : FVec Ideal S64 .f32 := maximumf v71 v72
  have v74 : FVec Ideal S64x1 .f32 := broadcastInDim S64x1 ![0] bcast_S64_S64x1_0 v73
  have v75 : FVec Ideal S64x128 .f32 := broadcastInDim S64x128 ![0, 1] bcast_S64x1_S64x128_0_1 v74

  have v76 : FVec Ideal S64x128 .f32 := Host.divf (F := Ideal) (P : FVec Ideal S64x128 .f32) v75
  have v77 : FVec Ideal S64x64 .f32 := Host.dotGeneral (F := Ideal) (φ₁ := .f32) (φ₂ := .f32) dot_S64x128_S128x64_S64x64_1_0_0_1_n_n none v76 (WC1 : FVec Ideal S128x64 .f32)
  have v78 : FVec Ideal S1x64 .f32 := broadcastInDim S1x64 ![1] bcast_S64_S1x64_1 (BC1 : FVec Ideal S64 .f32)
  have v79 : FVec Ideal S64x64 .f32 := broadcastInDim S64x64 ![0, 1] bcast_S1x64_S64x64_0_1 v78
  have v80 : FVec Ideal S64x64 .f32 := addf v77 v79
  have c1_cst : FVec Ideal S_ .f32 := constant (F := Ideal) S_ .f32 0x00000000#32
  have c1_v0 : FVec Ideal S64x64 .f32 := broadcastInDim S64x64 ![] bcast_S_S64x64 c1_cst
  have v81 : FVec Ideal S64x64 .f32 := maximumf v80 c1_v0

  have v82 : FVec Ideal S64x2 .f32 := Host.dotGeneral (F := Ideal) (φ₁ := .f32) (φ₂ := .f32) dot_S64x64_S64x2_S64x2_1_0_0_1_n_n none v81 (WC2 : FVec Ideal S64x2 .f32)
  have v83 : FVec Ideal S1x2 .f32 := broadcastInDim S1x2 ![1] bcast_S2_S1x2_1 (BC2 : FVec Ideal S2 .f32)
  have v84 : FVec Ideal S64x2 .f32 := broadcastInDim S64x2 ![0, 1] bcast_S1x2_S64x2_0_1 v83
  have v85 : FVec Ideal S64x2 .f32 := addf v82 v84
  have cst_22 : FVec Ideal S_ .f32 := constant (F := Ideal) S_ .f32 0x00000000#32

  have c2_v0 : IVec S64x2 1 := cmpf .une v85 v85
  have c2_v1 : FVec Ideal S_ .f32 := id cst_22
  have c2_c0_v0 : FVec Ideal S64x2 .f32 := broadcastInDim S64x2 ![] bcast_S_S64x2 c2_v1
  have c2_v2 : FVec Ideal S64x2 .f32 := select c2_v0 c2_c0_v0 v85
  have c2_cst : FVec Ideal S_ .f32 := constant (F := Ideal) S_ .f32 0x7F800000#32
  have c2_v3 : FVec Ideal S64x2 .f32 := broadcastInDim S64x2 ![] bcast_S_S64x2 c2_cst
  have c2_v4 : IVec S64x2 1 := cmpf .oeq c2_v2 c2_v3
  have c2_cst_0 : FVec Ideal S_ .f32 := constant (F := Ideal) S_ .f32 0x7F7FFFFF#32
  have c2_c1_v0 : FVec Ideal S64x2 .f32 := broadcastInDim S64x2 ![] bcast_S_S64x2 c2_cst_0
  have c2_v5 : FVec Ideal S64x2 .f32 := select c2_v4 c2_c1_v0 c2_v2
  have c2_cst_1 : FVec Ideal S_ .f32 := constant (F := Ideal) S_ .f32 0xFF800000#32
  have c2_v6 : FVec Ideal S64x2 .f32 := broadcastInDim S64x2 ![] bcast_S_S64x2 c2_cst_1
  have c2_v7 : IVec S64x2 1 := cmpf .oeq c2_v5 c2_v6
  have c2_cst_2 : FVec Ideal S_ .f32 := constant (F := Ideal) S_ .f32 0xFF7FFFFF#32
  have c2_c2_v0 : FVec Ideal S64x2 .f32 := broadcastInDim S64x2 ![] bcast_S_S64x2 c2_cst_2
  select c2_v7 c2_c2_v0 c2_v5

end Cert.GNN

end
-- ==== Proof.KIHost.lean ====
import proofs.«429421_j77326591197817_3_alg».proof.Proof.Gen.KernelIdeal.Launch
import proofs.«429421_j77326591197817_3_alg».proof.Proof.Spec
import proofs.«429421_j77326591197817_3_alg».proof.Proof.Tail
import proofs.«429421_j77326591197817_3_alg».proof.Proof.Gen.KernelIdeal.Regions
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.KernelIdeal.Hand

open Cert.KernelIdeal Cert.KernelIdeal.Gen Cert.GNN
open Idealize.ShloMosaic Idealize.ShloMosaic.TcCoe Idealize.ShloMosaic.ValueIdx Idealize.ShloMosaic.StableHlo
open scoped BigOperators

/-- Reducing a leading axis of size two adds the two slices. -/
theorem reduce2_apply {n : ℕ} (x : FVec Ideal ⟨3, ![2, n, 128]⟩ .f32) (h' : (⟨3, ![2, n, 128]⟩ : Shape).ReducesTo [0] ⟨2, ![n, 128]⟩)
    (h : (⟨3, ![2, n, 128]⟩ : Shape).Reduces [0] ⟨2, ![n, 128]⟩) (g : Fin n) (l : Fin 128) :
    Host.reduceAdd (F := Ideal) x (constant (F := Ideal) S_ .f32 0x00000000#32) h' h_S_ (ix2 g l)
      = 0 + ∑ c' : Fin 2, x (ix3 c' g l) := by
  rw [hostReduceAdd_apply, Ideal.hostReduceAdd_single h' h]
  congr 1
  · exact Ideal.ofBits_zero_f32
  · refine Finset.sum_congr rfl fun c' _ => congrArg x ?_
    funext a
    match a with
    | ⟨0, _⟩ => rfl
    | ⟨1, _⟩ => rfl
    | ⟨2, _⟩ => rfl

theorem bcast_row_apply (b : BitVec 32) (j : S1x128.Idx) :
    broadcastInDim S1x128 ![] bcast_S_S1x128 (constant (F := Ideal) S_ .f32 b) j = Ideal.ofBits .f32 b := by
  rw [broadcastInDim_scalar_apply]
  rfl

/-- The two half-sums added and divided by the node count. -/
def meanT (x : FVec Ideal S2x1x128 .f32) : FVec Ideal S1x128 .f32 :=
  Host.divf (F := Ideal)
    (Host.reduceAdd (F := Ideal) x (constant (F := Ideal) S_ .f32 0x00000000#32) reducesTo_S2x1x128_S1x128_d0 h_S_)
    (broadcastInDim S1x128 ![] bcast_S_S1x128 (constant (F := Ideal) S_ .f32 0x47C35000#32))

/-- The same quotient, clipped below at zero. -/
def varT (x : FVec Ideal S2x1x128 .f32) : FVec Ideal S1x128 .f32 :=
  maximumf (meanT x) (broadcastInDim S1x128 ![] bcast_S_S1x128 (constant (F := Ideal) S_ .f32 0x00000000#32))

section
variable {y : S1x128.Idx → EReal} {x : FVec Ideal S2x1x128 .f32} (P : Fin 2 → Fin 128 → EReal)
  (hP : ∀ c' l, x (ix3 c' 0 l) = P c' l) (l : Fin 128)
include hP

theorem meanT_apply (h : y = meanT x) : y (ix2 0 l) = Ideal.div (0 + ∑ c' : Fin 2, P c' l) cN := by
  subst h
  unfold meanT
  rw [hostDivf_apply, reduce2_apply (n := 1) _ _ (by decide), bcast_row_apply]
  simp only [hP]
  rfl

theorem varT_apply (h : y = varT x) : y (ix2 0 l) = max (Ideal.div (0 + ∑ c' : Fin 2, P c' l) cN) 0 := by
  subst h
  unfold varT
  rw [maximumf_apply, meanT_apply P hP l rfl, bcast_row_apply, Ideal.ofBits_zero_f32]
end

variable (W : Valuation τ sig (Elt Ideal))

section
variable (P : Fin 2 → Fin 128 → EReal)

theorem mean1_read (hP : ∀ c' l, (W main_v33 : S2x1x128.Idx → EReal) (ix3 c' 0 l) = P c' l) (l : Fin 128) :
    ((StableHlo.after hostOps2 W) main_v36 : S1x128.Idx → EReal) (ix2 0 l) = Ideal.div (0 + ∑ c' : Fin 2, P c' l) cN :=
  meanT_apply P hP l (by show StableHlo.after hostOps2 W (Proc.devRef .tc main_v36) = _; after_results; rfl)

theorem mean2_read (hP : ∀ c' l, (W main_v54 : S2x1x128.Idx → EReal) (ix3 c' 0 l) = P c' l) (l : Fin 128) :
    ((StableHlo.after hostOps5 W) main_v57 : S1x128.Idx → EReal) (ix2 0 l) = Ideal.div (0 + ∑ c' : Fin 2, P c' l) cN :=
  meanT_apply P hP l (by show StableHlo.after hostOps5 W (Proc.devRef .tc main_v57) = _; after_results; rfl)

theorem var1_read (hP : ∀ c' l, (W main_v37 : S2x1x128.Idx → EReal) (ix3 c' 0 l) = P c' l) (l : Fin 128) :
    ((StableHlo.after hostOps3 W) main_v42 : S1x128.Idx → EReal) (ix2 0 l)
      = max (Ideal.div (0 + ∑ c' : Fin 2, P c' l) cN) 0 :=
  varT_apply P hP l (by show StableHlo.after hostOps3 W (Proc.devRef .tc main_v42) = _; after_results; rfl)

theorem var2_read (hP : ∀ c' l, (W main_v58 : S2x1x128.Idx → EReal) (ix3 c' 0 l) = P c' l) (l : Fin 128) :
    ((StableHlo.after hostOps6 W) main_v63 : S1x128.Idx → EReal) (ix2 0 l)
      = max (Ideal.div (0 + ∑ c' : Fin 2, P c' l) cN) 0 :=
  varT_apply P hP l (by show StableHlo.after hostOps6 W (Proc.devRef .tc main_v63) = _; after_results; rfl)
end

theorem batch_read (j : Fin 100000) :
    ((StableHlo.after hostOps6 W) main_v64 : IVec S100000x1 32) (ix2 j 0) = (W main_arg2 : IVec S100000 32) (ix1 j) := by
  have e : ((StableHlo.after hostOps6 W) main_v64 : IVec S100000x1 32)
      = shapeCast S100000x1 (W main_arg2 : IVec S100000 32) shapeCasts_S100000_S100000x1 := by
    show StableHlo.after hostOps6 W (Proc.devRef .tc main_v64) = _
    after_results
    rfl
  rw [e]
  refine shapeCast_apply _ _ (ix2 j 0) (ix1 j) ?_
  rw [Shape.rowMajor_val_one, Shape.rowMajor_val_two]
  show j.val = j.val * 1 + 0
  omega

/-- The two halves' products added, restricted to the first 64 graph rows. -/
def poolT (x : FVec Ideal S2x128x128 .f32) : FVec Ideal S64x128 .f32 :=
  extractStridedSlice S64x128 ![0, 0]
    (Host.reduceAdd (F := Ideal) x (constant (F := Ideal) S_ .f32 0x00000000#32) reducesTo_S2x128x128_S128x128_d0 h_S_)
    slices_S128x128_S64x128_0_0

theorem pool_eq : ((StableHlo.after hostOps7 W) main_v67 : S64x128.Idx → EReal) = poolT (W main_v65) := by
  show StableHlo.after hostOps7 W (Proc.devRef .tc main_v67) = _
  after_results
  rfl

theorem pool_read (P : Fin 2 → Fin 128 → Fin 128 → EReal)
    (hP : ∀ c' g l, (W main_v65 : S2x128x128.Idx → EReal) (ix3 c' g l) = P c' g l) (g : Fin 64) (l : Fin 128) :
    ((StableHlo.after hostOps7 W) main_v67 : S64x128.Idx → EReal) (ix2 g l) = 0 + ∑ c' : Fin 2, P c' (g128 g) l := by
  rw [pool_eq]
  unfold poolT
  rw [extractStridedSlice_apply _ _ _ (ix2 g l) (ix2 (g128 g) l) (by
    intro a
    match a with
    | ⟨0, _⟩ => show g.val = 0 + g.val; omega
    | ⟨1, _⟩ => show l.val = 0 + l.val; omega)]
  rw [reduce2_apply (n := 128) _ _ (by decide)]
  simp only [hP]

/-- The pooled sums divided by the graph sizes (at least one), then the first affine map. -/
def headT (P : FVec Ideal S64x128 .f32) (BT : IVec S100000 32) (WC1 : FVec Ideal S128x64 .f32) (BC1 : FVec Ideal S64 .f32) :
    FVec Ideal S64x64 .f32 :=
  have n : FVec Ideal S64 .f32 := Host.scatterAdd (F := Ideal) scatter_S64_S100000x1_S100000_n_0_0_1
    (broadcastInDim S64 ![] bcast_S_S64 (constant (F := Ideal) S_ .f32 0x00000000#32))
    (broadcastInDim S100000x1 ![0] bcast_S100000_S100000x1_0 BT)
    (broadcastInDim S100000 ![] bcast_S_S100000 (constant (F := Ideal) S_ .f32 0x3F800000#32))
  have n1 : FVec Ideal S64 .f32 := maximumf n (broadcastInDim S64 ![] bcast_S_S64 (constant (F := Ideal) S_ .f32 0x3F800000#32))
  have q : FVec Ideal S64x128 .f32 := Host.divf (F := Ideal) P
    (broadcastInDim S64x128 ![0, 1] bcast_S64x1_S64x128_0_1 (broadcastInDim S64x1 ![0] bcast_S64_S64x1_0 n1))
  addf (Host.dotGeneral (F := Ideal) (φ₁ := .f32) (φ₂ := .f32) dot_S64x128_S128x64_S64x64_1_0_0_1_n_n none q WC1)
    (broadcastInDim S64x64 ![0, 1] bcast_S1x64_S64x64_0_1 (broadcastInDim S1x64 ![1] bcast_S64_S1x64_1 BC1))

/-- Entrywise maximum with zero. -/
def reluT (y : FVec Ideal S64x64 .f32) : FVec Ideal S64x64 .f32 :=
  maximumf y (broadcastInDim S64x64 ![] bcast_S_S64x64 (constant (F := Ideal) S_ .f32 0x00000000#32))

/-- The second affine map. -/
def lin2T (r : FVec Ideal S64x64 .f32) (WC2 : FVec Ideal S64x2 .f32) (BC2 : FVec Ideal S2 .f32) : FVec Ideal S64x2 .f32 :=
  addf (Host.dotGeneral (F := Ideal) (φ₁ := .f32) (φ₂ := .f32) dot_S64x64_S64x2_S64x2_1_0_0_1_n_n none r WC2)
    (broadcastInDim S64x2 ![0, 1] bcast_S1x2_S64x2_0_1 (broadcastInDim S1x2 ![1] bcast_S2_S1x2_1 BC2))

/-- Entries unequal to themselves become `z`; the infinities become the extreme finite values. -/
def nanT (x : FVec Ideal S64x2 .f32) (z : FVec Ideal S_ .f32) : FVec Ideal S64x2 .f32 :=
  have lit (w : BitVec 32) : FVec Ideal S64x2 .f32 := broadcastInDim S64x2 ![] bcast_S_S64x2 (constant (F := Ideal) S_ .f32 w)
  have a : FVec Ideal S64x2 .f32 := select (cmpf .une x x) (broadcastInDim S64x2 ![] bcast_S_S64x2 (id z)) x
  have b : FVec Ideal S64x2 .f32 := select (cmpf .oeq a (lit 0x7F800000#32)) (lit 0x7F7FFFFF#32) a
  select (cmpf .oeq b (lit 0xFF800000#32)) (lit 0xFF7FFFFF#32) b

set_option maxHeartbeats 4000000 in
theorem head_eq :
    ((StableHlo.after hostOps7 W) main_v80 : S64x64.Idx → EReal)
      = headT ((StableHlo.after hostOps7 W) main_v67) (W main_arg2) (W main_arg11) (W main_arg12) := by
  rw [pool_eq]
  show StableHlo.after hostOps7 W (Proc.devRef .tc main_v80) = _
  after_results
  rfl

theorem relu_eq : ((StableHlo.after hostOps7_1 W) main_v81 : S64x64.Idx → EReal) = reluT (W main_v80) := by
  show StableHlo.after hostOps7_1 W (Proc.devRef .tc main_v81) = _
  after_results
  rfl

theorem lin2_eq :
    ((StableHlo.after hostOps7_2 W) main_v85 : S64x2.Idx → EReal) = lin2T (W main_v81) (W main_arg13) (W main_arg14) := by
  show StableHlo.after hostOps7_2 W (Proc.devRef .tc main_v85) = _
  after_results
  rfl

theorem cst22_eq :
    ((StableHlo.after hostOps7_2 W) main_cst_22 : S_.Idx → EReal) = constant (F := Ideal) S_ .f32 0x00000000#32 := by
  show StableHlo.after hostOps7_2 W (Proc.devRef .tc main_cst_22) = _
  after_results

theorem nan_eq : ((StableHlo.after hostOps7_3 W) main_v86 : S64x2.Idx → EReal) = nanT (W main_v85) (W main_cst_22) := by
  show StableHlo.after hostOps7_3 W (Proc.devRef .tc main_v86) = _
  after_results
  rfl

/-- What neither of the two stretches writes is unchanged after both. -/
theorem arg_kept (r : Ref sig .tc) (h : r ∉ hostOps7_1_W := by decide) (h' : r ∉ hostOps7_W := by decide) :
    (StableHlo.after hostOps7_1 (StableHlo.after hostOps7 W)) r = W r :=
  (StableHlo.after_of_writes_sub hostOps7_1 _ hostOps7_1_writes h).trans (StableHlo.after_of_writes_sub hostOps7 _ hostOps7_writes h')

/-- The four pieces composed are the tail. -/
theorem result_read :
    ((StableHlo.after hostOps7_3 (StableHlo.after hostOps7_2 (StableHlo.after hostOps7_1 (StableHlo.after hostOps7 W)))) main_v86
        : S64x2.Idx → EReal)
      = tail ((StableHlo.after hostOps7 W) main_v67) (W main_arg2) (W main_arg11) (W main_arg12) (W main_arg13) (W main_arg14) := by
  rw [nan_eq, lin2_eq, cst22_eq, relu_eq, head_eq, arg_kept W main_arg13, arg_kept W main_arg14]
  rfl

end Cert.KernelIdeal.Hand

end
-- ==== Proof.HostIdx.lean ====
import proofs.«429421_j77326591197817_3_alg».proof.Proof.SpecIdx
import Idealize.ShloMosaic.Lib.ValueLayout
import Idealize.ShloMosaic.Lib.IdealHost
import Idealize.ShloMosaic.Lib.Pipeline.Value
import Idealize.ShloMosaic.PureOps.Ideal.Laws

noncomputable section

namespace Cert.GNN

open Idealize.ShloMosaic Idealize.ShloMosaic.ValueIdx Cert.ScatterGather
open scoped BigOperators

def eiOf (EI : IVec ⟨2, ![2, E0]⟩ 32) : Fin 2 → Fin E0 → BitVec 32 := fun a e => EI (ix2 a e)

def btOf (B : IVec ⟨1, ![NN]⟩ 32) : Fin NN → BitVec 32 := fun j => B (ix1 j)

theorem edgeRow_apply {α : Type} (EI : (⟨2, ![2, E0]⟩ : Shape).Idx → α) (a : Fin 2) (off : Fin 2 → Nat)
    (h0 : off 0 = a.val) (h1 : off 1 = 0)
    (hsl : (⟨2, ![2, E0]⟩ : Shape).Slices off ⟨2, ![1, E0]⟩) (hsc : (⟨2, ![1, E0]⟩ : Shape).ShapeCasts ⟨1, ![E0]⟩)
    (e : Fin E0) :
    shapeCast ⟨1, ![E0]⟩ (extractStridedSlice ⟨2, ![1, E0]⟩ off EI hsl) hsc (ix1 e) = EI (ix2 a e) := by
  rw [shapeCast_1a_a_apply]
  refine extractStridedSlice_apply off EI hsl _ (ix2 a e) ?_
  refine Fin.forall_fin_two.2 ⟨?_, ?_⟩
  · show a.val = off 0 + 0
    omega
  · show e.val = off 1 + e.val
    omega

theorem extWord_apply (ei : Fin 2 → Fin E0 → BitVec 32) (a : Fin 2) (row : IVec ⟨1, ![E0]⟩ 32)
    (hrow : ∀ e : Fin E0, row (ix1 e) = ei a e)
    (hc : Shape.Concatenates [(⟨1, ![E0]⟩ : Shape), ⟨1, ![NN]⟩] ⟨1, ![EE]⟩ 0) (e : Fin EE) :
    concatenate ⟨1, ![EE]⟩ 0 [⟨⟨1, ![E0]⟩, row⟩, ⟨⟨1, ![NN]⟩, iotaInDim ⟨1, ![NN]⟩ 32 0⟩] hc (ix1 e) = extWord ei a e := by
  have hE0 : E0 = 1600000 := rfl
  have hEE : EE = 1700000 := rfl
  have hNN : NN = 100000 := rfl
  have he := e.isLt
  unfold extWord
  by_cases h : e.val < E0
  · rw [dif_pos h, ← hrow ⟨e.val, h⟩]
    refine concatenate_pair_apply_left 0 row _ hc (ix1 e) rfl (ix1 ⟨e.val, h⟩) (fun b => ?_)
    obtain rfl : b = 0 := Subsingleton.elim _ _
    rfl
  · rw [dif_neg h]
    have h2 : e.val - E0 < NN := by omega
    rw [concatenate_pair_apply_right 0 row _ hc (ix1 e) rfl rfl (ix1 ⟨e.val - E0, h2⟩)
      (fun b hb => absurd (Subsingleton.elim _ _) hb) (by show (e.val - E0) + E0 = e.val; omega)]
    rfl

theorem extWord_of_edges (EI : IVec ⟨2, ![2, E0]⟩ 32) (a : Fin 2) (off : Fin 2 → Nat)
    (h0 : off 0 = a.val) (h1 : off 1 = 0)
    (hsl : (⟨2, ![2, E0]⟩ : Shape).Slices off ⟨2, ![1, E0]⟩) (hsc : (⟨2, ![1, E0]⟩ : Shape).ShapeCasts ⟨1, ![E0]⟩)
    (hc : Shape.Concatenates [(⟨1, ![E0]⟩ : Shape), ⟨1, ![NN]⟩] ⟨1, ![EE]⟩ 0) (e : Fin EE) :
    concatenate ⟨1, ![EE]⟩ 0
      [⟨⟨1, ![E0]⟩, shapeCast ⟨1, ![E0]⟩ (extractStridedSlice ⟨2, ![1, E0]⟩ off EI hsl) hsc⟩,
       ⟨⟨1, ![NN]⟩, iotaInDim ⟨1, ![NN]⟩ 32 0⟩] hc (ix1 e) = extWord (eiOf EI) a e :=
  extWord_apply (eiOf EI) a _ (fun e => edgeRow_apply EI a off h0 h1 hsl hsc e) hc e

theorem wrap_apply {s : Shape} (v zero cnt : IVec s 32) (i : s.Idx) (hz : zero i = 0#32) (hn : cnt i = 100000#32) :
    select (cmpi .slt v zero) (addi v cnt) v i = wrapW (v i) := by
  show Scalar.select (IntOp.cmpi .slt (v i) (zero i)) (IntOp.addi (v i) (cnt i)) (v i) = wrapW (v i)
  rw [hz, hn]
  unfold wrapW
  exact if_congr (StableHlo.Predicate.ofBool_eq_one_iff _) rfl rfl

theorem wrap_bcast_apply {s : Shape} (hb : (⟨0, ![]⟩ : Shape).BroadcastsInDim s ![]) (v : IVec s 32) (i : s.Idx) :
    select (cmpi .slt v (broadcastInDim s ![] hb (constantI ⟨0, ![]⟩ 32 0#32)))
      (addi v (broadcastInDim s ![] hb (constantI ⟨0, ![]⟩ 32 100000#32))) v i = wrapW (v i) :=
  wrap_apply v _ _ i (broadcastInDim_scalar_apply hb _ i) (broadcastInDim_scalar_apply hb _ i)

theorem column_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p 0) = v (ix1 p) := by
  refine broadcastInDim_apply ![0] h v (ix2 p 0) (ix1 p) (fun a => ?_)
  obtain rfl : a = 0 := Subsingleton.elim _ _
  show p.val = if n = 1 then 0 else p.val
  have hp := p.isLt
  split
  · omega
  · rfl

theorem columnCast_apply {α : Type} {n : Nat} (h : (⟨1, ![n]⟩ : Shape).ShapeCasts ⟨2, ![n, 1]⟩)
    (v : (⟨1, ![n]⟩ : Shape).Idx → α) (p : Fin n) :
    shapeCast ⟨2, ![n, 1]⟩ v h (ix2 p 0) = v (ix1 p) :=
  shapeCast_apply v h _ _ (by
    rw [Shape.rowMajor_val_two, Shape.rowMajor_val_one]
    show p.val = p.val * 1 + 0
    omega)

section Deg

variable (d : ScatterDims ⟨1, ![NN]⟩ ⟨2, ![EE, 1]⟩ ⟨1, ![EE]⟩)
    (hu : d.updateWindowDims = []) (hi : d.insertedWindowDims = [0])
    (hs : d.scatterDimsToOperandDims = [0]) (hv : d.indexVectorDim = 1)
include hu hi hs hv

theorem deg_apply (ei : Fin 2 → Fin E0 → BitVec 32) (x : FVec Ideal ⟨1, ![NN]⟩ .f32) (col : IVec ⟨2, ![EE, 1]⟩ 32)
    (upd : FVec Ideal ⟨1, ![EE]⟩ .f32)
    (hx : ∀ j : Fin NN, x (ix1 j) = 0) (hcol : ∀ e : Fin EE, col (ix2 e 0) = extWord ei 1 e)
    (hupd : ∀ e : Fin EE, upd (ix1 e) = Ideal.ofBits .f32 0x3F800000#32) (j : Fin NN) :
    Host.scatterAdd d x col upd (ix1 j) = degOf ei j := by
  have hsum : ∑ e ∈ Finset.univ.filter (fun e : Fin EE => tgtW NN (col (ix2 e 0)) = some j), upd (ix1 e)
      = ∑ _e ∈ into (tgtOf ei) j, Ideal.ofBits .f32 0x3F800000#32 :=
    Finset.sum_congr (Finset.filter_congr fun e _ => by rw [hcol e]; rfl) (fun e _ => hupd e)
  show Ideal.hostScatterAdd d x col upd (ix1 j) = _
  rw [scatterAdd_vec_apply d hu hi hs hv x col upd j, hx j, hsum]
  rfl

theorem deg_bcast_apply (hbN : (⟨0, ![]⟩ : Shape).BroadcastsInDim ⟨1, ![NN]⟩ ![]) (hbE : (⟨0, ![]⟩ : Shape).BroadcastsInDim ⟨1, ![EE]⟩ ![])
    (hcolb : (⟨1, ![EE]⟩ : Shape).BroadcastsInDim ⟨2, ![EE, 1]⟩ ![0])
    (ei : Fin 2 → Fin E0 → BitVec 32) (w : IVec ⟨1, ![EE]⟩ 32) (hw : ∀ e : Fin EE, w (ix1 e) = extWord ei 1 e)
    (j : Fin NN) :
    Host.scatterAdd (F := Ideal) d (broadcastInDim ⟨1, ![NN]⟩ ![] hbN (constant ⟨0, ![]⟩ .f32 0x00000000#32))
      (broadcastInDim ⟨2, ![EE, 1]⟩ ![0] hcolb w)
      (broadcastInDim ⟨1, ![EE]⟩ ![] hbE (constant ⟨0, ![]⟩ .f32 0x3F800000#32)) (ix1 j) = degOf ei j := by
  refine deg_apply d hu hi hs hv ei _ _ _ (fun j => ?_) (fun e => (column_apply hcolb w e).trans (hw e)) (fun e => ?_) j
  · rw [broadcastInDim_scalar_apply]
    exact Ideal.ofBits_zero_f32
  · rw [broadcastInDim_scalar_apply]
    rfl

end Deg

theorem cmp_ogt_eq_one_iff (x y : EReal) : Ideal.cmp .ogt x y = 1 ↔ y < x := by
  unfold Ideal.cmp
  exact (StableHlo.Predicate.ofBool_eq_one_iff _).trans decide_eq_true_iff

theorem dinv_apply (ei : Fin 2 → Fin E0 → BitVec 32) (deg zero other : FVec Ideal ⟨1, ![NN]⟩ .f32) (j : Fin NN)
    (hdeg : deg (ix1 j) = degOf ei j) (hz : zero (ix1 j) = 0) (ho : other (ix1 j) = 0) :
    select (cmpf .ogt deg zero) (Host.rsqrt deg) other (ix1 j) = dinvOf ei j := by
  show Scalar.select (Ideal.cmp .ogt (deg (ix1 j)) (zero (ix1 j))) (Ideal.rsqrt (deg (ix1 j))) (other (ix1 j)) = _
  rw [hdeg, hz, ho]
  unfold dinvOf Scalar.select
  exact if_congr (cmp_ogt_eq_one_iff _ _) rfl rfl

theorem dinv_bcast_apply (hbN : (⟨0, ![]⟩ : Shape).BroadcastsInDim ⟨1, ![NN]⟩ ![])
    (ei : Fin 2 → Fin E0 → BitVec 32) (deg : FVec Ideal ⟨1, ![NN]⟩ .f32) (j : Fin NN) (hdeg : deg (ix1 j) = degOf ei j) :
    select (cmpf .ogt deg (broadcastInDim ⟨1, ![NN]⟩ ![] hbN (constant ⟨0, ![]⟩ .f32 0x00000000#32)))
      (Host.rsqrt deg)
      (broadcastInDim ⟨1, ![NN]⟩ ![] hbN (id (constant (F := Ideal) ⟨0, ![]⟩ .f32 0x00000000#32))) (ix1 j) = dinvOf ei j := by
  refine dinv_apply ei deg _ _ j hdeg ?_ ?_ <;> (rw [broadcastInDim_scalar_apply]; exact Ideal.ofBits_zero_f32)

end Cert.GNN

end
-- ==== Proof.KIHostIdx.lean ====
import proofs.«429421_j77326591197817_3_alg».proof.Proof.Gen.KernelIdeal.Regions
import proofs.«429421_j77326591197817_3_alg».proof.Proof.HostIdx
import Idealize.ShloMosaic.Lib.StableHlo.Run

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.ValueIdx
open Cert.GNN Cert.ScatterGather
open scoped BigOperators

variable (W X : Valuation τ sig (Elt Ideal))

/-- What neither of two consecutive stretches writes is unchanged after both. -/
theorem after2_of {A B : List (HloOp τ sig (Elt Ideal))} {WA WB : List (Ref sig .tc)}
    (hA : A.Forall fun op => op.writes ⊆ (WA.map (Proc.devRef (τ := τ) .tc)).toFinset)
    (hB : B.Forall fun op => op.writes ⊆ (WB.map (Proc.devRef (τ := τ) .tc)).toFinset) (r : Ref sig .tc)
    (ha : r ∉ WA := by decide) (hb : r ∉ WB := by decide) : StableHlo.after B (StableHlo.after A X) r = X r :=
  (StableHlo.after_of_writes_sub B _ hB hb).trans (StableHlo.after_of_writes_sub A X hA ha)

/-- The three initial stretches applied in order. -/
abbrev H3 : Valuation τ sig (Elt Ideal) :=
  StableHlo.after hostOps0_2 (StableHlo.after hostOps0_1 (StableHlo.after hostOps0 W))

/-- One row of the edge list followed by 0, …, N−1 (a self loop per node). -/
abbrev extWords (off : Fin 2 → Nat) (hsl : S2x1600000.Slices off S1x1600000) : IVec S1700000 32 :=
  concatenate S1700000 0 [⟨S1600000, shapeCast S1600000 (extractStridedSlice S1x1600000 off (W main_arg1 : IVec S2x1600000 32) hsl) shapeCasts_S1x1600000_S1600000⟩, ⟨S100000, iotaInDim S100000 32 0⟩] concatenates_S1600000_S100000_S1700000_d0

/-- In-degrees counted with the self loops: a one added at every destination word. -/
abbrev degVec : FVec Ideal S100000 .f32 :=
  Host.scatterAdd (F := Ideal) scatter_S100000_S1700000x1_S1700000_n_0_0_1
    (broadcastInDim S100000 ![] bcast_S_S100000 (constant S_ .f32 0x00000000#32))
    (broadcastInDim S1700000x1 ![0] bcast_S1700000_S1700000x1_0 (extWords W ![1, 0] slices_S2x1600000_S1x1600000_1_0))
    (broadcastInDim S1700000 ![] bcast_S_S1700000 (constant S_ .f32 0x3F800000#32))

theorem head_v5 (e : Fin EE) :
    (H3 W main_v5 : IVec S1700000 32) (ix1 e) = extWord (eiOf (W main_arg1 : IVec S2x1600000 32)) 0 e := by
  have h : (StableHlo.after hostOps0 W main_v5 : IVec S1700000 32) = extWords W ![0, 0] slices_S2x1600000_S1x1600000_0_0 := by
    show StableHlo.after hostOps0 W (Proc.devRef .tc main_v5) = _
    after_results <;> rfl
  rw [H3, after2_of _ hostOps0_1_writes hostOps0_2_writes main_v5, h]
  exact extWord_of_edges _ 0 ![0, 0] rfl rfl _ _ _ e

theorem head_v6 (e : Fin EE) :
    (H3 W main_v6 : IVec S1700000 32) (ix1 e) = extWord (eiOf (W main_arg1 : IVec S2x1600000 32)) 1 e := by
  have h : (StableHlo.after hostOps0 W main_v6 : IVec S1700000 32) = extWords W ![1, 0] slices_S2x1600000_S1x1600000_1_0 := by
    show StableHlo.after hostOps0 W (Proc.devRef .tc main_v6) = _
    after_results <;> rfl
  rw [H3, after2_of _ hostOps0_1_writes hostOps0_2_writes main_v6, h]
  exact extWord_of_edges _ 1 ![1, 0] rfl rfl _ _ _ e

theorem select_congr3 {s : Shape} {α : Type} {c c' : IVec s 1} {a a' b b' : s.Idx → α} (hc : c = c') (ha : a = a')
    (hb : b = b') : select c a b = select c' a' b' := by
  subst hc ha hb
  rfl

theorem s0_v12 :
    (StableHlo.after hostOps0 W main_v12 : IVec S100000 1)
      = cmpf .ogt (degVec W) (broadcastInDim S100000 ![] bcast_S_S100000 (constant S_ .f32 0x00000000#32)) := by
  show StableHlo.after hostOps0 W (Proc.devRef .tc main_v12) = _
  after_results <;> rfl

theorem s0_v13 : (StableHlo.after hostOps0 W main_v13 : FVec Ideal S100000 .f32) = Host.rsqrt (degVec W) := by
  show StableHlo.after hostOps0 W (Proc.devRef .tc main_v13) = _
  after_results <;> rfl

theorem s0_cst_2 :
    (StableHlo.after hostOps0 W main_cst_2 : FVec Ideal S_ .f32) = constant (F := Ideal) S_ .f32 0x00000000#32 := by
  show StableHlo.after hostOps0 W (Proc.devRef .tc main_cst_2) = _
  after_results <;> rfl

theorem s1_v14 :
    (StableHlo.after hostOps0_1 X main_v14 : FVec Ideal S100000 .f32)
      = select (X main_v12 : IVec S100000 1) (X main_v13 : FVec Ideal S100000 .f32)
          (broadcastInDim S100000 ![] bcast_S_S100000 (id (X main_cst_2 : FVec Ideal S_ .f32))) := by
  show StableHlo.after hostOps0_1 X (Proc.devRef .tc main_v14) = _
  after_results <;> (try simp only [StableHlo.TRef.ofBuf, StableHlo.TRef.toBuf, cast_eq]) <;> rfl

theorem s2_v15 :
    (StableHlo.after hostOps0_2 X main_v15 : S100000x1.Idx → EReal)
      = shapeCast S100000x1 (X main_v14 : S100000.Idx → EReal) shapeCasts_S100000_S100000x1 := by
  show StableHlo.after hostOps0_2 X (Proc.devRef .tc main_v15) = _
  after_results <;> rfl

/-- The degree factor deg(j)^(-1/2), or 0 where the degree is not positive. -/
theorem head_v15 (j : Fin NN) :
    (H3 W main_v15 : S100000x1.Idx → EReal) (ix2 j 0) = dinvOf (eiOf (W main_arg1 : IVec S2x1600000 32)) j :=
  (congrFun (s2_v15 _) (ix2 j 0)).trans <|
    (columnCast_apply shapeCasts_S100000_S100000x1 _ j).trans <|
      (congrFun ((s1_v14 _).trans
        (select_congr3 (s0_v12 W) (s0_v13 W)
          (congrArg (fun z : FVec Ideal S_ .f32 => broadcastInDim S100000 ![] bcast_S_S100000 (id z)) (s0_cst_2 W)))) (ix1 j)).trans <|
        dinv_bcast_apply bcast_S_S100000 _ (degVec W) j
          (deg_bcast_apply _ rfl rfl rfl rfl _ _ _ _ _ (fun e => extWord_of_edges _ 1 ![1, 0] rfl rfl _ _ _ e) j)

/-- A row recast as a one-row matrix reads the row. -/
theorem row_read {x : S1x128.Idx → EReal} {a b : S128.Idx → EReal} (h : x = shapeCast S1x128 a shapeCasts_S128_S1x128)
    (hab : a = b) (l : Fin 128) : x (ix2 0 l) = b (ix1 l) := by
  subst hab h
  exact shapeCast_a_1a_apply _ _ 0 l

theorem s2_v16 : (StableHlo.after hostOps0_2 X main_v16 : S1x128.Idx → EReal)
    = shapeCast S1x128 (X main_arg4 : S128.Idx → EReal) shapeCasts_S128_S1x128 := by
  show StableHlo.after hostOps0_2 X (Proc.devRef .tc main_v16) = _
  after_results <;> rfl

theorem s2_v17 : (StableHlo.after hostOps0_2 X main_v17 : S1x128.Idx → EReal)
    = shapeCast S1x128 (X main_arg5 : S128.Idx → EReal) shapeCasts_S128_S1x128 := by
  show StableHlo.after hostOps0_2 X (Proc.devRef .tc main_v17) = _
  after_results <;> rfl

theorem s2_v18 : (StableHlo.after hostOps0_2 X main_v18 : S1x128.Idx → EReal)
    = shapeCast S1x128 (X main_arg6 : S128.Idx → EReal) shapeCasts_S128_S1x128 := by
  show StableHlo.after hostOps0_2 X (Proc.devRef .tc main_v18) = _
  after_results <;> rfl

theorem s2_v19 : (StableHlo.after hostOps0_2 X main_v19 : S1x128.Idx → EReal)
    = shapeCast S1x128 (X main_arg8 : S128.Idx → EReal) shapeCasts_S128_S1x128 := by
  show StableHlo.after hostOps0_2 X (Proc.devRef .tc main_v19) = _
  after_results <;> rfl

theorem s2_v20 : (StableHlo.after hostOps0_2 X main_v20 : S1x128.Idx → EReal)
    = shapeCast S1x128 (X main_arg9 : S128.Idx → EReal) shapeCasts_S128_S1x128 := by
  show StableHlo.after hostOps0_2 X (Proc.devRef .tc main_v20) = _
  after_results <;> rfl

theorem s2_v21 : (StableHlo.after hostOps0_2 X main_v21 : S1x128.Idx → EReal)
    = shapeCast S1x128 (X main_arg10 : S128.Idx → EReal) shapeCasts_S128_S1x128 := by
  show StableHlo.after hostOps0_2 X (Proc.devRef .tc main_v21) = _
  after_results <;> rfl

theorem head_v16 (l : Fin 128) : (H3 W main_v16 : S1x128.Idx → EReal) (ix2 0 l) = (W main_arg4 : S128.Idx → EReal) (ix1 l) :=
  row_read (s2_v16 _) (after2_of W hostOps0_writes hostOps0_1_writes main_arg4) l

theorem head_v17 (l : Fin 128) : (H3 W main_v17 : S1x128.Idx → EReal) (ix2 0 l) = (W main_arg5 : S128.Idx → EReal) (ix1 l) :=
  row_read (s2_v17 _) (after2_of W hostOps0_writes hostOps0_1_writes main_arg5) l

theorem head_v18 (l : Fin 128) : (H3 W main_v18 : S1x128.Idx → EReal) (ix2 0 l) = (W main_arg6 : S128.Idx → EReal) (ix1 l) :=
  row_read (s2_v18 _) (after2_of W hostOps0_writes hostOps0_1_writes main_arg6) l

theorem head_v19 (l : Fin 128) : (H3 W main_v19 : S1x128.Idx → EReal) (ix2 0 l) = (W main_arg8 : S128.Idx → EReal) (ix1 l) :=
  row_read (s2_v19 _) (after2_of W hostOps0_writes hostOps0_1_writes main_arg8) l

theorem head_v20 (l : Fin 128) : (H3 W main_v20 : S1x128.Idx → EReal) (ix2 0 l) = (W main_arg9 : S128.Idx → EReal) (ix1 l) :=
  row_read (s2_v20 _) (after2_of W hostOps0_writes hostOps0_1_writes main_arg9) l

theorem head_v21 (l : Fin 128) : (H3 W main_v21 : S1x128.Idx → EReal) (ix2 0 l) = (W main_arg10 : S128.Idx → EReal) (ix1 l) :=
  row_read (s2_v21 _) (after2_of W hostOps0_writes hostOps0_1_writes main_arg10) l

end Cert.KernelIdeal.Hand

end
-- ==== Proof.KIHostAgg.lean ====
import proofs.«429421_j77326591197817_3_alg».proof.Proof.Gen.KernelIdeal.Launch
import proofs.«429421_j77326591197817_3_alg».proof.Proof.HostIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Cert Cert.GNN Cert.ScatterGather
open scoped BigOperators

/-- Rows added into zeros at their destination words give, per row, the sum over the edges pointing to it. -/
theorem aggRows_core (x : (⟨2, ![NN, DD]⟩ : Shape).Idx → EReal) (col : IVec ⟨2, ![EE, 1]⟩ 32)
    (upd : (⟨2, ![EE, DD]⟩ : Shape).Idx → EReal) (src : Fin EE → Fin NN) (dw : Fin EE → BitVec 32) (O : NodeMat)
    (hx : ∀ (j : Fin NN) (l : Fin DD), x (ix2 j l) = 0) (hcol : ∀ e : Fin EE, col (ix2 e 0) = dw e)
    (hupd : ∀ (e : Fin EE) (l : Fin DD), upd (ix2 e l) = O (src e) l) (j : Fin NN) (l : Fin DD) :
    Host.scatterAdd (F := Ideal) (φ := .f32) scatter_S100000x128_S1700000x1_S1700000x128_1_0_0_1 x col upd (ix2 j l)
      = aggK src (fun e => tgtW NN (dw e)) O j l := by
  have hsum : ∑ e ∈ Finset.univ.filter (fun e : Fin EE => tgtW NN (col (ix2 e 0)) = some j), upd (ix2 e l)
      = ∑ e ∈ into (fun e => tgtW NN (dw e)) j, O (src e) l :=
    Finset.sum_congr (Finset.filter_congr fun e _ => by rw [hcol e]) (fun e _ => hupd e l)
  show Ideal.hostScatterAdd _ x col upd (ix2 j l) = _
  rw [scatterAdd_rows_apply _ rfl rfl rfl rfl x col upd j l, hx j l, hsum]
  rfl

/-- Rows of `O` gathered at the wrapped source words and added up at the destination words. -/
def aggT (s d : IVec S1700000 32) (O : FVec Ideal S100000x128 .f32) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 d)
    (Host.gather gather_S100000x128_S1700000x1_S1700000x128_1_0_n_n_0_1_1128 O
      (broadcastInDim S1700000x1 ![0] bcast_S1700000_S1700000x1_0
        (select (cmpi .slt s (broadcastInDim S1700000 ![] bcast_S_S1700000 (constantI S_ 32 0#32)))
          (addi s (broadcastInDim S1700000 ![] bcast_S_S1700000 (constantI S_ 32 100000#32))) s)))

section
variable {y : S100000x128.Idx → EReal} {s d : IVec S1700000 32} {O : FVec Ideal S100000x128 .f32}
  (sw dw : Fin 1700000 → BitVec 32) (Om : NodeMat)
  (hs : ∀ e, s (ix1 e) = sw e) (hd : ∀ e, d (ix1 e) = dw e) (hO : ∀ i l, O (ix2 i l) = Om i l)
  (j : Fin 100000) (l : Fin 128)
include hs hd hO

theorem aggT_apply (h : y = aggT s d O) :
    y (ix2 j l) = aggK (fun e => rowW NN (by decide) (wrapW (sw e))) (fun e => tgtW NN (dw e)) Om j l := by
  subst h
  exact aggRows_core _ _ _ (fun e => rowW NN (by decide) (wrapW (sw e))) dw Om
    (fun j l => (broadcastInDim_scalar_apply bcast_S_S100000x128 _ (ix2 j l)).trans Ideal.ofBits_zero_f32)
    (fun e => (column_apply bcast_S1700000_S1700000x1_0 d e).trans (hd e))
    (fun e l => (gather_rows_apply (by decide) gather_S100000x128_S1700000x1_S1700000x128_1_0_n_n_0_1_1128
        rfl rfl rfl rfl rfl rfl rfl O _ e l).trans
      ((congrArg (fun w => O (ix2 (rowW NN (by decide) w) l))
        (((column_apply bcast_S1700000_S1700000x1_0 _ e).trans (wrap_bcast_apply bcast_S_S1700000 s (ix1 e))).trans
          (congrArg wrapW (hs e)))).trans (hO _ l)))
    j l
end

variable (W : Valuation τ sig (Elt Ideal)) (sw dw : Fin 1700000 → BitVec 32) (O : NodeMat)
  (hs : ∀ e, (W main_v5 : IVec S1700000 32) (ix1 e) = sw e) (hd : ∀ e, (W main_v6 : IVec S1700000 32) (ix1 e) = dw e)
include hs hd

set_option maxHeartbeats 2000000 in
theorem agg1_read (hO : ∀ i l, (W main_v22 : S100000x128.Idx → EReal) (ix2 i l) = O i l) (j : Fin 100000) (l : Fin 128) :
    ((StableHlo.after hostOps1 W) main_v32 : S100000x128.Idx → EReal) (ix2 j l)
      = aggK (fun e => ScatterGather.rowW NN (by decide) (wrapW (sw e))) (fun e => ScatterGather.tgtW NN (dw e)) O j l :=
  aggT_apply sw dw O hs hd hO j l (by show StableHlo.after hostOps1 W (Proc.devRef .tc main_v32) = _; after_results; rfl)

set_option maxHeartbeats 2000000 in
theorem agg2_read (hO : ∀ i l, (W main_v43 : S100000x128.Idx → EReal) (ix2 i l) = O i l) (j : Fin 100000) (l : Fin 128) :
    ((StableHlo.after hostOps4 W) main_v53 : S100000x128.Idx → EReal) (ix2 j l)
      = aggK (fun e => ScatterGather.rowW NN (by decide) (wrapW (sw e))) (fun e => ScatterGather.tgtW NN (dw e)) O j l :=
  aggT_apply sw dw O hs hd hO j l (by show StableHlo.after hostOps4 W (Proc.devRef .tc main_v53) = _; after_results; rfl)

end Cert.KernelIdeal.Hand

end
-- ==== Proof.KIValue.lean ====
import proofs.«429421_j77326591197817_3_alg».proof.Proof.KIAssembly
import proofs.«429421_j77326591197817_3_alg».proof.Proof.KIKept
import proofs.«429421_j77326591197817_3_alg».proof.Proof.KIRegion0Value
import proofs.«429421_j77326591197817_3_alg».proof.Proof.KIRegion1Value
import proofs.«429421_j77326591197817_3_alg».proof.Proof.KIRegion2Value
import proofs.«429421_j77326591197817_3_alg».proof.Proof.KIRegion3Value
import proofs.«429421_j77326591197817_3_alg».proof.Proof.KIRegion4Value
import proofs.«429421_j77326591197817_3_alg».proof.Proof.KIRegion5Value
import proofs.«429421_j77326591197817_3_alg».proof.Proof.KIRegion6Value
import proofs.«429421_j77326591197817_3_alg».proof.Proof.KIHost
import proofs.«429421_j77326591197817_3_alg».proof.Proof.KIHostIdx
import proofs.«429421_j77326591197817_3_alg».proof.Proof.KIHostAgg

set_option maxRecDepth 16384

noncomputable section

namespace Cert.KernelIdeal.Hand

open Cert.KernelIdeal Cert.KernelIdeal.Gen
open Idealize.ShloMosaic Idealize.ShloMosaic.TcCoe
open Idealize.SL Idealize.SL.Sem
open Cert.GNN Idealize.ShloMosaic.ValueIdx
open scoped BigOperators

section Value

/-- `X` and `X₀` hold the same contents in every buffer of `rs`. -/
def Agrees (rs : List (Ref sig .tc)) (X₀ X : Valuation τ sig (Elt Ideal)) : Prop := ∀ r ∈ rs, X r = X₀ r

theorem Agrees.step {rs W : List (Ref sig .tc)} {X₀ X X' : Valuation τ sig (Elt Ideal)} (h : Agrees rs X₀ X)
    (hX : ∀ r, r ∉ W → X' r = X r) (hW : ∀ r ∈ rs, r ∉ W := by decide) : Agrees rs X₀ X' :=
  fun r hr => (hX r (hW r hr)).trans (h r hr)

variable (m : (ℓ : Loc nD τ sig) → Buf (Elt Ideal) ℓ) (c : Dev nD)

def argX : NodeMat := fun i k => (m ((c : Thread nD τ).loc main_arg0) : S100000x128.Idx → EReal) (ix2 i k)
def argEi : Fin 2 → Fin E0 → BitVec 32 := eiOf (m ((c : Thread nD τ).loc main_arg1))
def argBt : Fin NN → BitVec 32 := btOf (m ((c : Thread nD τ).loc main_arg2))
def argW1 : Fin DD → Fin DD → EReal := fun k l => (m ((c : Thread nD τ).loc main_arg3) : S128x128.Idx → EReal) (ix2 k l)
def argB1 : Row := fun l => (m ((c : Thread nD τ).loc main_arg4) : S128.Idx → EReal) (ix1 l)
def argG1 : Row := fun l => (m ((c : Thread nD τ).loc main_arg5) : S128.Idx → EReal) (ix1 l)
def argBe1 : Row := fun l => (m ((c : Thread nD τ).loc main_arg6) : S128.Idx → EReal) (ix1 l)
def argW2 : Fin DD → Fin DD → EReal := fun k l => (m ((c : Thread nD τ).loc main_arg7) : S128x128.Idx → EReal) (ix2 k l)
def argB2 : Row := fun l => (m ((c : Thread nD τ).loc main_arg8) : S128.Idx → EReal) (ix1 l)
def argG2 : Row := fun l => (m ((c : Thread nD τ).loc main_arg9) : S128.Idx → EReal) (ix1 l)
def argBe2 : Row := fun l => (m ((c : Thread nD τ).loc main_arg10) : S128.Idx → EReal) (ix1 l)

theorem X3_arg (r : Ref sig .tc) (h0 : r ∉ hostOps0_W := by decide) (h1 : r ∉ hostOps0_1_W := by decide)
    (h2 : r ∉ hostOps0_2_W := by decide) : X3 m c r = V0 m c r :=
  (V3_of m c r h2).trans ((V2_of m c r h1).trans (V1_of m c r h0))

/-- The buffers that nothing after region 0's entry writes. -/
abbrev kept : List (Ref sig .tc) :=
  [main_v5, main_v6, main_v15, main_v16, main_v17, main_v18, main_v19, main_v20, main_v21, main_arg2, main_arg7,
    main_arg11, main_arg12, main_arg13, main_arg14]

local notation "𝐊" => Agrees kept (X3 m c)

theorem ag3 : 𝐊 (X3 m c) := fun _ _ => rfl
theorem ag4 : 𝐊 (X4 m c) := (ag3 m c).step (X4_of m c)
theorem ag5 : 𝐊 (X5 m c) := (ag4 m c).step (X5_of m c)
theorem ag7 : 𝐊 (X7 m c) := ((ag5 m c).step (X6_of m c)).step (X7_of m c)
theorem ag9 : 𝐊 (X9 m c) := ((ag7 m c).step (X8_of m c)).step (X9_of m c)
theorem ag10 : 𝐊 (X10 m c) := (ag9 m c).step (X10_of m c)
theorem ag11 : 𝐊 (X11 m c) := (ag10 m c).step (X11_of m c)
theorem ag13 : 𝐊 (X13 m c) := ((ag11 m c).step (X12_of m c)).step (X13_of m c)
theorem ag14 : 𝐊 (X14 m c) := (ag13 m c).step (X14_of m c)
theorem ag15 : 𝐊 (X15 m c) := (ag14 m c).step (X15_of m c)
theorem ag16 : 𝐊 (X16 m c) := (ag15 m c).step (X16_of m c)

local notation "𝐝" => dinvOf (argEi m c)
local notation "𝐨0" => scaled 𝐝 (lin (fun i k => scrub (argX m c i k)) (argW1 m c))
local notation "𝐚1" => aggK (srcOf (argEi m c)) (tgtOf (argEi m c)) 𝐨0
local notation "𝐯1" => valK 𝐝 𝐚1 (argB1 m c)
local notation "𝐦1" => colMeanK 𝐯1
local notation "𝐬1" => colVarK 𝐯1 𝐦1
local notation "𝐨3" => scaled 𝐝 (lin (bnRelu 𝐯1 𝐦1 𝐬1 (argG1 m c) (argBe1 m c)) (argW2 m c))
local notation "𝐚2" => aggK (srcOf (argEi m c)) (tgtOf (argEi m c)) 𝐨3
local notation "𝐯2" => valK 𝐝 𝐚2 (argB2 m c)
local notation "𝐦2" => colMeanK 𝐯2
local notation "𝐬2" => colVarK 𝐯2 𝐦2
local notation "𝐡2" => bnRelu 𝐯2 𝐦2 𝐬2 (argG2 m c) (argBe2 m c)

variable {X : Valuation τ sig (Elt Ideal)}

theorem at_v5 (h : 𝐊 X) (e : Fin EE) : (X main_v5 : IVec S1700000 32) (ix1 e) = extWord (argEi m c) 0 e := by
  rw [h main_v5 (by decide)]; exact head_v5 (V0 m c) e
theorem at_v6 (h : 𝐊 X) (e : Fin EE) : (X main_v6 : IVec S1700000 32) (ix1 e) = extWord (argEi m c) 1 e := by
  rw [h main_v6 (by decide)]; exact head_v6 (V0 m c) e
theorem at_v15 (h : 𝐊 X) (j : Fin NN) : (X main_v15 : S100000x1.Idx → EReal) (ix2 j 0) = 𝐝 j := by
  rw [h main_v15 (by decide)]; exact head_v15 (V0 m c) j
theorem at_v16 (h : 𝐊 X) (l : Fin DD) : (X main_v16 : S1x128.Idx → EReal) (ix2 0 l) = argB1 m c l := by
  rw [h main_v16 (by decide)]; exact head_v16 (V0 m c) l
theorem at_v17 (h : 𝐊 X) (l : Fin DD) : (X main_v17 : S1x128.Idx → EReal) (ix2 0 l) = argG1 m c l := by
  rw [h main_v17 (by decide)]; exact head_v17 (V0 m c) l
theorem at_v18 (h : 𝐊 X) (l : Fin DD) : (X main_v18 : S1x128.Idx → EReal) (ix2 0 l) = argBe1 m c l := by
  rw [h main_v18 (by decide)]; exact head_v18 (V0 m c) l
theorem at_v19 (h : 𝐊 X) (l : Fin DD) : (X main_v19 : S1x128.Idx → EReal) (ix2 0 l) = argB2 m c l := by
  rw [h main_v19 (by decide)]; exact head_v19 (V0 m c) l
theorem at_v20 (h : 𝐊 X) (l : Fin DD) : (X main_v20 : S1x128.Idx → EReal) (ix2 0 l) = argG2 m c l := by
  rw [h main_v20 (by decide)]; exact head_v20 (V0 m c) l
theorem at_v21 (h : 𝐊 X) (l : Fin DD) : (X main_v21 : S1x128.Idx → EReal) (ix2 0 l) = argBe2 m c l := by
  rw [h main_v21 (by decide)]; exact head_v21 (V0 m c) l
theorem at_w2 (h : 𝐊 X) (k l : Fin DD) : (X main_arg7 : S128x128.Idx → EReal) (ix2 k l) = argW2 m c k l := by
  rw [h main_arg7 (by decide), X3_arg m c main_arg7]; rfl
theorem at_bt (h : 𝐊 X) (j : Fin NN) : (X main_arg2 : IVec S100000 32) (ix1 j) = argBt m c j := by
  rw [h main_arg2 (by decide), X3_arg m c main_arg2]; rfl

/-- Row `i` of scrub(X)·W₁ times the degree factor of `i`. -/
theorem x4_v22 (i : Fin NN) (l : Fin DD) : (X4 m c main_v22 : S100000x128.Idx → EReal) (ix2 i l) = 𝐨0 i l := by
  rw [show X4 m c main_v22 = o4 m c from Function.update_self ..]
  exact value0 (Y3 m) c (argX m c) (argW1 m c) 𝐝 (fun i k => by show (X3 m c main_arg0 : S100000x128.Idx → EReal) (ix2 i k) = _; rw [X3_arg m c main_arg0]; rfl)
    (fun k l => by show (X3 m c main_arg3 : S128x128.Idx → EReal) (ix2 k l) = _; rw [X3_arg m c main_arg3]; rfl) (at_v15 m c (ag3 m c)) i l

theorem x5_v32 (j : Fin NN) (l : Fin DD) : (X5 m c main_v32 : S100000x128.Idx → EReal) (ix2 j l) = 𝐚1 j l :=
  agg1_read (X4 m c) _ _ 𝐨0 (at_v5 m c (ag4 m c)) (at_v6 m c (ag4 m c)) (x4_v22 m c) j l

/-- Per half of the nodes, the column sums of the first layer's values before normalisation. -/
theorem x6_v33 (c' : Fin 2) (l : Fin DD) : (X6 m c main_v33 : S2x1x128.Idx → EReal) (ix3 c' 0 l) = halfSum 𝐯1 c' l := by
  rw [show X6 m c main_v33 = o6 m c from Function.update_self ..]
  exact value1 (Y5 m) c 𝐚1 𝐝 (argB1 m c) (x5_v32 m c) (at_v15 m c (ag5 m c)) (at_v16 m c (ag5 m c)) c' l

theorem x7_v36 (l : Fin DD) : (X7 m c main_v36 : S1x128.Idx → EReal) (ix2 0 l) = 𝐦1 l :=
  mean1_read (X6 m c) _ (x6_v33 m c) l
theorem x7_v32 (j : Fin NN) (l : Fin DD) : (X7 m c main_v32 : S100000x128.Idx → EReal) (ix2 j l) = 𝐚1 j l := by
  rw [X7_of m c main_v32 (by decide), X6_of m c main_v32 (by decide)]; exact x5_v32 m c j l

/-- Per half, the column sums of the squared deviations from the first layer's column means. -/
theorem x8_v37 (c' : Fin 2) (l : Fin DD) :
    (X8 m c main_v37 : S2x1x128.Idx → EReal) (ix3 c' 0 l) = halfSum (fun j l => (𝐯1 j l - 𝐦1 l) * (𝐯1 j l - 𝐦1 l)) c' l := by
  rw [show X8 m c main_v37 = o8 m c from Function.update_self ..]
  exact value2 (Y7 m) c 𝐚1 𝐝 (argB1 m c) 𝐦1 (x7_v32 m c) (at_v15 m c (ag7 m c)) (at_v16 m c (ag7 m c)) (x7_v36 m c) c' l

theorem x9_v42 (l : Fin DD) : (X9 m c main_v42 : S1x128.Idx → EReal) (ix2 0 l) = 𝐬1 l :=
  var1_read (X8 m c) _ (x8_v37 m c) l
theorem x9_v36 (l : Fin DD) : (X9 m c main_v36 : S1x128.Idx → EReal) (ix2 0 l) = 𝐦1 l := by
  rw [X9_of m c main_v36 (by decide), X8_of m c main_v36 (by decide)]; exact x7_v36 m c l
theorem x9_v32 (j : Fin NN) (l : Fin DD) : (X9 m c main_v32 : S100000x128.Idx → EReal) (ix2 j l) = 𝐚1 j l := by
  rw [X9_of m c main_v32 (by decide), X8_of m c main_v32 (by decide)]; exact x7_v32 m c j l

/-- Row `i` of (normalised, rectified first layer)·W₂ times the degree factor of `i`. -/
theorem x10_v43 (i : Fin NN) (l : Fin DD) : (X10 m c main_v43 : S100000x128.Idx → EReal) (ix2 i l) = 𝐨3 i l := by
  rw [show X10 m c main_v43 = o10 m c from Function.update_self ..]
  exact value3 (Y9 m) c 𝐚1 𝐝 (argB1 m c) 𝐦1 𝐬1 (argG1 m c) (argBe1 m c) (argW2 m c) (x9_v32 m c) (at_v15 m c (ag9 m c))
    (at_v16 m c (ag9 m c)) (x9_v36 m c) (x9_v42 m c) (at_v17 m c (ag9 m c)) (at_v18 m c (ag9 m c)) (at_w2 m c (ag9 m c)) i l

theorem x11_v53 (j : Fin NN) (l : Fin DD) : (X11 m c main_v53 : S100000x128.Idx → EReal) (ix2 j l) = 𝐚2 j l :=
  agg2_read (X10 m c) _ _ 𝐨3 (at_v5 m c (ag10 m c)) (at_v6 m c (ag10 m c)) (x10_v43 m c) j l

/-- The half-wise column sums again, for the second layer. -/
theorem x12_v54 (c' : Fin 2) (l : Fin DD) : (X12 m c main_v54 : S2x1x128.Idx → EReal) (ix3 c' 0 l) = halfSum 𝐯2 c' l := by
  rw [show X12 m c main_v54 = o12 m c from Function.update_self ..]
  exact value4 (Y11 m) c 𝐚2 𝐝 (argB2 m c) (x11_v53 m c) (at_v15 m c (ag11 m c)) (at_v19 m c (ag11 m c)) c' l

theorem x13_v57 (l : Fin DD) : (X13 m c main_v57 : S1x128.Idx → EReal) (ix2 0 l) = 𝐦2 l :=
  mean2_read (X12 m c) _ (x12_v54 m c) l
theorem x13_v53 (j : Fin NN) (l : Fin DD) : (X13 m c main_v53 : S100000x128.Idx → EReal) (ix2 j l) = 𝐚2 j l := by
  rw [X13_of m c main_v53 (by decide), X12_of m c main_v53 (by decide)]; exact x11_v53 m c j l

/-- The half-wise sums of squared deviations again, for the second layer. -/
theorem x14_v58 (c' : Fin 2) (l : Fin DD) :
    (X14 m c main_v58 : S2x1x128.Idx → EReal) (ix3 c' 0 l) = halfSum (fun j l => (𝐯2 j l - 𝐦2 l) * (𝐯2 j l - 𝐦2 l)) c' l := by
  rw [show X14 m c main_v58 = o14 m c from Function.update_self ..]
  exact value5 (Y13 m) c 𝐚2 𝐝 (argB2 m c) 𝐦2 (x13_v53 m c) (at_v15 m c (ag13 m c)) (at_v19 m c (ag13 m c)) (x13_v57 m c) c' l

theorem x15_v63 (l : Fin DD) : (X15 m c main_v63 : S1x128.Idx → EReal) (ix2 0 l) = 𝐬2 l :=
  var2_read (X14 m c) _ (x14_v58 m c) l
theorem x15_v57 (l : Fin DD) : (X15 m c main_v57 : S1x128.Idx → EReal) (ix2 0 l) = 𝐦2 l := by
  rw [X15_of m c main_v57 (by decide), X14_of m c main_v57 (by decide)]; exact x13_v57 m c l
theorem x15_v53 (j : Fin NN) (l : Fin DD) : (X15 m c main_v53 : S100000x128.Idx → EReal) (ix2 j l) = 𝐚2 j l := by
  rw [X15_of m c main_v53 (by decide), X14_of m c main_v53 (by decide)]; exact x13_v53 m c j l

/-- Per half and graph column, the indicator-weighted column sums of the second layer's output. -/
theorem x16_v65 (c' : Fin 2) (g : Fin 128) (l : Fin DD) :
    (X16 m c main_v65 : S2x128x128.Idx → EReal) (ix3 c' g l)
      = ∑ t : Fin 10, ∑ r : Fin 5000, indOf (argBt m c) (rowOf c' t r) g * 𝐡2 (rowOf c' t r) l := by
  rw [show X16 m c main_v65 = o16 m c from Function.update_self ..]
  exact value6 (Y15 m) c 𝐚2 𝐝 (argB2 m c) 𝐦2 𝐬2 (argG2 m c) (argBe2 m c) (argBt m c) (x15_v53 m c) (at_v15 m c (ag15 m c))
    (at_v19 m c (ag15 m c)) (x15_v57 m c) (x15_v63 m c) (at_v20 m c (ag15 m c)) (at_v21 m c (ag15 m c))
    (fun j => (batch_read (X14 m c) j).trans (at_bt m c (ag14 m c) j)) c' g l

/-- The pooled sums are those of the network written with pre-scaled rows and half-wise column statistics. -/
theorem pool_value (g : Fin 64) (l : Fin 128) :
    ((V17 m (outs m) c) main_v67 : S64x128.Idx → EReal) (ix2 g l)
      = poolKer (srcOf (argEi m c)) (tgtOf (argEi m c)) (dinvOf (argEi m c)) (indOf (argBt m c)) (argX m c)
          (argW1 m c) (argB1 m c) (argG1 m c) (argBe1 m c) (argW2 m c) (argB2 m c) (argG2 m c) (argBe2 m c) (g128 g) l := by
  show (StableHlo.after hostOps7 (V16 m (outs m) c) main_v67 : S64x128.Idx → EReal) (ix2 g l) = _
  rw [V16_eq]
  exact pool_read (X16 m c) _ (x16_v65 m c) g l

theorem V16_arg (r : Ref sig .tc) (hr : r ∈ kept := by decide) (h0 : r ∉ hostOps0_W := by decide)
    (h1 : r ∉ hostOps0_1_W := by decide) (h2 : r ∉ hostOps0_2_W := by decide) :
    V16 m (outs m) c r = m ((c : Thread nD τ).loc r) := by
  rw [V16_eq m c, ag16 m c r hr]; exact X3_arg m c r h0 h1 h2

/-- The result is the network's tail applied to the pooled sums. -/
theorem result_value :
    V20 m (outs m) c main_v86
      = Cert.GNN.tail ((V17 m (outs m) c) main_v67) (m ((c : Thread nD τ).loc main_arg2))
          (m ((c : Thread nD τ).loc main_arg11)) (m ((c : Thread nD τ).loc main_arg12))
          (m ((c : Thread nD τ).loc main_arg13)) (m ((c : Thread nD τ).loc main_arg14)) := by
  have h := result_read (V16 m (outs m) c)
  rw [V16_arg m c main_arg2, V16_arg m c main_arg11, V16_arg m c main_arg12, V16_arg m c main_arg13,
    V16_arg m c main_arg14] at h
  exact h

end Value

end Cert.KernelIdeal.Hand
end
-- ==== Proof.RefOps.lean ====
import proofs.«429421_j77326591197817_3_alg».proof.Proof.Gen.ReferenceIdeal
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem

variable {F : FTy → Type} [FloatOps F]

abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x00000000#32) ]
abbrev ops0_W : List (Ref sig .tc) := [main_v0, main_v1, main_v2, main_v3, main_cst]

abbrev ops1 : List (HloOp τ sig (Elt F)) :=
  [ StableHlo.TRef.binary (.of main_arg0 : StableHlo.TRef sig ⟨S100000x128, .f32⟩) (.of main_arg0 : StableHlo.TRef sig ⟨S100000x128, .f32⟩) (.of main_call0_v0 : StableHlo.TRef sig ⟨S100000x128, .i1⟩) (cmpf .une),
    StableHlo.TRef.unary (.of main_cst : StableHlo.TRef sig ⟨S_, .f32⟩) (.of main_call0_v1 : StableHlo.TRef sig ⟨S_, .f32⟩) id ]
abbrev ops1_W : List (Ref sig .tc) := [main_call0_v0, main_call0_v1]

abbrev ops2 : List (HloOp τ sig (Elt F)) :=
  [ StableHlo.TRef.unary (.of main_call0_v1 : StableHlo.TRef sig ⟨S_, .f32⟩) (.of main_call0_call0_v0 : StableHlo.TRef sig ⟨S100000x128, .f32⟩) (broadcastInDim S100000x128 ![] bcast_S_S100000x128),
    StableHlo.TRef.ternary (.of main_call0_v0 : StableHlo.TRef sig ⟨S100000x128, .i1⟩) (.of main_call0_call0_v0 : StableHlo.TRef sig ⟨S100000x128, .f32⟩) (.of main_arg0 : StableHlo.TRef sig ⟨S100000x128, .f32⟩) (.of main_call0_v2 : StableHlo.TRef sig ⟨S100000x128, .f32⟩) select ]
abbrev ops2_W : List (Ref sig .tc) := [main_call0_call0_v0, main_call0_v2]

abbrev ops3 : List (HloOp τ sig (Elt F)) :=
  [ StableHlo.TRef.nullary (.of main_call0_cst : StableHlo.TRef sig ⟨S_, .f32⟩) (constant S_ .f32 0x7F800000#32),
    StableHlo.TRef.unary (.of main_call0_cst : StableHlo.TRef sig ⟨S_, .f32⟩) (.of main_call0_v3 : StableHlo.TRef sig ⟨S100000x128, .f32⟩) (broadcastInDim S100000x128 ![] bcast_S_S100000x128),
    StableHlo.TRef.binary (.of main_call0_v2 : StableHlo.TRef sig ⟨S100000x128, .f32⟩) (.of main_call0_v3 : StableHlo.TRef sig ⟨S100000x128, .f32⟩) (.of main_call0_v4 : StableHlo.TRef sig ⟨S100000x128, .i1⟩) (cmpf .oeq),
    StableHlo.TRef.nullary (.of main_call0_cst_0 : StableHlo.TRef sig ⟨S_, .f32⟩) (constant S_ .f32 0x7F7FFFFF#32) ]
abbrev ops3_W : List (Ref sig .tc) := [main_call0_cst, main_call0_v3, main_call0_v4, main_call0_cst_0]

abbrev ops4 : List (HloOp τ sig (Elt F)) :=
  [ StableHlo.TRef.unary (.of main_call0_cst_0 : StableHlo.TRef sig ⟨S_, .f32⟩) (.of main_call0_call1_v0 : StableHlo.TRef sig ⟨S100000x128, .f32⟩) (broadcastInDim S100000x128 ![] bcast_S_S100000x128),
    StableHlo.TRef.ternary (.of main_call0_v4 : StableHlo.TRef sig ⟨S100000x128, .i1⟩) (.of main_call0_call1_v0 : StableHlo.TRef sig ⟨S100000x128, .f32⟩) (.of main_call0_v2 : StableHlo.TRef sig ⟨S100000x128, .f32⟩) (.of main_call0_v5 : StableHlo.TRef sig ⟨S100000x128, .f32⟩) select ]
abbrev ops4_W : List (Ref sig .tc) := [main_call0_call1_v0, main_call0_v5]

abbrev ops5 : List (HloOp τ sig (Elt F)) :=
  [ StableHlo.TRef.nullary (.of main_call0_cst_1 : StableHlo.TRef sig ⟨S_, .f32⟩) (constant S_ .f32 0xFF800000#32),
    StableHlo.TRef.unary (.of main_call0_cst_1 : StableHlo.TRef sig ⟨S_, .f32⟩) (.of main_call0_v6 : StableHlo.TRef sig ⟨S100000x128, .f32⟩) (broadcastInDim S100000x128 ![] bcast_S_S100000x128),
    StableHlo.TRef.binary (.of main_call0_v5 : StableHlo.TRef sig ⟨S100000x128, .f32⟩) (.of main_call0_v6 : StableHlo.TRef sig ⟨S100000x128, .f32⟩) (.of main_call0_v7 : StableHlo.TRef sig ⟨S100000x128, .i1⟩) (cmpf .oeq),
    StableHlo.TRef.nullary (.of main_call0_cst_2 : StableHlo.TRef sig ⟨S_, .f32⟩) (constant S_ .f32 0xFF7FFFFF#32) ]
abbrev ops5_W : List (Ref sig .tc) := [main_call0_cst_1, main_call0_v6, main_call0_v7, main_call0_cst_2]

abbrev ops6 : List (HloOp τ sig (Elt F)) :=
  [ StableHlo.TRef.unary (.of main_call0_cst_2 : StableHlo.TRef sig ⟨S_, .f32⟩) (.of main_call0_call2_v0 : StableHlo.TRef sig ⟨S100000x128, .f32⟩) (broadcastInDim S100000x128 ![] bcast_S_S100000x128),
    StableHlo.TRef.ternary (.of main_call0_v7 : StableHlo.TRef sig ⟨S100000x128, .i1⟩) (.of main_call0_call2_v0 : StableHlo.TRef sig ⟨S100000x128, .f32⟩) (.of main_call0_v5 : StableHlo.TRef sig ⟨S100000x128, .f32⟩) (.of main_v4 : StableHlo.TRef sig ⟨S100000x128, .f32⟩) select ]
abbrev ops6_W : List (Ref sig .tc) := [main_call0_call2_v0, main_v4]

abbrev ops7 : List (HloOp τ sig (Elt F)) :=
  [ StableHlo.nullary main_v5 (iotaInDim S100000 32 0),
    StableHlo.binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_0 (constant S_ .f32 0x3F800000#32),
    StableHlo.unary main_cst_0 main_v8 (broadcastInDim S1700000 ![] bcast_S_S1700000 : (⟨S_, .f32⟩ : BufTy).Contents (Elt F) → (⟨S1700000, .f32⟩ : BufTy).Contents (Elt F)),
    StableHlo.nullary main_cst_1 (constant S_ .f32 0x00000000#32),
    StableHlo.unary main_cst_1 main_v9 (broadcastInDim S100000 ![] bcast_S_S100000 : (⟨S_, .f32⟩ : BufTy).Contents (Elt F) → (⟨S100000, .f32⟩ : BufTy).Contents (Elt F)),
    StableHlo.unary main_v7 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_2 (constant S_ .f32 0x00000000#32),
    StableHlo.unary main_cst_2 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_3 (constant S_ .f32 0x00000000#32) ]
abbrev ops7_W : List (Ref sig .tc) := [main_v5, main_v6, main_v7, main_cst_0, main_v8, main_cst_1, main_v9, main_v10, main_v11, main_cst_2, main_v12, main_v13, main_v14, main_cst_3]

abbrev ops8 : List (HloOp τ sig (Elt F)) :=
  [ StableHlo.TRef.unary (.of main_cst_3 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000, .f32⟩) (broadcastInDim S100000 ![] bcast_S_S100000),
    StableHlo.TRef.ternary (.of main_v13 : StableHlo.TRef sig ⟨S100000, .i1⟩) (.of main_v14 : StableHlo.TRef sig ⟨S100000, .f32⟩) (.of main_call1_v1 : StableHlo.TRef sig ⟨S100000, .f32⟩) (.of main_v15 : StableHlo.TRef sig ⟨S100000, .f32⟩) select ]
abbrev ops8_W : List (Ref sig .tc) := [main_call1_v0, main_call1_v1, main_v15]

abbrev ops9 : List (HloOp τ sig (Elt F)) :=
  [ StableHlo.binary main_v4 main_arg3 main_v16 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c (constantI S_ 32 0#32),
    StableHlo.unary main_c main_v17 (broadcastInDim S1700000 ![] bcast_S_S1700000 : (⟨S_, .i32⟩ : BufTy).Contents (Elt F) → (⟨S1700000, .i32⟩ : BufTy).Contents (Elt F)),
    StableHlo.binary main_v6 main_v17 main_v18 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v19 (broadcastInDim S1700000 ![] bcast_S_S1700000 : (⟨S_, .i32⟩ : BufTy).Contents (Elt F) → (⟨S1700000, .i32⟩ : BufTy).Contents (Elt F)),
    StableHlo.binary main_v6 main_v19 main_v20 (addi : (⟨S1700000, .i32⟩ : BufTy).Contents (Elt F) → (⟨S1700000, .i32⟩ : BufTy).Contents (Elt F) → (⟨S1700000, .i32⟩ : BufTy).Contents (Elt F)),
    StableHlo.ternary main_v18 main_v20 main_v6 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v21 main_v22 (broadcastInDim S1700000x1 ![0] bcast_S1700000_S1700000x1_0 : (⟨S1700000, .i32⟩ : BufTy).Contents (Elt F) → (⟨S1700000x1, .i32⟩ : BufTy).Contents (Elt F)),
    StableHlo.binary main_v16 main_v22 main_v23 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.nullary main_c_5 (constantI S_ 32 0#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v26 (broadcastInDim S1700000 ![] bcast_S_S1700000 : (⟨S_, .i32⟩ : BufTy).Contents (Elt F) → (⟨S1700000, .i32⟩ : BufTy).Contents (Elt F)),
    StableHlo.binary main_v6 main_v26 main_v27 (addi : (⟨S1700000, .i32⟩ : BufTy).Contents (Elt F) → (⟨S1700000, .i32⟩ : BufTy).Contents (Elt F) → (⟨S1700000, .i32⟩ : BufTy).Contents (Elt F)),
    StableHlo.ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v28 main_v29 (broadcastInDim S1700000x1 ![0] bcast_S1700000_S1700000x1_0 : (⟨S1700000, .i32⟩ : BufTy).Contents (Elt F) → (⟨S1700000x1, .i32⟩ : BufTy).Contents (Elt F)),
    StableHlo.binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_7 (constantI S_ 32 0#32),
    StableHlo.unary main_c_7 main_v31 (broadcastInDim S1700000 ![] bcast_S_S1700000 : (⟨S_, .i32⟩ : BufTy).Contents (Elt F) → (⟨S1700000, .i32⟩ : BufTy).Contents (Elt F)),
    StableHlo.binary main_v7 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v33 (broadcastInDim S1700000 ![] bcast_S_S1700000 : (⟨S_, .i32⟩ : BufTy).Contents (Elt F) → (⟨S1700000, .i32⟩ : BufTy).Contents (Elt F)),
    StableHlo.binary main_v7 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v7 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v15 main_v36 main_v37 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v30 main_v37 main_v38 (mulf : (⟨S1700000, .f32⟩ : BufTy).Contents (Elt F) → (⟨S1700000, .f32⟩ : BufTy).Contents (Elt F) → (⟨S1700000, .f32⟩ : BufTy).Contents (Elt F)),
    StableHlo.unary main_v38 main_v39 (broadcastInDim S1700000x1 ![0] bcast_S1700000_S1700000x1_0 : (⟨S1700000, .f32⟩ : BufTy).Contents (Elt F) → (⟨S1700000x1, .f32⟩ : BufTy).Contents (Elt F)),
    StableHlo.unary main_v39 main_v40 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v23 main_v40 main_v41 (mulf : (⟨S1700000x128, .f32⟩ : BufTy).Contents (Elt F) → (⟨S1700000x128, .f32⟩ : BufTy).Contents (Elt F) → (⟨S1700000x128, .f32⟩ : BufTy).Contents (Elt F)),
    StableHlo.nullary main_cst_9 (constant S_ .f32 0x00000000#32),
    StableHlo.unary main_cst_9 main_v42 (broadcastInDim S100000x128 ![] bcast_S_S100000x128 : (⟨S_, .f32⟩ : BufTy).Contents (Elt F) → (⟨S100000x128, .f32⟩ : BufTy).Contents (Elt F)),
    StableHlo.unary main_v7 main_v43 (broadcastInDim S1700000x1 ![0] bcast_S1700000_S1700000x1_0 : (⟨S1700000, .i32⟩ : BufTy).Contents (Elt F) → (⟨S1700000x1, .i32⟩ : BufTy).Contents (Elt F)),
    StableHlo.ternary main_v42 main_v43 main_v41 main_v44 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg4 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)) ]
abbrev ops9_W : List (Ref sig .tc) := [main_v16, main_c, main_v17, main_v18, main_c_4, main_v19, main_v20, main_v21, main_v22, main_v23, main_c_5, main_v24, main_v25, main_c_6, main_v26, main_v27, main_v28, main_v29, main_v30, main_c_7, main_v31, main_v32, main_c_8, main_v33, main_v34, main_v35, main_v36, main_v37, main_v38, main_v39, main_v40, main_v41, main_cst_9, main_v42, main_v43, main_v44, main_v45, main_v46, main_v47]

abbrev ops10 : List (HloOp τ sig (Elt F)) :=
  [ StableHlo.nullary main_cst_10 (constant S_ .f32 0x00000000#32),
    StableHlo.binary main_v47 main_cst_10 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)),
    StableHlo.unary main_v50 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v52 main_v53 (subf : (⟨S100000x128, .f32⟩ : BufTy).Contents (Elt F) → (⟨S100000x128, .f32⟩ : BufTy).Contents (Elt F) → (⟨S100000x128, .f32⟩ : BufTy).Contents (Elt F)),
    StableHlo.binary main_v53 main_v53 main_v54 (mulf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x00000000#32),
    StableHlo.binary main_v54 main_cst_12 main_v55 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_13 (constant S_ .f32 0x47C35000#32),
    StableHlo.unary main_cst_13 main_v56 (broadcastInDim S128 ![] bcast_S_S128 : (⟨S_, .f32⟩ : BufTy).Contents (Elt F) → (⟨S128, .f32⟩ : BufTy).Contents (Elt F)),
    StableHlo.binary main_v55 main_v56 main_v57 (Host.divf : (⟨S128, .f32⟩ : BufTy).Contents (Elt F) → (⟨S128, .f32⟩ : BufTy).Contents (Elt F) → (⟨S128, .f32⟩ : BufTy).Contents (Elt F)),
    StableHlo.unary main_v50 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v59 main_v60 (subf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3727C5AC#32),
    StableHlo.unary main_cst_14 main_v61 (broadcastInDim S128 ![] bcast_S_S128 : (⟨S_, .f32⟩ : BufTy).Contents (Elt F) → (⟨S128, .f32⟩ : BufTy).Contents (Elt F)),
    StableHlo.binary main_v57 main_v61 main_v62 (addf : (⟨S128, .f32⟩ : BufTy).Contents (Elt F) → (⟨S128, .f32⟩ : BufTy).Contents (Elt F) → (⟨S128, .f32⟩ : BufTy).Contents (Elt F)),
    StableHlo.unary main_v62 main_v63 (Host.rsqrt : (⟨S128, .f32⟩ : BufTy).Contents (Elt F) → (⟨S128, .f32⟩ : BufTy).Contents (Elt F)),
    StableHlo.unary main_v63 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v65 main_v66 (mulf : (⟨S100000x128, .f32⟩ : BufTy).Contents (Elt F) → (⟨S100000x128, .f32⟩ : BufTy).Contents (Elt F) → (⟨S100000x128, .f32⟩ : BufTy).Contents (Elt F)),
    StableHlo.unary main_arg5 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S100000x128 ![0, 1] bcast_S1x128_S100000x128_0_1 : (⟨S1x128, .f32⟩ : BufTy).Contents (Elt F) → (⟨S100000x128, .f32⟩ : BufTy).Contents (Elt F)),
    StableHlo.binary main_v66 main_v68 main_v69 (mulf : (⟨S100000x128, .f32⟩ : BufTy).Contents (Elt F) → (⟨S100000x128, .f32⟩ : BufTy).Contents (Elt F) → (⟨S100000x128, .f32⟩ : BufTy).Contents (Elt F)),
    StableHlo.unary main_arg6 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S100000x128 ![0, 1] bcast_S1x128_S100000x128_0_1 : (⟨S1x128, .f32⟩ : BufTy).Contents (Elt F) → (⟨S100000x128, .f32⟩ : BufTy).Contents (Elt F)),
    StableHlo.binary main_v69 main_v71 main_v72 (addf : (⟨S100000x128, .f32⟩ : BufTy).Contents (Elt F) → (⟨S100000x128, .f32⟩ : BufTy).Contents (Elt F) → (⟨S100000x128, .f32⟩ : BufTy).Contents (Elt F)) ]
abbrev ops10_W : List (Ref sig .tc) := [main_cst_10, main_v48, main_cst_11, main_v49, main_v50, main_v51, main_v52, main_v53, main_v54, main_cst_12, main_v55, main_cst_13, main_v56, main_v57, main_v58, main_v59, main_v60, main_cst_14, main_v61, main_v62, main_v63, main_v64, main_v65, main_v66, main_v67, main_v68, main_v69, main_v70, main_v71, main_v72]

abbrev ops11 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x128, .f32⟩) (broadcastInDim S100000x128 ![] bcast_S_S100000x128),
    StableHlo.TRef.binary (.of main_v72 : StableHlo.TRef sig ⟨S100000x128, .f32⟩) (.of main_call2_v0 : StableHlo.TRef sig ⟨S100000x128, .f32⟩) (.of main_v73 : StableHlo.TRef sig ⟨S100000x128, .f32⟩) maximumf ]
abbrev ops11_W : List (Ref sig .tc) := [main_call2_cst, main_call2_v0, main_v73]

abbrev ops12 : List (HloOp τ sig (Elt F)) :=
  [ StableHlo.nullary main_v74 (iotaInDim S100000 32 0),
    StableHlo.binary main_v1 main_v74 main_v75 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v74 main_v76 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_15 (constant S_ .f32 0x3F800000#32),
    StableHlo.unary main_cst_15 main_v77 (broadcastInDim S1700000 ![] bcast_S_S1700000 : (⟨S_, .f32⟩ : BufTy).Contents (Elt F) → (⟨S1700000, .f32⟩ : BufTy).Contents (Elt F)),
    StableHlo.nullary main_cst_16 (constant S_ .f32 0x00000000#32),
    StableHlo.unary main_cst_16 main_v78 (broadcastInDim S100000 ![] bcast_S_S100000 : (⟨S_, .f32⟩ : BufTy).Contents (Elt F) → (⟨S100000, .f32⟩ : BufTy).Contents (Elt F)),
    StableHlo.unary main_v76 main_v79 (broadcastInDim S1700000x1 ![0] bcast_S1700000_S1700000x1_0 : (⟨S1700000, .i32⟩ : BufTy).Contents (Elt F) → (⟨S1700000x1, .i32⟩ : BufTy).Contents (Elt F)),
    StableHlo.ternary main_v78 main_v79 main_v77 main_v80 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_17 (constant S_ .f32 0x00000000#32),
    StableHlo.unary main_cst_17 main_v81 (broadcastInDim S100000 ![] bcast_S_S100000 : (⟨S_, .f32⟩ : BufTy).Contents (Elt F) → (⟨S100000, .f32⟩ : BufTy).Contents (Elt F)),
    StableHlo.binary main_v80 main_v81 main_v82 (cmpf .ogt : (⟨S100000, .f32⟩ : BufTy).Contents (Elt F) → (⟨S100000, .f32⟩ : BufTy).Contents (Elt F) → (⟨S100000, .i1⟩ : BufTy).Contents (Elt F)),
    StableHlo.unary main_v80 main_v83 (Host.rsqrt : (⟨S100000, .f32⟩ : BufTy).Contents (Elt F) → (⟨S100000, .f32⟩ : BufTy).Contents (Elt F)),
    StableHlo.nullary main_cst_18 (constant S_ .f32 0x00000000#32) ]
abbrev ops12_W : List (Ref sig .tc) := [main_v74, main_v75, main_v76, main_cst_15, main_v77, main_cst_16, main_v78, main_v79, main_v80, main_cst_17, main_v81, main_v82, main_v83, main_cst_18]

abbrev ops13 : List (HloOp τ sig (Elt F)) :=
  [ StableHlo.TRef.unary (.of main_cst_18 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S100000, .f32⟩) (broadcastInDim S100000 ![] bcast_S_S100000),
    StableHlo.TRef.ternary (.of main_v82 : StableHlo.TRef sig ⟨S100000, .i1⟩) (.of main_v83 : StableHlo.TRef sig ⟨S100000, .f32⟩) (.of main_call3_v1 : StableHlo.TRef sig ⟨S100000, .f32⟩) (.of main_v84 : StableHlo.TRef sig ⟨S100000, .f32⟩) select ]
abbrev ops13_W : List (Ref sig .tc) := [main_call3_v0, main_call3_v1, main_v84]

abbrev ops14 : List (HloOp τ sig (Elt F)) :=
  [ StableHlo.binary main_v73 main_arg7 main_v85 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_19 (constantI S_ 32 0#32),
    StableHlo.unary main_c_19 main_v86 (broadcastInDim S1700000 ![] bcast_S_S1700000 : (⟨S_, .i32⟩ : BufTy).Contents (Elt F) → (⟨S1700000, .i32⟩ : BufTy).Contents (Elt F)),
    StableHlo.binary main_v75 main_v86 main_v87 (cmpi .slt : (⟨S1700000, .i32⟩ : BufTy).Contents (Elt F) → (⟨S1700000, .i32⟩ : BufTy).Contents (Elt F) → (⟨S1700000, .i1⟩ : BufTy).Contents (Elt F)),
    StableHlo.nullary main_c_20 (constantI S_ 32 100000#32),
    StableHlo.unary main_c_20 main_v88 (broadcastInDim S1700000 ![] bcast_S_S1700000 : (⟨S_, .i32⟩ : BufTy).Contents (Elt F) → (⟨S1700000, .i32⟩ : BufTy).Contents (Elt F)),
    StableHlo.binary main_v75 main_v88 main_v89 (addi : (⟨S1700000, .i32⟩ : BufTy).Contents (Elt F) → (⟨S1700000, .i32⟩ : BufTy).Contents (Elt F) → (⟨S1700000, .i32⟩ : BufTy).Contents (Elt F)),
    StableHlo.ternary main_v87 main_v89 main_v75 main_v90 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v90 main_v91 (broadcastInDim S1700000x1 ![0] bcast_S1700000_S1700000x1_0 : (⟨S1700000, .i32⟩ : BufTy).Contents (Elt F) → (⟨S1700000x1, .i32⟩ : BufTy).Contents (Elt F)),
    StableHlo.binary main_v85 main_v91 main_v92 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.nullary main_c_21 (constantI S_ 32 0#32),
    StableHlo.unary main_c_21 main_v93 (broadcastInDim S1700000 ![] bcast_S_S1700000 : (⟨S_, .i32⟩ : BufTy).Contents (Elt F) → (⟨S1700000, .i32⟩ : BufTy).Contents (Elt F)),
    StableHlo.binary main_v75 main_v93 main_v94 (cmpi .slt : (⟨S1700000, .i32⟩ : BufTy).Contents (Elt F) → (⟨S1700000, .i32⟩ : BufTy).Contents (Elt F) → (⟨S1700000, .i1⟩ : BufTy).Contents (Elt F)),
    StableHlo.nullary main_c_22 (constantI S_ 32 100000#32) ]
abbrev ops14_W : List (Ref sig .tc) := [main_v85, main_c_19, main_v86, main_v87, main_c_20, main_v88, main_v89, main_v90, main_v91, main_v92, main_c_21, main_v93, main_v94, main_c_22]

abbrev ops15 : List (HloOp τ sig (Elt F)) :=
  [ StableHlo.unary main_c_22 main_v95 (broadcastInDim S1700000 ![] bcast_S_S1700000 : (⟨S_, .i32⟩ : BufTy).Contents (Elt F) → (⟨S1700000, .i32⟩ : BufTy).Contents (Elt F)),
    StableHlo.binary main_v75 main_v95 main_v96 (addi : (⟨S1700000, .i32⟩ : BufTy).Contents (Elt F) → (⟨S1700000, .i32⟩ : BufTy).Contents (Elt F) → (⟨S1700000, .i32⟩ : BufTy).Contents (Elt F)),
    StableHlo.ternary main_v94 main_v96 main_v75 main_v97 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v97 main_v98 (broadcastInDim S1700000x1 ![0] bcast_S1700000_S1700000x1_0 : (⟨S1700000, .i32⟩ : BufTy).Contents (Elt F) → (⟨S1700000x1, .i32⟩ : BufTy).Contents (Elt F)),
    StableHlo.binary main_v84 main_v98 main_v99 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_23 (constantI S_ 32 0#32),
    StableHlo.unary main_c_23 main_v100 (broadcastInDim S1700000 ![] bcast_S_S1700000 : (⟨S_, .i32⟩ : BufTy).Contents (Elt F) → (⟨S1700000, .i32⟩ : BufTy).Contents (Elt F)),
    StableHlo.binary main_v76 main_v100 main_v101 (cmpi .slt : (⟨S1700000, .i32⟩ : BufTy).Contents (Elt F) → (⟨S1700000, .i32⟩ : BufTy).Contents (Elt F) → (⟨S1700000, .i1⟩ : BufTy).Contents (Elt F)),
    StableHlo.nullary main_c_24 (constantI S_ 32 100000#32),
    StableHlo.unary main_c_24 main_v102 (broadcastInDim S1700000 ![] bcast_S_S1700000 : (⟨S_, .i32⟩ : BufTy).Contents (Elt F) → (⟨S1700000, .i32⟩ : BufTy).Contents (Elt F)),
    StableHlo.binary main_v76 main_v102 main_v103 (addi : (⟨S1700000, .i32⟩ : BufTy).Contents (Elt F) → (⟨S1700000, .i32⟩ : BufTy).Contents (Elt F) → (⟨S1700000, .i32⟩ : BufTy).Contents (Elt F)),
    StableHlo.ternary main_v101 main_v103 main_v76 main_v104 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v104 main_v105 (broadcastInDim S1700000x1 ![0] bcast_S1700000_S1700000x1_0 : (⟨S1700000, .i32⟩ : BufTy).Contents (Elt F) → (⟨S1700000x1, .i32⟩ : BufTy).Contents (Elt F)),
    StableHlo.binary main_v84 main_v105 main_v106 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v99 main_v106 main_v107 (mulf : (⟨S1700000, .f32⟩ : BufTy).Contents (Elt F) → (⟨S1700000, .f32⟩ : BufTy).Contents (Elt F) → (⟨S1700000, .f32⟩ : BufTy).Contents (Elt F)),
    StableHlo.unary main_v107 main_v108 (broadcastInDim S1700000x1 ![0] bcast_S1700000_S1700000x1_0 : (⟨S1700000, .f32⟩ : BufTy).Contents (Elt F) → (⟨S1700000x1, .f32⟩ : BufTy).Contents (Elt F)),
    StableHlo.unary main_v108 main_v109 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v92 main_v109 main_v110 (mulf : (⟨S1700000x128, .f32⟩ : BufTy).Contents (Elt F) → (⟨S1700000x128, .f32⟩ : BufTy).Contents (Elt F) → (⟨S1700000x128, .f32⟩ : BufTy).Contents (Elt F)),
    StableHlo.nullary main_cst_25 (constant S_ .f32 0x00000000#32),
    StableHlo.unary main_cst_25 main_v111 (broadcastInDim S100000x128 ![] bcast_S_S100000x128 : (⟨S_, .f32⟩ : BufTy).Contents (Elt F) → (⟨S100000x128, .f32⟩ : BufTy).Contents (Elt F)),
    StableHlo.unary main_v76 main_v112 (broadcastInDim S1700000x1 ![0] bcast_S1700000_S1700000x1_0 : (⟨S1700000, .i32⟩ : BufTy).Contents (Elt F) → (⟨S1700000x1, .i32⟩ : BufTy).Contents (Elt F)),
    StableHlo.ternary main_v111 main_v112 main_v110 main_v113 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg8 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S100000x128 ![0, 1] bcast_S1x128_S100000x128_0_1 : (⟨S1x128, .f32⟩ : BufTy).Contents (Elt F) → (⟨S100000x128, .f32⟩ : BufTy).Contents (Elt F)),
    StableHlo.binary main_v113 main_v115 main_v116 (addf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x00000000#32),
    StableHlo.binary main_v116 main_cst_26 main_v117 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_27 (constant S_ .f32 0x47C35000#32),
    StableHlo.unary main_cst_27 main_v118 (broadcastInDim S128 ![] bcast_S_S128 : (⟨S_, .f32⟩ : BufTy).Contents (Elt F) → (⟨S128, .f32⟩ : BufTy).Contents (Elt F)),
    StableHlo.binary main_v117 main_v118 main_v119 (Host.divf : (⟨S128, .f32⟩ : BufTy).Contents (Elt F) → (⟨S128, .f32⟩ : BufTy).Contents (Elt F) → (⟨S128, .f32⟩ : BufTy).Contents (Elt F)),
    StableHlo.unary main_v119 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S100000x128 ![0, 1] bcast_S1x128_S100000x128_0_1 : (⟨S1x128, .f32⟩ : BufTy).Contents (Elt F) → (⟨S100000x128, .f32⟩ : BufTy).Contents (Elt F)),
    StableHlo.binary main_v116 main_v121 main_v122 (subf : (⟨S100000x128, .f32⟩ : BufTy).Contents (Elt F) → (⟨S100000x128, .f32⟩ : BufTy).Contents (Elt F) → (⟨S100000x128, .f32⟩ : BufTy).Contents (Elt F)),
    StableHlo.binary main_v122 main_v122 main_v123 (mulf : (⟨S100000x128, .f32⟩ : BufTy).Contents (Elt F) → (⟨S100000x128, .f32⟩ : BufTy).Contents (Elt F) → (⟨S100000x128, .f32⟩ : BufTy).Contents (Elt F)),
    StableHlo.nullary main_cst_28 (constant S_ .f32 0x00000000#32),
    StableHlo.binary main_v123 main_cst_28 main_v124 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_29 (constant S_ .f32 0x47C35000#32),
    StableHlo.unary main_cst_29 main_v125 (broadcastInDim S128 ![] bcast_S_S128 : (⟨S_, .f32⟩ : BufTy).Contents (Elt F) → (⟨S128, .f32⟩ : BufTy).Contents (Elt F)),
    StableHlo.binary main_v124 main_v125 main_v126 (Host.divf : (⟨S128, .f32⟩ : BufTy).Contents (Elt F) → (⟨S128, .f32⟩ : BufTy).Contents (Elt F) → (⟨S128, .f32⟩ : BufTy).Contents (Elt F)),
    StableHlo.unary main_v119 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S100000x128 ![0, 1] bcast_S1x128_S100000x128_0_1 : (⟨S1x128, .f32⟩ : BufTy).Contents (Elt F) → (⟨S100000x128, .f32⟩ : BufTy).Contents (Elt F)),
    StableHlo.binary main_v116 main_v128 main_v129 (subf : (⟨S100000x128, .f32⟩ : BufTy).Contents (Elt F) → (⟨S100000x128, .f32⟩ : BufTy).Contents (Elt F) → (⟨S100000x128, .f32⟩ : BufTy).Contents (Elt F)),
    StableHlo.nullary main_cst_30 (constant S_ .f32 0x3727C5AC#32),
    StableHlo.unary main_cst_30 main_v130 (broadcastInDim S128 ![] bcast_S_S128 : (⟨S_, .f32⟩ : BufTy).Contents (Elt F) → (⟨S128, .f32⟩ : BufTy).Contents (Elt F)),
    StableHlo.binary main_v126 main_v130 main_v131 (addf : (⟨S128, .f32⟩ : BufTy).Contents (Elt F) → (⟨S128, .f32⟩ : BufTy).Contents (Elt F) → (⟨S128, .f32⟩ : BufTy).Contents (Elt F)),
    StableHlo.unary main_v131 main_v132 (Host.rsqrt : (⟨S128, .f32⟩ : BufTy).Contents (Elt F) → (⟨S128, .f32⟩ : BufTy).Contents (Elt F)),
    StableHlo.unary main_v132 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S100000x128 ![0, 1] bcast_S1x128_S100000x128_0_1 : (⟨S1x128, .f32⟩ : BufTy).Contents (Elt F) → (⟨S100000x128, .f32⟩ : BufTy).Contents (Elt F)),
    StableHlo.binary main_v129 main_v134 main_v135 (mulf : (⟨S100000x128, .f32⟩ : BufTy).Contents (Elt F) → (⟨S100000x128, .f32⟩ : BufTy).Contents (Elt F) → (⟨S100000x128, .f32⟩ : BufTy).Contents (Elt F)),
    StableHlo.unary main_arg9 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S100000x128 ![0, 1] bcast_S1x128_S100000x128_0_1 : (⟨S1x128, .f32⟩ : BufTy).Contents (Elt F) → (⟨S100000x128, .f32⟩ : BufTy).Contents (Elt F)),
    StableHlo.binary main_v135 main_v137 main_v138 (mulf : (⟨S100000x128, .f32⟩ : BufTy).Contents (Elt F) → (⟨S100000x128, .f32⟩ : BufTy).Contents (Elt F) → (⟨S100000x128, .f32⟩ : BufTy).Contents (Elt F)),
    StableHlo.unary main_arg10 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S100000x128 ![0, 1] bcast_S1x128_S100000x128_0_1 : (⟨S1x128, .f32⟩ : BufTy).Contents (Elt F) → (⟨S100000x128, .f32⟩ : BufTy).Contents (Elt F)),
    StableHlo.binary main_v138 main_v140 main_v141 (addf : (⟨S100000x128, .f32⟩ : BufTy).Contents (Elt F) → (⟨S100000x128, .f32⟩ : BufTy).Contents (Elt F) → (⟨S100000x128, .f32⟩ : BufTy).Contents (Elt F)) ]
abbrev ops15_W : List (Ref sig .tc) := [main_v95, main_v96, main_v97, main_v98, main_v99, main_c_23, main_v100, main_v101, main_c_24, main_v102, main_v103, main_v104, main_v105, main_v106, main_v107, main_v108, main_v109, main_v110, main_cst_25, main_v111, main_v112, main_v113, main_v114, main_v115, main_v116, main_cst_26, main_v117, main_cst_27, main_v118, main_v119, main_v120, main_v121, main_v122, main_v123, main_cst_28, main_v124, main_cst_29, main_v125, main_v126, main_v127, main_v128, main_v129, main_cst_30, main_v130, main_v131, main_v132, main_v133, main_v134, main_v135, main_v136, main_v137, main_v138, main_v139, main_v140, main_v141]

abbrev ops16 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S100000x128, .f32⟩) (broadcastInDim S100000x128 ![] bcast_S_S100000x128),
    StableHlo.TRef.binary (.of main_v141 : StableHlo.TRef sig ⟨S100000x128, .f32⟩) (.of main_call4_v0 : StableHlo.TRef sig ⟨S100000x128, .f32⟩) (.of main_v142 : StableHlo.TRef sig ⟨S100000x128, .f32⟩) maximumf ]
abbrev ops16_W : List (Ref sig .tc) := [main_call4_cst, main_call4_v0, main_v142]

abbrev ops17 : List (HloOp τ sig (Elt F)) :=
  [ StableHlo.nullary main_cst_31 (constant S_ .f32 0x00000000#32),
    StableHlo.unary main_cst_31 main_v143 (broadcastInDim S64x128 ![] bcast_S_S64x128 : (⟨S_, .f32⟩ : BufTy).Contents (Elt F) → (⟨S64x128, .f32⟩ : BufTy).Contents (Elt F)),
    StableHlo.unary main_arg2 main_v144 (broadcastInDim S100000x1 ![0] bcast_S100000_S100000x1_0 : (⟨S100000, .i32⟩ : BufTy).Contents (Elt F) → (⟨S100000x1, .i32⟩ : BufTy).Contents (Elt F)),
    StableHlo.ternary main_v143 main_v144 main_v142 main_v145 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)) ]
abbrev ops17_W : List (Ref sig .tc) := [main_cst_31, main_v143, main_v144, main_v145]

abbrev ops18 : List (HloOp τ sig (Elt F)) :=
  [ StableHlo.nullary main_cst_32 (constant S_ .f32 0x3F800000#32),
    StableHlo.unary main_cst_32 main_v146 (broadcastInDim S100000 ![] bcast_S_S100000 : (⟨S_, .f32⟩ : BufTy).Contents (Elt F) → (⟨S100000, .f32⟩ : BufTy).Contents (Elt F)),
    StableHlo.nullary main_cst_33 (constant S_ .f32 0x00000000#32),
    StableHlo.unary main_cst_33 main_v147 (broadcastInDim S64 ![] bcast_S_S64 : (⟨S_, .f32⟩ : BufTy).Contents (Elt F) → (⟨S64, .f32⟩ : BufTy).Contents (Elt F)),
    StableHlo.unary main_arg2 main_v148 (broadcastInDim S100000x1 ![0] bcast_S100000_S100000x1_0 : (⟨S100000, .i32⟩ : BufTy).Contents (Elt F) → (⟨S100000x1, .i32⟩ : BufTy).Contents (Elt F)),
    StableHlo.ternary main_v147 main_v148 main_v146 main_v149 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_34 (constant S_ .f32 0x3F800000#32),
    StableHlo.unary main_cst_34 main_v150 (broadcastInDim S64 ![] bcast_S_S64 : (⟨S_, .f32⟩ : BufTy).Contents (Elt F) → (⟨S64, .f32⟩ : BufTy).Contents (Elt F)),
    StableHlo.binary main_v149 main_v150 main_v151 (maximumf : (⟨S64, .f32⟩ : BufTy).Contents (Elt F) → (⟨S64, .f32⟩ : BufTy).Contents (Elt F) → (⟨S64, .f32⟩ : BufTy).Contents (Elt F)),
    StableHlo.unary main_v151 main_v152 (broadcastInDim S64x1 ![0] bcast_S64_S64x1_0 : (⟨S64, .f32⟩ : BufTy).Contents (Elt F) → (⟨S64x1, .f32⟩ : BufTy).Contents (Elt F)),
    StableHlo.unary main_v152 main_v153 (broadcastInDim S64x128 ![0, 1] bcast_S64x1_S64x128_0_1 : (⟨S64x1, .f32⟩ : BufTy).Contents (Elt F) → (⟨S64x128, .f32⟩ : BufTy).Contents (Elt F)),
    StableHlo.binary main_v145 main_v153 main_v154 (Host.divf : (⟨S64x128, .f32⟩ : BufTy).Contents (Elt F) → (⟨S64x128, .f32⟩ : BufTy).Contents (Elt F) → (⟨S64x128, .f32⟩ : BufTy).Contents (Elt F)),
    StableHlo.binary main_v154 main_arg11 main_v155 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    StableHlo.unary main_arg12 main_v156 (broadcastInDim S1x64 ![1] bcast_S64_S1x64_1 : (⟨S64, .f32⟩ : BufTy).Contents (Elt F) → (⟨S1x64, .f32⟩ : BufTy).Contents (Elt F)),
    StableHlo.unary main_v156 main_v157 (broadcastInDim S64x64 ![0, 1] bcast_S1x64_S64x64_0_1 : (⟨S1x64, .f32⟩ : BufTy).Contents (Elt F) → (⟨S64x64, .f32⟩ : BufTy).Contents (Elt F)),
    StableHlo.binary main_v155 main_v157 main_v158 (addf : (⟨S64x64, .f32⟩ : BufTy).Contents (Elt F) → (⟨S64x64, .f32⟩ : BufTy).Contents (Elt F) → (⟨S64x64, .f32⟩ : BufTy).Contents (Elt F)) ]
abbrev ops18_W : List (Ref sig .tc) := [main_cst_32, main_v146, main_cst_33, main_v147, main_v148, main_v149, main_cst_34, main_v150, main_v151, main_v152, main_v153, main_v154, main_v155, main_v156, main_v157, main_v158]

abbrev ops19 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S64x64, .f32⟩) (broadcastInDim S64x64 ![] bcast_S_S64x64),
    StableHlo.TRef.binary (.of main_v158 : StableHlo.TRef sig ⟨S64x64, .f32⟩) (.of main_call5_v0 : StableHlo.TRef sig ⟨S64x64, .f32⟩) (.of main_v159 : StableHlo.TRef sig ⟨S64x64, .f32⟩) maximumf ]
abbrev ops19_W : List (Ref sig .tc) := [main_call5_cst, main_call5_v0, main_v159]

abbrev ops20 : List (HloOp τ sig (Elt F)) :=
  [ StableHlo.binary main_v159 main_arg13 main_v160 ((fun l r => Host.dotGeneral dot_S64x64_S64x2_S64x2_1_0_0_1_n_n none l r) : (⟨S64x64, .f32⟩ : BufTy).Contents (Elt F) → (⟨S64x2, .f32⟩ : BufTy).Contents (Elt F) → (⟨S64x2, .f32⟩ : BufTy).Contents (Elt F)),
    StableHlo.unary main_arg14 main_v161 (broadcastInDim S1x2 ![1] bcast_S2_S1x2_1 : (⟨S2, .f32⟩ : BufTy).Contents (Elt F) → (⟨S1x2, .f32⟩ : BufTy).Contents (Elt F)),
    StableHlo.unary main_v161 main_v162 (broadcastInDim S64x2 ![0, 1] bcast_S1x2_S64x2_0_1 : (⟨S1x2, .f32⟩ : BufTy).Contents (Elt F) → (⟨S64x2, .f32⟩ : BufTy).Contents (Elt F)),
    StableHlo.binary main_v160 main_v162 main_v163 (addf : (⟨S64x2, .f32⟩ : BufTy).Contents (Elt F) → (⟨S64x2, .f32⟩ : BufTy).Contents (Elt F) → (⟨S64x2, .f32⟩ : BufTy).Contents (Elt F)),
    StableHlo.nullary main_cst_35 (constant S_ .f32 0x00000000#32) ]
abbrev ops20_W : List (Ref sig .tc) := [main_v160, main_v161, main_v162, main_v163, main_cst_35]

abbrev ops21 : List (HloOp τ sig (Elt F)) :=
  [ StableHlo.TRef.binary (.of main_v163 : StableHlo.TRef sig ⟨S64x2, .f32⟩) (.of main_v163 : StableHlo.TRef sig ⟨S64x2, .f32⟩) (.of main_call6_v0 : StableHlo.TRef sig ⟨S64x2, .i1⟩) (cmpf .une),
    StableHlo.TRef.unary (.of main_cst_35 : StableHlo.TRef sig ⟨S_, .f32⟩) (.of main_call6_v1 : StableHlo.TRef sig ⟨S_, .f32⟩) id ]
abbrev ops21_W : List (Ref sig .tc) := [main_call6_v0, main_call6_v1]

abbrev ops22 : List (HloOp τ sig (Elt F)) :=
  [ StableHlo.TRef.unary (.of main_call6_v1 : StableHlo.TRef sig ⟨S_, .f32⟩) (.of main_call6_call0_v0 : StableHlo.TRef sig ⟨S64x2, .f32⟩) (broadcastInDim S64x2 ![] bcast_S_S64x2),
    StableHlo.TRef.ternary (.of main_call6_v0 : StableHlo.TRef sig ⟨S64x2, .i1⟩) (.of main_call6_call0_v0 : StableHlo.TRef sig ⟨S64x2, .f32⟩) (.of main_v163 : StableHlo.TRef sig ⟨S64x2, .f32⟩) (.of main_call6_v2 : StableHlo.TRef sig ⟨S64x2, .f32⟩) select ]
abbrev ops22_W : List (Ref sig .tc) := [main_call6_call0_v0, main_call6_v2]

abbrev ops23 : List (HloOp τ sig (Elt F)) :=
  [ StableHlo.TRef.nullary (.of main_call6_cst : StableHlo.TRef sig ⟨S_, .f32⟩) (constant S_ .f32 0x7F800000#32),
    StableHlo.TRef.unary (.of main_call6_cst : StableHlo.TRef sig ⟨S_, .f32⟩) (.of main_call6_v3 : StableHlo.TRef sig ⟨S64x2, .f32⟩) (broadcastInDim S64x2 ![] bcast_S_S64x2),
    StableHlo.TRef.binary (.of main_call6_v2 : StableHlo.TRef sig ⟨S64x2, .f32⟩) (.of main_call6_v3 : StableHlo.TRef sig ⟨S64x2, .f32⟩) (.of main_call6_v4 : StableHlo.TRef sig ⟨S64x2, .i1⟩) (cmpf .oeq),
    StableHlo.TRef.nullary (.of main_call6_cst_0 : StableHlo.TRef sig ⟨S_, .f32⟩) (constant S_ .f32 0x7F7FFFFF#32) ]
abbrev ops23_W : List (Ref sig .tc) := [main_call6_cst, main_call6_v3, main_call6_v4, main_call6_cst_0]

abbrev ops24 : List (HloOp τ sig (Elt F)) :=
  [ StableHlo.TRef.unary (.of main_call6_cst_0 : StableHlo.TRef sig ⟨S_, .f32⟩) (.of main_call6_call1_v0 : StableHlo.TRef sig ⟨S64x2, .f32⟩) (broadcastInDim S64x2 ![] bcast_S_S64x2),
    StableHlo.TRef.ternary (.of main_call6_v4 : StableHlo.TRef sig ⟨S64x2, .i1⟩) (.of main_call6_call1_v0 : StableHlo.TRef sig ⟨S64x2, .f32⟩) (.of main_call6_v2 : StableHlo.TRef sig ⟨S64x2, .f32⟩) (.of main_call6_v5 : StableHlo.TRef sig ⟨S64x2, .f32⟩) select ]
abbrev ops24_W : List (Ref sig .tc) := [main_call6_call1_v0, main_call6_v5]

abbrev ops25 : List (HloOp τ sig (Elt F)) :=
  [ StableHlo.TRef.nullary (.of main_call6_cst_1 : StableHlo.TRef sig ⟨S_, .f32⟩) (constant S_ .f32 0xFF800000#32),
    StableHlo.TRef.unary (.of main_call6_cst_1 : StableHlo.TRef sig ⟨S_, .f32⟩) (.of main_call6_v6 : StableHlo.TRef sig ⟨S64x2, .f32⟩) (broadcastInDim S64x2 ![] bcast_S_S64x2),
    StableHlo.TRef.binary (.of main_call6_v5 : StableHlo.TRef sig ⟨S64x2, .f32⟩) (.of main_call6_v6 : StableHlo.TRef sig ⟨S64x2, .f32⟩) (.of main_call6_v7 : StableHlo.TRef sig ⟨S64x2, .i1⟩) (cmpf .oeq),
    StableHlo.TRef.nullary (.of main_call6_cst_2 : StableHlo.TRef sig ⟨S_, .f32⟩) (constant S_ .f32 0xFF7FFFFF#32) ]
abbrev ops25_W : List (Ref sig .tc) := [main_call6_cst_1, main_call6_v6, main_call6_v7, main_call6_cst_2]

abbrev ops26 : List (HloOp τ sig (Elt F)) :=
  [ StableHlo.TRef.unary (.of main_call6_cst_2 : StableHlo.TRef sig ⟨S_, .f32⟩) (.of main_call6_call2_v0 : StableHlo.TRef sig ⟨S64x2, .f32⟩) (broadcastInDim S64x2 ![] bcast_S_S64x2),
    StableHlo.TRef.ternary (.of main_call6_v7 : StableHlo.TRef sig ⟨S64x2, .i1⟩) (.of main_call6_call2_v0 : StableHlo.TRef sig ⟨S64x2, .f32⟩) (.of main_call6_v5 : StableHlo.TRef sig ⟨S64x2, .f32⟩) (.of main_v164 : StableHlo.TRef sig ⟨S64x2, .f32⟩) select ]
abbrev ops26_W : List (Ref sig .tc) := [main_call6_call2_v0, main_v164]
abbrev opss : List (List (HloOp τ sig (Elt F))) :=
  [ops0, ops1, ops2, ops3, ops4, ops5, ops6, ops7, ops8, ops9, ops10, ops11, ops12, ops13, ops14, ops15, ops16, ops17, ops18, ops19, ops20, ops21, ops22, ops23, ops24, ops25, ops26]
abbrev ops : List (HloOp τ sig (Elt F)) := (opss (F := F)).flatten

theorem forall_flatten {α : Type} {p : α → Prop} {L : List (List α)} (h : L.Forall fun l => l.Forall p) : L.flatten.Forall p :=
  List.forall_iff_forall_mem.mpr <| List.forall_mem_flatten.mpr fun l hl => List.forall_iff_forall_mem.mp (List.forall_iff_forall_mem.mp h l hl)

theorem ops_sub : (ops : List (HloOp τ sig (Elt F))).Forall fun op => op.bufs ⊆ StableHlo.tcRefs τ sig :=
  forall_flatten (L := opss) (by simp only [List.Forall, StableHlo.nullary_bufs_sub, StableHlo.unary_bufs_sub, StableHlo.binary_bufs_sub, StableHlo.ternary_bufs_sub, StableHlo.reshape_bufs_sub, and_self])
theorem ops_fresh : ∀ op ∈ (ops : List (HloOp τ sig (Elt F))), op.fresh = ∅ :=
  List.forall_iff_forall_mem.mp (forall_flatten (L := opss) (by simp only [List.Forall]; repeat' constructor))

-- Each operation rewrites its one result reference only, so contents elsewhere pass through the fold unchanged.
theorem after_of_results {l : List (HloOp τ sig (Elt F))} {W : List (Ref sig .tc)} {r : Ref sig .tc} (V : Valuation τ sig (Elt F)) (hr : r ∉ W)
    (hW : List.Forall₂ (fun (op : HloOp τ sig (Elt F)) y => op.writes = {Proc.devRef .tc y}) l W := by repeat' constructor) :
    StableHlo.after l V (Proc.devRef .tc r) = V (Proc.devRef .tc r) := by
  induction hW generalizing V with
  | nil => rfl
  | cons h _ ih => exact (ih _ (List.not_mem_of_not_mem_cons hr)).trans (HloOp.result_of_not_mem _ _ (by
      rw [h, Finset.mem_singleton]; exact StableHlo.devRef_ne_of_ne (List.ne_of_not_mem_cons hr)))

theorem after_flatten : ∀ (L : List (List (HloOp τ sig (Elt F)))) (V : Valuation τ sig (Elt F)),
    StableHlo.after L.flatten V = L.foldl (fun W l => StableHlo.after l W) V
  | [], _ => rfl
  | l :: L, V => by rw [List.flatten_cons, StableHlo.after_append, after_flatten L, List.foldl_cons]

variable (V : Valuation τ sig (Elt F)) (r : Ref sig .tc)

abbrev W0 : Valuation τ sig (Elt F) := StableHlo.after ops0 V
abbrev W1 : Valuation τ sig (Elt F) := StableHlo.after ops1 (W0 V)
abbrev W2 : Valuation τ sig (Elt F) := StableHlo.after ops2 (W1 V)
abbrev W3 : Valuation τ sig (Elt F) := StableHlo.after ops3 (W2 V)
abbrev W4 : Valuation τ sig (Elt F) := StableHlo.after ops4 (W3 V)
abbrev W5 : Valuation τ sig (Elt F) := StableHlo.after ops5 (W4 V)
abbrev W6 : Valuation τ sig (Elt F) := StableHlo.after ops6 (W5 V)
abbrev W7 : Valuation τ sig (Elt F) := StableHlo.after ops7 (W6 V)
abbrev W8 : Valuation τ sig (Elt F) := StableHlo.after ops8 (W7 V)
abbrev W9 : Valuation τ sig (Elt F) := StableHlo.after ops9 (W8 V)
abbrev W10 : Valuation τ sig (Elt F) := StableHlo.after ops10 (W9 V)
abbrev W11 : Valuation τ sig (Elt F) := StableHlo.after ops11 (W10 V)
abbrev W12 : Valuation τ sig (Elt F) := StableHlo.after ops12 (W11 V)
abbrev W13 : Valuation τ sig (Elt F) := StableHlo.after ops13 (W12 V)
abbrev W14 : Valuation τ sig (Elt F) := StableHlo.after ops14 (W13 V)
abbrev W15 : Valuation τ sig (Elt F) := StableHlo.after ops15 (W14 V)
abbrev W16 : Valuation τ sig (Elt F) := StableHlo.after ops16 (W15 V)
abbrev W17 : Valuation τ sig (Elt F) := StableHlo.after ops17 (W16 V)
abbrev W18 : Valuation τ sig (Elt F) := StableHlo.after ops18 (W17 V)
abbrev W19 : Valuation τ sig (Elt F) := StableHlo.after ops19 (W18 V)
abbrev W20 : Valuation τ sig (Elt F) := StableHlo.after ops20 (W19 V)
abbrev W21 : Valuation τ sig (Elt F) := StableHlo.after ops21 (W20 V)
abbrev W22 : Valuation τ sig (Elt F) := StableHlo.after ops22 (W21 V)
abbrev W23 : Valuation τ sig (Elt F) := StableHlo.after ops23 (W22 V)
abbrev W24 : Valuation τ sig (Elt F) := StableHlo.after ops24 (W23 V)
abbrev W25 : Valuation τ sig (Elt F) := StableHlo.after ops25 (W24 V)
abbrev W26 : Valuation τ sig (Elt F) := StableHlo.after ops26 (W25 V)

theorem after_ops : StableHlo.after ops V = W26 V :=
  after_flatten opss V

theorem W0_of (h : r ∉ ops0_W) : W0 V (Proc.devRef .tc r) = V (Proc.devRef .tc r) := after_of_results _ h
theorem W1_of (h : r ∉ ops1_W) : W1 V (Proc.devRef .tc r) = W0 V (Proc.devRef .tc r) := after_of_results _ h
theorem W2_of (h : r ∉ ops2_W) : W2 V (Proc.devRef .tc r) = W1 V (Proc.devRef .tc r) := after_of_results _ h
theorem W3_of (h : r ∉ ops3_W) : W3 V (Proc.devRef .tc r) = W2 V (Proc.devRef .tc r) := after_of_results _ h
theorem W4_of (h : r ∉ ops4_W) : W4 V (Proc.devRef .tc r) = W3 V (Proc.devRef .tc r) := after_of_results _ h
theorem W5_of (h : r ∉ ops5_W) : W5 V (Proc.devRef .tc r) = W4 V (Proc.devRef .tc r) := after_of_results _ h
theorem W6_of (h : r ∉ ops6_W) : W6 V (Proc.devRef .tc r) = W5 V (Proc.devRef .tc r) := after_of_results _ h
theorem W7_of (h : r ∉ ops7_W) : W7 V (Proc.devRef .tc r) = W6 V (Proc.devRef .tc r) := after_of_results _ h
theorem W8_of (h : r ∉ ops8_W) : W8 V (Proc.devRef .tc r) = W7 V (Proc.devRef .tc r) := after_of_results _ h
theorem W9_of (h : r ∉ ops9_W) : W9 V (Proc.devRef .tc r) = W8 V (Proc.devRef .tc r) := after_of_results _ h
theorem W10_of (h : r ∉ ops10_W) : W10 V (Proc.devRef .tc r) = W9 V (Proc.devRef .tc r) := after_of_results _ h
theorem W11_of (h : r ∉ ops11_W) : W11 V (Proc.devRef .tc r) = W10 V (Proc.devRef .tc r) := after_of_results _ h
theorem W12_of (h : r ∉ ops12_W) : W12 V (Proc.devRef .tc r) = W11 V (Proc.devRef .tc r) := after_of_results _ h
theorem W13_of (h : r ∉ ops13_W) : W13 V (Proc.devRef .tc r) = W12 V (Proc.devRef .tc r) := after_of_results _ h
theorem W14_of (h : r ∉ ops14_W) : W14 V (Proc.devRef .tc r) = W13 V (Proc.devRef .tc r) := after_of_results _ h
theorem W15_of (h : r ∉ ops15_W) : W15 V (Proc.devRef .tc r) = W14 V (Proc.devRef .tc r) := after_of_results _ h
theorem W16_of (h : r ∉ ops16_W) : W16 V (Proc.devRef .tc r) = W15 V (Proc.devRef .tc r) := after_of_results _ h
theorem W17_of (h : r ∉ ops17_W) : W17 V (Proc.devRef .tc r) = W16 V (Proc.devRef .tc r) := after_of_results _ h
theorem W18_of (h : r ∉ ops18_W) : W18 V (Proc.devRef .tc r) = W17 V (Proc.devRef .tc r) := after_of_results _ h
theorem W19_of (h : r ∉ ops19_W) : W19 V (Proc.devRef .tc r) = W18 V (Proc.devRef .tc r) := after_of_results _ h
theorem W20_of (h : r ∉ ops20_W) : W20 V (Proc.devRef .tc r) = W19 V (Proc.devRef .tc r) := after_of_results _ h
theorem W21_of (h : r ∉ ops21_W) : W21 V (Proc.devRef .tc r) = W20 V (Proc.devRef .tc r) := after_of_results _ h
theorem W22_of (h : r ∉ ops22_W) : W22 V (Proc.devRef .tc r) = W21 V (Proc.devRef .tc r) := after_of_results _ h
theorem W23_of (h : r ∉ ops23_W) : W23 V (Proc.devRef .tc r) = W22 V (Proc.devRef .tc r) := after_of_results _ h
theorem W24_of (h : r ∉ ops24_W) : W24 V (Proc.devRef .tc r) = W23 V (Proc.devRef .tc r) := after_of_results _ h
theorem W25_of (h : r ∉ ops25_W) : W25 V (Proc.devRef .tc r) = W24 V (Proc.devRef .tc r) := after_of_results _ h
theorem W26_of (h : r ∉ ops26_W) : W26 V (Proc.devRef .tc r) = W25 V (Proc.devRef .tc r) := after_of_results _ h

theorem after_ops_of
    (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) (h9 : r ∉ ops9_W) (h10 : r ∉ ops10_W) (h11 : r ∉ ops11_W) (h12 : r ∉ ops12_W) (h13 : r ∉ ops13_W) (h14 : r ∉ ops14_W) (h15 : r ∉ ops15_W) (h16 : r ∉ ops16_W) (h17 : r ∉ ops17_W) (h18 : r ∉ ops18_W) (h19 : r ∉ ops19_W) (h20 : r ∉ ops20_W) (h21 : r ∉ ops21_W) (h22 : r ∉ ops22_W) (h23 : r ∉ ops23_W) (h24 : r ∉ ops24_W) (h25 : r ∉ ops25_W) (h26 : r ∉ ops26_W) :
    StableHlo.after ops V (Proc.devRef .tc r) = V (Proc.devRef .tc r) := by
  rw [after_ops, W26_of V r h26, W25_of V r h25, W24_of V r h24, W23_of V r h23, W22_of V r h22, W21_of V r h21, W20_of V r h20, W19_of V r h19, W18_of V r h18, W17_of V r h17, W16_of V r h16, W15_of V r h15, W14_of V r h14, W13_of V r h13, W12_of V r h12, W11_of V r h11, W10_of V r h10, W9_of V r h9, W8_of V r h8, W7_of V r h7, W6_of V r h6, W5_of V r h5, W4_of V r h4, W3_of V r h3, W2_of V r h2, W1_of V r h1, W0_of V r h0]

end Cert.ReferenceIdeal.Hand

end
-- ==== Proof.RefRun.lean ====
import proofs.«429421_j77326591197817_3_alg».proof.Proof.RefOps

set_option maxRecDepth 1364

noncomputable section

namespace Cert.ReferenceIdeal.Hand

open Cert.ReferenceIdeal Cert.ReferenceIdeal.Gen Idealize.ShloMosaic Idealize.ShloMosaic.TcCoe Idealize.SL.Sem

variable {F : FTy → Type} [FloatOps F]

theorem chain_map_seq {nD : Nat} {τ : Topo} {sig : RefSig} {Val : EltTy → Type} {Λ : Labels} :
    ∀ L : List (List (HloOp τ sig Val)),
      (Pipeline.chain (L.map StableHlo.seq) : Prog (TpuEff nD τ sig Val Λ .tc) PUnit) = StableHlo.seq L.flatten
  | [] => rfl
  | l :: L => by rw [List.map_cons, Pipeline.chain_cons, chain_map_seq L, List.flatten_cons, StableHlo.seq_append]

-- Both sides peel to the same operations in the same order.
theorem main_eq (c : Dev nD) : main (F := F) c = StableHlo.seq ops := by
  rw [← chain_map_seq]; chain_rfl

theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (fun b => m (c, b)) (Proc.devRef .tc b) :=
  StableHlo.run_seq (by decide) (by decide) defs main (fun _ => ops) main_eq (fun _ => ops_sub) m ρ (fun _ => ops_fresh)

variable (V : Valuation τ sig (Elt F))

theorem kept_arg0 : StableHlo.after ops V (Proc.devRef .tc main_arg0) = V (Proc.devRef .tc main_arg0) := by apply after_ops_of <;> decide
theorem kept_arg1 : StableHlo.after ops V (Proc.devRef .tc main_arg1) = V (Proc.devRef .tc main_arg1) := by apply after_ops_of <;> decide
theorem kept_arg2 : StableHlo.after ops V (Proc.devRef .tc main_arg2) = V (Proc.devRef .tc main_arg2) := by apply after_ops_of <;> decide
theorem kept_arg3 : StableHlo.after ops V (Proc.devRef .tc main_arg3) = V (Proc.devRef .tc main_arg3) := by apply after_ops_of <;> decide
theorem kept_arg4 : StableHlo.after ops V (Proc.devRef .tc main_arg4) = V (Proc.devRef .tc main_arg4) := by apply after_ops_of <;> decide
theorem kept_arg5 : StableHlo.after ops V (Proc.devRef .tc main_arg5) = V (Proc.devRef .tc main_arg5) := by apply after_ops_of <;> decide
theorem kept_arg6 : StableHlo.after ops V (Proc.devRef .tc main_arg6) = V (Proc.devRef .tc main_arg6) := by apply after_ops_of <;> decide
theorem kept_arg7 : StableHlo.after ops V (Proc.devRef .tc main_arg7) = V (Proc.devRef .tc main_arg7) := by apply after_ops_of <;> decide
theorem kept_arg8 : StableHlo.after ops V (Proc.devRef .tc main_arg8) = V (Proc.devRef .tc main_arg8) := by apply after_ops_of <;> decide
theorem kept_arg9 : StableHlo.after ops V (Proc.devRef .tc main_arg9) = V (Proc.devRef .tc main_arg9) := by apply after_ops_of <;> decide
theorem kept_arg10 : StableHlo.after ops V (Proc.devRef .tc main_arg10) = V (Proc.devRef .tc main_arg10) := by apply after_ops_of <;> decide
theorem kept_arg11 : StableHlo.after ops V (Proc.devRef .tc main_arg11) = V (Proc.devRef .tc main_arg11) := by apply after_ops_of <;> decide
theorem kept_arg12 : StableHlo.after ops V (Proc.devRef .tc main_arg12) = V (Proc.devRef .tc main_arg12) := by apply after_ops_of <;> decide
theorem kept_arg13 : StableHlo.after ops V (Proc.devRef .tc main_arg13) = V (Proc.devRef .tc main_arg13) := by apply after_ops_of <;> decide
theorem kept_arg14 : StableHlo.after ops V (Proc.devRef .tc main_arg14) = V (Proc.devRef .tc main_arg14) := by apply after_ops_of <;> decide

end Cert.ReferenceIdeal.Hand

end
-- ==== Proof.RefValue1.lean ====
import proofs.«429421_j77326591197817_3_alg».proof.Proof.Gen.ReferenceIdeal
import proofs.«429421_j77326591197817_3_alg».proof.Proof.HostIdx
import Idealize.ShloMosaic.Lib.ValueIdx
import Idealize.ShloMosaic.Lib.Pipeline.Value
import Idealize.ShloMosaic.Lib.IdealHost

noncomputable section

namespace Cert.ReferenceIdeal.Hand

open Cert.ReferenceIdeal Cert.ReferenceIdeal.Gen Idealize.ShloMosaic
open Idealize.ShloMosaic.ValueIdx Cert.GNN Cert.ScatterGather
open scoped BigOperators

theorem colSpread_apply {α : Type} {E H : Nat} (h : (⟨2, ![E, 1]⟩ : Shape).BroadcastsInDim ⟨2, ![E, H]⟩ ![0, 1])
    (y : (⟨2, ![E, 1]⟩ : Shape).Idx → α) (e : Fin E) (l : Fin H) :
    broadcastInDim ⟨2, ![E, H]⟩ ![0, 1] h y (ix2 e l) = y (ix2 e (0 : Fin 1)) := by
  refine broadcastInDim_apply ![0, 1] h y (ix2 e l) (ix2 e (0 : Fin 1)) ?_
  intro a
  fin_cases a
  · show e.val = if E = 1 then 0 else e.val
    split_ifs with hn
    · have := e.isLt; omega
    · rfl
  · show (0 : ℕ) = if (1 : ℕ) = 1 then 0 else _
    simp

theorem gatherRows_apply (ei : Fin 2 → Fin E0 → BitVec 32) (XW : FVec Ideal S100000x128 .f32) (ws : IVec S1700000 32)
    (hws : ∀ e : Fin EE, ws (ix1 e) = wrapW (extWord ei 0 e)) (e : Fin EE) (l : Fin DD) :
    Host.gather gather_S100000x128_S1700000x1_S1700000x128_1_0_n_n_0_1_1128 XW
      (broadcastInDim S1700000x1 ![0] bcast_S1700000_S1700000x1_0 ws) (ix2 e l) = XW (ix2 (srcOf ei e) l) := by
  rw [gather_rows_apply (by show 0 < 100000; omega : 0 < NN) gather_S100000x128_S1700000x1_S1700000x128_1_0_n_n_0_1_1128
    rfl rfl rfl rfl rfl rfl rfl, column_apply, hws]
  rfl

def wrapT (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

def convT (G : FVec Ideal S1700000x128 .f32) (ws wd v7 : IVec S1700000 32) (dinv : FVec Ideal S100000 .f32)
    (B : FVec Ideal S100000x128 .f32) : FVec Ideal S100000x128 .f32 :=
  addf (Host.scatterAdd scatter_S100000x128_S1700000x1_S1700000x128_1_0_0_1
      (broadcastInDim S100000x128 ![] bcast_S_S100000x128 (constant (F := Ideal) S_ .f32 0x00000000#32))
      (broadcastInDim S1700000x1 ![0] bcast_S1700000_S1700000x1_0 v7)
      (mulf G (broadcastInDim S1700000x128 ![0, 1] bcast_S1700000x1_S1700000x128_0_1
        (broadcastInDim S1700000x1 ![0] bcast_S1700000_S1700000x1_0
          (mulf
            (Host.gather gather_S100000_S1700000x1_S1700000_n_0_n_n_0_1_1 dinv
              (broadcastInDim S1700000x1 ![0] bcast_S1700000_S1700000x1_0 ws))
            (Host.gather gather_S100000_S1700000x1_S1700000_n_0_n_n_0_1_1 dinv
              (broadcastInDim S1700000x1 ![0] bcast_S1700000_S1700000x1_0 wd)))))))
    B

theorem conv_apply (ei : Fin 2 → Fin E0 → BitVec 32)
    (G : FVec Ideal S1700000x128 .f32) (ws wd v7 : IVec S1700000 32) (dinv : FVec Ideal S100000 .f32)
    (B : FVec Ideal S100000x128 .f32) (xw : NodeMat) (b : Row)
    (hG : ∀ (e : Fin EE) (l : Fin DD), G (ix2 e l) = xw (srcOf ei e) l)
    (hws : ∀ e : Fin EE, ws (ix1 e) = wrapW (extWord ei 0 e))
    (hwd : ∀ e : Fin EE, wd (ix1 e) = wrapW (extWord ei 1 e))
    (h7 : ∀ e : Fin EE, v7 (ix1 e) = extWord ei 1 e)
    (hd : ∀ j : Fin NN, dinv (ix1 j) = dinvOf ei j)
    (hB : ∀ (j : Fin NN) (l : Fin DD), B (ix2 j l) = b l) (j : Fin NN) (l : Fin DD) :
    convT G ws wd v7 dinv B (ix2 j l) = convRef (srcOf ei) (dstOf ei) (tgtOf ei) (dinvOf ei) xw b j l := by
  unfold convT
  have hN : 0 < NN := by show 0 < 100000; omega
  have key : ∀ (x : FVec Ideal S100000x128 .f32) (col : IVec S1700000x1 32) (upd : FVec Ideal S1700000x128 .f32),
      Host.scatterAdd (F := Ideal) scatter_S100000x128_S1700000x1_S1700000x128_1_0_0_1 x col upd (ix2 j l)
        = x (ix2 j l) + ∑ e ∈ Finset.univ.filter (fun e : Fin EE => tgtW NN (col (ix2 e 0)) = some j), upd (ix2 e l) :=
    fun x col upd => scatterAdd_rows_apply scatter_S100000x128_S1700000x1_S1700000x128_1_0_0_1 rfl rfl rfl rfl x col upd j l
  rw [addf_apply, key, hB, broadcastInDim_scalar_apply]
  unfold convRef into
  refine congrArg₂ (· + ·) (congrArg₂ (· + ·) ?_ ?_) rfl
  · exact Ideal.ofBits_zero_f32
  · refine Finset.sum_congr (Finset.filter_congr fun e _ => ?_) (fun e _ => ?_)
    · rw [column_apply, h7]
      rfl
    · rw [mulf_apply, hG, colSpread_apply, column_apply, mulf_apply,
        gather_vec_apply hN gather_S100000_S1700000x1_S1700000_n_0_n_n_0_1_1 rfl rfl rfl rfl,
        gather_vec_apply hN gather_S100000_S1700000x1_S1700000_n_0_n_n_0_1_1 rfl rfl rfl rfl,
        column_apply, column_apply, hws, hwd, hd, hd]
      rfl

end Cert.ReferenceIdeal.Hand

end
-- ==== Proof.RefTerms.lean ====
import proofs.«429421_j77326591197817_3_alg».proof.Proof.Gen.ReferenceIdeal
import proofs.«429421_j77326591197817_3_alg».proof.Proof.SpecIdx
import proofs.«429421_j77326591197817_3_alg».proof.Proof.LibDotPlain
import Idealize.ShloMosaic.Lib.IdealHost
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Cert.GNN Cert.ScatterGather
open Idealize.ShloMosaic Idealize.ShloMosaic.ValueIdx
open scoped BigOperators

theorem rowBcast_apply {α : Type} {n d : Nat} {h1 : (⟨1, ![d]⟩ : Shape).BroadcastsInDim ⟨2, ![1, d]⟩ ![1]}
    {h2 : (⟨2, ![1, d]⟩ : Shape).BroadcastsInDim ⟨2, ![n, d]⟩ ![0, 1]} (r : (⟨1, ![d]⟩ : Shape).Idx → α)
    (j : Fin n) (l : Fin d) :
    broadcastInDim ⟨2, ![n, d]⟩ ![0, 1] h2 (broadcastInDim ⟨2, ![1, d]⟩ ![1] h1 r) (ix2 j l) = r (ix1 l) := by
  have hl := l.isLt
  refine (broadcastInDim_apply ![0, 1] h2 _ (ix2 j l) (ix2 (0 : Fin 1) l) ?_).trans
    (broadcastInDim_apply ![1] h1 r (ix2 (0 : Fin 1) l) (ix1 l) ?_)
  · refine Fin.forall_fin_two.2 ⟨?_, ?_⟩
    · show (0 : Nat) = if (1 : Nat) = 1 then 0 else j.val
      rfl
    · show l.val = if d = 1 then 0 else l.val
      split
      · omega
      · rfl
  · intro a
    obtain rfl : a = 0 := Subsingleton.elim _ _
    show l.val = if d = 1 then 0 else l.val
    split
    · omega
    · rfl

theorem colBcast_apply {α : Type} {n : Nat} {h : (⟨1, ![n]⟩ : Shape).BroadcastsInDim ⟨2, ![n, 1]⟩ ![0]}
    (v : (⟨1, ![n]⟩ : Shape).Idx → α) (p : Fin n) :
    broadcastInDim ⟨2, ![n, 1]⟩ ![0] h v (ix2 p 0) = v (ix1 p) := by
  have hp := p.isLt
  refine broadcastInDim_apply ![0] h v (ix2 p 0) (ix1 p) (fun a => ?_)
  obtain rfl : a = 0 := Subsingleton.elim _ _
  show p.val = if n = 1 then 0 else p.val
  split
  · omega
  · rfl

def rowT (r : FVec Ideal S128 .f32) : FVec Ideal S100000x128 .f32 :=
  broadcastInDim S100000x128 ![0, 1] bcast_S1x128_S100000x128_0_1 (broadcastInDim S1x128 ![1] bcast_S128_S1x128_1 r)

theorem rowT_apply (r : FVec Ideal S128 .f32) (j : Fin NN) (l : Fin DD) : rowT r (ix2 j l) = r (ix1 l) :=
  rowBcast_apply r j l

def meanT (v : FVec Ideal S100000x128 .f32) : FVec Ideal S128 .f32 :=
  Host.divf (Host.reduceAdd v (constant S_ .f32 0x00000000#32) reducesTo_S100000x128_S128_d0 h_S_)
    (broadcastInDim S128 ![] bcast_S_S128 (constant S_ .f32 0x47C35000#32))

def bnT (v : FVec Ideal S100000x128 .f32) (g be : FVec Ideal S128 .f32) : FVec Ideal S100000x128 .f32 :=
  addf (mulf (mulf (subf v (rowT (meanT v)))
    (rowT (Host.rsqrt (addf (meanT (mulf (subf v (rowT (meanT v))) (subf v (rowT (meanT v)))))
      (broadcastInDim S128 ![] bcast_S_S128 (constant S_ .f32 0x3727C5AC#32)))))) (rowT g)) (rowT be)

theorem colSum_apply {hred : S100000x128.ReducesTo [0] S128} {hS : 0 < S_.numel}
    (v : FVec Ideal S100000x128 .f32) (l : Fin DD) :
    Host.reduceAdd v (constant S_ .f32 0x00000000#32) hred hS (ix1 l) = 0 + ∑ j : Fin NN, v (ix2 j l) := by
  have hR : S100000x128.Reduces [0] S128 := by decide
  show Ideal.hostReduceAdd hred v (Ideal.ofBits .f32 0x00000000#32) (ix1 l) = _
  rw [Ideal.hostReduceAdd_single hred hR, Ideal.ofBits_zero_f32]
  refine congrArg (fun s => (0 : EReal) + s) (Finset.sum_congr rfl fun k _ => congrArg v ?_)
  funext a
  match a with
  | ⟨0, _⟩ => exact Fin.ext rfl
  | ⟨1, _⟩ => exact Fin.ext rfl

theorem mean_apply (v : FVec Ideal S100000x128 .f32) (l : Fin DD) :
    meanT v (ix1 l) = colMean (fun j l => v (ix2 j l)) l := by
  rw [meanT, hostDivf_apply, colSum_apply, broadcastInDim_scalar_apply]
  rfl

theorem var_apply (v : FVec Ideal S100000x128 .f32) (mean : FVec Ideal S128 .f32) (l : Fin DD) :
    meanT (mulf (subf v (rowT mean)) (subf v (rowT mean))) (ix1 l)
      = colVar (fun j l => v (ix2 j l)) (fun l => mean (ix1 l)) l := by
  rw [meanT, hostDivf_apply, colSum_apply, broadcastInDim_scalar_apply]
  show Ideal.div (0 + ∑ j : Fin NN, (v (ix2 j l) - rowT mean (ix2 j l)) * (v (ix2 j l) - rowT mean (ix2 j l))) cN
    = Ideal.div (0 + ∑ j : Fin NN, (v (ix2 j l) - mean (ix1 l)) * (v (ix2 j l) - mean (ix1 l))) cN
  refine congrArg (fun s => Ideal.div ((0 : EReal) + s) cN) (Finset.sum_congr rfl fun j _ => ?_)
  rw [rowT_apply]

theorem bn_apply (X : FVec Ideal S100000x128 .f32) (g be : FVec Ideal S128 .f32) (v : NodeMat)
    (hX : ∀ (j : Fin NN) (l : Fin DD), X (ix2 j l) = v j l) (j : Fin NN) (l : Fin DD) :
    maximumf (bnT X g be) (broadcastInDim S100000x128 ![] bcast_S_S100000x128 (constant S_ .f32 0x00000000#32)) (ix2 j l)
      = bnRelu v (colMean v) (colVar v (colMean v)) (fun l => g (ix1 l)) (fun l => be (ix1 l)) j l := by
  have hXf : (fun j l => X (ix2 j l)) = v := funext fun j => funext fun l => hX j l
  have hM : (fun l => meanT X (ix1 l)) = colMean v := funext fun l => by rw [mean_apply, hXf]
  have hS : (fun l => meanT (mulf (subf X (rowT (meanT X))) (subf X (rowT (meanT X)))) (ix1 l)) = colVar v (colMean v) :=
    funext fun l => by rw [var_apply, hXf, hM]
  rw [bnT, maximumf_apply, addf_apply, mulf_apply, mulf_apply, subf_apply, broadcastInDim_scalar_apply,
    rowT_apply, rowT_apply, rowT_apply, rowT_apply]
  show max ((X (ix2 j l) - meanT X (ix1 l))
      * Ideal.rsqrt (meanT (mulf (subf X (rowT (meanT X))) (subf X (rowT (meanT X)))) (ix1 l)
        + broadcastInDim S128 ![] bcast_S_S128 (constant (F := Ideal) S_ .f32 0x3727C5AC#32) (ix1 l))
      * g (ix1 l) + be (ix1 l)) (Ideal.ofBits .f32 0x00000000#32) = _
  rw [broadcastInDim_scalar_apply, Ideal.ofBits_zero_f32, ← hS, ← hM, ← hXf]
  rfl

theorem lin_apply (h : FVec Ideal S100000x128 .f32) (W : FVec Ideal S128x128 .f32) (i : Fin NN) (l : Fin DD) :
    Host.dotGeneral dot_S100000x128_S128x128_S100000x128_1_0_0_1_n_n none h W (ix2 i l)
      = lin (fun i k => h (ix2 i k)) (fun k l => W (ix2 k l)) i l :=
  Cert.DotPlain.dotGeneral_rows_cols dot_S100000x128_S128x128_S100000x128_1_0_0_1_n_n rfl rfl rfl rfl rfl rfl none .single h W i l

theorem ofBits_posInf_f32 : Ideal.ofBits .f32 0x7F800000#32 = ⊤ := by
  simp [Ideal.ofBits, Ideal.ieee]
theorem ofBits_negInf_f32 : Ideal.ofBits .f32 0xFF800000#32 = ⊥ := by
  simp [Ideal.ofBits, Ideal.ieee]

theorem cmp_oeq_eq_one_iff (x y : EReal) : Ideal.cmp .oeq x y = 1 ↔ x = y := by
  unfold Ideal.cmp
  exact (StableHlo.Predicate.ofBool_eq_one_iff _).trans decide_eq_true_iff

theorem cmp_une_self_ne_one (x : EReal) : Ideal.cmp .une x x ≠ 1 := by
  show ¬ BitVec.ofBool (decide (x ≠ x)) = 1#1
  rw [StableHlo.Predicate.ofBool_eq_one_iff]
  simp

theorem scrub_apply {s : Shape} {hb : S_.BroadcastsInDim s ![]} (x : FVec Ideal s .f32) (c0 : FVec Ideal S_ .f32) (i : s.Idx) :
    select
        (cmpf .oeq
          (select
            (cmpf .oeq (select (cmpf .une x x) (broadcastInDim s ![] hb (id c0)) x)
              (broadcastInDim s ![] hb (constant S_ .f32 0x7F800000#32)))
            (broadcastInDim s ![] hb (constant S_ .f32 0x7F7FFFFF#32))
            (select (cmpf .une x x) (broadcastInDim s ![] hb (id c0)) x))
          (broadcastInDim s ![] hb (constant S_ .f32 0xFF800000#32)))
        (broadcastInDim s ![] hb (constant S_ .f32 0xFF7FFFFF#32))
        (select
          (cmpf .oeq (select (cmpf .une x x) (broadcastInDim s ![] hb (id c0)) x)
            (broadcastInDim s ![] hb (constant S_ .f32 0x7F800000#32)))
          (broadcastInDim s ![] hb (constant S_ .f32 0x7F7FFFFF#32))
          (select (cmpf .une x x) (broadcastInDim s ![] hb (id c0)) x)) i
      = scrub (x i) := by
  have hA : select (cmpf .une x x) (broadcastInDim s ![] hb (id c0)) x i = x i := by
    show Scalar.select (Ideal.cmp .une (x i) (x i)) _ (x i) = x i
    unfold Scalar.select
    rw [if_neg (cmp_une_self_ne_one _)]
  have hB : select
      (cmpf .oeq (select (cmpf .une x x) (broadcastInDim s ![] hb (id c0)) x)
        (broadcastInDim s ![] hb (constant S_ .f32 0x7F800000#32)))
      (broadcastInDim s ![] hb (constant S_ .f32 0x7F7FFFFF#32))
      (select (cmpf .une x x) (broadcastInDim s ![] hb (id c0)) x) i = if x i = ⊤ then cMax else x i := by
    show Scalar.select (Ideal.cmp .oeq (select (cmpf .une x x) (broadcastInDim s ![] hb (id c0)) x i)
        (broadcastInDim s ![] hb (constant (F := Ideal) S_ .f32 0x7F800000#32) i))
      (broadcastInDim s ![] hb (constant (F := Ideal) S_ .f32 0x7F7FFFFF#32) i)
      (select (cmpf .une x x) (broadcastInDim s ![] hb (id c0)) x i) = _
    rw [hA, broadcastInDim_scalar_apply, broadcastInDim_scalar_apply]
    show Scalar.select (Ideal.cmp .oeq (x i) (Ideal.ofBits .f32 0x7F800000#32)) cMax (x i) = _
    rw [ofBits_posInf_f32]
    unfold Scalar.select
    exact if_congr (cmp_oeq_eq_one_iff _ _) rfl rfl
  show Scalar.select (Ideal.cmp .oeq _ (broadcastInDim s ![] hb (constant (F := Ideal) S_ .f32 0xFF800000#32) i))
      (broadcastInDim s ![] hb (constant (F := Ideal) S_ .f32 0xFF7FFFFF#32) i) _ = _
  rw [hB, broadcastInDim_scalar_apply, broadcastInDim_scalar_apply]
  show Scalar.select (Ideal.cmp .oeq _ (Ideal.ofBits .f32 0xFF800000#32)) cMin _ = _
  rw [ofBits_negInf_f32]
  unfold Scalar.select scrub
  exact if_congr (cmp_oeq_eq_one_iff _ _) rfl rfl

theorem pool_apply {hb0 : S_.BroadcastsInDim S64x128 ![]} {hcol : S100000.BroadcastsInDim S100000x1 ![0]}
    (h : FVec Ideal S100000x128 .f32) (B : IVec S100000 32) (g : Fin GG) (l : Fin DD) :
    Host.scatterAdd scatter_S64x128_S100000x1_S100000x128_1_0_0_1
        (broadcastInDim S64x128 ![] hb0 (constant S_ .f32 0x00000000#32))
        (broadcastInDim S100000x1 ![0] hcol B) h (ix2 g l)
      = Cert.GNN.pool (btgtOf fun j => B (ix1 j)) (fun j l => h (ix2 j l)) g l := by
  show Ideal.hostScatterAdd scatter_S64x128_S100000x1_S100000x128_1_0_0_1 _ _ h (ix2 g l) = _
  rw [scatterAdd_rows_apply scatter_S64x128_S100000x1_S100000x128_1_0_0_1 rfl rfl rfl rfl, broadcastInDim_scalar_apply]
  show Ideal.ofBits .f32 0x00000000#32 + _ = _
  rw [Ideal.ofBits_zero_f32]
  unfold Cert.GNN.pool
  refine congrArg (fun s => (0 : EReal) + s) (Finset.sum_congr (Finset.filter_congr fun e _ => ?_) fun e _ => rfl)
  rw [colBcast_apply]
  rfl

end Cert.ReferenceIdeal.Hand

end
-- ==== Proof.RefValue3.lean ====
import proofs.«429421_j77326591197817_3_alg».proof.Proof.RefValue1
import proofs.«429421_j77326591197817_3_alg».proof.Proof.RefTerms

noncomputable section

namespace Cert.ReferenceIdeal.Hand

open Cert.ReferenceIdeal Cert.ReferenceIdeal.Gen Idealize.ShloMosaic
open Idealize.ShloMosaic.ValueIdx Cert.GNN Cert.ScatterGather
open scoped BigOperators

theorem wrapT_apply (ei : Fin 2 → Fin E0 → BitVec 32) (v : IVec S1700000 32) (r : Fin 2)
    (h : ∀ e : Fin EE, v (ix1 e) = extWord ei r e) (e : Fin EE) : wrapT v (ix1 e) = wrapW (extWord ei r e) :=
  (wrap_bcast_apply bcast_S_S1700000 v (ix1 e)).trans (congrArg wrapW (h e))

theorem layer_apply (ei : Fin 2 → Fin E0 → BitVec 32)
    (H : FVec Ideal S100000x128 .f32) (W : FVec Ideal S128x128 .f32) (v6 v7 : IVec S1700000 32)
    (dinv : FVec Ideal S100000 .f32) (b : FVec Ideal S128 .f32) (h : NodeMat)
    (hH : ∀ (i : Fin NN) (k : Fin DD), H (ix2 i k) = h i k)
    (h6 : ∀ e : Fin EE, v6 (ix1 e) = extWord ei 0 e)
    (h7 : ∀ e : Fin EE, v7 (ix1 e) = extWord ei 1 e)
    (hd : ∀ j : Fin NN, dinv (ix1 j) = dinvOf ei j) (j : Fin NN) (l : Fin DD) :
    convT (Host.gather gather_S100000x128_S1700000x1_S1700000x128_1_0_n_n_0_1_1128
        (Host.dotGeneral dot_S100000x128_S128x128_S100000x128_1_0_0_1_n_n none H W)
        (broadcastInDim S1700000x1 ![0] bcast_S1700000_S1700000x1_0 (wrapT v6)))
      (wrapT v6) (wrapT v7) v7 dinv (rowT b) (ix2 j l)
    = convRef (srcOf ei) (dstOf ei) (tgtOf ei) (dinvOf ei) (lin h (fun k l => W (ix2 k l))) (fun l => b (ix1 l)) j l := by
  have hHf : (fun i k => H (ix2 i k)) = h := funext fun i => funext fun k => hH i k
  refine conv_apply ei _ _ _ v7 dinv _ (lin h (fun k l => W (ix2 k l))) (fun l => b (ix1 l)) ?_
    (wrapT_apply ei v6 0 h6) (wrapT_apply ei v7 1 h7) h7 hd (rowT_apply b) j l
  intro e l
  rw [gatherRows_apply ei _ _ (wrapT_apply ei v6 0 h6) e l, lin_apply, hHf]

end Cert.ReferenceIdeal.Hand

end
-- ==== Proof.RefValue2.lean ====
import proofs.«429421_j77326591197817_3_alg».proof.Proof.RefOps
import proofs.«429421_j77326591197817_3_alg».proof.Proof.RefValue3
import Idealize.ShloMosaic.Lib.StableHlo.Run
import Idealize.ShloMosaic.PureOps.Ideal

set_option maxRecDepth 1364

noncomputable section

namespace Cert.ReferenceIdeal.Hand

open Cert.ReferenceIdeal Cert.ReferenceIdeal.Gen Idealize.ShloMosaic Idealize.ShloMosaic.TcCoe Idealize.SL.Sem Idealize.ShloMosaic.StableHlo
open scoped BigOperators

variable {F : FTy → Type} [FloatOps F]

abbrev ops15a : List (HloOp τ sig (Elt F)) := ops15.take 25
abbrev ops15b : List (HloOp τ sig (Elt F)) := ops15.drop 25

theorem after15 (Y : Valuation τ sig (Elt F)) :
    StableHlo.after ops15 Y = StableHlo.after ops15b (StableHlo.after ops15a Y) := by
  rw [← StableHlo.after_append, List.take_append_drop]

theorem s0_v1 (Y : Valuation τ sig (Elt Ideal)) :
    @Eq (IVec S1600000 32) (StableHlo.after ops0 Y (Proc.devRef .tc main_v1))
      (shapeCast S1600000 (extractStridedSlice S1x1600000 ![0, 0] (@id (IVec S2x1600000 32) (Y (Proc.devRef .tc main_arg1))) slices_S2x1600000_S1x1600000_0_0) shapeCasts_S1x1600000_S1600000) := by
  (after_results) <;> rfl

theorem s0_v3 (Y : Valuation τ sig (Elt Ideal)) :
    @Eq (IVec S1600000 32) (StableHlo.after ops0 Y (Proc.devRef .tc main_v3))
      (shapeCast S1600000 (extractStridedSlice S1x1600000 ![1, 0] (@id (IVec S2x1600000 32) (Y (Proc.devRef .tc main_arg1))) slices_S2x1600000_S1x1600000_1_0) shapeCasts_S1x1600000_S1600000) := by
  (after_results) <;> rfl

theorem s1_c0v0 (Y : Valuation τ sig (Elt Ideal)) :
    @Eq (IVec S100000x128 1) (StableHlo.after ops1 Y (Proc.devRef .tc main_call0_v0))
      (cmpf .une (@id (FVec Ideal S100000x128 .f32) (Y (Proc.devRef .tc main_arg0))) (@id (FVec Ideal S100000x128 .f32) (Y (Proc.devRef .tc main_arg0)))) := by
  (after_results) <;> rfl

theorem s1_c0v1 (Y : Valuation τ sig (Elt Ideal)) :
    @Eq (FVec Ideal S_ .f32) (StableHlo.after ops1 Y (Proc.devRef .tc main_call0_v1))
      (id (@id (FVec Ideal S_ .f32) (Y (Proc.devRef .tc main_cst)))) := by
  (after_results) <;> rfl

theorem s2_c0v2 (Y : Valuation τ sig (Elt Ideal)) :
    @Eq (FVec Ideal S100000x128 .f32) (StableHlo.after ops2 Y (Proc.devRef .tc main_call0_v2))
      (select (@id (IVec S100000x128 1) (Y (Proc.devRef .tc main_call0_v0))) (broadcastInDim S100000x128 ![] bcast_S_S100000x128 (@id (FVec Ideal S_ .f32) (Y (Proc.devRef .tc main_call0_v1)))) (@id (FVec Ideal S100000x128 .f32) (Y (Proc.devRef .tc main_arg0)))) := by
  (after_results) <;> rfl

theorem s3_c0v4 (Y : Valuation τ sig (Elt Ideal)) :
    @Eq (IVec S100000x128 1) (StableHlo.after ops3 Y (Proc.devRef .tc main_call0_v4))
      (cmpf .oeq (@id (FVec Ideal S100000x128 .f32) (Y (Proc.devRef .tc main_call0_v2))) (broadcastInDim S100000x128 ![] bcast_S_S100000x128 (constant (F := Ideal) S_ .f32 0x7F800000#32 : FVec Ideal S_ .f32))) := by
  (after_results) <;> rfl

theorem s3_c0cst0 (Y : Valuation τ sig (Elt Ideal)) :
    @Eq (FVec Ideal S_ .f32) (StableHlo.after ops3 Y (Proc.devRef .tc main_call0_cst_0))
      (constant (F := Ideal) S_ .f32 0x7F7FFFFF#32 : FVec Ideal S_ .f32) := by
  (after_results) <;> rfl

theorem s4_c0v5 (Y : Valuation τ sig (Elt Ideal)) :
    @Eq (FVec Ideal S100000x128 .f32) (StableHlo.after ops4 Y (Proc.devRef .tc main_call0_v5))
      (select (@id (IVec S100000x128 1) (Y (Proc.devRef .tc main_call0_v4))) (broadcastInDim S100000x128 ![] bcast_S_S100000x128 (@id (FVec Ideal S_ .f32) (Y (Proc.devRef .tc main_call0_cst_0)))) (@id (FVec Ideal S100000x128 .f32) (Y (Proc.devRef .tc main_call0_v2)))) := by
  (after_results) <;> rfl

theorem s5_c0v7 (Y : Valuation τ sig (Elt Ideal)) :
    @Eq (IVec S100000x128 1) (StableHlo.after ops5 Y (Proc.devRef .tc main_call0_v7))
      (cmpf .oeq (@id (FVec Ideal S100000x128 .f32) (Y (Proc.devRef .tc main_call0_v5))) (broadcastInDim S100000x128 ![] bcast_S_S100000x128 (constant (F := Ideal) S_ .f32 0xFF800000#32 : FVec Ideal S_ .f32))) := by
  (after_results) <;> rfl

theorem s5_c0cst2 (Y : Valuation τ sig (Elt Ideal)) :
    @Eq (FVec Ideal S_ .f32) (StableHlo.after ops5 Y (Proc.devRef .tc main_call0_cst_2))
      (constant (F := Ideal) S_ .f32 0xFF7FFFFF#32 : FVec Ideal S_ .f32) := by
  (after_results) <;> rfl

theorem s6_v4 (Y : Valuation τ sig (Elt Ideal)) :
    @Eq (FVec Ideal S100000x128 .f32) (StableHlo.after ops6 Y (Proc.devRef .tc main_v4))
      (select (@id (IVec S100000x128 1) (Y (Proc.devRef .tc main_call0_v7))) (broadcastInDim S100000x128 ![] bcast_S_S100000x128 (@id (FVec Ideal S_ .f32) (Y (Proc.devRef .tc main_call0_cst_2)))) (@id (FVec Ideal S100000x128 .f32) (Y (Proc.devRef .tc main_call0_v5)))) := by
  (after_results) <;> rfl

theorem s7_v6 (Y : Valuation τ sig (Elt Ideal)) :
    @Eq (IVec S1700000 32) (StableHlo.after ops7 Y (Proc.devRef .tc main_v6))
      (concatenate S1700000 0 [⟨S1600000, (@id (IVec S1600000 32) (Y (Proc.devRef .tc main_v1)))⟩, ⟨S100000, (iotaInDim S100000 32 0 : IVec S100000 32)⟩] concatenates_S1600000_S100000_S1700000_d0) := by
  (after_results) <;> rfl

theorem s7_v7 (Y : Valuation τ sig (Elt Ideal)) :
    @Eq (IVec S1700000 32) (StableHlo.after ops7 Y (Proc.devRef .tc main_v7))
      (concatenate S1700000 0 [⟨S1600000, (@id (IVec S1600000 32) (Y (Proc.devRef .tc main_v3)))⟩, ⟨S100000, (iotaInDim S100000 32 0 : IVec S100000 32)⟩] concatenates_S1600000_S100000_S1700000_d0) := by
  (after_results) <;> rfl

set_option maxHeartbeats 8000000 in
theorem s7_v11 (Y : Valuation τ sig (Elt Ideal)) :
    @Eq (FVec Ideal S100000 .f32) (StableHlo.after ops7 Y (Proc.devRef .tc main_v11))
      (Host.scatterAdd scatter_S100000_S1700000x1_S1700000_n_0_0_1 (broadcastInDim S100000 ![] bcast_S_S100000 (constant (F := Ideal) S_ .f32 0x00000000#32 : FVec Ideal S_ .f32)) (broadcastInDim S1700000x1 ![0] bcast_S1700000_S1700000x1_0 (@id (IVec S1700000 32) (StableHlo.after ops7 Y (Proc.devRef .tc main_v7)))) (broadcastInDim S1700000 ![] bcast_S_S1700000 (constant (F := Ideal) S_ .f32 0x3F800000#32 : FVec Ideal S_ .f32))) := by
  rw [s7_v7 Y]; (after_results) <;> rfl

set_option maxHeartbeats 8000000 in
theorem s7_v13 (Y : Valuation τ sig (Elt Ideal)) :
    @Eq (IVec S100000 1) (StableHlo.after ops7 Y (Proc.devRef .tc main_v13))
      (cmpf .ogt (@id (FVec Ideal S100000 .f32) (StableHlo.after ops7 Y (Proc.devRef .tc main_v11))) (broadcastInDim S100000 ![] bcast_S_S100000 (constant (F := Ideal) S_ .f32 0x00000000#32 : FVec Ideal S_ .f32))) := by
  rw [s7_v11 Y, s7_v7 Y]; (after_results) <;> rfl

set_option maxHeartbeats 8000000 in
theorem s7_v14 (Y : Valuation τ sig (Elt Ideal)) :
    @Eq (FVec Ideal S100000 .f32) (StableHlo.after ops7 Y (Proc.devRef .tc main_v14))
      (Host.rsqrt (@id (FVec Ideal S100000 .f32) (StableHlo.after ops7 Y (Proc.devRef .tc main_v11)))) := by
  rw [s7_v11 Y, s7_v7 Y]; (after_results) <;> rfl

theorem s7_cst3 (Y : Valuation τ sig (Elt Ideal)) :
    @Eq (FVec Ideal S_ .f32) (StableHlo.after ops7 Y (Proc.devRef .tc main_cst_3))
      (constant (F := Ideal) S_ .f32 0x00000000#32 : FVec Ideal S_ .f32) := by
  (after_results) <;> rfl

theorem s8_v15 (Y : Valuation τ sig (Elt Ideal)) :
    @Eq (FVec Ideal S100000 .f32) (StableHlo.after ops8 Y (Proc.devRef .tc main_v15))
      (select (@id (IVec S100000 1) (Y (Proc.devRef .tc main_v13))) (@id (FVec Ideal S100000 .f32) (Y (Proc.devRef .tc main_v14))) (broadcastInDim S100000 ![] bcast_S_S100000 (id (@id (FVec Ideal S_ .f32) (Y (Proc.devRef .tc main_cst_3)))))) := by
  (after_results) <;> rfl

set_option maxHeartbeats 8000000 in
theorem s9_v47 (Y : Valuation τ sig (Elt Ideal)) :
    @Eq (FVec Ideal S100000x128 .f32) (StableHlo.after ops9 Y (Proc.devRef .tc main_v47))
      (convT (Host.gather gather_S100000x128_S1700000x1_S1700000x128_1_0_n_n_0_1_1128 (Host.dotGeneral dot_S100000x128_S128x128_S100000x128_1_0_0_1_n_n none (@id (FVec Ideal S100000x128 .f32) (Y (Proc.devRef .tc main_v4))) (@id (FVec Ideal S128x128 .f32) (Y (Proc.devRef .tc main_arg3)))) (broadcastInDim S1700000x1 ![0] bcast_S1700000_S1700000x1_0 (wrapT (@id (IVec S1700000 32) (Y (Proc.devRef .tc main_v6))))))
        (wrapT (@id (IVec S1700000 32) (Y (Proc.devRef .tc main_v6)))) (wrapT (@id (IVec S1700000 32) (Y (Proc.devRef .tc main_v7)))) (@id (IVec S1700000 32) (Y (Proc.devRef .tc main_v7))) (@id (FVec Ideal S100000 .f32) (Y (Proc.devRef .tc main_v15))) (rowT (@id (FVec Ideal S128 .f32) (Y (Proc.devRef .tc main_arg4))))) := by
  (after_results_simp) <;> rfl

set_option maxHeartbeats 8000000 in
theorem s10_v72 (Y : Valuation τ sig (Elt Ideal)) :
    @Eq (FVec Ideal S100000x128 .f32) (StableHlo.after ops10 Y (Proc.devRef .tc main_v72))
      (bnT (@id (FVec Ideal S100000x128 .f32) (Y (Proc.devRef .tc main_v47))) (@id (FVec Ideal S128 .f32) (Y (Proc.devRef .tc main_arg5))) (@id (FVec Ideal S128 .f32) (Y (Proc.devRef .tc main_arg6)))) := by
  (after_results_simp) <;> rfl

theorem s11_v73 (Y : Valuation τ sig (Elt Ideal)) :
    @Eq (FVec Ideal S100000x128 .f32) (StableHlo.after ops11 Y (Proc.devRef .tc main_v73))
      (maximumf (@id (FVec Ideal S100000x128 .f32) (Y (Proc.devRef .tc main_v72))) (broadcastInDim S100000x128 ![] bcast_S_S100000x128 (constant (F := Ideal) S_ .f32 0x00000000#32 : FVec Ideal S_ .f32))) := by
  (after_results) <;> rfl

theorem s12_v75 (Y : Valuation τ sig (Elt Ideal)) :
    @Eq (IVec S1700000 32) (StableHlo.after ops12 Y (Proc.devRef .tc main_v75))
      (concatenate S1700000 0 [⟨S1600000, (@id (IVec S1600000 32) (Y (Proc.devRef .tc main_v1)))⟩, ⟨S100000, (iotaInDim S100000 32 0 : IVec S100000 32)⟩] concatenates_S1600000_S100000_S1700000_d0) := by
  (after_results) <;> rfl

theorem s12_v76 (Y : Valuation τ sig (Elt Ideal)) :
    @Eq (IVec S1700000 32) (StableHlo.after ops12 Y (Proc.devRef .tc main_v76))
      (concatenate S1700000 0 [⟨S1600000, (@id (IVec S1600000 32) (Y (Proc.devRef .tc main_v3)))⟩, ⟨S100000, (iotaInDim S100000 32 0 : IVec S100000 32)⟩] concatenates_S1600000_S100000_S1700000_d0) := by
  (after_results) <;> rfl

set_option maxHeartbeats 8000000 in
theorem s12_v80 (Y : Valuation τ sig (Elt Ideal)) :
    @Eq (FVec Ideal S100000 .f32) (StableHlo.after ops12 Y (Proc.devRef .tc main_v80))
      (Host.scatterAdd scatter_S100000_S1700000x1_S1700000_n_0_0_1 (broadcastInDim S100000 ![] bcast_S_S100000 (constant (F := Ideal) S_ .f32 0x00000000#32 : FVec Ideal S_ .f32)) (broadcastInDim S1700000x1 ![0] bcast_S1700000_S1700000x1_0 (@id (IVec S1700000 32) (StableHlo.after ops12 Y (Proc.devRef .tc main_v76)))) (broadcastInDim S1700000 ![] bcast_S_S1700000 (constant (F := Ideal) S_ .f32 0x3F800000#32 : FVec Ideal S_ .f32))) := by
  rw [s12_v76 Y]; (after_results) <;> rfl

set_option maxHeartbeats 8000000 in
theorem s12_v82 (Y : Valuation τ sig (Elt Ideal)) :
    @Eq (IVec S100000 1) (StableHlo.after ops12 Y (Proc.devRef .tc main_v82))
      (cmpf .ogt (@id (FVec Ideal S100000 .f32) (StableHlo.after ops12 Y (Proc.devRef .tc main_v80))) (broadcastInDim S100000 ![] bcast_S_S100000 (constant (F := Ideal) S_ .f32 0x00000000#32 : FVec Ideal S_ .f32))) := by
  rw [s12_v80 Y, s12_v76 Y]; (after_results) <;> rfl

set_option maxHeartbeats 8000000 in
theorem s12_v83 (Y : Valuation τ sig (Elt Ideal)) :
    @Eq (FVec Ideal S100000 .f32) (StableHlo.after ops12 Y (Proc.devRef .tc main_v83))
      (Host.rsqrt (@id (FVec Ideal S100000 .f32) (StableHlo.after ops12 Y (Proc.devRef .tc main_v80)))) := by
  rw [s12_v80 Y, s12_v76 Y]; (after_results) <;> rfl

theorem s12_cst18 (Y : Valuation τ sig (Elt Ideal)) :
    @Eq (FVec Ideal S_ .f32) (StableHlo.after ops12 Y (Proc.devRef .tc main_cst_18))
      (constant (F := Ideal) S_ .f32 0x00000000#32 : FVec Ideal S_ .f32) := by
  (after_results) <;> rfl

theorem s13_v84 (Y : Valuation τ sig (Elt Ideal)) :
    @Eq (FVec Ideal S100000 .f32) (StableHlo.after ops13 Y (Proc.devRef .tc main_v84))
      (select (@id (IVec S100000 1) (Y (Proc.devRef .tc main_v82))) (@id (FVec Ideal S100000 .f32) (Y (Proc.devRef .tc main_v83))) (broadcastInDim S100000 ![] bcast_S_S100000 (id (@id (FVec Ideal S_ .f32) (Y (Proc.devRef .tc main_cst_18)))))) := by
  (after_results) <;> rfl

set_option maxHeartbeats 8000000 in
theorem s14_v92 (Y : Valuation τ sig (Elt Ideal)) :
    @Eq (FVec Ideal S1700000x128 .f32) (StableHlo.after ops14 Y (Proc.devRef .tc main_v92))
      (Host.gather gather_S100000x128_S1700000x1_S1700000x128_1_0_n_n_0_1_1128 (Host.dotGeneral dot_S100000x128_S128x128_S100000x128_1_0_0_1_n_n none (@id (FVec Ideal S100000x128 .f32) (Y (Proc.devRef .tc main_v73))) (@id (FVec Ideal S128x128 .f32) (Y (Proc.devRef .tc main_arg7)))) (broadcastInDim S1700000x1 ![0] bcast_S1700000_S1700000x1_0 (wrapT (@id (IVec S1700000 32) (Y (Proc.devRef .tc main_v75)))))) := by
  (after_results) <;> rfl

theorem s14_v94 (Y : Valuation τ sig (Elt Ideal)) :
    @Eq (IVec S1700000 1) (StableHlo.after ops14 Y (Proc.devRef .tc main_v94))
      (cmpi .slt (@id (IVec S1700000 32) (Y (Proc.devRef .tc main_v75))) (broadcastInDim S1700000 ![] bcast_S_S1700000 (constantI S_ 32 0#32 : IVec S_ 32))) := by
  (after_results) <;> rfl

theorem s14_c22 (Y : Valuation τ sig (Elt Ideal)) :
    @Eq (IVec S_ 32) (StableHlo.after ops14 Y (Proc.devRef .tc main_c_22))
      (constantI S_ 32 100000#32 : IVec S_ 32) := by
  (after_results) <;> rfl

set_option maxHeartbeats 8000000 in
theorem s15a_v116 (Y : Valuation τ sig (Elt Ideal)) :
    @Eq (FVec Ideal S100000x128 .f32) (StableHlo.after ops15a Y (Proc.devRef .tc main_v116))
      (convT (@id (FVec Ideal S1700000x128 .f32) (Y (Proc.devRef .tc main_v92))) (select (@id (IVec S1700000 1) (Y (Proc.devRef .tc main_v94))) (addi (@id (IVec S1700000 32) (Y (Proc.devRef .tc main_v75))) (broadcastInDim S1700000 ![] bcast_S_S1700000 (@id (IVec S_ 32) (Y (Proc.devRef .tc main_c_22))))) (@id (IVec S1700000 32) (Y (Proc.devRef .tc main_v75))))
        (wrapT (@id (IVec S1700000 32) (Y (Proc.devRef .tc main_v76)))) (@id (IVec S1700000 32) (Y (Proc.devRef .tc main_v76))) (@id (FVec Ideal S100000 .f32) (Y (Proc.devRef .tc main_v84))) (rowT (@id (FVec Ideal S128 .f32) (Y (Proc.devRef .tc main_arg8))))) := by
  simp only [ops15a, ops15, List.take_succ_cons, List.take_zero]; (after_results_simp) <;> rfl

set_option maxHeartbeats 8000000 in
theorem s15b_v141 (Y : Valuation τ sig (Elt Ideal)) :
    @Eq (FVec Ideal S100000x128 .f32) (StableHlo.after ops15b Y (Proc.devRef .tc main_v141))
      (bnT (@id (FVec Ideal S100000x128 .f32) (Y (Proc.devRef .tc main_v116))) (@id (FVec Ideal S128 .f32) (Y (Proc.devRef .tc main_arg9))) (@id (FVec Ideal S128 .f32) (Y (Proc.devRef .tc main_arg10)))) := by
  simp only [ops15b, ops15, List.drop_succ_cons, List.drop_zero]; (after_results_simp) <;> rfl

theorem s16_v142 (Y : Valuation τ sig (Elt Ideal)) :
    @Eq (FVec Ideal S100000x128 .f32) (StableHlo.after ops16 Y (Proc.devRef .tc main_v142))
      (maximumf (@id (FVec Ideal S100000x128 .f32) (Y (Proc.devRef .tc main_v141))) (broadcastInDim S100000x128 ![] bcast_S_S100000x128 (constant (F := Ideal) S_ .f32 0x00000000#32 : FVec Ideal S_ .f32))) := by
  (after_results) <;> rfl

theorem s17_v145 (Y : Valuation τ sig (Elt Ideal)) :
    @Eq (FVec Ideal S64x128 .f32) (StableHlo.after ops17 Y (Proc.devRef .tc main_v145))
      (Host.scatterAdd scatter_S64x128_S100000x1_S100000x128_1_0_0_1 (broadcastInDim S64x128 ![] bcast_S_S64x128 (constant (F := Ideal) S_ .f32 0x00000000#32 : FVec Ideal S_ .f32)) (broadcastInDim S100000x1 ![0] bcast_S100000_S100000x1_0 (@id (IVec S100000 32) (Y (Proc.devRef .tc main_arg2)))) (@id (FVec Ideal S100000x128 .f32) (Y (Proc.devRef .tc main_v142)))) := by
  (after_results) <;> rfl

end Cert.ReferenceIdeal.Hand

end
-- ==== Proof.RefValue.lean ====
import proofs.«429421_j77326591197817_3_alg».proof.Proof.RefValue2
import proofs.«429421_j77326591197817_3_alg».proof.Proof.RefValue3

set_option maxRecDepth 1364

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.GNN Cert.ScatterGather
open scoped BigOperators

variable (V : Valuation τ sig (Elt Ideal))

abbrev W15a : Valuation τ sig (Elt Ideal) := StableHlo.after ops15a (W14 V)
theorem W15_eq : W15 V = StableHlo.after ops15b (W15a V) := after15 (W14 V)

theorem W15a_of (r : Ref sig .tc) (h : r ∉ ops15_W) : W15a V (Proc.devRef .tc r) = W14 V (Proc.devRef .tc r) :=
  after_of_results (W := ops15_W.take 25) _ fun m => h (List.mem_of_mem_take m)

theorem w0_v1 :
    @Eq (IVec S1600000 32) (@id (IVec S1600000 32) (W0 V (Proc.devRef .tc main_v1)))
      (shapeCast S1600000 (extractStridedSlice S1x1600000 ![0, 0] (@id (IVec S2x1600000 32) (V (Proc.devRef .tc main_arg1))) slices_S2x1600000_S1x1600000_0_0) shapeCasts_S1x1600000_S1600000) :=
  s0_v1 V

theorem w0_v3 :
    @Eq (IVec S1600000 32) (@id (IVec S1600000 32) (W0 V (Proc.devRef .tc main_v3)))
      (shapeCast S1600000 (extractStridedSlice S1x1600000 ![1, 0] (@id (IVec S2x1600000 32) (V (Proc.devRef .tc main_arg1))) slices_S2x1600000_S1x1600000_1_0) shapeCasts_S1x1600000_S1600000) :=
  s0_v3 V

theorem w1_c0v0 :
    @Eq (IVec S100000x128 1) (@id (IVec S100000x128 1) (W1 V (Proc.devRef .tc main_call0_v0)))
      (cmpf .une (@id (FVec Ideal S100000x128 .f32) ((W0 V) (Proc.devRef .tc main_arg0))) (@id (FVec Ideal S100000x128 .f32) ((W0 V) (Proc.devRef .tc main_arg0)))) :=
  s1_c0v0 (W0 V)

theorem w1_c0v1 :
    @Eq (FVec Ideal S_ .f32) (@id (FVec Ideal S_ .f32) (W1 V (Proc.devRef .tc main_call0_v1)))
      (id (@id (FVec Ideal S_ .f32) ((W0 V) (Proc.devRef .tc main_cst)))) :=
  s1_c0v1 (W0 V)

theorem w2_c0v2 :
    @Eq (FVec Ideal S100000x128 .f32) (@id (FVec Ideal S100000x128 .f32) (W2 V (Proc.devRef .tc main_call0_v2)))
      (select (@id (IVec S100000x128 1) ((W1 V) (Proc.devRef .tc main_call0_v0))) (broadcastInDim S100000x128 ![] bcast_S_S100000x128 (@id (FVec Ideal S_ .f32) ((W1 V) (Proc.devRef .tc main_call0_v1)))) (@id (FVec Ideal S100000x128 .f32) ((W1 V) (Proc.devRef .tc main_arg0)))) :=
  s2_c0v2 (W1 V)

theorem w3_c0v4 :
    @Eq (IVec S100000x128 1) (@id (IVec S100000x128 1) (W3 V (Proc.devRef .tc main_call0_v4)))
      (cmpf .oeq (@id (FVec Ideal S100000x128 .f32) ((W2 V) (Proc.devRef .tc main_call0_v2))) (broadcastInDim S100000x128 ![] bcast_S_S100000x128 (constant (F := Ideal) S_ .f32 0x7F800000#32 : FVec Ideal S_ .f32))) :=
  s3_c0v4 (W2 V)

theorem w3_c0cst0 :
    @Eq (FVec Ideal S_ .f32) (@id (FVec Ideal S_ .f32) (W3 V (Proc.devRef .tc main_call0_cst_0)))
      (constant (F := Ideal) S_ .f32 0x7F7FFFFF#32 : FVec Ideal S_ .f32) :=
  s3_c0cst0 (W2 V)

theorem w4_c0v5 :
    @Eq (FVec Ideal S100000x128 .f32) (@id (FVec Ideal S100000x128 .f32) (W4 V (Proc.devRef .tc main_call0_v5)))
      (select (@id (IVec S100000x128 1) ((W3 V) (Proc.devRef .tc main_call0_v4))) (broadcastInDim S100000x128 ![] bcast_S_S100000x128 (@id (FVec Ideal S_ .f32) ((W3 V) (Proc.devRef .tc main_call0_cst_0)))) (@id (FVec Ideal S100000x128 .f32) ((W3 V) (Proc.devRef .tc main_call0_v2)))) :=
  s4_c0v5 (W3 V)

theorem w5_c0v7 :
    @Eq (IVec S100000x128 1) (@id (IVec S100000x128 1) (W5 V (Proc.devRef .tc main_call0_v7)))
      (cmpf .oeq (@id (FVec Ideal S100000x128 .f32) ((W4 V) (Proc.devRef .tc main_call0_v5))) (broadcastInDim S100000x128 ![] bcast_S_S100000x128 (constant (F := Ideal) S_ .f32 0xFF800000#32 : FVec Ideal S_ .f32))) :=
  s5_c0v7 (W4 V)

theorem w5_c0cst2 :
    @Eq (FVec Ideal S_ .f32) (@id (FVec Ideal S_ .f32) (W5 V (Proc.devRef .tc main_call0_cst_2)))
      (constant (F := Ideal) S_ .f32 0xFF7FFFFF#32 : FVec Ideal S_ .f32) :=
  s5_c0cst2 (W4 V)

theorem w6_v4 :
    @Eq (FVec Ideal S100000x128 .f32) (@id (FVec Ideal S100000x128 .f32) (W6 V (Proc.devRef .tc main_v4)))
      (select (@id (IVec S100000x128 1) ((W5 V) (Proc.devRef .tc main_call0_v7))) (broadcastInDim S100000x128 ![] bcast_S_S100000x128 (@id (FVec Ideal S_ .f32) ((W5 V) (Proc.devRef .tc main_call0_cst_2)))) (@id (FVec Ideal S100000x128 .f32) ((W5 V) (Proc.devRef .tc main_call0_v5)))) :=
  s6_v4 (W5 V)

theorem w7_v6 :
    @Eq (IVec S1700000 32) (@id (IVec S1700000 32) (W7 V (Proc.devRef .tc main_v6)))
      (concatenate S1700000 0 [⟨S1600000, (@id (IVec S1600000 32) ((W6 V) (Proc.devRef .tc main_v1)))⟩, ⟨S100000, (iotaInDim S100000 32 0 : IVec S100000 32)⟩] concatenates_S1600000_S100000_S1700000_d0) :=
  s7_v6 (W6 V)

theorem w7_v7 :
    @Eq (IVec S1700000 32) (@id (IVec S1700000 32) (W7 V (Proc.devRef .tc main_v7)))
      (concatenate S1700000 0 [⟨S1600000, (@id (IVec S1600000 32) ((W6 V) (Proc.devRef .tc main_v3)))⟩, ⟨S100000, (iotaInDim S100000 32 0 : IVec S100000 32)⟩] concatenates_S1600000_S100000_S1700000_d0) :=
  s7_v7 (W6 V)

theorem w7_v11 :
    @Eq (FVec Ideal S100000 .f32) (@id (FVec Ideal S100000 .f32) (W7 V (Proc.devRef .tc main_v11)))
      (Host.scatterAdd scatter_S100000_S1700000x1_S1700000_n_0_0_1 (broadcastInDim S100000 ![] bcast_S_S100000 (constant (F := Ideal) S_ .f32 0x00000000#32 : FVec Ideal S_ .f32)) (broadcastInDim S1700000x1 ![0] bcast_S1700000_S1700000x1_0 (@id (IVec S1700000 32) (W7 V (Proc.devRef .tc main_v7)))) (broadcastInDim S1700000 ![] bcast_S_S1700000 (constant (F := Ideal) S_ .f32 0x3F800000#32 : FVec Ideal S_ .f32))) :=
  s7_v11 (W6 V)

theorem w7_v13 :
    @Eq (IVec S100000 1) (@id (IVec S100000 1) (W7 V (Proc.devRef .tc main_v13)))
      (cmpf .ogt (@id (FVec Ideal S100000 .f32) (W7 V (Proc.devRef .tc main_v11))) (broadcastInDim S100000 ![] bcast_S_S100000 (constant (F := Ideal) S_ .f32 0x00000000#32 : FVec Ideal S_ .f32))) :=
  s7_v13 (W6 V)

theorem w7_v14 :
    @Eq (FVec Ideal S100000 .f32) (@id (FVec Ideal S100000 .f32) (W7 V (Proc.devRef .tc main_v14)))
      (Host.rsqrt (@id (FVec Ideal S100000 .f32) (W7 V (Proc.devRef .tc main_v11)))) :=
  s7_v14 (W6 V)

theorem w7_cst3 :
    @Eq (FVec Ideal S_ .f32) (@id (FVec Ideal S_ .f32) (W7 V (Proc.devRef .tc main_cst_3)))
      (constant (F := Ideal) S_ .f32 0x00000000#32 : FVec Ideal S_ .f32) :=
  s7_cst3 (W6 V)

theorem w8_v15 :
    @Eq (FVec Ideal S100000 .f32) (@id (FVec Ideal S100000 .f32) (W8 V (Proc.devRef .tc main_v15)))
      (select (@id (IVec S100000 1) ((W7 V) (Proc.devRef .tc main_v13))) (@id (FVec Ideal S100000 .f32) ((W7 V) (Proc.devRef .tc main_v14))) (broadcastInDim S100000 ![] bcast_S_S100000 (id (@id (FVec Ideal S_ .f32) ((W7 V) (Proc.devRef .tc main_cst_3)))))) :=
  s8_v15 (W7 V)

theorem w9_v47 :
    @Eq (FVec Ideal S100000x128 .f32) (@id (FVec Ideal S100000x128 .f32) (W9 V (Proc.devRef .tc main_v47)))
      (convT (Host.gather gather_S100000x128_S1700000x1_S1700000x128_1_0_n_n_0_1_1128 (Host.dotGeneral dot_S100000x128_S128x128_S100000x128_1_0_0_1_n_n none (@id (FVec Ideal S100000x128 .f32) ((W8 V) (Proc.devRef .tc main_v4))) (@id (FVec Ideal S128x128 .f32) ((W8 V) (Proc.devRef .tc main_arg3)))) (broadcastInDim S1700000x1 ![0] bcast_S1700000_S1700000x1_0 (wrapT (@id (IVec S1700000 32) ((W8 V) (Proc.devRef .tc main_v6))))))
        (wrapT (@id (IVec S1700000 32) ((W8 V) (Proc.devRef .tc main_v6)))) (wrapT (@id (IVec S1700000 32) ((W8 V) (Proc.devRef .tc main_v7)))) (@id (IVec S1700000 32) ((W8 V) (Proc.devRef .tc main_v7))) (@id (FVec Ideal S100000 .f32) ((W8 V) (Proc.devRef .tc main_v15))) (rowT (@id (FVec Ideal S128 .f32) ((W8 V) (Proc.devRef .tc main_arg4))))) :=
  s9_v47 (W8 V)

theorem w10_v72 :
    @Eq (FVec Ideal S100000x128 .f32) (@id (FVec Ideal S100000x128 .f32) (W10 V (Proc.devRef .tc main_v72)))
      (bnT (@id (FVec Ideal S100000x128 .f32) ((W9 V) (Proc.devRef .tc main_v47))) (@id (FVec Ideal S128 .f32) ((W9 V) (Proc.devRef .tc main_arg5))) (@id (FVec Ideal S128 .f32) ((W9 V) (Proc.devRef .tc main_arg6)))) :=
  s10_v72 (W9 V)

theorem w11_v73 :
    @Eq (FVec Ideal S100000x128 .f32) (@id (FVec Ideal S100000x128 .f32) (W11 V (Proc.devRef .tc main_v73)))
      (maximumf (@id (FVec Ideal S100000x128 .f32) ((W10 V) (Proc.devRef .tc main_v72))) (broadcastInDim S100000x128 ![] bcast_S_S100000x128 (constant (F := Ideal) S_ .f32 0x00000000#32 : FVec Ideal S_ .f32))) :=
  s11_v73 (W10 V)

theorem w12_v75 :
    @Eq (IVec S1700000 32) (@id (IVec S1700000 32) (W12 V (Proc.devRef .tc main_v75)))
      (concatenate S1700000 0 [⟨S1600000, (@id (IVec S1600000 32) ((W11 V) (Proc.devRef .tc main_v1)))⟩, ⟨S100000, (iotaInDim S100000 32 0 : IVec S100000 32)⟩] concatenates_S1600000_S100000_S1700000_d0) :=
  s12_v75 (W11 V)

theorem w12_v76 :
    @Eq (IVec S1700000 32) (@id (IVec S1700000 32) (W12 V (Proc.devRef .tc main_v76)))
      (concatenate S1700000 0 [⟨S1600000, (@id (IVec S1600000 32) ((W11 V) (Proc.devRef .tc main_v3)))⟩, ⟨S100000, (iotaInDim S100000 32 0 : IVec S100000 32)⟩] concatenates_S1600000_S100000_S1700000_d0) :=
  s12_v76 (W11 V)

theorem w12_v80 :
    @Eq (FVec Ideal S100000 .f32) (@id (FVec Ideal S100000 .f32) (W12 V (Proc.devRef .tc main_v80)))
      (Host.scatterAdd scatter_S100000_S1700000x1_S1700000_n_0_0_1 (broadcastInDim S100000 ![] bcast_S_S100000 (constant (F := Ideal) S_ .f32 0x00000000#32 : FVec Ideal S_ .f32)) (broadcastInDim S1700000x1 ![0] bcast_S1700000_S1700000x1_0 (@id (IVec S1700000 32) (W12 V (Proc.devRef .tc main_v76)))) (broadcastInDim S1700000 ![] bcast_S_S1700000 (constant (F := Ideal) S_ .f32 0x3F800000#32 : FVec Ideal S_ .f32))) :=
  s12_v80 (W11 V)

theorem w12_v82 :
    @Eq (IVec S100000 1) (@id (IVec S100000 1) (W12 V (Proc.devRef .tc main_v82)))
      (cmpf .ogt (@id (FVec Ideal S100000 .f32) (W12 V (Proc.devRef .tc main_v80))) (broadcastInDim S100000 ![] bcast_S_S100000 (constant (F := Ideal) S_ .f32 0x00000000#32 : FVec Ideal S_ .f32))) :=
  s12_v82 (W11 V)

theorem w12_v83 :
    @Eq (FVec Ideal S100000 .f32) (@id (FVec Ideal S100000 .f32) (W12 V (Proc.devRef .tc main_v83)))
      (Host.rsqrt (@id (FVec Ideal S100000 .f32) (W12 V (Proc.devRef .tc main_v80)))) :=
  s12_v83 (W11 V)

theorem w12_cst18 :
    @Eq (FVec Ideal S_ .f32) (@id (FVec Ideal S_ .f32) (W12 V (Proc.devRef .tc main_cst_18)))
      (constant (F := Ideal) S_ .f32 0x00000000#32 : FVec Ideal S_ .f32) :=
  s12_cst18 (W11 V)

theorem w13_v84 :
    @Eq (FVec Ideal S100000 .f32) (@id (FVec Ideal S100000 .f32) (W13 V (Proc.devRef .tc main_v84)))
      (select (@id (IVec S100000 1) ((W12 V) (Proc.devRef .tc main_v82))) (@id (FVec Ideal S100000 .f32) ((W12 V) (Proc.devRef .tc main_v83))) (broadcastInDim S100000 ![] bcast_S_S100000 (id (@id (FVec Ideal S_ .f32) ((W12 V) (Proc.devRef .tc main_cst_18)))))) :=
  s13_v84 (W12 V)

theorem w14_v92 :
    @Eq (FVec Ideal S1700000x128 .f32) (@id (FVec Ideal S1700000x128 .f32) (W14 V (Proc.devRef .tc main_v92)))
      (Host.gather gather_S100000x128_S1700000x1_S1700000x128_1_0_n_n_0_1_1128 (Host.dotGeneral dot_S100000x128_S128x128_S100000x128_1_0_0_1_n_n none (@id (FVec Ideal S100000x128 .f32) ((W13 V) (Proc.devRef .tc main_v73))) (@id (FVec Ideal S128x128 .f32) ((W13 V) (Proc.devRef .tc main_arg7)))) (broadcastInDim S1700000x1 ![0] bcast_S1700000_S1700000x1_0 (wrapT (@id (IVec S1700000 32) ((W13 V) (Proc.devRef .tc main_v75)))))) :=
  s14_v92 (W13 V)

theorem w14_v94 :
    @Eq (IVec S1700000 1) (@id (IVec S1700000 1) (W14 V (Proc.devRef .tc main_v94)))
      (cmpi .slt (@id (IVec S1700000 32) ((W13 V) (Proc.devRef .tc main_v75))) (broadcastInDim S1700000 ![] bcast_S_S1700000 (constantI S_ 32 0#32 : IVec S_ 32))) :=
  s14_v94 (W13 V)

theorem w14_c22 :
    @Eq (IVec S_ 32) (@id (IVec S_ 32) (W14 V (Proc.devRef .tc main_c_22)))
      (constantI S_ 32 100000#32 : IVec S_ 32) :=
  s14_c22 (W13 V)

theorem w15a_v116 :
    @Eq (FVec Ideal S100000x128 .f32) (@id (FVec Ideal S100000x128 .f32) (W15a V (Proc.devRef .tc main_v116)))
      (convT (@id (FVec Ideal S1700000x128 .f32) ((W14 V) (Proc.devRef .tc main_v92))) (select (@id (IVec S1700000 1) ((W14 V) (Proc.devRef .tc main_v94))) (addi (@id (IVec S1700000 32) ((W14 V) (Proc.devRef .tc main_v75))) (broadcastInDim S1700000 ![] bcast_S_S1700000 (@id (IVec S_ 32) ((W14 V) (Proc.devRef .tc main_c_22))))) (@id (IVec S1700000 32) ((W14 V) (Proc.devRef .tc main_v75))))
        (wrapT (@id (IVec S1700000 32) ((W14 V) (Proc.devRef .tc main_v76)))) (@id (IVec S1700000 32) ((W14 V) (Proc.devRef .tc main_v76))) (@id (FVec Ideal S100000 .f32) ((W14 V) (Proc.devRef .tc main_v84))) (rowT (@id (FVec Ideal S128 .f32) ((W14 V) (Proc.devRef .tc main_arg8))))) :=
  s15a_v116 (W14 V)

theorem w15b_v141 :
    @Eq (FVec Ideal S100000x128 .f32) (@id (FVec Ideal S100000x128 .f32) (W15 V (Proc.devRef .tc main_v141)))
      (bnT (@id (FVec Ideal S100000x128 .f32) ((W15a V) (Proc.devRef .tc main_v116))) (@id (FVec Ideal S128 .f32) ((W15a V) (Proc.devRef .tc main_arg9))) (@id (FVec Ideal S128 .f32) ((W15a V) (Proc.devRef .tc main_arg10)))) :=
  (congrFun (W15_eq V) _).trans (s15b_v141 (W15a V))

theorem w16_v142 :
    @Eq (FVec Ideal S100000x128 .f32) (@id (FVec Ideal S100000x128 .f32) (W16 V (Proc.devRef .tc main_v142)))
      (maximumf (@id (FVec Ideal S100000x128 .f32) ((W15 V) (Proc.devRef .tc main_v141))) (broadcastInDim S100000x128 ![] bcast_S_S100000x128 (constant (F := Ideal) S_ .f32 0x00000000#32 : FVec Ideal S_ .f32))) :=
  s16_v142 (W15 V)

theorem w17_v145 :
    @Eq (FVec Ideal S64x128 .f32) (@id (FVec Ideal S64x128 .f32) (W17 V (Proc.devRef .tc main_v145)))
      (Host.scatterAdd scatter_S64x128_S100000x1_S100000x128_1_0_0_1 (broadcastInDim S64x128 ![] bcast_S_S64x128 (constant (F := Ideal) S_ .f32 0x00000000#32 : FVec Ideal S_ .f32)) (broadcastInDim S100000x1 ![0] bcast_S100000_S100000x1_0 (@id (IVec S100000 32) ((W16 V) (Proc.devRef .tc main_arg2)))) (@id (FVec Ideal S100000x128 .f32) ((W16 V) (Proc.devRef .tc main_v142)))) :=
  s17_v145 (W16 V)

section Kept

variable (r : Ref sig .tc) (h0 : r ∉ ops0_W := by decide) (h1 : r ∉ ops1_W := by decide) (h2 : r ∉ ops2_W := by decide) (h3 : r ∉ ops3_W := by decide) (h4 : r ∉ ops4_W := by decide) (h5 : r ∉ ops5_W := by decide) (h6 : r ∉ ops6_W := by decide) (h7 : r ∉ ops7_W := by decide) (h8 : r ∉ ops8_W := by decide)
  (h9 : r ∉ ops9_W := by decide) (h10 : r ∉ ops10_W := by decide) (h11 : r ∉ ops11_W := by decide) (h12 : r ∉ ops12_W := by decide) (h13 : r ∉ ops13_W := by decide) (h14 : r ∉ ops14_W := by decide) (h15 : r ∉ ops15_W := by decide) (h16 : r ∉ ops16_W := by decide)

include h0 in
theorem K0 : W0 V (Proc.devRef .tc r) = V (Proc.devRef .tc r) := W0_of V r h0
include h0 h1 in
theorem K1 : W1 V (Proc.devRef .tc r) = V (Proc.devRef .tc r) := (W1_of V r h1).trans (K0 V r h0)
include h0 h1 h2 h3 h4 h5 h6 h7 h8 in
theorem K8 : W8 V (Proc.devRef .tc r) = V (Proc.devRef .tc r) :=
  (W8_of V r h8).trans <| (W7_of V r h7).trans <| (W6_of V r h6).trans <| (W5_of V r h5).trans <| (W4_of V r h4).trans <| (W3_of V r h3).trans <| (W2_of V r h2).trans <| K1 V r h0 h1
include h0 h1 h2 h3 h4 h5 h6 h7 h8 h9 in
theorem K9 : W9 V (Proc.devRef .tc r) = V (Proc.devRef .tc r) := (W9_of V r h9).trans (K8 V r h0 h1 h2 h3 h4 h5 h6 h7 h8)
include h0 h1 h2 h3 h4 h5 h6 h7 h8 h9 h10 h11 h12 h13 in
theorem K13 : W13 V (Proc.devRef .tc r) = V (Proc.devRef .tc r) :=
  (W13_of V r h13).trans <| (W12_of V r h12).trans <| (W11_of V r h11).trans <| (W10_of V r h10).trans <| K9 V r h0 h1 h2 h3 h4 h5 h6 h7 h8 h9
include h0 h1 h2 h3 h4 h5 h6 h7 h8 h9 h10 h11 h12 h13 h14 in
theorem K14 : W14 V (Proc.devRef .tc r) = V (Proc.devRef .tc r) := (W14_of V r h14).trans (K13 V r h0 h1 h2 h3 h4 h5 h6 h7 h8 h9 h10 h11 h12 h13)
include h0 h1 h2 h3 h4 h5 h6 h7 h8 h9 h10 h11 h12 h13 h14 h15 in
theorem K15a : W15a V (Proc.devRef .tc r) = V (Proc.devRef .tc r) := (W15a_of V r h15).trans (K14 V r h0 h1 h2 h3 h4 h5 h6 h7 h8 h9 h10 h11 h12 h13 h14)
include h0 h1 h2 h3 h4 h5 h6 h7 h8 h9 h10 h11 h12 h13 h14 h15 h16 in
theorem K16 : W16 V (Proc.devRef .tc r) = V (Proc.devRef .tc r) :=
  (W16_of V r h16).trans <| (W15_of V r h15).trans (K14 V r h0 h1 h2 h3 h4 h5 h6 h7 h8 h9 h10 h11 h12 h13 h14)
include h1 h2 h3 h4 h5 h6 in
theorem J6 : W6 V (Proc.devRef .tc r) = W0 V (Proc.devRef .tc r) :=
  (W6_of V r h6).trans <| (W5_of V r h5).trans <| (W4_of V r h4).trans <| (W3_of V r h3).trans <| (W2_of V r h2).trans <| W1_of V r h1
include h1 h2 h3 h4 h5 h6 h7 h8 h9 h10 h11 in
theorem J11 : W11 V (Proc.devRef .tc r) = W0 V (Proc.devRef .tc r) :=
  (W11_of V r h11).trans <| (W10_of V r h10).trans <| (W9_of V r h9).trans <| (W8_of V r h8).trans <| (W7_of V r h7).trans <| J6 V r h1 h2 h3 h4 h5 h6
include h13 h14 in
theorem J14 : W14 V (Proc.devRef .tc r) = W12 V (Proc.devRef .tc r) := (W14_of V r h14).trans (W13_of V r h13)

end Kept

abbrev eiV : Fin 2 → Fin E0 → BitVec 32 := eiOf (@id (IVec S2x1600000 32) (V (Proc.devRef .tc main_arg1)))
abbrev btV : Fin NN → BitVec 32 := btOf (@id (IVec S100000 32) (V (Proc.devRef .tc main_arg2)))
abbrev xV : NodeMat := fun i k => (@id (FVec Ideal S100000x128 .f32) (V (Proc.devRef .tc main_arg0))) (ix2 i k)
abbrev w1V : Fin DD → Fin DD → EReal := fun k l => (@id (FVec Ideal S128x128 .f32) (V (Proc.devRef .tc main_arg3))) (ix2 k l)
abbrev b1V : Row := fun l => (@id (FVec Ideal S128 .f32) (V (Proc.devRef .tc main_arg4))) (ix1 l)
abbrev g1V : Row := fun l => (@id (FVec Ideal S128 .f32) (V (Proc.devRef .tc main_arg5))) (ix1 l)
abbrev be1V : Row := fun l => (@id (FVec Ideal S128 .f32) (V (Proc.devRef .tc main_arg6))) (ix1 l)
abbrev w2V : Fin DD → Fin DD → EReal := fun k l => (@id (FVec Ideal S128x128 .f32) (V (Proc.devRef .tc main_arg7))) (ix2 k l)
abbrev b2V : Row := fun l => (@id (FVec Ideal S128 .f32) (V (Proc.devRef .tc main_arg8))) (ix1 l)
abbrev g2V : Row := fun l => (@id (FVec Ideal S128 .f32) (V (Proc.devRef .tc main_arg9))) (ix1 l)
abbrev be2V : Row := fun l => (@id (FVec Ideal S128 .f32) (V (Proc.devRef .tc main_arg10))) (ix1 l)

abbrev v1V : NodeMat := v1Ref (srcOf (eiV V)) (dstOf (eiV V)) (tgtOf (eiV V)) (dinvOf (eiV V)) (xV V) (w1V V) (b1V V)
abbrev h1V : NodeMat := h1Ref (srcOf (eiV V)) (dstOf (eiV V)) (tgtOf (eiV V)) (dinvOf (eiV V)) (xV V) (w1V V) (b1V V) (g1V V) (be1V V)
abbrev v2V : NodeMat := v2Ref (srcOf (eiV V)) (dstOf (eiV V)) (tgtOf (eiV V)) (dinvOf (eiV V)) (xV V) (w1V V) (b1V V) (g1V V) (be1V V) (w2V V) (b2V V)
abbrev h2V : NodeMat := h2Ref (srcOf (eiV V)) (dstOf (eiV V)) (tgtOf (eiV V)) (dinvOf (eiV V)) (xV V) (w1V V) (b1V V) (g1V V) (be1V V) (w2V V) (b2V V) (g2V V) (be2V V)

theorem v4_read (i : Fin NN) (k : Fin DD) :
    @id (FVec Ideal S100000x128 .f32) (W6 V (Proc.devRef .tc main_v4)) (ix2 i k) = scrub (xV V i k) := by
  rw [w6_v4 V, w5_c0v7 V, w5_c0cst2 V, W5_of V main_call0_v5 (by decide), w4_c0v5 V, w3_c0v4 V, w3_c0cst0 V, W3_of V main_call0_v2 (by decide), w2_c0v2 V,
    w1_c0v0 V, w1_c0v1 V, K1 V main_arg0, K0 V main_arg0]
  exact scrub_apply _ _ _

theorem v6_read (e : Fin EE) :
    @id (IVec S1700000 32) (W7 V (Proc.devRef .tc main_v6)) (ix1 e) = extWord (eiV V) 0 e := by
  rw [w7_v6 V, J6 V main_v1, w0_v1 V]
  exact extWord_of_edges _ 0 ![0, 0] rfl rfl _ _ _ e

theorem v7_read (e : Fin EE) :
    @id (IVec S1700000 32) (W7 V (Proc.devRef .tc main_v7)) (ix1 e) = extWord (eiV V) 1 e := by
  rw [w7_v7 V, J6 V main_v3, w0_v3 V]
  exact extWord_of_edges _ 1 ![1, 0] rfl rfl _ _ _ e

theorem deg_read (j : Fin NN) :
    @id (FVec Ideal S100000 .f32) (W7 V (Proc.devRef .tc main_v11)) (ix1 j) = degOf (eiV V) j := by
  rw [w7_v11 V]
  exact deg_bcast_apply _ rfl rfl rfl rfl _ _ _ (eiV V) _ (v7_read V) j

theorem dinv_read (j : Fin NN) :
    @id (FVec Ideal S100000 .f32) (W8 V (Proc.devRef .tc main_v15)) (ix1 j) = dinvOf (eiV V) j := by
  rw [w8_v15 V, w7_v13 V, w7_v14 V, w7_cst3 V]
  exact dinv_bcast_apply _ (eiV V) _ j (deg_read V j)

theorem v47_read (j : Fin NN) (l : Fin DD) :
    @id (FVec Ideal S100000x128 .f32) (W9 V (Proc.devRef .tc main_v47)) (ix2 j l) = v1V V j l := by
  rw [w9_v47 V, (W8_of V main_v4 (by decide)).trans (W7_of V main_v4 (by decide)), K8 V main_arg3, W8_of V main_v6 (by decide), W8_of V main_v7 (by decide), K8 V main_arg4]
  exact layer_apply (eiV V) _ _ _ _ _ _ _ (v4_read V) (v6_read V) (v7_read V) (dinv_read V) j l

theorem v73_read (j : Fin NN) (l : Fin DD) :
    @id (FVec Ideal S100000x128 .f32) (W11 V (Proc.devRef .tc main_v73)) (ix2 j l) = h1V V j l := by
  rw [w11_v73 V, w10_v72 V, K9 V main_arg5, K9 V main_arg6]
  exact bn_apply _ _ _ _ (v47_read V) j l

theorem v75_read (e : Fin EE) :
    @id (IVec S1700000 32) (W12 V (Proc.devRef .tc main_v75)) (ix1 e) = extWord (eiV V) 0 e := by
  rw [w12_v75 V, J11 V main_v1, w0_v1 V]
  exact extWord_of_edges _ 0 ![0, 0] rfl rfl _ _ _ e

theorem v76_read (e : Fin EE) :
    @id (IVec S1700000 32) (W12 V (Proc.devRef .tc main_v76)) (ix1 e) = extWord (eiV V) 1 e := by
  rw [w12_v76 V, J11 V main_v3, w0_v3 V]
  exact extWord_of_edges _ 1 ![1, 0] rfl rfl _ _ _ e

theorem deg2_read (j : Fin NN) :
    @id (FVec Ideal S100000 .f32) (W12 V (Proc.devRef .tc main_v80)) (ix1 j) = degOf (eiV V) j := by
  rw [w12_v80 V]
  exact deg_bcast_apply _ rfl rfl rfl rfl _ _ _ (eiV V) _ (v76_read V) j

theorem dinv2_read (j : Fin NN) :
    @id (FVec Ideal S100000 .f32) (W13 V (Proc.devRef .tc main_v84)) (ix1 j) = dinvOf (eiV V) j := by
  rw [w13_v84 V, w12_v82 V, w12_v83 V, w12_cst18 V]
  exact dinv_bcast_apply _ (eiV V) _ j (deg2_read V j)

theorem v116_read (j : Fin NN) (l : Fin DD) :
    @id (FVec Ideal S100000x128 .f32) (W15a V (Proc.devRef .tc main_v116)) (ix2 j l) = v2V V j l := by
  rw [w15a_v116 V, w14_v92 V, w14_v94 V, w14_c22 V, (W13_of V main_v73 (by decide)).trans (W12_of V main_v73 (by decide)), K13 V main_arg7, W13_of V main_v75 (by decide), J14 V main_v75,
    J14 V main_v76, W14_of V main_v84 (by decide), K14 V main_arg8]
  exact layer_apply (eiV V) _ _ _ _ _ _ _ (v73_read V) (v75_read V) (v76_read V) (dinv2_read V) j l

theorem v142_read (j : Fin NN) (l : Fin DD) :
    @id (FVec Ideal S100000x128 .f32) (W16 V (Proc.devRef .tc main_v142)) (ix2 j l) = h2V V j l := by
  rw [w16_v142 V, w15b_v141 V, K15a V main_arg9, K15a V main_arg10]
  exact bn_apply _ _ _ _ (v116_read V) j l

theorem v145_read (g : Fin GG) (l : Fin DD) :
    @id (FVec Ideal S64x128 .f32) (W17 V (Proc.devRef .tc main_v145)) (ix2 g l)
      = poolRef (srcOf (eiV V)) (dstOf (eiV V)) (tgtOf (eiV V)) (dinvOf (eiV V)) (btgtOf (btV V)) (xV V) (w1V V) (b1V V) (g1V V) (be1V V) (w2V V) (b2V V) (g2V V) (be2V V) g l := by
  have hH : (fun j l => @id (FVec Ideal S100000x128 .f32) (W16 V (Proc.devRef .tc main_v142)) (ix2 j l)) = h2V V :=
    funext fun j => funext fun l => v142_read V j l
  rw [w17_v145 V, K16 V main_arg2, pool_apply, hH]
  rfl

theorem pool_read (g : Fin GG) (l : Fin DD) :
    @id (FVec Ideal S64x128 .f32) (StableHlo.after ops V (Proc.devRef .tc main_v145)) (ix2 g l)
      = poolRef (srcOf (eiV V)) (dstOf (eiV V)) (tgtOf (eiV V)) (dinvOf (eiV V)) (btgtOf (btV V)) (xV V) (w1V V) (b1V V) (g1V V) (be1V V) (w2V V) (b2V V) (g2V V) (be2V V) g l := by
  rw [after_ops V, (W26_of V main_v145 (by decide)).trans <| (W25_of V main_v145 (by decide)).trans <|
    (W24_of V main_v145 (by decide)).trans <| (W23_of V main_v145 (by decide)).trans <| (W22_of V main_v145 (by decide)).trans <|
    (W21_of V main_v145 (by decide)).trans <| (W20_of V main_v145 (by decide)).trans <| (W19_of V main_v145 (by decide)).trans
    (W18_of V main_v145 (by decide))]
  exact v145_read V g l

end Cert.ReferenceIdeal.Hand

end
-- ==== Proof.RefTail.lean ====
import proofs.«429421_j77326591197817_3_alg».proof.Proof.RefOps
import proofs.«429421_j77326591197817_3_alg».proof.Proof.Tail

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

theorem W17_keep (V : Valuation τ sig (Elt F)) (r : Ref sig .tc) (h0 : r ∉ ops0_W := by decide) (h1 : r ∉ ops1_W := by decide) (h2 : r ∉ ops2_W := by decide) (h3 : r ∉ ops3_W := by decide) (h4 : r ∉ ops4_W := by decide) (h5 : r ∉ ops5_W := by decide) (h6 : r ∉ ops6_W := by decide) (h7 : r ∉ ops7_W := by decide) (h8 : r ∉ ops8_W := by decide)
    (h9 : r ∉ ops9_W := by decide) (h10 : r ∉ ops10_W := by decide) (h11 : r ∉ ops11_W := by decide) (h12 : r ∉ ops12_W := by decide) (h13 : r ∉ ops13_W := by decide) (h14 : r ∉ ops14_W := by decide) (h15 : r ∉ ops15_W := by decide) (h16 : r ∉ ops16_W := by decide) (h17 : r ∉ ops17_W := by decide) :
    W17 V (Proc.devRef .tc r) = V (Proc.devRef .tc r) :=
  (W17_of V r h17).trans <| (W16_of V r h16).trans <| (W15_of V r h15).trans <| (W14_of V r h14).trans <| (W13_of V r h13).trans <| (W12_of V r h12).trans <| (W11_of V r h11).trans <| (W10_of V r h10).trans <| (W9_of V r h9).trans <| (W8_of V r h8).trans <| (W7_of V r h7).trans <| (W6_of V r h6).trans <| (W5_of V r h5).trans <| (W4_of V r h4).trans <| (W3_of V r h3).trans <| (W2_of V r h2).trans <| (W1_of V r h1).trans <| W0_of V r h0

theorem sums_kept (V : Valuation τ sig (Elt F)) (r : Ref sig .tc) (h18 : r ∉ ops18_W := by decide) (h19 : r ∉ ops19_W := by decide) (h20 : r ∉ ops20_W := by decide) (h21 : r ∉ ops21_W := by decide) (h22 : r ∉ ops22_W := by decide) (h23 : r ∉ ops23_W := by decide) (h24 : r ∉ ops24_W := by decide) (h25 : r ∉ ops25_W := by decide) (h26 : r ∉ ops26_W := by decide) :
    StableHlo.after ops V (Proc.devRef .tc r) = W17 V (Proc.devRef .tc r) :=
  (congrFun (after_ops V) _).trans <| (W26_of V r h26).trans <| (W25_of V r h25).trans <| (W24_of V r h24).trans <| (W23_of V r h23).trans <| (W22_of V r h22).trans <| (W21_of V r h21).trans <| (W20_of V r h20).trans <| (W19_of V r h19).trans <| W18_of V r h18

def tailR (P : (⟨S64x128, .f32⟩ : BufTy).Contents (Elt F)) (BT : (⟨S100000, .i32⟩ : BufTy).Contents (Elt F))
    (WC1 : (⟨S128x64, .f32⟩ : BufTy).Contents (Elt F)) (BC1 : (⟨S64, .f32⟩ : BufTy).Contents (Elt F))
    (WC2 : (⟨S64x2, .f32⟩ : BufTy).Contents (Elt F)) (BC2 : (⟨S2, .f32⟩ : BufTy).Contents (Elt F)) :
    (⟨S64x2, .f32⟩ : BufTy).Contents (Elt F) :=
  have ones : (⟨S100000, .f32⟩ : BufTy).Contents (Elt F) := broadcastInDim S100000 ![] bcast_S_S100000 (constant S_ .f32 0x3F800000#32)
  have zeros : (⟨S64, .f32⟩ : BufTy).Contents (Elt F) := broadcastInDim S64 ![] bcast_S_S64 (constant S_ .f32 0x00000000#32)
  have idx : (⟨S100000x1, .i32⟩ : BufTy).Contents (Elt F) := broadcastInDim S100000x1 ![0] bcast_S100000_S100000x1_0 BT
  have counts : (⟨S64, .f32⟩ : BufTy).Contents (Elt F) := Host.scatterAdd scatter_S64_S100000x1_S100000_n_0_0_1 zeros idx ones
  have cl : (⟨S64, .f32⟩ : BufTy).Contents (Elt F) := maximumf counts (broadcastInDim S64 ![] bcast_S_S64 (constant S_ .f32 0x3F800000#32))
  have den : (⟨S64x128, .f32⟩ : BufTy).Contents (Elt F) :=
    broadcastInDim S64x128 ![0, 1] bcast_S64x1_S64x128_0_1 (broadcastInDim S64x1 ![0] bcast_S64_S64x1_0 cl)
  have pooled : (⟨S64x128, .f32⟩ : BufTy).Contents (Elt F) := Host.divf P den
  have z0 : (⟨S64x64, .f32⟩ : BufTy).Contents (Elt F) :=
    addf (Host.dotGeneral dot_S64x128_S128x64_S64x64_1_0_0_1_n_n none pooled WC1)
      (broadcastInDim S64x64 ![0, 1] bcast_S1x64_S64x64_0_1 (broadcastInDim S1x64 ![1] bcast_S64_S1x64_1 BC1))
  have z : (⟨S64x64, .f32⟩ : BufTy).Contents (Elt F) := maximumf z0 (broadcastInDim S64x64 ![] bcast_S_S64x64 (constant S_ .f32 0x00000000#32))
  have o : (⟨S64x2, .f32⟩ : BufTy).Contents (Elt F) :=
    addf (Host.dotGeneral dot_S64x64_S64x2_S64x2_1_0_0_1_n_n none z WC2)
      (broadcastInDim S64x2 ![0, 1] bcast_S1x2_S64x2_0_1 (broadcastInDim S1x2 ![1] bcast_S2_S1x2_1 BC2))
  have a : (⟨S64x2, .f32⟩ : BufTy).Contents (Elt F) :=
    select (cmpf .une o o) (broadcastInDim S64x2 ![] bcast_S_S64x2 (constant S_ .f32 0x00000000#32)) o
  have b : (⟨S64x2, .f32⟩ : BufTy).Contents (Elt F) :=
    select (cmpf .oeq a (broadcastInDim S64x2 ![] bcast_S_S64x2 (constant S_ .f32 0x7F800000#32)))
      (broadcastInDim S64x2 ![] bcast_S_S64x2 (constant S_ .f32 0x7F7FFFFF#32)) a
  select (cmpf .oeq b (broadcastInDim S64x2 ![] bcast_S_S64x2 (constant S_ .f32 0xFF800000#32)))
    (broadcastInDim S64x2 ![] bcast_S_S64x2 (constant S_ .f32 0xFF7FFFFF#32)) b

set_option maxHeartbeats 1000000 in
theorem tail_read (U : Valuation τ sig (Elt F)) :
    StableHlo.after ops26 (StableHlo.after ops25 (StableHlo.after ops24 (StableHlo.after ops23 (StableHlo.after ops22
      (StableHlo.after ops21 (StableHlo.after ops20 (StableHlo.after ops19 (StableHlo.after ops18 U)))))))) (Proc.devRef .tc main_v164)
      = tailR (U (Proc.devRef .tc main_v145)) (U (Proc.devRef .tc main_arg2)) (U (Proc.devRef .tc main_arg11))
          (U (Proc.devRef .tc main_arg12)) (U (Proc.devRef .tc main_arg13)) (U (Proc.devRef .tc main_arg14)) := by
  after_results_simp
  rfl

theorem result_readR (V : Valuation τ sig (Elt F)) :
    StableHlo.after ops V (Proc.devRef .tc main_v164)
      = tailR (StableHlo.after ops V (Proc.devRef .tc main_v145)) (V (Proc.devRef .tc main_arg2)) (V (Proc.devRef .tc main_arg11))
          (V (Proc.devRef .tc main_arg12)) (V (Proc.devRef .tc main_arg13)) (V (Proc.devRef .tc main_arg14)) := by
  rw [sums_kept V main_v145, ← W17_keep V main_arg2, ← W17_keep V main_arg11, ← W17_keep V main_arg12, ← W17_keep V main_arg13,
    ← W17_keep V main_arg14]
  exact (congrFun (after_ops V) _).trans (tail_read (W17 V))

theorem tailR_eq (P : (⟨S64x128, .f32⟩ : BufTy).Contents (Elt Ideal)) (BT : (⟨S100000, .i32⟩ : BufTy).Contents (Elt Ideal))
    (WC1 : (⟨S128x64, .f32⟩ : BufTy).Contents (Elt Ideal)) (BC1 : (⟨S64, .f32⟩ : BufTy).Contents (Elt Ideal))
    (WC2 : (⟨S64x2, .f32⟩ : BufTy).Contents (Elt Ideal)) (BC2 : (⟨S2, .f32⟩ : BufTy).Contents (Elt Ideal)) :
    tailR (F := Ideal) P BT WC1 BC1 WC2 BC2 = Cert.GNN.tail P BT WC1 BC1 WC2 BC2 := rfl

theorem result_read (V : Valuation τ sig (Elt Ideal)) :
    (StableHlo.after ops V) main_v164
      = Cert.GNN.tail ((StableHlo.after ops V) main_v145) (V main_arg2) (V main_arg11) (V main_arg12) (V main_arg13) (V main_arg14) :=
  (result_readR V).trans (tailR_eq _ _ _ _ _ _)

end Cert.ReferenceIdeal.Hand

end
-- ==== Proof.Math.lean ====
import proofs.«429421_j77326591197817_3_alg».proof.Proof.Spec
import proofs.«429421_j77326591197817_3_alg».proof.Proof.LibBlockSum
import Mathlib.Data.EReal.Basic
import Mathlib.Data.EReal.Operations
import Mathlib.Data.EReal.Inv
import Mathlib.Algebra.Order.BigOperators.Group.Finset

noncomputable section

namespace Cert.GNN

open Idealize.ShloMosaic
open scoped BigOperators

/-- In the extended reals, (∑ f) · r = ∑ (f · r) for a real r ≥ 0. -/
theorem sum_mul_coe_nonneg {ι : Type*} (s : Finset ι) (f : ι → EReal) {r : ℝ} (hr : 0 ≤ r) :
    (∑ e ∈ s, f e) * (r : EReal) = ∑ e ∈ s, f e * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- 2 · 10 · 5000 = N: the triple sum re-indexes the sum over the nodes. -/
theorem sum_rowOf {M : Type*} [AddCommMonoid M] (f : Fin NN → M) :
    ∑ c : Fin 2, ∑ t : Fin 10, ∑ r : Fin 5000, f (rowOf c t r) = ∑ n : Fin NN, f n := by
  have h1 : (20 : Nat) * 5000 = NN := by decide
  have h2 : (2 : Nat) * 10 = 20 := by decide
  calc ∑ c : Fin 2, ∑ t : Fin 10, ∑ r : Fin 5000, f (rowOf c t r)
      = ∑ c : Fin 2, ∑ t : Fin 10, ∑ r : Fin 5000,
          f (Cert.BlockSum.pos h1 (Cert.BlockSum.pos h2 c t) r) := by
        refine Finset.sum_congr rfl fun c _ => Finset.sum_congr rfl fun t _ =>
          Finset.sum_congr rfl fun r _ => ?_
        congr 1
        apply Fin.ext
        show (c.val * 10 + t.val) * 5000 + r.val = 5000 * (10 * c.val + t.val) + r.val
        ring
    _ = ∑ t' : Fin 20, ∑ r : Fin 5000, f (Cert.BlockSum.pos h1 t' r) :=
        Cert.BlockSum.sum_blocks h2 (fun t' => ∑ r : Fin 5000, f (Cert.BlockSum.pos h1 t' r))
    _ = ∑ n : Fin NN, f n := Cert.BlockSum.sum_blocks h1 f

theorem colMeanK_eq (v : NodeMat) : colMeanK v = colMean v := by
  funext l
  show Ideal.div (0 + ∑ c : Fin 2, ∑ t : Fin 10, ∑ r : Fin 5000, v (rowOf c t r) l) cN
     = Ideal.div (0 + ∑ j : Fin NN, v j l) cN
  rw [sum_rowOf (fun j => v j l)]

/-- The clipping at zero is vacuous: a sum of squares divided by N = 100000 is ≥ 0. -/
theorem colVarK_eq (v : NodeMat) (mean : Row) : colVarK v mean = colVar v mean := by
  funext l
  have hN : cN = ((100000 : ℝ) : EReal) := by
    unfold cN
    simp [Ideal.ofBits, Ideal.ieee, -EReal.coe_mul]
    norm_num
  show max (Ideal.div (0 + ∑ c : Fin 2, ∑ t : Fin 10, ∑ r : Fin 5000,
        (v (rowOf c t r) l - mean l) * (v (rowOf c t r) l - mean l)) cN) 0
     = Ideal.div (0 + ∑ j : Fin NN, (v j l - mean l) * (v j l - mean l)) cN
  rw [sum_rowOf (fun j => (v j l - mean l) * (v j l - mean l)), zero_add]
  refine max_eq_left ?_
  rw [hN, Ideal.div_coe (by norm_num : (100000 : ℝ) ≠ 0)]
  refine EReal.mul_nonneg (Finset.sum_nonneg fun j _ => ?_) (EReal.coe_nonneg.2 (by norm_num))
  rw [EReal.mul_nonneg_iff]
  rcases le_total 0 (v j l - mean l) with h | h
  · exact Or.inl ⟨h, h⟩
  · exact Or.inr ⟨h, h⟩

/-- For g < 64 the 0/1 weights pick exactly the nodes of graph g. -/
theorem poolK_eq (btgt : Fin NN → Option (Fin GG)) (ind : Fin NN → Fin 128 → EReal)
    (hind : ∀ (j : Fin NN) (g : Fin GG), ind j (g128 g) = if btgt j = some g then 1 else 0)
    (h : NodeMat) (g : Fin GG) (l : Fin DD) :
    poolK ind h (g128 g) l = pool btgt h g l := by
  show 0 + ∑ c : Fin 2, ∑ t : Fin 10, ∑ r : Fin 5000, ind (rowOf c t r) (g128 g) * h (rowOf c t r) l
     = 0 + ∑ j ∈ Finset.univ.filter (fun j : Fin NN => btgt j = some g), h j l
  rw [sum_rowOf (fun j => ind j (g128 g) * h j l), Finset.sum_filter]
  refine congrArg (0 + ·) ?_
  refine Finset.sum_congr rfl fun j _ => ?_
  rw [hind j g]
  split_ifs
  · exact one_mul _
  · exact zero_mul _

section Net

variable (src dst : Fin EE → Fin NN) (tgt : Fin EE → Option (Fin NN)) (dinv : Fin NN → EReal)
  (btgt : Fin NN → Option (Fin GG)) (ind : Fin NN → Fin 128 → EReal)
  (x : NodeMat) (W1 : Fin DD → Fin DD → EReal) (b1 g1 be1 : Row) (W2 : Fin DD → Fin DD → EReal) (b2 g2 be2 : Row)
  (hdst : ∀ e j, tgt e = some j → dst e = j) (hdinv : ∀ i, ∃ r : ℝ, 0 ≤ r ∧ dinv i = (r : EReal))
include hdst hdinv

/-- Row j's factor, a real ≥ 0, moves inside the sum over the edges into j, whose destination is j. -/
theorem conv_eq (xw : NodeMat) (b : Row) :
    valK dinv (aggK src tgt (scaled dinv xw)) b = convRef src dst tgt dinv xw b := by
  funext j l
  obtain ⟨r, hr, hj⟩ := hdinv j
  show (0 + ∑ e ∈ into tgt j, xw (src e) l * dinv (src e)) * dinv j + b l
     = (0 + ∑ e ∈ into tgt j, xw (src e) l * (dinv (src e) * dinv (dst e))) + b l
  rw [zero_add, zero_add, hj, sum_mul_coe_nonneg _ _ hr]
  refine congrArg (· + b l) ?_
  refine Finset.sum_congr rfl fun e he => ?_
  have hd : dst e = j := hdst e j (Finset.mem_filter.1 he).2
  rw [hd, hj, mul_assoc]

theorem h1_eq : h1K src tgt dinv x W1 b1 g1 be1 = h1Ref src dst tgt dinv x W1 b1 g1 be1 := by
  unfold h1K h1Ref s1K m1K v1K v1Ref o0K
  rw [colVarK_eq, colMeanK_eq, conv_eq src dst tgt dinv hdst hdinv]

/-- Both forms of the network pool to the same sums. -/
theorem net_eq (hind : ∀ (j : Fin NN) (g : Fin GG), ind j (g128 g) = if btgt j = some g then 1 else 0)
    (g : Fin GG) (l : Fin DD) :
    poolKer src tgt dinv ind x W1 b1 g1 be1 W2 b2 g2 be2 (g128 g) l
      = poolRef src dst tgt dinv btgt x W1 b1 g1 be1 W2 b2 g2 be2 g l := by
  unfold poolKer poolRef h2K h2Ref s2K m2K v2K v2Ref o3K
  rw [poolK_eq btgt ind hind, colVarK_eq, colMeanK_eq, conv_eq src dst tgt dinv hdst hdinv,
    h1_eq src dst tgt dinv x W1 b1 g1 be1 hdst hdinv]

end Net

end Cert.GNN

end
-- ==== Proof.Bridge.lean ====
import proofs.«429421_j77326591197817_3_alg».proof.Proof.Math
import proofs.«429421_j77326591197817_3_alg».proof.Proof.SpecIdx
import Idealize.ShloMosaic.Lib.ValueIdx

noncomputable section

namespace Cert.GNN

open Idealize.ShloMosaic Idealize.ShloMosaic.ValueIdx

/-- The two programs' per-graph sums are one array: index by index both are arrangements of the same network's sums. -/
theorem pools_eq (ei : Fin 2 → Fin E0 → BitVec 32) (bt : Fin NN → BitVec 32)
    (x : NodeMat) (W1 : Fin DD → Fin DD → EReal) (b1 g1 be1 : Row) (W2 : Fin DD → Fin DD → EReal) (b2 g2 be2 : Row)
    (PK PR : (⟨2, ![64, 128]⟩ : Shape).Idx → EReal)
    (hK : ∀ (g : Fin 64) (l : Fin 128), PK (ix2 g l)
      = poolKer (srcOf ei) (tgtOf ei) (dinvOf ei) (indOf bt) x W1 b1 g1 be1 W2 b2 g2 be2 (g128 g) l)
    (hR : ∀ (g : Fin 64) (l : Fin 128), PR (ix2 g l)
      = poolRef (srcOf ei) (dstOf ei) (tgtOf ei) (dinvOf ei) (btgtOf bt) x W1 b1 g1 be1 W2 b2 g2 be2 g l) :
    PK = PR := by
  funext i
  obtain ⟨g, l, rfl⟩ : ∃ (g : Fin 64) (l : Fin 128), i = ix2 g l := ⟨i 0, i 1, eq_ix2 i⟩
  rw [hK, hR]
  exact net_eq (srcOf ei) (dstOf ei) (tgtOf ei) (dinvOf ei) (btgtOf bt) (indOf bt) x W1 b1 g1 be1 W2 b2 g2 be2
    (dstOf_of_tgtOf ei) (dinvOf_real ei) (indOf_spec bt) g l

end Cert.GNN

end
-- ==== Proof.lean ====
import proofs.«429421_j77326591197817_3_alg».proof.Defs
import proofs.«429421_j77326591197817_3_alg».proof.Proof.KAssembly
import proofs.«429421_j77326591197817_3_alg».proof.Proof.KIAssembly
import proofs.«429421_j77326591197817_3_alg».proof.Proof.KIValue
import proofs.«429421_j77326591197817_3_alg».proof.Proof.RefRun
import proofs.«429421_j77326591197817_3_alg».proof.Proof.RefValue
import proofs.«429421_j77326591197817_3_alg».proof.Proof.RefTail
import proofs.«429421_j77326591197817_3_alg».proof.Proof.Bridge
import proofs.«429421_j77326591197817_3_alg».proof.Proof.Gen.Kernel
import proofs.«429421_j77326591197817_3_alg».proof.Proof.Gen.KernelIdeal
import proofs.«429421_j77326591197817_3_alg».proof.Proof.Gen.ReferenceIdeal
import proofs.«429421_j77326591197817_3_alg».proof.Proof.Gen.Pre_finite_inputs
import Idealize.ShloMosaic.Adequacy
import Idealize.ShloMosaic.Init

noncomputable section

namespace Cert.Proof

open Idealize.ShloMosaic Idealize.ShloMosaic.TcCoe Idealize.SL.Sem Idealize.ShloMosaic.ValueIdx

/-- Each kernel program's run, assembled region by region, ends with the arguments as launched. -/
theorem frame_k : Cert.frame_Kernel := fun m ρ _ =>
  (θ_run Cert.Kernel.defs _ _).mono (fun _ h c => (h c).2) (Cert.Kernel.Hand.run (F := Bits) m ρ)

theorem frame_ki : Cert.frame_KernelIdeal := fun m ρ _ =>
  (θ_run Cert.KernelIdeal.defs _ _).mono (fun _ h c => (h c).2) (Cert.KernelIdeal.Hand.run (F := Ideal) m ρ)

/-- The reference is one line of host operations, none of which writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Hand.kept_arg0 _),
      (h c Cert.ReferenceIdeal.main_arg1).trans (Cert.ReferenceIdeal.Hand.kept_arg1 _),
      (h c Cert.ReferenceIdeal.main_arg2).trans (Cert.ReferenceIdeal.Hand.kept_arg2 _),
      (h c Cert.ReferenceIdeal.main_arg3).trans (Cert.ReferenceIdeal.Hand.kept_arg3 _),
      (h c Cert.ReferenceIdeal.main_arg4).trans (Cert.ReferenceIdeal.Hand.kept_arg4 _),
      (h c Cert.ReferenceIdeal.main_arg5).trans (Cert.ReferenceIdeal.Hand.kept_arg5 _),
      (h c Cert.ReferenceIdeal.main_arg6).trans (Cert.ReferenceIdeal.Hand.kept_arg6 _),
      (h c Cert.ReferenceIdeal.main_arg7).trans (Cert.ReferenceIdeal.Hand.kept_arg7 _),
      (h c Cert.ReferenceIdeal.main_arg8).trans (Cert.ReferenceIdeal.Hand.kept_arg8 _),
      (h c Cert.ReferenceIdeal.main_arg9).trans (Cert.ReferenceIdeal.Hand.kept_arg9 _),
      (h c Cert.ReferenceIdeal.main_arg10).trans (Cert.ReferenceIdeal.Hand.kept_arg10 _),
      (h c Cert.ReferenceIdeal.main_arg11).trans (Cert.ReferenceIdeal.Hand.kept_arg11 _),
      (h c Cert.ReferenceIdeal.main_arg12).trans (Cert.ReferenceIdeal.Hand.kept_arg12 _),
      (h c Cert.ReferenceIdeal.main_arg13).trans (Cert.ReferenceIdeal.Hand.kept_arg13 _),
      (h c Cert.ReferenceIdeal.main_arg14).trans (Cert.ReferenceIdeal.Hand.kept_arg14 _)⟩)
    (Cert.ReferenceIdeal.Hand.run (F := Ideal) m ρ)

/-- The per-graph sums and the operations after them are functions of the arguments: equal arguments give equal values. -/
theorem poolRef_args {EI EI' : IVec ⟨2, ![2, Cert.GNN.E0]⟩ 32} {B B' : IVec ⟨1, ![Cert.GNN.NN]⟩ 32}
    {A0 A0' : (⟨2, ![100000, 128]⟩ : Shape).Idx → EReal} {A3 A3' A7 A7' : (⟨2, ![128, 128]⟩ : Shape).Idx → EReal}
    {A4 A4' A5 A5' A6 A6' A8 A8' A9 A9' A10 A10' : (⟨1, ![128]⟩ : Shape).Idx → EReal}
    (h0 : A0' = A0) (h1 : EI' = EI) (h2 : B' = B) (h3 : A3' = A3) (h4 : A4' = A4) (h5 : A5' = A5) (h6 : A6' = A6)
    (h7 : A7' = A7) (h8 : A8' = A8) (h9 : A9' = A9) (h10 : A10' = A10) (g : Fin 64) (l : Fin 128) :
    Cert.GNN.poolRef (Cert.GNN.srcOf (Cert.GNN.eiOf EI')) (Cert.GNN.dstOf (Cert.GNN.eiOf EI')) (Cert.GNN.tgtOf (Cert.GNN.eiOf EI'))
        (Cert.GNN.dinvOf (Cert.GNN.eiOf EI')) (Cert.GNN.btgtOf (Cert.GNN.btOf B'))
        (fun i k => A0' (ix2 i k)) (fun k l => A3' (ix2 k l)) (fun l => A4' (ix1 l)) (fun l => A5' (ix1 l)) (fun l => A6' (ix1 l))
        (fun k l => A7' (ix2 k l)) (fun l => A8' (ix1 l)) (fun l => A9' (ix1 l)) (fun l => A10' (ix1 l)) g l
      = Cert.GNN.poolRef (Cert.GNN.srcOf (Cert.GNN.eiOf EI)) (Cert.GNN.dstOf (Cert.GNN.eiOf EI)) (Cert.GNN.tgtOf (Cert.GNN.eiOf EI))
        (Cert.GNN.dinvOf (Cert.GNN.eiOf EI)) (Cert.GNN.btgtOf (Cert.GNN.btOf B))
        (fun i k => A0 (ix2 i k)) (fun k l => A3 (ix2 k l)) (fun l => A4 (ix1 l)) (fun l => A5 (ix1 l)) (fun l => A6 (ix1 l))
        (fun k l => A7 (ix2 k l)) (fun l => A8 (ix1 l)) (fun l => A9 (ix1 l)) (fun l => A10 (ix1 l)) g l := by
  subst h0 h1 h2 h3 h4 h5 h6 h7 h8 h9 h10
  rfl

theorem tail_args {P P' : Cert.KernelIdeal.S64x128.Idx → EReal} {B B' : IVec Cert.KernelIdeal.S100000 32}
    {A11 A11' : Cert.KernelIdeal.S128x64.Idx → EReal} {A12 A12' : Cert.KernelIdeal.S64.Idx → EReal}
    {A13 A13' : Cert.KernelIdeal.S64x2.Idx → EReal} {A14 A14' : Cert.KernelIdeal.S2.Idx → EReal}
    (hP : P' = P) (h2 : B' = B) (h11 : A11' = A11) (h12 : A12' = A12) (h13 : A13' = A13) (h14 : A14' = A14) :
    Cert.GNN.tail P' B' A11' A12' A13' A14' = Cert.GNN.tail P B A11 A12 A13 A14 := by
  subst hP h2 h11 h12 h13 h14
  rfl

/-- Both programs' per-graph sums are arrangements of one network's sums, and both apply the same operations to them. -/
theorem algebraic : Cert.algebraic_KernelIdeal_ReferenceIdeal := by
  intro m ρ m' ρ' _ hagree
  refine ⟨fun c => Cert.KernelIdeal.Gen.V20 m (Cert.KernelIdeal.Hand.outs m) c Cert.KernelIdeal.main_v86,
    Cert.KernelIdeal.Hand.run (F := Ideal) m ρ, ?_⟩
  refine (θ_run Cert.ReferenceIdeal.defs _ _).mono (fun _ h c =>
    ⟨(h c Cert.ReferenceIdeal.main_v164).trans ?_,
      (h c Cert.ReferenceIdeal.main_arg0).trans (Cert.ReferenceIdeal.Hand.kept_arg0 _),
      (h c Cert.ReferenceIdeal.main_arg1).trans (Cert.ReferenceIdeal.Hand.kept_arg1 _),
      (h c Cert.ReferenceIdeal.main_arg2).trans (Cert.ReferenceIdeal.Hand.kept_arg2 _),
      (h c Cert.ReferenceIdeal.main_arg3).trans (Cert.ReferenceIdeal.Hand.kept_arg3 _),
      (h c Cert.ReferenceIdeal.main_arg4).trans (Cert.ReferenceIdeal.Hand.kept_arg4 _),
      (h c Cert.ReferenceIdeal.main_arg5).trans (Cert.ReferenceIdeal.Hand.kept_arg5 _),
      (h c Cert.ReferenceIdeal.main_arg6).trans (Cert.ReferenceIdeal.Hand.kept_arg6 _),
      (h c Cert.ReferenceIdeal.main_arg7).trans (Cert.ReferenceIdeal.Hand.kept_arg7 _),
      (h c Cert.ReferenceIdeal.main_arg8).trans (Cert.ReferenceIdeal.Hand.kept_arg8 _),
      (h c Cert.ReferenceIdeal.main_arg9).trans (Cert.ReferenceIdeal.Hand.kept_arg9 _),
      (h c Cert.ReferenceIdeal.main_arg10).trans (Cert.ReferenceIdeal.Hand.kept_arg10 _),
      (h c Cert.ReferenceIdeal.main_arg11).trans (Cert.ReferenceIdeal.Hand.kept_arg11 _),
      (h c Cert.ReferenceIdeal.main_arg12).trans (Cert.ReferenceIdeal.Hand.kept_arg12 _),
      (h c Cert.ReferenceIdeal.main_arg13).trans (Cert.ReferenceIdeal.Hand.kept_arg13 _),
      (h c Cert.ReferenceIdeal.main_arg14).trans (Cert.ReferenceIdeal.Hand.kept_arg14 _)⟩)
    (Cert.ReferenceIdeal.Hand.run (F := Ideal) m' ρ')
  obtain ⟨e0, e1, e2, e3, e4, e5, e6, e7, e8, e9, e10, e11, e12, e13, e14⟩ := hagree c

  have hP : (Cert.KernelIdeal.Gen.V17 m (Cert.KernelIdeal.Hand.outs m) c Cert.KernelIdeal.main_v67 : (⟨2, ![64, 128]⟩ : Shape).Idx → EReal)
      = (StableHlo.after Cert.ReferenceIdeal.Hand.ops (fun b => m' (c, b)) (Proc.devRef .tc Cert.ReferenceIdeal.main_v145)) :=
    Cert.GNN.pools_eq _ _ _ _ _ _ _ _ _ _ _ _ _
      (fun g l => Cert.KernelIdeal.Hand.pool_value m c g l)
      (fun g l => (Cert.ReferenceIdeal.Hand.pool_read (fun b => m' (c, b)) g l).trans
        (poolRef_args e0 e1 e2 e3 e4 e5 e6 e7 e8 e9 e10 g l))

  refine (Cert.ReferenceIdeal.Hand.result_read _).trans ?_
  refine Eq.trans ?_ (Cert.KernelIdeal.Hand.result_value m c).symm
  exact tail_args hP.symm e2 e11 e12 e13 e14

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
